-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S3x128x128 : Shape := ⟨3, ![3, 128, 128]⟩
abbrev S3x128 : Shape := ⟨2, ![3, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part3 {F : FTy → Type} [FloatOps F] (main_arg1 : IVec S2x640000 32) (main_v48 : IVec S_ 1) (main_v50 : IVec S2x640000 1) : IVec S_ 1 :=
  let main_c_19 : IVec S_ 1 := constantI S_ 1 1#1
  let main_v51 : IVec S_ 1 := (fun x v => Host.reduce IntOp.andi x v reducesTo_S2x640000_S_d0_1 h_S_) main_v50 main_c_19
  let main_v52 : IVec S_ 1 := andi main_v48 main_v51
  let main_c_20 : IVec S_ 32 := constantI S_ 32 40000#32
  let main_v53 : IVec S2x640000 32 := broadcastInDim S2x640000 ![] bcast_S_S2x640000 main_c_20
  let main_v54 : IVec S2x640000 1 := cmpi .slt main_arg1 main_v53
  let main_c_21 : IVec S_ 1 := constantI S_ 1 1#1
  let main_v55 : IVec S_ 1 := (fun x v => Host.reduce IntOp.andi x v reducesTo_S2x640000_S_d0_1 h_S_) main_v54 main_c_21
  let main_v56 : IVec S_ 1 := andi main_v52 main_v55
  main_v56

def fn_part2 {F : FTy → Type} [FloatOps F] (main_arg1 : IVec S2x640000 32) (main_arg8 : FVec F S3x128x128 .f32) (main_arg9 : FVec F S3x128 .f32) (main_arg10 : FVec F S3x128 .f32) (main_v33 : IVec S_ 1) : IVec S_ 1 :=
  let main_v34 : FVec F S3x128x128 .f32 := Host.absf main_arg8
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_c_18 : IVec S_ 32 := constantI S_ 32 0#32
  let main_v49 : IVec S2x640000 32 := broadcastInDim S2x640000 ![] bcast_S_S2x640000 main_c_18
  let main_v50 : IVec S2x640000 1 := cmpi .sge main_arg1 main_v49
  fn_part3 (F := F) main_arg1 main_v48 main_v50

def fn_part1 {F : FTy → Type} [FloatOps F] (main_arg1 : IVec S2x640000 32) (main_arg5 : FVec F S3x128 .f32) (main_arg6 : FVec F S3x128x128 .f32) (main_arg7 : FVec F S3x128 .f32) (main_arg8 : FVec F S3x128x128 .f32) (main_arg9 : FVec F S3x128 .f32) (main_arg10 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S40000x128 .f32) (main_arg1 : IVec S2x640000 32) (main_arg2 : FVec F S3x128x128 .f32) (main_arg3 : FVec F S3x128 .f32) (main_arg4 : FVec F S3x128x128 .f32) (main_arg5 : FVec F S3x128 .f32) (main_arg6 : FVec F S3x128x128 .f32) (main_arg7 : FVec F S3x128 .f32) (main_arg8 : FVec F S3x128x128 .f32) (main_arg9 : FVec F S3x128 .f32) (main_arg10 : FVec F S3x128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg1 main_arg5 main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S3x128x128 : Shape := ⟨3, ![3, 128, 128]⟩
abbrev S3x128 : Shape := ⟨2, ![3, 128]⟩
abbrev S1x640000 : Shape := ⟨2, ![1, 640000]⟩
abbrev S640000 : Shape := ⟨1, ![640000]⟩
abbrev S1x128x128 : Shape := ⟨3, ![1, 128, 128]⟩
abbrev S128x128 : Shape := ⟨2, ![128, 128]⟩
abbrev S128x512 : Shape := ⟨2, ![128, 512]⟩
abbrev S1x128 : Shape := ⟨2, ![1, 128]⟩
abbrev S128 : Shape := ⟨1, ![128]⟩
abbrev S_ : Shape := ⟨0, ![]⟩
abbrev S512 : Shape := ⟨1, ![512]⟩
abbrev S40000x512 : Shape := ⟨2, ![40000, 512]⟩
abbrev S5000x128 : Shape := ⟨2, ![5000, 128]⟩
abbrev S5000x512 : Shape := ⟨2, ![5000, 512]⟩
abbrev S1x512 : Shape := ⟨2, ![1, 512]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S6400x128 : Shape := ⟨2, ![6400, 128]⟩
abbrev S5000 : Shape := ⟨1, ![5000]⟩
abbrev S5000x1 : Shape := ⟨2, ![5000, 1]⟩

abbrev nBuf : Space → Nat
  | .hbm => 334
  | .vmem => 76
  | .smem => 0
  | _ => 0

abbrev hbmTy0_0 (i : Nat) : BufTy := match i % 128 with
  | 0 => ⟨S40000x128, .f32⟩
  | 1 => ⟨S2x640000, .i32⟩
  | 2 => ⟨S3x128x128, .f32⟩
  | 3 => ⟨S3x128, .f32⟩
  | 4 => ⟨S3x128x128, .f32⟩
  | 5 => ⟨S3x128, .f32⟩
  | 6 => ⟨S3x128x128, .f32⟩
  | 7 => ⟨S3x128, .f32⟩
  | 8 => ⟨S3x128x128, .f32⟩
  | 9 => ⟨S3x128, .f32⟩
  | 10 => ⟨S3x128, .f32⟩
  | 11 => ⟨S1x640000, .i32⟩
  | 12 => ⟨S640000, .i32⟩
  | 13 => ⟨S1x640000, .i32⟩
  | 14 => ⟨S640000, .i32⟩
  | 15 => ⟨S1x128x128, .f32⟩
  | 16 => ⟨S128x128, .f32⟩
  | 17 => ⟨S128x128, .f32⟩
  | 18 => ⟨S1x128x128, .f32⟩
  | 19 => ⟨S128x128, .f32⟩
  | 20 => ⟨S128x128, .f32⟩
  | 21 => ⟨S1x128x128, .f32⟩
  | 22 => ⟨S128x128, .f32⟩
  | 23 => ⟨S128x128, .f32⟩
  | 24 => ⟨S1x128x128, .f32⟩
  | 25 => ⟨S128x128, .f32⟩
  | 26 => ⟨S128x128, .f32⟩
  | 27 => ⟨S128x512, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S128, .f32⟩
  | 34 => ⟨S_, .f32⟩
  | 35 => ⟨S128, .f32⟩
  | 36 => ⟨S512, .f32⟩
  | 37 => ⟨S40000x512, .f32⟩
  | 38 => ⟨S40000x128, .f32⟩
  | 39 => ⟨S40000x128, .f32⟩
  | 40 => ⟨S40000x128, .f32⟩
  | 41 => ⟨S40000x128, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S1, .i32⟩
  | 51 => ⟨S_, .i32⟩
  | 52 => ⟨S640000x1, .i32⟩
  | 53 => ⟨S640000x1, .i1⟩
  | 54 => ⟨S1x1, .i32⟩
  | 55 => ⟨S640000x1, .i32⟩
  | 56 => ⟨S640000x1, .i1⟩
  | 57 => ⟨S640000x1, .i1⟩
  | 58 => ⟨S_, .i1⟩
  | 59 => ⟨S640000, .i1⟩
  | 60 => ⟨S640000x128, .f32⟩
  | 61 => ⟨S640000x128, .i1⟩
  | 62 => ⟨S_, .f32⟩
  | 63 => ⟨S640000x128, .f32⟩
  | 64 => ⟨S640000x128, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S1, .i32⟩
  | 74 => ⟨S_, .i32⟩
  | 75 => ⟨S640000x1, .i32⟩
  | 76 => ⟨S640000x1, .i1⟩
  | 77 => ⟨S1x1, .i32⟩
  | 78 => ⟨S640000x1, .i32⟩
  | 79 => ⟨S640000x1, .i1⟩
  | 80 => ⟨S640000x1, .i1⟩
  | 81 => ⟨S_, .i1⟩
  | 82 => ⟨S640000, .i1⟩
  | 83 => ⟨S640000x128, .f32⟩
  | 84 => ⟨S640000x128, .i1⟩
  | 85 => ⟨S_, .f32⟩
  | 86 => ⟨S640000x128, .f32⟩
  | 87 => ⟨S640000x128, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S1, .i32⟩
  | 97 => ⟨S_, .i32⟩
  | 98 => ⟨S640000x1, .i32⟩
  | 99 => ⟨S640000x1, .i1⟩
  | 100 => ⟨S1x1, .i32⟩
  | 101 => ⟨S640000x1, .i32⟩
  | 102 => ⟨S640000x1, .i1⟩
  | 103 => ⟨S640000x1, .i1⟩
  | 104 => ⟨S_, .i1⟩
  | 105 => ⟨S640000, .i1⟩
  | 106 => ⟨S640000x128, .f32⟩
  | 107 => ⟨S640000x128, .i1⟩
  | 108 => ⟨S_, .f32⟩
  | 109 => ⟨S640000x128, .f32⟩
  | 110 => ⟨S640000x128, .f32⟩
  | 111 => ⟨S640000x128, .f32⟩
  | 112 => ⟨S_, .f32⟩
  | 113 => ⟨S40000x128, .f32⟩
  | 114 => ⟨S640000x1, .i32⟩
  | 115 => ⟨S40000x128, .f32⟩
  | 116 => ⟨S1x128, .f32⟩
  | 117 => ⟨S128, .f32⟩
  | 118 => ⟨S1x128, .f32⟩
  | 119 => ⟨S128, .f32⟩
  | 120 => ⟨S40000x128, .f32⟩
  | 121 => ⟨S1x128x128, .f32⟩
  | 122 => ⟨S128x128, .f32⟩
  | 123 => ⟨S128x128, .f32⟩
  | 124 => ⟨S1x128x128, .f32⟩
  | 125 => ⟨S128x128, .f32⟩
  | 126 => ⟨S128x128, .f32⟩
  | 127 => ⟨S1x128x128, .f32⟩
  | _ => ⟨S40000x128, .f32⟩

abbrev hbmTy0_1 (i : Nat) : BufTy := match i % 128 with
  | 0 => ⟨S128x128, .f32⟩
  | 1 => ⟨S128x128, .f32⟩
  | 2 => ⟨S1x128x128, .f32⟩
  | 3 => ⟨S128x128, .f32⟩
  | 4 => ⟨S128x128, .f32⟩
  | 5 => ⟨S128x512, .f32⟩
  | 6 => ⟨S1x128, .f32⟩
  | 7 => ⟨S128, .f32⟩
  | 8 => ⟨S1x128, .f32⟩
  | 9 => ⟨S128, .f32⟩
  | 10 => ⟨S1x128, .f32⟩
  | 11 => ⟨S128, .f32⟩
  | 12 => ⟨S_, .f32⟩
  | 13 => ⟨S128, .f32⟩
  | 14 => ⟨S512, .f32⟩
  | 15 => ⟨S40000x512, .f32⟩
  | 16 => ⟨S40000x128, .f32⟩
  | 17 => ⟨S40000x128, .f32⟩
  | 18 => ⟨S40000x128, .f32⟩
  | 19 => ⟨S40000x128, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S1, .i32⟩
  | 29 => ⟨S_, .i32⟩
  | 30 => ⟨S640000x1, .i32⟩
  | 31 => ⟨S640000x1, .i1⟩
  | 32 => ⟨S1x1, .i32⟩
  | 33 => ⟨S640000x1, .i32⟩
  | 34 => ⟨S640000x1, .i1⟩
  | 35 => ⟨S640000x1, .i1⟩
  | 36 => ⟨S_, .i1⟩
  | 37 => ⟨S640000, .i1⟩
  | 38 => ⟨S640000x128, .f32⟩
  | 39 => ⟨S640000x128, .i1⟩
  | 40 => ⟨S_, .f32⟩
  | 41 => ⟨S640000x128, .f32⟩
  | 42 => ⟨S640000x128, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S1, .i32⟩
  | 52 => ⟨S_, .i32⟩
  | 53 => ⟨S640000x1, .i32⟩
  | 54 => ⟨S640000x1, .i1⟩
  | 55 => ⟨S1x1, .i32⟩
  | 56 => ⟨S640000x1, .i32⟩
  | 57 => ⟨S640000x1, .i1⟩
  | 58 => ⟨S640000x1, .i1⟩
  | 59 => ⟨S_, .i1⟩
  | 60 => ⟨S640000, .i1⟩
  | 61 => ⟨S640000x128, .f32⟩
  | 62 => ⟨S640000x128, .i1⟩
  | 63 => ⟨S_, .f32⟩
  | 64 => ⟨S640000x128, .f32⟩
  | 65 => ⟨S640000x128, .f32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S1, .i32⟩
  | 75 => ⟨S_, .i32⟩
  | 76 => ⟨S640000x1, .i32⟩
  | 77 => ⟨S640000x1, .i1⟩
  | 78 => ⟨S1x1, .i32⟩
  | 79 => ⟨S640000x1, .i32⟩
  | 80 => ⟨S640000x1, .i1⟩
  | 81 => ⟨S640000x1, .i1⟩
  | 82 => ⟨S_, .i1⟩
  | 83 => ⟨S640000, .i1⟩
  | 84 => ⟨S640000x128, .f32⟩
  | 85 => ⟨S640000x128, .i1⟩
  | 86 => ⟨S_, .f32⟩
  | 87 => ⟨S640000x128, .f32⟩
  | 88 => ⟨S640000x128, .f32⟩
  | 89 => ⟨S640000x128, .f32⟩
  | 90 => ⟨S_, .f32⟩
  | 91 => ⟨S40000x128, .f32⟩
  | 92 => ⟨S640000x1, .i32⟩
  | 93 => ⟨S40000x128, .f32⟩
  | 94 => ⟨S1x128, .f32⟩
  | 95 => ⟨S128, .f32⟩
  | 96 => ⟨S1x128, .f32⟩
  | 97 => ⟨S128, .f32⟩
  | 98 => ⟨S40000x128, .f32⟩
  | 99 => ⟨S1x128x128, .f32⟩
  | 100 => ⟨S128x128, .f32⟩
  | 101 => ⟨S128x128, .f32⟩
  | 102 => ⟨S1x128x128, .f32⟩
  | 103 => ⟨S128x128, .f32⟩
  | 104 => ⟨S128x128, .f32⟩
  | 105 => ⟨S1x128x128, .f32⟩
  | 106 => ⟨S128x128, .f32⟩
  | 107 => ⟨S128x128, .f32⟩
  | 108 => ⟨S1x128x128, .f32⟩
  | 109 => ⟨S128x128, .f32⟩
  | 110 => ⟨S128x128, .f32⟩
  | 111 => ⟨S128x512, .f32⟩
  | 112 => ⟨S1x128, .f32⟩
  | 113 => ⟨S128, .f32⟩
  | 114 => ⟨S1x128, .f32⟩
  | 115 => ⟨S128, .f32⟩
  | 116 => ⟨S1x128, .f32⟩
  | 117 => ⟨S128, .f32⟩
  | 118 => ⟨S_, .f32⟩
  | 119 => ⟨S128, .f32⟩
  | 120 => ⟨S512, .f32⟩
  | 121 => ⟨S40000x512, .f32⟩
  | 122 => ⟨S40000x128, .f32⟩
  | 123 => ⟨S40000x128, .f32⟩
  | 124 => ⟨S40000x128, .f32⟩
  | 125 => ⟨S40000x128, .f32⟩
  | 126 => ⟨S_, .i32⟩
  | 127 => ⟨S640000, .i32⟩
  | _ => ⟨S40000x128, .f32⟩

abbrev hbmTy0_2 (i : Nat) : BufTy := match i % 128 with
  | 0 => ⟨S640000, .i1⟩
  | 1 => ⟨S_, .i32⟩
  | 2 => ⟨S640000, .i32⟩
  | 3 => ⟨S640000, .i32⟩
  | 4 => ⟨S640000, .i32⟩
  | 5 => ⟨S640000x1, .i32⟩
  | 6 => ⟨S1, .i32⟩
  | 7 => ⟨S_, .i32⟩
  | 8 => ⟨S640000x1, .i32⟩
  | 9 => ⟨S640000x1, .i1⟩
  | 10 => ⟨S1x1, .i32⟩
  | 11 => ⟨S640000x1, .i32⟩
  | 12 => ⟨S640000x1, .i1⟩
  | 13 => ⟨S640000x1, .i1⟩
  | 14 => ⟨S_, .i1⟩
  | 15 => ⟨S640000, .i1⟩
  | 16 => ⟨S640000x128, .f32⟩
  | 17 => ⟨S640000x128, .i1⟩
  | 18 => ⟨S_, .f32⟩
  | 19 => ⟨S640000x128, .f32⟩
  | 20 => ⟨S640000x128, .f32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S1, .i32⟩
  | 30 => ⟨S_, .i32⟩
  | 31 => ⟨S640000x1, .i32⟩
  | 32 => ⟨S640000x1, .i1⟩
  | 33 => ⟨S1x1, .i32⟩
  | 34 => ⟨S640000x1, .i32⟩
  | 35 => ⟨S640000x1, .i1⟩
  | 36 => ⟨S640000x1, .i1⟩
  | 37 => ⟨S_, .i1⟩
  | 38 => ⟨S640000, .i1⟩
  | 39 => ⟨S640000x128, .f32⟩
  | 40 => ⟨S640000x128, .i1⟩
  | 41 => ⟨S_, .f32⟩
  | 42 => ⟨S640000x128, .f32⟩
  | 43 => ⟨S640000x128, .f32⟩
  | 44 => ⟨S_, .i32⟩
  | 45 => ⟨S640000, .i32⟩
  | 46 => ⟨S640000, .i1⟩
  | 47 => ⟨S_, .i32⟩
  | 48 => ⟨S640000, .i32⟩
  | 49 => ⟨S640000, .i32⟩
  | 50 => ⟨S640000, .i32⟩
  | 51 => ⟨S640000x1, .i32⟩
  | 52 => ⟨S1, .i32⟩
  | 53 => ⟨S_, .i32⟩
  | 54 => ⟨S640000x1, .i32⟩
  | 55 => ⟨S640000x1, .i1⟩
  | 56 => ⟨S1x1, .i32⟩
  | 57 => ⟨S640000x1, .i32⟩
  | 58 => ⟨S640000x1, .i1⟩
  | 59 => ⟨S640000x1, .i1⟩
  | 60 => ⟨S_, .i1⟩
  | 61 => ⟨S640000, .i1⟩
  | 62 => ⟨S640000x128, .f32⟩
  | 63 => ⟨S640000x128, .i1⟩
  | 64 => ⟨S_, .f32⟩
  | 65 => ⟨S640000x128, .f32⟩
  | 66 => ⟨S640000x128, .f32⟩
  | 67 => ⟨S640000x128, .f32⟩
  | 68 => ⟨S_, .f32⟩
  | 69 => ⟨S40000x128, .f32⟩
  | 70 => ⟨S640000x1, .i32⟩
  | 71 => ⟨S40000x128, .f32⟩
  | 72 => ⟨S1x128, .f32⟩
  | 73 => ⟨S128, .f32⟩
  | 74 => ⟨S1x128, .f32⟩
  | 75 => ⟨S128, .f32⟩
  | 76 => ⟨S40000x128, .f32⟩
  | 77 => ⟨S40000x128, .f32⟩
  | _ => ⟨S40000x128, .f32⟩

abbrev hbmTy (i : Nat) : BufTy := match i / 128 with
  | 0 => hbmTy0_0 i
  | 1 => hbmTy0_1 i
  | 2 => hbmTy0_2 i
  | _ => ⟨S40000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x512, .f32⟩
  | .local _ .vmem, ⟨3, _⟩ => ⟨S512, .f32⟩
  | .local _ .vmem, ⟨4, _⟩ => ⟨S5000x512, .f32⟩
  | .local _ .vmem, ⟨5, _⟩ => ⟨S5000x512, .f32⟩
  | .local _ .vmem, ⟨6, _⟩ => ⟨S6400x128, .f32⟩
  | .local _ .vmem, ⟨7, _⟩ => ⟨S6400x128, .f32⟩
  | .local _ .vmem, ⟨8, _⟩ => ⟨S6400x128, .f32⟩
  | .local _ .vmem, ⟨9, _⟩ => ⟨S6400x128, .f32⟩
  | .local _ .vmem, ⟨10, _⟩ => ⟨S6400x128, .f32⟩
  | .local _ .vmem, ⟨11, _⟩ => ⟨S6400x128, .f32⟩
  | .local _ .vmem, ⟨12, _⟩ => ⟨S6400x128, .f32⟩
  | .local _ .vmem, ⟨13, _⟩ => ⟨S6400x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x512, .f32⟩
  | .local _ .vmem, ⟨27, _⟩ => ⟨S512, .f32⟩
  | .local _ .vmem, ⟨28, _⟩ => ⟨S5000x512, .f32⟩
  | .local _ .vmem, ⟨29, _⟩ => ⟨S5000x512, .f32⟩
  | .local _ .vmem, ⟨30, _⟩ => ⟨S6400x128, .f32⟩
  | .local _ .vmem, ⟨31, _⟩ => ⟨S6400x128, .f32⟩
  | .local _ .vmem, ⟨32, _⟩ => ⟨S6400x128, .f32⟩
  | .local _ .vmem, ⟨33, _⟩ => ⟨S6400x128, .f32⟩
  | .local _ .vmem, ⟨34, _⟩ => ⟨S6400x128, .f32⟩
  | .local _ .vmem, ⟨35, _⟩ => ⟨S6400x128, .f32⟩
  | .local _ .vmem, ⟨36, _⟩ => ⟨S6400x128, .f32⟩
  | .local _ .vmem, ⟨37, _⟩ => ⟨S6400x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x512, .f32⟩
  | .local _ .vmem, ⟨51, _⟩ => ⟨S512, .f32⟩
  | .local _ .vmem, ⟨52, _⟩ => ⟨S5000x512, .f32⟩
  | .local _ .vmem, ⟨53, _⟩ => ⟨S5000x512, .f32⟩
  | .local _ .vmem, ⟨54, _⟩ => ⟨S6400x128, .f32⟩
  | .local _ .vmem, ⟨55, _⟩ => ⟨S6400x128, .f32⟩
  | .local _ .vmem, ⟨56, _⟩ => ⟨S6400x128, .f32⟩
  | .local _ .vmem, ⟨57, _⟩ => ⟨S6400x128, .f32⟩
  | .local _ .vmem, ⟨58, _⟩ => ⟨S6400x128, .f32⟩
  | .local _ .vmem, ⟨59, _⟩ => ⟨S6400x128, .f32⟩
  | .local _ .vmem, ⟨60, _⟩ => ⟨S6400x128, .f32⟩
  | .local _ .vmem, ⟨61, _⟩ => ⟨S6400x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S128, .f32⟩
  | .local _ .vmem, ⟨69, _⟩ => ⟨S128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v30 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v31 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v32 : Ref sig .tc := ⟨.hbm, 110, rfl⟩
abbrev main_v33 : Ref sig .tc := ⟨.hbm, 111, rfl⟩
abbrev main_cst_0 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_cst_1 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_call3_c : Ref sig .tc := ⟨.hbm, 148, rfl⟩
abbrev main_call3_v0 : Ref sig .tc := ⟨.hbm, 149, rfl⟩
abbrev main_call3_v1 : Ref sig .tc := ⟨.hbm, 150, rfl⟩
abbrev main_call3_c_0 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_v5 : Ref sig .tc := ⟨.hbm, 155, rfl⟩
abbrev main_call3_c_1 : Ref sig .tc := ⟨.hbm, 156, rfl⟩
abbrev main_call3_c_2 : Ref sig .tc := ⟨.hbm, 157, rfl⟩
abbrev main_call3_v6 : Ref sig .tc := ⟨.hbm, 158, rfl⟩
abbrev main_call3_v7 : Ref sig .tc := ⟨.hbm, 159, rfl⟩
abbrev main_call3_v8 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_c_3 : Ref sig .tc := ⟨.hbm, 164, rfl⟩
abbrev main_call3_v12 : Ref sig .tc := ⟨.hbm, 165, rfl⟩
abbrev main_call3_v13 : Ref sig .tc := ⟨.hbm, 166, rfl⟩
abbrev main_call3_v14 : Ref sig .tc := ⟨.hbm, 167, rfl⟩
abbrev main_call3_cst : Ref sig .tc := ⟨.hbm, 168, rfl⟩
abbrev main_call3_v15 : Ref sig .tc := ⟨.hbm, 169, rfl⟩
abbrev main_v68 : Ref sig .tc := ⟨.hbm, 170, rfl⟩
abbrev main_call4_c : Ref sig .tc := ⟨.hbm, 171, rfl⟩
abbrev main_call4_v0 : Ref sig .tc := ⟨.hbm, 172, rfl⟩
abbrev main_call4_v1 : Ref sig .tc := ⟨.hbm, 173, rfl⟩
abbrev main_call4_c_0 : Ref sig .tc := ⟨.hbm, 174, rfl⟩
abbrev main_call4_v2 : Ref sig .tc := ⟨.hbm, 175, rfl⟩
abbrev main_call4_v3 : Ref sig .tc := ⟨.hbm, 176, rfl⟩
abbrev main_call4_v4 : Ref sig .tc := ⟨.hbm, 177, rfl⟩
abbrev main_call4_v5 : Ref sig .tc := ⟨.hbm, 178, rfl⟩
abbrev main_call4_c_1 : Ref sig .tc := ⟨.hbm, 179, rfl⟩
abbrev main_call4_c_2 : Ref sig .tc := ⟨.hbm, 180, rfl⟩
abbrev main_call4_v6 : Ref sig .tc := ⟨.hbm, 181, rfl⟩
abbrev main_call4_v7 : Ref sig .tc := ⟨.hbm, 182, rfl⟩
abbrev main_call4_v8 : Ref sig .tc := ⟨.hbm, 183, rfl⟩
abbrev main_call4_v9 : Ref sig .tc := ⟨.hbm, 184, rfl⟩
abbrev main_call4_v10 : Ref sig .tc := ⟨.hbm, 185, rfl⟩
abbrev main_call4_v11 : Ref sig .tc := ⟨.hbm, 186, rfl⟩
abbrev main_call4_c_3 : Ref sig .tc := ⟨.hbm, 187, rfl⟩
abbrev main_call4_v12 : Ref sig .tc := ⟨.hbm, 188, rfl⟩
abbrev main_call4_v13 : Ref sig .tc := ⟨.hbm, 189, rfl⟩
abbrev main_call4_v14 : Ref sig .tc := ⟨.hbm, 190, rfl⟩
abbrev main_call4_cst : Ref sig .tc := ⟨.hbm, 191, rfl⟩
abbrev main_call4_v15 : Ref sig .tc := ⟨.hbm, 192, rfl⟩
abbrev main_v69 : Ref sig .tc := ⟨.hbm, 193, rfl⟩
abbrev main_call5_c : Ref sig .tc := ⟨.hbm, 194, rfl⟩
abbrev main_call5_v0 : Ref sig .tc := ⟨.hbm, 195, rfl⟩
abbrev main_call5_v1 : Ref sig .tc := ⟨.hbm, 196, rfl⟩
abbrev main_call5_c_0 : Ref sig .tc := ⟨.hbm, 197, rfl⟩
abbrev main_call5_v2 : Ref sig .tc := ⟨.hbm, 198, rfl⟩
abbrev main_call5_v3 : Ref sig .tc := ⟨.hbm, 199, rfl⟩
abbrev main_call5_v4 : Ref sig .tc := ⟨.hbm, 200, rfl⟩
abbrev main_call5_v5 : Ref sig .tc := ⟨.hbm, 201, rfl⟩
abbrev main_call5_c_1 : Ref sig .tc := ⟨.hbm, 202, rfl⟩
abbrev main_call5_c_2 : Ref sig .tc := ⟨.hbm, 203, rfl⟩
abbrev main_call5_v6 : Ref sig .tc := ⟨.hbm, 204, rfl⟩
abbrev main_call5_v7 : Ref sig .tc := ⟨.hbm, 205, rfl⟩
abbrev main_call5_v8 : Ref sig .tc := ⟨.hbm, 206, rfl⟩
abbrev main_call5_v9 : Ref sig .tc := ⟨.hbm, 207, rfl⟩
abbrev main_call5_v10 : Ref sig .tc := ⟨.hbm, 208, rfl⟩
abbrev main_call5_v11 : Ref sig .tc := ⟨.hbm, 209, rfl⟩
abbrev main_call5_c_3 : Ref sig .tc := ⟨.hbm, 210, rfl⟩
abbrev main_call5_v12 : Ref sig .tc := ⟨.hbm, 211, rfl⟩
abbrev main_call5_v13 : Ref sig .tc := ⟨.hbm, 212, rfl⟩
abbrev main_call5_v14 : Ref sig .tc := ⟨.hbm, 213, rfl⟩
abbrev main_call5_cst : Ref sig .tc := ⟨.hbm, 214, rfl⟩
abbrev main_call5_v15 : Ref sig .tc := ⟨.hbm, 215, rfl⟩
abbrev main_v70 : Ref sig .tc := ⟨.hbm, 216, rfl⟩
abbrev main_v71 : Ref sig .tc := ⟨.hbm, 217, rfl⟩
abbrev main_cst_2 : Ref sig .tc := ⟨.hbm, 218, rfl⟩
abbrev main_v72 : Ref sig .tc := ⟨.hbm, 219, rfl⟩
abbrev main_v73 : Ref sig .tc := ⟨.hbm, 220, rfl⟩
abbrev main_v74 : Ref sig .tc := ⟨.hbm, 221, rfl⟩
abbrev main_v75 : Ref sig .tc := ⟨.hbm, 222, rfl⟩
abbrev main_v76 : Ref sig .tc := ⟨.hbm, 223, rfl⟩
abbrev main_v77 : Ref sig .tc := ⟨.hbm, 224, rfl⟩
abbrev main_v78 : Ref sig .tc := ⟨.hbm, 225, rfl⟩
abbrev main_v79 : Ref sig .tc := ⟨.hbm, 226, rfl⟩
abbrev main_v80 : Ref sig .tc := ⟨.hbm, 227, rfl⟩
abbrev main_v81 : Ref sig .tc := ⟨.hbm, 228, rfl⟩
abbrev main_v82 : Ref sig .tc := ⟨.hbm, 229, rfl⟩
abbrev main_v83 : Ref sig .tc := ⟨.hbm, 230, rfl⟩
abbrev main_v84 : Ref sig .tc := ⟨.hbm, 231, rfl⟩
abbrev main_v85 : Ref sig .tc := ⟨.hbm, 232, rfl⟩
abbrev main_v86 : Ref sig .tc := ⟨.hbm, 233, rfl⟩
abbrev main_v87 : Ref sig .tc := ⟨.hbm, 234, rfl⟩
abbrev main_v88 : Ref sig .tc := ⟨.hbm, 235, rfl⟩
abbrev main_v89 : Ref sig .tc := ⟨.hbm, 236, rfl⟩
abbrev main_v90 : Ref sig .tc := ⟨.hbm, 237, rfl⟩
abbrev main_v91 : Ref sig .tc := ⟨.hbm, 238, rfl⟩
abbrev main_v92 : Ref sig .tc := ⟨.hbm, 239, rfl⟩
abbrev main_v93 : Ref sig .tc := ⟨.hbm, 240, rfl⟩
abbrev main_v94 : Ref sig .tc := ⟨.hbm, 241, rfl⟩
abbrev main_v95 : Ref sig .tc := ⟨.hbm, 242, rfl⟩
abbrev main_v96 : Ref sig .tc := ⟨.hbm, 243, rfl⟩
abbrev main_v97 : Ref sig .tc := ⟨.hbm, 244, rfl⟩
abbrev main_v98 : Ref sig .tc := ⟨.hbm, 245, rfl⟩
abbrev main_cst_3 : Ref sig .tc := ⟨.hbm, 246, rfl⟩
abbrev main_v99 : Ref sig .tc := ⟨.hbm, 247, rfl⟩
abbrev main_v100 : Ref sig .tc := ⟨.hbm, 248, rfl⟩
abbrev main_v101 : Ref sig .tc := ⟨.hbm, 249, rfl⟩
abbrev main_v102 : Ref sig .tc := ⟨.hbm, 250, rfl⟩
abbrev main_v103 : Ref sig .tc := ⟨.hbm, 251, rfl⟩
abbrev main_v104 : Ref sig .tc := ⟨.hbm, 252, rfl⟩
abbrev main_v105 : Ref sig .tc := ⟨.hbm, 253, rfl⟩
abbrev main_call6_c : Ref sig .tc := ⟨.hbm, 254, rfl⟩
abbrev main_call6_v0 : Ref sig .tc := ⟨.hbm, 255, rfl⟩
abbrev main_call6_v1 : Ref sig .tc := ⟨.hbm, 256, rfl⟩
abbrev main_call6_c_0 : Ref sig .tc := ⟨.hbm, 257, rfl⟩
abbrev main_call6_v2 : Ref sig .tc := ⟨.hbm, 258, rfl⟩
abbrev main_call6_v3 : Ref sig .tc := ⟨.hbm, 259, rfl⟩
abbrev main_call6_v4 : Ref sig .tc := ⟨.hbm, 260, rfl⟩
abbrev main_call6_v5 : Ref sig .tc := ⟨.hbm, 261, rfl⟩
abbrev main_call6_c_1 : Ref sig .tc := ⟨.hbm, 262, rfl⟩
abbrev main_call6_c_2 : Ref sig .tc := ⟨.hbm, 263, rfl⟩
abbrev main_call6_v6 : Ref sig .tc := ⟨.hbm, 264, rfl⟩
abbrev main_call6_v7 : Ref sig .tc := ⟨.hbm, 265, rfl⟩
abbrev main_call6_v8 : Ref sig .tc := ⟨.hbm, 266, rfl⟩
abbrev main_call6_v9 : Ref sig .tc := ⟨.hbm, 267, rfl⟩
abbrev main_call6_v10 : Ref sig .tc := ⟨.hbm, 268, rfl⟩
abbrev main_call6_v11 : Ref sig .tc := ⟨.hbm, 269, rfl⟩
abbrev main_call6_c_3 : Ref sig .tc := ⟨.hbm, 270, rfl⟩
abbrev main_call6_v12 : Ref sig .tc := ⟨.hbm, 271, rfl⟩
abbrev main_call6_v13 : Ref sig .tc := ⟨.hbm, 272, rfl⟩
abbrev main_call6_v14 : Ref sig .tc := ⟨.hbm, 273, rfl⟩
abbrev main_call6_cst : Ref sig .tc := ⟨.hbm, 274, rfl⟩
abbrev main_call6_v15 : Ref sig .tc := ⟨.hbm, 275, rfl⟩
abbrev main_v106 : Ref sig .tc := ⟨.hbm, 276, rfl⟩
abbrev main_call7_c : Ref sig .tc := ⟨.hbm, 277, rfl⟩
abbrev main_call7_v0 : Ref sig .tc := ⟨.hbm, 278, rfl⟩
abbrev main_call7_v1 : Ref sig .tc := ⟨.hbm, 279, rfl⟩
abbrev main_call7_c_0 : Ref sig .tc := ⟨.hbm, 280, rfl⟩
abbrev main_call7_v2 : Ref sig .tc := ⟨.hbm, 281, rfl⟩
abbrev main_call7_v3 : Ref sig .tc := ⟨.hbm, 282, rfl⟩
abbrev main_call7_v4 : Ref sig .tc := ⟨.hbm, 283, rfl⟩
abbrev main_call7_v5 : Ref sig .tc := ⟨.hbm, 284, rfl⟩
abbrev main_call7_c_1 : Ref sig .tc := ⟨.hbm, 285, rfl⟩
abbrev main_call7_c_2 : Ref sig .tc := ⟨.hbm, 286, rfl⟩
abbrev main_call7_v6 : Ref sig .tc := ⟨.hbm, 287, rfl⟩
abbrev main_call7_v7 : Ref sig .tc := ⟨.hbm, 288, rfl⟩
abbrev main_call7_v8 : Ref sig .tc := ⟨.hbm, 289, rfl⟩
abbrev main_call7_v9 : Ref sig .tc := ⟨.hbm, 290, rfl⟩
abbrev main_call7_v10 : Ref sig .tc := ⟨.hbm, 291, rfl⟩
abbrev main_call7_v11 : Ref sig .tc := ⟨.hbm, 292, rfl⟩
abbrev main_call7_c_3 : Ref sig .tc := ⟨.hbm, 293, rfl⟩
abbrev main_call7_v12 : Ref sig .tc := ⟨.hbm, 294, rfl⟩
abbrev main_call7_v13 : Ref sig .tc := ⟨.hbm, 295, rfl⟩
abbrev main_call7_v14 : Ref sig .tc := ⟨.hbm, 296, rfl⟩
abbrev main_call7_cst : Ref sig .tc := ⟨.hbm, 297, rfl⟩
abbrev main_call7_v15 : Ref sig .tc := ⟨.hbm, 298, rfl⟩
abbrev main_v107 : Ref sig .tc := ⟨.hbm, 299, rfl⟩
abbrev main_call8_c : Ref sig .tc := ⟨.hbm, 300, rfl⟩
abbrev main_call8_v0 : Ref sig .tc := ⟨.hbm, 301, rfl⟩
abbrev main_call8_v1 : Ref sig .tc := ⟨.hbm, 302, rfl⟩
abbrev main_call8_c_0 : Ref sig .tc := ⟨.hbm, 303, rfl⟩
abbrev main_call8_v2 : Ref sig .tc := ⟨.hbm, 304, rfl⟩
abbrev main_call8_v3 : Ref sig .tc := ⟨.hbm, 305, rfl⟩
abbrev main_call8_v4 : Ref sig .tc := ⟨.hbm, 306, rfl⟩
abbrev main_call8_v5 : Ref sig .tc := ⟨.hbm, 307, rfl⟩
abbrev main_call8_c_1 : Ref sig .tc := ⟨.hbm, 308, rfl⟩
abbrev main_call8_c_2 : Ref sig .tc := ⟨.hbm, 309, rfl⟩
abbrev main_call8_v6 : Ref sig .tc := ⟨.hbm, 310, rfl⟩
abbrev main_call8_v7 : Ref sig .tc := ⟨.hbm, 311, rfl⟩
abbrev main_call8_v8 : Ref sig .tc := ⟨.hbm, 312, rfl⟩
abbrev main_call8_v9 : Ref sig .tc := ⟨.hbm, 313, rfl⟩
abbrev main_call8_v10 : Ref sig .tc := ⟨.hbm, 314, rfl⟩
abbrev main_call8_v11 : Ref sig .tc := ⟨.hbm, 315, rfl⟩
abbrev main_call8_c_3 : Ref sig .tc := ⟨.hbm, 316, rfl⟩
abbrev main_call8_v12 : Ref sig .tc := ⟨.hbm, 317, rfl⟩
abbrev main_call8_v13 : Ref sig .tc := ⟨.hbm, 318, rfl⟩
abbrev main_call8_v14 : Ref sig .tc := ⟨.hbm, 319, rfl⟩
abbrev main_call8_cst : Ref sig .tc := ⟨.hbm, 320, rfl⟩
abbrev main_call8_v15 : Ref sig .tc := ⟨.hbm, 321, rfl⟩
abbrev main_v108 : Ref sig .tc := ⟨.hbm, 322, rfl⟩
abbrev main_v109 : Ref sig .tc := ⟨.hbm, 323, rfl⟩
abbrev main_cst_4 : Ref sig .tc := ⟨.hbm, 324, rfl⟩
abbrev main_v110 : Ref sig .tc := ⟨.hbm, 325, rfl⟩
abbrev main_v111 : Ref sig .tc := ⟨.hbm, 326, rfl⟩
abbrev main_v112 : Ref sig .tc := ⟨.hbm, 327, rfl⟩
abbrev main_v113 : Ref sig .tc := ⟨.hbm, 328, rfl⟩
abbrev main_v114 : Ref sig .tc := ⟨.hbm, 329, rfl⟩
abbrev main_v115 : Ref sig .tc := ⟨.hbm, 330, rfl⟩
abbrev main_v116 : Ref sig .tc := ⟨.hbm, 331, rfl⟩
abbrev main_v117 : Ref sig .tc := ⟨.hbm, 332, rfl⟩
abbrev main_v118 : Ref sig .tc := ⟨.hbm, 333, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc7_stg3_0 : Ref sig .tc := ⟨.vmem, 60, rfl⟩
abbrev cc7_stg3_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc8_stg2_1 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg1_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc7_sem3_0 : DmaSem sig := 60
abbrev cc7_sem3_1 : DmaSem sig := 61
abbrev cc8_sem0_0 : DmaSem sig := 62
abbrev cc8_sem0_1 : DmaSem sig := 63
abbrev cc8_sem1_0 : DmaSem sig := 64
abbrev cc8_sem1_1 : DmaSem sig := 65
abbrev cc8_sem2_0 : DmaSem sig := 66
abbrev cc8_sem2_1 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem1_1 : DmaSem sig := 75

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6400x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6400x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S6400x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6400x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6400x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S6400x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S6400x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  concatenates_S128x128_S128x128_S128x128_S128x128_S128x512_d1 : Shape.Concatenates [S128x128, S128x128, S128x128, S128x128] S128x512 1
  slices_S3x128_S1x128_0_0 : S3x128.Slices ![0, 0] S1x128
  shapeCasts_S1x128_S128 : S1x128.ShapeCasts S128
  bcast_S_S128 : S_.BroadcastsInDim S128 (![] : Fin 0 → Fin S128.rank)
  concatenates_S128_S128_S128_S128_S512_d0 : Shape.Concatenates [S128, S128, S128, S128] S512 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S5000x512 : S1x512.Broadcasts S5000x512
  inb_S5000x512_S5000x512_0_0 : ∀ a, (![0, 0] : Fin 2 → Nat) a + S5000x512.size a ≤ S5000x512.size a
  h_S5000x512 : 0 < S5000x512.numel
  slices_S40000x512_S40000x128_0_0 : S40000x512.Slices ![0, 0] S40000x128
  slices_S40000x512_S40000x128_0_128 : S40000x512.Slices ![0, 128] S40000x128
  slices_S40000x512_S40000x128_0_256 : S40000x512.Slices ![0, 256] S40000x128
  slices_S40000x512_S40000x128_0_384 : S40000x512.Slices ![0, 384] S40000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bcast_S_S40000x128 : S_.BroadcastsInDim S40000x128 (![] : Fin 0 → Fin S40000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S5000x128_S128x512_S5000x512_1_0_0_1_n_n_wf : DotDims.WF S5000x128 S128x512 S5000x512 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x512.size a ≤ S40000x512.size a
  hwx0_3 : ∀ i : grid0.Coords, EltTy.bits .f32 = 32 ∨ (Rect.block (s := S40000x512) S5000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S640000x128.size a
  hwx1_0 : ∀ i : grid1.Coords, EltTy.bits .f32 = 32 ∨ (Rect.block (s := S640000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S640000x128.size a
  hwx1_1 : ∀ i : grid1.Coords, EltTy.bits .f32 = 32 ∨ (Rect.block (s := S640000x128) S6400x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S640000x128.size a
  hwx1_2 : ∀ i : grid1.Coords, EltTy.bits .f32 = 32 ∨ (Rect.block (s := S640000x128) S6400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6400x128.size a ≤ S640000x128.size a
  hwx1_3 : ∀ i : grid1.Coords, EltTy.bits .f32 = 32 ∨ (Rect.block (s := S640000x128) S6400x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S40000x128.size a
  hwx2_1 : ∀ i : grid2.Coords, EltTy.bits .f32 = 32 ∨ (Rect.block (s := S40000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S40000x128.size a
  hwx2_2 : ∀ i : grid2.Coords, EltTy.bits .f32 = 32 ∨ (Rect.block (s := S40000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S40000x128.size a
  hwx2_5 : ∀ i : grid2.Coords, EltTy.bits .f32 = 32 ∨ (Rect.block (s := S40000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x512.size a ≤ S128x512.size a
  hwx3_1 : ∀ i : grid3.Coords, EltTy.bits .f32 = 32 ∨ (Rect.block (s := S128x512) S128x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512.size a ≤ S512.size a
  hwx3_2 : ∀ i : grid3.Coords, EltTy.bits .f32 = 32 ∨ (Rect.block (s := S512) S512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x512.size a ≤ S40000x512.size a
  hwx3_3 : ∀ i : grid3.Coords, EltTy.bits .f32 = 32 ∨ (Rect.block (s := S40000x512) S5000x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x128.size a ≤ S640000x128.size a
  hwx4_0 : ∀ i : grid4.Coords, EltTy.bits .f32 = 32 ∨ (Rect.block (s := S640000x128) S6400x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x128.size a ≤ S640000x128.size a
  hwx4_1 : ∀ i : grid4.Coords, EltTy.bits .f32 = 32 ∨ (Rect.block (s := S640000x128) S6400x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6400x128.size a ≤ S640000x128.size a
  hwx4_2 : ∀ i : grid4.Coords, EltTy.bits .f32 = 32 ∨ (Rect.block (s := S640000x128) S6400x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S6400x128.size a ≤ S640000x128.size a
  hwx4_3 : ∀ i : grid4.Coords, EltTy.bits .f32 = 32 ∨ (Rect.block (s := S640000x128) S6400x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S40000x128.size a
  hwx5_0 : ∀ i : grid5.Coords, EltTy.bits .f32 = 32 ∨ (Rect.block (s := S40000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S40000x128.size a
  hwx5_1 : ∀ i : grid5.Coords, EltTy.bits .f32 = 32 ∨ (Rect.block (s := S40000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S40000x128.size a
  hwx5_2 : ∀ i : grid5.Coords, EltTy.bits .f32 = 32 ∨ (Rect.block (s := S40000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S40000x128.size a
  hwx5_5 : ∀ i : grid5.Coords, EltTy.bits .f32 = 32 ∨ (Rect.block (s := S40000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S40000x128.size a
  hwx6_0 : ∀ i : grid6.Coords, EltTy.bits .f32 = 32 ∨ (Rect.block (s := S40000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x512.size a ≤ S128x512.size a
  hwx6_1 : ∀ i : grid6.Coords, EltTy.bits .f32 = 32 ∨ (Rect.block (s := S128x512) S128x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512.size a ≤ S512.size a
  hwx6_2 : ∀ i : grid6.Coords, EltTy.bits .f32 = 32 ∨ (Rect.block (s := S512) S512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x512.size a ≤ S40000x512.size a
  hwx6_3 : ∀ i : grid6.Coords, EltTy.bits .f32 = 32 ∨ (Rect.block (s := S40000x512) S5000x512.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6400x128.size a ≤ S640000x128.size a
  hwx7_0 : ∀ i : grid7.Coords, EltTy.bits .f32 = 32 ∨ (Rect.block (s := S640000x128) S6400x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6400x128.size a ≤ S640000x128.size a
  hwx7_1 : ∀ i : grid7.Coords, EltTy.bits .f32 = 32 ∨ (Rect.block (s := S640000x128) S6400x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S6400x128.size a ≤ S640000x128.size a
  hwx7_2 : ∀ i : grid7.Coords, EltTy.bits .f32 = 32 ∨ (Rect.block (s := S640000x128) S6400x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S6400x128.size a ≤ S640000x128.size a
  hwx7_3 : ∀ i : grid7.Coords, EltTy.bits .f32 = 32 ∨ (Rect.block (s := S640000x128) S6400x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S40000x128.size a
  hwx8_0 : ∀ i : grid8.Coords, EltTy.bits .f32 = 32 ∨ (Rect.block (s := S40000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S40000x128.size a
  hwx8_1 : ∀ i : grid8.Coords, EltTy.bits .f32 = 32 ∨ (Rect.block (s := S40000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S40000x128.size a
  hwx8_2 : ∀ i : grid8.Coords, EltTy.bits .f32 = 32 ∨ (Rect.block (s := S40000x128) S5000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128.size a ≤ S128.size a
  hwx8_3 : ∀ i : grid8.Coords, EltTy.bits .f32 = 32 ∨ (Rect.block (s := S128) S128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128.size a ≤ S128.size a
  hwx8_4 : ∀ i : grid8.Coords, EltTy.bits .f32 = 32 ∨ (Rect.block (s := S128) S128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S40000x128.size a
  hwx8_5 : ∀ i : grid8.Coords, EltTy.bits .f32 = 32 ∨ (Rect.block (s := S40000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S40000x128.size a
  hwx9_0 : ∀ i : grid9.Coords, EltTy.bits .f32 = 32 ∨ (Rect.block (s := S40000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S40000x128.size a
  hwx9_1 : ∀ i : grid9.Coords, EltTy.bits .f32 = 32 ∨ (Rect.block (s := S40000x128) S5000x128.size (cc9_transform_1 i) (hinb9_1 i)).WholeWords (EltTy.packing .f32)

variable [Facts₀]

def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S5000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S6400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S6400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S6400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S128x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S5000x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v68) S6400x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S6400x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v70) S6400x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v71) S6400x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v74) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v41) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v76) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v79) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v79) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S128x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v100) S512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v101) S5000x512.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v106) S6400x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v107) S6400x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v108) S6400x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v109) S6400x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v112) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v105) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v79) S5000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v114) S128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v116) S128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v117) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v117) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v118) S5000x128.size cc9_transform_1 reads9_1 true false 2 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S3x128x128 : Shape := ⟨3, ![3, 128, 128]⟩
abbrev S3x128 : Shape := ⟨2, ![3, 128]⟩
abbrev S1x640000 : Shape := ⟨2, ![1, 640000]⟩
abbrev S640000 : Shape := ⟨1, ![640000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩

abbrev nBuf : Space → Nat
  | .hbm => 316
  | .vmem => 0
  | .smem => 0
  | _ => 0

abbrev hbmTy0_0 (i : Nat) : BufTy := match i % 128 with
  | 0 => ⟨S40000x128, .f32⟩
  | 1 => ⟨S2x640000, .i32⟩
  | 2 => ⟨S3x128x128, .f32⟩
  | 3 => ⟨S3x128, .f32⟩
  | 4 => ⟨S3x128x128, .f32⟩
  | 5 => ⟨S3x128, .f32⟩
  | 6 => ⟨S3x128x128, .f32⟩
  | 7 => ⟨S3x128, .f32⟩
  | 8 => ⟨S3x128x128, .f32⟩
  | 9 => ⟨S3x128, .f32⟩
  | 10 => ⟨S3x128, .f32⟩
  | 11 => ⟨S1x640000, .i32⟩
  | 12 => ⟨S640000, .i32⟩
  | 13 => ⟨S1x640000, .i32⟩
  | 14 => ⟨S640000, .i32⟩
  | 15 => ⟨S1x128x128, .f32⟩
  | 16 => ⟨S128x128, .f32⟩
  | 17 => ⟨S128x128, .f32⟩
  | 18 => ⟨S40000x128, .f32⟩
  | 19 => ⟨S1x128, .f32⟩
  | 20 => ⟨S128, .f32⟩
  | 21 => ⟨S1x128, .f32⟩
  | 22 => ⟨S40000x128, .f32⟩
  | 23 => ⟨S40000x128, .f32⟩
  | 24 => ⟨S1x128x128, .f32⟩
  | 25 => ⟨S128x128, .f32⟩
  | 26 => ⟨S128x128, .f32⟩
  | 27 => ⟨S40000x128, .f32⟩
  | 28 => ⟨S1x128, .f32⟩
  | 29 => ⟨S128, .f32⟩
  | 30 => ⟨S1x128, .f32⟩
  | 31 => ⟨S40000x128, .f32⟩
  | 32 => ⟨S40000x128, .f32⟩
  | 33 => ⟨S1x128x128, .f32⟩
  | 34 => ⟨S128x128, .f32⟩
  | 35 => ⟨S128x128, .f32⟩
  | 36 => ⟨S40000x128, .f32⟩
  | 37 => ⟨S1x128, .f32⟩
  | 38 => ⟨S128, .f32⟩
  | 39 => ⟨S1x128, .f32⟩
  | 40 => ⟨S40000x128, .f32⟩
  | 41 => ⟨S40000x128, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000x128, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S640000x128, .f32⟩
  | 61 => ⟨S640000x128, .f32⟩
  | 62 => ⟨S640000x128, .f32⟩
  | 63 => ⟨S_, .f32⟩
  | 64 => ⟨S640000x128, .f32⟩
  | 65 => ⟨S640000x128, .f32⟩
  | 66 => ⟨S_, .f32⟩
  | 67 => ⟨S640000x128, .f32⟩
  | 68 => ⟨S640000x128, .f32⟩
  | 69 => ⟨S_, .i32⟩
  | 70 => ⟨S640000, .i32⟩
  | 71 => ⟨S640000, .i1⟩
  | 72 => ⟨S_, .i32⟩
  | 73 => ⟨S640000, .i32⟩
  | 74 => ⟨S640000, .i32⟩
  | 75 => ⟨S640000, .i32⟩
  | 76 => ⟨S640000x1, .i32⟩
  | 77 => ⟨S640000x128, .f32⟩
  | 78 => ⟨S640000x128, .f32⟩
  | 79 => ⟨S_, .f32⟩
  | 80 => ⟨S40000x128, .f32⟩
  | 81 => ⟨S640000x1, .i32⟩
  | 82 => ⟨S40000x128, .f32⟩
  | 83 => ⟨S1x128x128, .f32⟩
  | 84 => ⟨S128x128, .f32⟩
  | 85 => ⟨S128x128, .f32⟩
  | 86 => ⟨S40000x128, .f32⟩
  | 87 => ⟨S40000x128, .f32⟩
  | 88 => ⟨S1x128, .f32⟩
  | 89 => ⟨S128, .f32⟩
  | 90 => ⟨S1x128, .f32⟩
  | 91 => ⟨S40000x128, .f32⟩
  | 92 => ⟨S40000x128, .f32⟩
  | 93 => ⟨S1x128, .f32⟩
  | 94 => ⟨S128, .f32⟩
  | 95 => ⟨S1x128, .f32⟩
  | 96 => ⟨S40000x128, .f32⟩
  | 97 => ⟨S40000x128, .f32⟩
  | 98 => ⟨S_, .f32⟩
  | 99 => ⟨S40000x128, .f32⟩
  | 100 => ⟨S40000x128, .f32⟩
  | 101 => ⟨S40000x128, .f32⟩
  | 102 => ⟨S_, .f32⟩
  | 103 => ⟨S40000, .f32⟩
  | 104 => ⟨S40000x1, .f32⟩
  | 105 => ⟨S40000x1, .f32⟩
  | 106 => ⟨S_, .f32⟩
  | 107 => ⟨S40000x1, .f32⟩
  | 108 => ⟨S40000x1, .f32⟩
  | 109 => ⟨S40000x128, .f32⟩
  | 110 => ⟨S40000x128, .f32⟩
  | 111 => ⟨S40000x128, .f32⟩
  | 112 => ⟨S1x128x128, .f32⟩
  | 113 => ⟨S128x128, .f32⟩
  | 114 => ⟨S128x128, .f32⟩
  | 115 => ⟨S40000x128, .f32⟩
  | 116 => ⟨S1x128, .f32⟩
  | 117 => ⟨S128, .f32⟩
  | 118 => ⟨S1x128, .f32⟩
  | 119 => ⟨S40000x128, .f32⟩
  | 120 => ⟨S40000x128, .f32⟩
  | 121 => ⟨S1x128x128, .f32⟩
  | 122 => ⟨S128x128, .f32⟩
  | 123 => ⟨S128x128, .f32⟩
  | 124 => ⟨S40000x128, .f32⟩
  | 125 => ⟨S1x128, .f32⟩
  | 126 => ⟨S128, .f32⟩
  | 127 => ⟨S1x128, .f32⟩
  | _ => ⟨S40000x128, .f32⟩

abbrev hbmTy0_1 (i : Nat) : BufTy := match i % 128 with
  | 0 => ⟨S40000x128, .f32⟩
  | 1 => ⟨S40000x128, .f32⟩
  | 2 => ⟨S1x128x128, .f32⟩
  | 3 => ⟨S128x128, .f32⟩
  | 4 => ⟨S128x128, .f32⟩
  | 5 => ⟨S40000x128, .f32⟩
  | 6 => ⟨S1x128, .f32⟩
  | 7 => ⟨S128, .f32⟩
  | 8 => ⟨S1x128, .f32⟩
  | 9 => ⟨S40000x128, .f32⟩
  | 10 => ⟨S40000x128, .f32⟩
  | 11 => ⟨S_, .i32⟩
  | 12 => ⟨S640000, .i32⟩
  | 13 => ⟨S640000, .i1⟩
  | 14 => ⟨S_, .i32⟩
  | 15 => ⟨S640000, .i32⟩
  | 16 => ⟨S640000, .i32⟩
  | 17 => ⟨S640000, .i32⟩
  | 18 => ⟨S640000x1, .i32⟩
  | 19 => ⟨S640000x128, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S640000x128, .f32⟩
  | 30 => ⟨S640000x128, .f32⟩
  | 31 => ⟨S640000x128, .f32⟩
  | 32 => ⟨S_, .f32⟩
  | 33 => ⟨S640000x128, .f32⟩
  | 34 => ⟨S640000x128, .f32⟩
  | 35 => ⟨S_, .f32⟩
  | 36 => ⟨S640000x128, .f32⟩
  | 37 => ⟨S640000x128, .f32⟩
  | 38 => ⟨S_, .i32⟩
  | 39 => ⟨S640000, .i32⟩
  | 40 => ⟨S640000, .i1⟩
  | 41 => ⟨S_, .i32⟩
  | 42 => ⟨S640000, .i32⟩
  | 43 => ⟨S640000, .i32⟩
  | 44 => ⟨S640000, .i32⟩
  | 45 => ⟨S640000x1, .i32⟩
  | 46 => ⟨S640000x128, .f32⟩
  | 47 => ⟨S640000x128, .f32⟩
  | 48 => ⟨S_, .f32⟩
  | 49 => ⟨S40000x128, .f32⟩
  | 50 => ⟨S640000x1, .i32⟩
  | 51 => ⟨S40000x128, .f32⟩
  | 52 => ⟨S1x128x128, .f32⟩
  | 53 => ⟨S128x128, .f32⟩
  | 54 => ⟨S128x128, .f32⟩
  | 55 => ⟨S40000x128, .f32⟩
  | 56 => ⟨S40000x128, .f32⟩
  | 57 => ⟨S1x128, .f32⟩
  | 58 => ⟨S128, .f32⟩
  | 59 => ⟨S1x128, .f32⟩
  | 60 => ⟨S40000x128, .f32⟩
  | 61 => ⟨S40000x128, .f32⟩
  | 62 => ⟨S1x128, .f32⟩
  | 63 => ⟨S128, .f32⟩
  | 64 => ⟨S1x128, .f32⟩
  | 65 => ⟨S40000x128, .f32⟩
  | 66 => ⟨S40000x128, .f32⟩
  | 67 => ⟨S_, .f32⟩
  | 68 => ⟨S40000x128, .f32⟩
  | 69 => ⟨S40000x128, .f32⟩
  | 70 => ⟨S40000x128, .f32⟩
  | 71 => ⟨S_, .f32⟩
  | 72 => ⟨S40000, .f32⟩
  | 73 => ⟨S40000x1, .f32⟩
  | 74 => ⟨S40000x1, .f32⟩
  | 75 => ⟨S_, .f32⟩
  | 76 => ⟨S40000x1, .f32⟩
  | 77 => ⟨S40000x1, .f32⟩
  | 78 => ⟨S40000x128, .f32⟩
  | 79 => ⟨S40000x128, .f32⟩
  | 80 => ⟨S40000x128, .f32⟩
  | 81 => ⟨S1x128x128, .f32⟩
  | 82 => ⟨S128x128, .f32⟩
  | 83 => ⟨S128x128, .f32⟩
  | 84 => ⟨S40000x128, .f32⟩
  | 85 => ⟨S1x128, .f32⟩
  | 86 => ⟨S128, .f32⟩
  | 87 => ⟨S1x128, .f32⟩
  | 88 => ⟨S40000x128, .f32⟩
  | 89 => ⟨S40000x128, .f32⟩
  | 90 => ⟨S1x128x128, .f32⟩
  | 91 => ⟨S128x128, .f32⟩
  | 92 => ⟨S128x128, .f32⟩
  | 93 => ⟨S40000x128, .f32⟩
  | 94 => ⟨S1x128, .f32⟩
  | 95 => ⟨S128, .f32⟩
  | 96 => ⟨S1x128, .f32⟩
  | 97 => ⟨S40000x128, .f32⟩
  | 98 => ⟨S40000x128, .f32⟩
  | 99 => ⟨S1x128x128, .f32⟩
  | 100 => ⟨S128x128, .f32⟩
  | 101 => ⟨S128x128, .f32⟩
  | 102 => ⟨S40000x128, .f32⟩
  | 103 => ⟨S1x128, .f32⟩
  | 104 => ⟨S128, .f32⟩
  | 105 => ⟨S1x128, .f32⟩
  | 106 => ⟨S40000x128, .f32⟩
  | 107 => ⟨S40000x128, .f32⟩
  | 108 => ⟨S_, .i32⟩
  | 109 => ⟨S640000, .i32⟩
  | 110 => ⟨S640000, .i1⟩
  | 111 => ⟨S_, .i32⟩
  | 112 => ⟨S640000, .i32⟩
  | 113 => ⟨S640000, .i32⟩
  | 114 => ⟨S640000, .i32⟩
  | 115 => ⟨S640000x1, .i32⟩
  | 116 => ⟨S640000x128, .f32⟩
  | 117 => ⟨S_, .i32⟩
  | 118 => ⟨S640000, .i32⟩
  | 119 => ⟨S640000, .i1⟩
  | 120 => ⟨S_, .i32⟩
  | 121 => ⟨S640000, .i32⟩
  | 122 => ⟨S640000, .i32⟩
  | 123 => ⟨S640000, .i32⟩
  | 124 => ⟨S640000x1, .i32⟩
  | 125 => ⟨S640000x128, .f32⟩
  | 126 => ⟨S640000x128, .f32⟩
  | 127 => ⟨S640000x128, .f32⟩
  | _ => ⟨S40000x128, .f32⟩

abbrev hbmTy0_2 (i : Nat) : BufTy := match i % 128 with
  | 0 => ⟨S640000x128, .f32⟩
  | 1 => ⟨S_, .f32⟩
  | 2 => ⟨S640000x128, .f32⟩
  | 3 => ⟨S640000x128, .f32⟩
  | 4 => ⟨S_, .f32⟩
  | 5 => ⟨S640000x128, .f32⟩
  | 6 => ⟨S640000x128, .f32⟩
  | 7 => ⟨S_, .i32⟩
  | 8 => ⟨S640000, .i32⟩
  | 9 => ⟨S640000, .i1⟩
  | 10 => ⟨S_, .i32⟩
  | 11 => ⟨S640000, .i32⟩
  | 12 => ⟨S640000, .i32⟩
  | 13 => ⟨S640000, .i32⟩
  | 14 => ⟨S640000x1, .i32⟩
  | 15 => ⟨S640000x128, .f32⟩
  | 16 => ⟨S640000x128, .f32⟩
  | 17 => ⟨S_, .f32⟩
  | 18 => ⟨S40000x128, .f32⟩
  | 19 => ⟨S640000x1, .i32⟩
  | 20 => ⟨S40000x128, .f32⟩
  | 21 => ⟨S1x128x128, .f32⟩
  | 22 => ⟨S128x128, .f32⟩
  | 23 => ⟨S128x128, .f32⟩
  | 24 => ⟨S40000x128, .f32⟩
  | 25 => ⟨S40000x128, .f32⟩
  | 26 => ⟨S1x128, .f32⟩
  | 27 => ⟨S128, .f32⟩
  | 28 => ⟨S1x128, .f32⟩
  | 29 => ⟨S40000x128, .f32⟩
  | 30 => ⟨S40000x128, .f32⟩
  | 31 => ⟨S1x128, .f32⟩
  | 32 => ⟨S128, .f32⟩
  | 33 => ⟨S1x128, .f32⟩
  | 34 => ⟨S40000x128, .f32⟩
  | 35 => ⟨S40000x128, .f32⟩
  | 36 => ⟨S_, .f32⟩
  | 37 => ⟨S40000x128, .f32⟩
  | 38 => ⟨S40000x128, .f32⟩
  | 39 => ⟨S40000x128, .f32⟩
  | 40 => ⟨S_, .f32⟩
  | 41 => ⟨S40000, .f32⟩
  | 42 => ⟨S40000x1, .f32⟩
  | 43 => ⟨S40000x1, .f32⟩
  | 44 => ⟨S_, .f32⟩
  | 45 => ⟨S40000x1, .f32⟩
  | 46 => ⟨S40000x1, .f32⟩
  | 47 => ⟨S40000x128, .f32⟩
  | 48 => ⟨S40000x128, .f32⟩
  | 49 => ⟨S40000x128, .f32⟩
  | 50 => ⟨S40000x128, .f32⟩
  | 51 => ⟨S_, .f32⟩
  | 52 => ⟨S40000, .f32⟩
  | 53 => ⟨S40000x1, .f32⟩
  | 54 => ⟨S40000x1, .f32⟩
  | 55 => ⟨S_, .f32⟩
  | 56 => ⟨S40000x1, .f32⟩
  | 57 => ⟨S40000x1, .f32⟩
  | 58 => ⟨S40000x128, .f32⟩
  | 59 => ⟨S40000x128, .f32⟩
  | _ => ⟨S40000x128, .f32⟩

abbrev hbmTy (i : Nat) : BufTy := match i / 128 with
  | 0 => hbmTy0_0 i
  | 1 => hbmTy0_1 i
  | 2 => hbmTy0_2 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_v31 : Ref sig .tc := ⟨.hbm, 43, rfl⟩
abbrev main_v32 : Ref sig .tc := ⟨.hbm, 44, rfl⟩
abbrev main_c_0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_1 : Ref sig .tc := ⟨.hbm, 51, rfl⟩
abbrev main_v38 : Ref sig .tc := ⟨.hbm, 52, rfl⟩
abbrev main_v39 : Ref sig .tc := ⟨.hbm, 53, rfl⟩
abbrev main_c_2 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst : Ref sig .tc := ⟨.hbm, 63, rfl⟩
abbrev main_v48 : Ref sig .tc := ⟨.hbm, 64, rfl⟩
abbrev main_v49 : Ref sig .tc := ⟨.hbm, 65, rfl⟩
abbrev main_cst_3 : Ref sig .tc := ⟨.hbm, 66, rfl⟩
abbrev main_v50 : Ref sig .tc := ⟨.hbm, 67, rfl⟩
abbrev main_v51 : Ref sig .tc := ⟨.hbm, 68, rfl⟩
abbrev main_c_4 : Ref sig .tc := ⟨.hbm, 69, rfl⟩
abbrev main_v52 : Ref sig .tc := ⟨.hbm, 70, rfl⟩
abbrev main_v53 : Ref sig .tc := ⟨.hbm, 71, rfl⟩
abbrev main_c_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_6 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_call0_cst : Ref sig .tc := ⟨.hbm, 98, rfl⟩
abbrev main_call0_v0 : Ref sig .tc := ⟨.hbm, 99, rfl⟩
abbrev main_v78 : Ref sig .tc := ⟨.hbm, 100, rfl⟩
abbrev main_v79 : Ref sig .tc := ⟨.hbm, 101, rfl⟩
abbrev main_cst_7 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_8 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_c_9 : Ref sig .tc := ⟨.hbm, 139, rfl⟩
abbrev main_v115 : Ref sig .tc := ⟨.hbm, 140, rfl⟩
abbrev main_v116 : Ref sig .tc := ⟨.hbm, 141, rfl⟩
abbrev main_c_10 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_c_11 : Ref sig .tc := ⟨.hbm, 148, rfl⟩
abbrev main_v122 : Ref sig .tc := ⟨.hbm, 149, rfl⟩
abbrev main_v123 : Ref sig .tc := ⟨.hbm, 150, rfl⟩
abbrev main_c_12 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_13 : Ref sig .tc := ⟨.hbm, 160, rfl⟩
abbrev main_v132 : Ref sig .tc := ⟨.hbm, 161, rfl⟩
abbrev main_v133 : Ref sig .tc := ⟨.hbm, 162, rfl⟩
abbrev main_cst_14 : Ref sig .tc := ⟨.hbm, 163, rfl⟩
abbrev main_v134 : Ref sig .tc := ⟨.hbm, 164, rfl⟩
abbrev main_v135 : Ref sig .tc := ⟨.hbm, 165, rfl⟩
abbrev main_c_15 : Ref sig .tc := ⟨.hbm, 166, rfl⟩
abbrev main_v136 : Ref sig .tc := ⟨.hbm, 167, rfl⟩
abbrev main_v137 : Ref sig .tc := ⟨.hbm, 168, rfl⟩
abbrev main_c_16 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_17 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_call1_cst : Ref sig .tc := ⟨.hbm, 195, rfl⟩
abbrev main_call1_v0 : Ref sig .tc := ⟨.hbm, 196, rfl⟩
abbrev main_v162 : Ref sig .tc := ⟨.hbm, 197, rfl⟩
abbrev main_v163 : Ref sig .tc := ⟨.hbm, 198, rfl⟩
abbrev main_cst_18 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_cst_19 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_c_20 : Ref sig .tc := ⟨.hbm, 236, rfl⟩
abbrev main_v199 : Ref sig .tc := ⟨.hbm, 237, rfl⟩
abbrev main_v200 : Ref sig .tc := ⟨.hbm, 238, rfl⟩
abbrev main_c_21 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_c_22 : Ref sig .tc := ⟨.hbm, 245, rfl⟩
abbrev main_v206 : Ref sig .tc := ⟨.hbm, 246, rfl⟩
abbrev main_v207 : Ref sig .tc := ⟨.hbm, 247, rfl⟩
abbrev main_c_23 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_cst_24 : Ref sig .tc := ⟨.hbm, 257, rfl⟩
abbrev main_v216 : Ref sig .tc := ⟨.hbm, 258, rfl⟩
abbrev main_v217 : Ref sig .tc := ⟨.hbm, 259, rfl⟩
abbrev main_cst_25 : Ref sig .tc := ⟨.hbm, 260, rfl⟩
abbrev main_v218 : Ref sig .tc := ⟨.hbm, 261, rfl⟩
abbrev main_v219 : Ref sig .tc := ⟨.hbm, 262, rfl⟩
abbrev main_c_26 : Ref sig .tc := ⟨.hbm, 263, rfl⟩
abbrev main_v220 : Ref sig .tc := ⟨.hbm, 264, rfl⟩
abbrev main_v221 : Ref sig .tc := ⟨.hbm, 265, rfl⟩
abbrev main_c_27 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_cst_28 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_call2_cst : Ref sig .tc := ⟨.hbm, 292, rfl⟩
abbrev main_call2_v0 : Ref sig .tc := ⟨.hbm, 293, rfl⟩
abbrev main_v246 : Ref sig .tc := ⟨.hbm, 294, rfl⟩
abbrev main_v247 : Ref sig .tc := ⟨.hbm, 295, rfl⟩
abbrev main_cst_29 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_cst_30 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_cst_31 : Ref sig .tc := ⟨.hbm, 307, rfl⟩
abbrev main_v257 : Ref sig .tc := ⟨.hbm, 308, rfl⟩
abbrev main_v258 : Ref sig .tc := ⟨.hbm, 309, rfl⟩
abbrev main_v259 : Ref sig .tc := ⟨.hbm, 310, rfl⟩
abbrev main_cst_32 : Ref sig .tc := ⟨.hbm, 311, rfl⟩
abbrev main_v260 : Ref sig .tc := ⟨.hbm, 312, rfl⟩
abbrev main_v261 : Ref sig .tc := ⟨.hbm, 313, rfl⟩
abbrev main_v262 : Ref sig .tc := ⟨.hbm, 314, rfl⟩
abbrev main_v263 : Ref sig .tc := ⟨.hbm, 315, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  reducesTo_S40000x128_S40000_d1 : S40000x128.ReducesTo [1] S40000
  h_S_ : 0 < S_.numel
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.K.Reg0.lean ====
import proofs.«405917_j13073880449508_1_alg».proof.Proof.Gen.Kernel.Launch
import proofs.«405917_j13073880449508_1_alg».proof.Proof.Gen.Kernel.Skeleton
import proofs.«405917_j13073880449508_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.Sem
open Idealize.ShloMosaic.Pipeline (Dat BodyObligation)

variable {F : FTy → Type} [FloatOps F]
variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S5000x128 .f32) (x1 : Vec F S128x512 .f32) (x2 : Vec F S512 .f32) : Vec F S5000x512 .f32 :=
  View.canon [⟨Rect.unit (s := S5000x512) ![0, 0] S5000x512.size inb_S5000x512_S5000x512_0_0,
    k0_pay1 (View.ld x0 (Rect.unit (s := S5000x128) ![0, 0] S5000x128.size inb_S5000x128_S5000x128_0_0))
      (View.ld x1 (Rect.unit (s := S128x512) ![0, 0] S128x512.size inb_S128x512_S128x512_0_0))
      (View.ld x2 (Rect.unit (s := S512) ![0] S512.size inb_S512_S512_0))⟩]

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_3 (t : Fin cfg0.N) :
    (dat0 V c).after 3 t = out0_3 (iblk0 V c 0 t) (iblk0 V c 1 t) (iblk0 V c 2 t) := by dsimp only [dat0]

-- Both sides are the block of the array at the point.
theorem before0 (t : Fin cfg0.N) : ∀ (w : Fin cfg0.W) (_ : (cfg0.win w).isOut = false) (d), (dat0 V c).before w t d = (dat0 V c).after w t
  | ⟨0, _⟩, h, d | ⟨1, _⟩, h, d | ⟨2, _⟩, h, d =>
    ((dat0 V c).before_in_eq_fetched _ h (fun _ => rfl) (fun _ _ _ => rfl) (fun _ => rfl) t d).trans rfl
  | ⟨3, _⟩, h, _ => nomatch h

theorem body_obligation0 : BodyObligation (dat0 (F := F) V c) (defs₀ (F := F)) Variants.none () Set.univ := fun t => by
  rw [bigSep_W0, bigSep_W0]
  simp +decide only [before0 V c t]
  dsimp only [dat0]
  sl_whnfR [defs₀, Defs.onTc]
  simp only [cc0__proj_kernel_eq_skeleton]; unfold cc0__proj_kernel_skel owns
  iintro ⟨HΦ, Ho, ⟨%_, %f0, %h0, H0⟩, ⟨%_, %f1, %h1, H1⟩, ⟨%_, %f2, %h2, H2⟩, ⟨%_, %_, -, H3⟩⟩
  rw [← h0, ← h1, ← h2]
  sl_exec
  sl_step
  iframe HΦ
  isplitl [Ho]; · iexact Ho
  isplitl [H0]; · istop; exact owns_intro _ _ _ _
  isplitl [H1]; · istop; exact owns_intro _ _ _ _
  isplitl [H2]; · istop; exact owns_intro _ _ _ _
  iexists _; isplitr
  swap; · iexact H3
  ipureintro
  exact View.read_writes_eq_canon _ _ _ (View.cover_of_tiled _ S5000x512.size rfl)

end Cert.Kernel.Hand

end
-- ==== Proof.K.Reg1.lean ====
import proofs.«405917_j13073880449508_1_alg».proof.Proof.Gen.Kernel.Launch
import proofs.«405917_j13073880449508_1_alg».proof.Proof.Gen.Kernel.Skeleton
import proofs.«405917_j13073880449508_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk1 (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev r1_0 : Rect S6400x128 := Rect.unit (s := S6400x128) ![0, 0] S6400x128.size inb_S6400x128_S6400x128_0_0

def out1_3 (x0 x1 x2 : Vec F S6400x128 .f32) : Vec F S6400x128 .f32 :=
  View.canon [⟨r1_0, k1_pay1 (View.ld x0 r1_0) (View.ld x1 r1_0) (View.ld x2 r1_0)⟩]

-- The body's triple: the three inputs are kept, the output becomes `out1_3` of them, any `P ∗ Q` is framed.
theorem sound_kernel1 (E : Set ℕ) (i : grid1.Coords) (a0 a1 a2 a3 : Memref sig .tc .vmem S6400x128 .f32)
    (h0 : a0.IsWhole) (h1 : a1.IsWhole) (h2 : a2.IsWhole) (h3 : a3.IsWhole)
    (x0 x1 x2 : Vec F S6400x128 .f32) (x3 : Vec F S6400x128 .f32 → Vec F S6400x128 .f32) (P Q : sProp 𝕄) :
    iprop(P ∗ Q ∗ (∃ _d : Vec F S6400x128 .f32, owns (c : Thread nD τ) a0 fullShare x0)
        ∗ (∃ _d : Vec F S6400x128 .f32, owns (c : Thread nD τ) a1 fullShare x1)
        ∗ (∃ _d : Vec F S6400x128 .f32, owns (c : Thread nD τ) a2 fullShare x2)
        ∗ (∃ d, owns (c : Thread nD τ) a3 fullShare (x3 d)))
      ⊢ wp frame (wpE (defs₀ (F := F)) Variants.none c none) E (cc1__msg_kernel i a0 h0 a1 h1 a2 h2 a3 h3) fun _ =>
        iprop(P ∗ Q ∗ owns (c : Thread nD τ) a0 fullShare x0 ∗ owns (c : Thread nD τ) a1 fullShare x1
          ∗ owns (c : Thread nD τ) a2 fullShare x2 ∗ owns (c : Thread nD τ) a3 fullShare (out1_3 x0 x1 x2)) := by
  simp only [cc1__msg_kernel_eq_skeleton]
  unfold cc1__msg_kernel_skel owns
  iintro ⟨HP, HQ, ⟨%_, %f0, %e0, H0⟩, ⟨%_, %f1, %e1, H1⟩, ⟨%_, %f2, %e2, H2⟩, ⟨%_, %f3, -, H3⟩⟩
  subst e0 e1 e2
  sl_exec
  sl_step
  isplitl [HP]; · iexact HP
  isplitl [HQ]; · iexact HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (View.cover_of_tiled _ S6400x128.size (by rfl))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_3 (t : Fin cfg1.N) :
    (dat1 V c).after 3 t = out1_3 (iblk1 V c 0 t) (iblk1 V c 1 t) (iblk1 V c 2 t) := by dsimp only [dat1]

theorem before1_0 (t : Fin cfg1.N) (d) : (dat1 V c).before 0 t d = iblk1 V c 0 t := Dat.before_fetched _ 0 t (fetch1_0 t) d
theorem before1_1 (t : Fin cfg1.N) (d) : (dat1 V c).before 1 t d = iblk1 V c 1 t := Dat.before_fetched _ 1 t (fetch1_1 t) d
theorem before1_2 (t : Fin cfg1.N) (d) : (dat1 V c).before 2 t d = iblk1 V c 2 t := Dat.before_fetched _ 2 t (fetch1_2 t) d

theorem body_obligation1 : BodyObligation (dat1 (F := F) V c) (defs₀ (F := F)) Variants.none () Set.univ := fun t => by
  rw [bigSep_W1, bigSep_W1]
  simp only [before1_0, before1_1, before1_2]
  dsimp only [dat1]
  show _ ⊢ wp _ _ _ (bodyAt1 t) _
  exact sound_kernel1 c _ _ _ _ _ _ _ _ _ _ (iblk1 V c 0 t) (iblk1 V c 1 t) (iblk1 V c 2 t) _ _ _

end Cert.Kernel.Hand
-- ==== Proof.K.Reg2.lean ====
import proofs.«405917_j13073880449508_1_alg».proof.Proof.Gen.Kernel.Launch
import proofs.«405917_j13073880449508_1_alg».proof.Proof.Gen.Kernel.Skeleton
import proofs.«405917_j13073880449508_1_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x128 := Rect.unit (s := S5000x128) ![0, 0] S5000x128.size inb_S5000x128_S5000x128_0_0
abbrev r2_b : Rect S128 := Rect.unit (s := S128) ![0] S128.size inb_S128_S128_0

def out2_5 (x0 x1 x2 : Vec F S5000x128 .f32) (x3 x4 : Vec F S128 .f32) : Vec F S5000x128 .f32 :=
  View.canon [⟨r2_a, k2_pay1 (View.ld x0 r2_a) (View.ld x1 r2_a) (View.ld x3 r2_b) (View.ld x4 r2_b) (View.ld x2 r2_a)⟩]

theorem hz2_a : (![0, 0] : Fin S5000x128.rank → Nat) = fun _ => 0 :=
  funext fun a => match a with | ⟨0, _⟩ => rfl | ⟨1, _⟩ => rfl
theorem hz2_b : (![0] : Fin S128.rank → Nat) = fun _ => 0 :=
  funext fun a => match a with | ⟨0, _⟩ => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

-- At every point each of the five inputs is its block of the array at entry.
theorem before2_in (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) := by
  refine ⟨?_, ?_, ?_, ?_, ?_⟩ <;> intro d <;>
    refine ((dat2 V c).before_in_eq_fetched _ rfl (fun _ => rfl) (fun _ _ _ => rfl) (fun _ => ?_) t d).trans ?_ <;>
    dsimp only [Dat.fetched, Dat.blockOf, iblk2, dat2] <;> rfl

-- The body keeps the five input blocks and leaves, as the output block, the payload of the five.
theorem body_obligation2 (c : Dev nD) : BodyObligation (dat2 (F := F) V c) (defs₀ (F := F)) Variants.none () Set.univ := fun t => by
  rw [bigSep_W2, bigSep_W2]
  dsimp only
  simp only [before2_in V c t]
  rewrite [show (dat2 V c).owesAt () t.succ = (dat2 V c).owesAt () t.castSucc from rfl, after2_5]
  dsimp only [dat2]
  sl_whnfR [defs₀, Defs.onTc]
  simp only [cc2__combine_kernel_eq_skeleton]; unfold cc2__combine_kernel_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [← h0, ← h1, ← h2, ← h3, ← h4]
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ fun y => ⟨_, List.mem_singleton_self _, View.mem_set_unit_zero hz2_a inb_S5000x128_S5000x128_0_0 y⟩

end Cert.Kernel.Hand
-- ==== Proof.K.Reg3.lean ====
import proofs.«405917_j13073880449508_1_alg».proof.Proof.Gen.Kernel.Launch
import proofs.«405917_j13073880449508_1_alg».proof.Proof.Gen.Kernel.Skeleton
import proofs.«405917_j13073880449508_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.Sem
open Idealize.ShloMosaic.Pipeline (Dat BodyObligation)

variable {F : FTy → Type} [FloatOps F]
variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_3 (x0 : Vec F S5000x128 .f32) (x1 : Vec F S128x512 .f32) (x2 : Vec F S512 .f32) : Vec F S5000x512 .f32 :=
  View.canon [⟨Rect.unit (s := S5000x512) ![0, 0] S5000x512.size inb_S5000x512_S5000x512_0_0,
    k3_pay1 (View.ld x0 (Rect.unit (s := S5000x128) ![0, 0] S5000x128.size inb_S5000x128_S5000x128_0_0))
      (View.ld x1 (Rect.unit (s := S128x512) ![0, 0] S128x512.size inb_S128x512_S128x512_0_0))
      (View.ld x2 (Rect.unit (s := S512) ![0] S512.size inb_S512_S512_0))⟩]

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem after3_3 (t : Fin cfg3.N) :
    (dat3 V c).after 3 t = out3_3 (iblk3 V c 0 t) (iblk3 V c 1 t) (iblk3 V c 2 t) := by dsimp only [dat3]

-- Both sides are the block of the array at the point.
theorem before3 (t : Fin cfg3.N) : ∀ (w : Fin cfg3.W) (_ : (cfg3.win w).isOut = false) (d), (dat3 V c).before w t d = (dat3 V c).after w t
  | ⟨0, _⟩, h, d | ⟨1, _⟩, h, d | ⟨2, _⟩, h, d =>
    ((dat3 V c).before_in_eq_fetched _ h (fun _ => rfl) (fun _ _ _ => rfl) (fun _ => rfl) t d).trans rfl
  | ⟨3, _⟩, h, _ => nomatch h

theorem body_obligation3 : BodyObligation (dat3 (F := F) V c) (defs₀ (F := F)) Variants.none () Set.univ := fun t => by
  rw [bigSep_W3, bigSep_W3]
  simp +decide only [before3 V c t]
  dsimp only [dat3]
  sl_whnfR [defs₀, Defs.onTc]
  simp only [cc3__proj_kernel_eq_skeleton]; unfold cc3__proj_kernel_skel owns
  iintro ⟨HΦ, Ho, ⟨%_, %f0, %h0, H0⟩, ⟨%_, %f1, %h1, H1⟩, ⟨%_, %f2, %h2, H2⟩, ⟨%_, %_, -, H3⟩⟩
  rw [← h0, ← h1, ← h2]
  sl_exec
  sl_step
  iframe HΦ
  isplitl [Ho]; · iexact Ho
  isplitl [H0]; · istop; exact owns_intro _ _ _ _
  isplitl [H1]; · istop; exact owns_intro _ _ _ _
  isplitl [H2]; · istop; exact owns_intro _ _ _ _
  iexists _; isplitr
  swap; · iexact H3
  ipureintro
  exact View.read_writes_eq_canon _ _ _ (View.cover_of_tiled _ S5000x512.size rfl)

end Cert.Kernel.Hand

end
-- ==== Proof.K.Reg4.lean ====
import proofs.«405917_j13073880449508_1_alg».proof.Proof.Gen.Kernel.Launch
import proofs.«405917_j13073880449508_1_alg».proof.Proof.Gen.Kernel.Skeleton
import proofs.«405917_j13073880449508_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk4 (w : Fin cfg4.W) (t : Fin cfg4.N) :
    ((cfg4.win w).xblock (cfg4.grid.coords t)).Idx → Elt F (cfg4.win w).elt :=
  ((cfg4.win w).blk t).view.read (Elt F) (V c (Pipeline.arrRef spec4 w))

abbrev r4_0 : Rect S6400x128 := Rect.unit (s := S6400x128) ![0, 0] S6400x128.size inb_S6400x128_S6400x128_0_0

def out4_3 (x0 x1 x2 : Vec F S6400x128 .f32) : Vec F S6400x128 .f32 :=
  View.canon [⟨r4_0, k4_pay1 (View.ld x0 r4_0) (View.ld x1 r4_0) (View.ld x2 r4_0)⟩]

-- The body's triple: the three inputs are kept, the output becomes `out4_3` of them, any `P ∗ Q` is framed.
theorem sound_kernel4 (E : Set ℕ) (i : grid4.Coords) (a0 a1 a2 a3 : Memref sig .tc .vmem S6400x128 .f32)
    (h0 : a0.IsWhole) (h1 : a1.IsWhole) (h2 : a2.IsWhole) (h3 : a3.IsWhole)
    (x0 x1 x2 : Vec F S6400x128 .f32) (x3 : Vec F S6400x128 .f32 → Vec F S6400x128 .f32) (P Q : sProp 𝕄) :
    iprop(P ∗ Q ∗ (∃ _d : Vec F S6400x128 .f32, owns (c : Thread nD τ) a0 fullShare x0)
        ∗ (∃ _d : Vec F S6400x128 .f32, owns (c : Thread nD τ) a1 fullShare x1)
        ∗ (∃ _d : Vec F S6400x128 .f32, owns (c : Thread nD τ) a2 fullShare x2)
        ∗ (∃ d, owns (c : Thread nD τ) a3 fullShare (x3 d)))
      ⊢ wp frame (wpE (defs₀ (F := F)) Variants.none c none) E (cc4__msg_kernel i a0 h0 a1 h1 a2 h2 a3 h3) fun _ =>
        iprop(P ∗ Q ∗ owns (c : Thread nD τ) a0 fullShare x0 ∗ owns (c : Thread nD τ) a1 fullShare x1
          ∗ owns (c : Thread nD τ) a2 fullShare x2 ∗ owns (c : Thread nD τ) a3 fullShare (out4_3 x0 x1 x2)) := by
  simp only [cc4__msg_kernel_eq_skeleton]
  unfold cc4__msg_kernel_skel owns
  iintro ⟨HP, HQ, ⟨%_, %f0, %e0, H0⟩, ⟨%_, %f1, %e1, H1⟩, ⟨%_, %f2, %e2, H2⟩, ⟨%_, %f3, -, H3⟩⟩
  subst e0 e1 e2
  sl_exec
  sl_step
  isplitl [HP]; · iexact HP
  isplitl [HQ]; · iexact HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (View.cover_of_tiled _ S6400x128.size (by rfl))

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem after4_3 (t : Fin cfg4.N) :
    (dat4 V c).after 3 t = out4_3 (iblk4 V c 0 t) (iblk4 V c 1 t) (iblk4 V c 2 t) := by dsimp only [dat4]

theorem before4_0 (t : Fin cfg4.N) (d) : (dat4 V c).before 0 t d = iblk4 V c 0 t := Dat.before_fetched _ 0 t (fetch4_0 t) d
theorem before4_1 (t : Fin cfg4.N) (d) : (dat4 V c).before 1 t d = iblk4 V c 1 t := Dat.before_fetched _ 1 t (fetch4_1 t) d
theorem before4_2 (t : Fin cfg4.N) (d) : (dat4 V c).before 2 t d = iblk4 V c 2 t := Dat.before_fetched _ 2 t (fetch4_2 t) d

theorem body_obligation4 : BodyObligation (dat4 (F := F) V c) (defs₀ (F := F)) Variants.none () Set.univ := fun t => by
  rw [bigSep_W4, bigSep_W4]
  simp only [before4_0, before4_1, before4_2]
  dsimp only [dat4]
  show _ ⊢ wp _ _ _ (bodyAt4 t) _
  exact sound_kernel4 c _ _ _ _ _ _ _ _ _ _ (iblk4 V c 0 t) (iblk4 V c 1 t) (iblk4 V c 2 t) _ _ _

end Cert.Kernel.Hand
-- ==== Proof.K.Reg5.lean ====
import proofs.«405917_j13073880449508_1_alg».proof.Proof.Gen.Kernel.Launch
import proofs.«405917_j13073880449508_1_alg».proof.Proof.Gen.Kernel.Skeleton
import proofs.«405917_j13073880449508_1_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_a : Rect S5000x128 := Rect.unit (s := S5000x128) ![0, 0] S5000x128.size inb_S5000x128_S5000x128_0_0
abbrev r5_b : Rect S128 := Rect.unit (s := S128) ![0] S128.size inb_S128_S128_0

def out5_5 (x0 x1 x2 : Vec F S5000x128 .f32) (x3 x4 : Vec F S128 .f32) : Vec F S5000x128 .f32 :=
  View.canon [⟨r5_a, k5_pay1 (View.ld x0 r5_a) (View.ld x1 r5_a) (View.ld x3 r5_b) (View.ld x4 r5_b) (View.ld x2 r5_a)⟩]

theorem hz5_a : (![0, 0] : Fin S5000x128.rank → Nat) = fun _ => 0 :=
  funext fun a => match a with | ⟨0, _⟩ => rfl | ⟨1, _⟩ => rfl
theorem hz5_b : (![0] : Fin S128.rank → Nat) = fun _ => 0 :=
  funext fun a => match a with | ⟨0, _⟩ => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

-- At every point each of the five inputs is its block of the array at entry.
theorem before5_in (c : Dev nD) (t : Fin cfg5.N) :
    (∀ d, (dat5 V c).before 0 t d = iblk5 V c 0 t) ∧ (∀ d, (dat5 V c).before 1 t d = iblk5 V c 1 t)
    ∧ (∀ d, (dat5 V c).before 2 t d = iblk5 V c 2 t) ∧ (∀ d, (dat5 V c).before 3 t d = iblk5 V c 3 t)
    ∧ (∀ d, (dat5 V c).before 4 t d = iblk5 V c 4 t) := by
  refine ⟨?_, ?_, ?_, ?_, ?_⟩ <;> intro d <;>
    refine ((dat5 V c).before_in_eq_fetched _ rfl (fun _ => rfl) (fun _ _ _ => rfl) (fun _ => ?_) t d).trans ?_ <;>
    dsimp only [Dat.fetched, Dat.blockOf, iblk5, dat5] <;> rfl

-- The body keeps the five input blocks and leaves, as the output block, the payload of the five.
theorem body_obligation5 (c : Dev nD) : BodyObligation (dat5 (F := F) V c) (defs₀ (F := F)) Variants.none () Set.univ := fun t => by
  rw [bigSep_W5, bigSep_W5]
  dsimp only
  simp only [before5_in V c t]
  rewrite [show (dat5 V c).owesAt () t.succ = (dat5 V c).owesAt () t.castSucc from rfl, after5_5]
  dsimp only [dat5]
  sl_whnfR [defs₀, Defs.onTc]
  simp only [cc5__combine_kernel_eq_skeleton]; unfold cc5__combine_kernel_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [← h0, ← h1, ← h2, ← h3, ← h4]
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ fun y => ⟨_, List.mem_singleton_self _, View.mem_set_unit_zero hz5_a inb_S5000x128_S5000x128_0_0 y⟩

end Cert.Kernel.Hand
-- ==== Proof.K.Reg6.lean ====
import proofs.«405917_j13073880449508_1_alg».proof.Proof.Gen.Kernel.Launch
import proofs.«405917_j13073880449508_1_alg».proof.Proof.Gen.Kernel.Skeleton
import proofs.«405917_j13073880449508_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.Sem
open Idealize.ShloMosaic.Pipeline (Dat BodyObligation)

variable {F : FTy → Type} [FloatOps F]
variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_3 (x0 : Vec F S5000x128 .f32) (x1 : Vec F S128x512 .f32) (x2 : Vec F S512 .f32) : Vec F S5000x512 .f32 :=
  View.canon [⟨Rect.unit (s := S5000x512) ![0, 0] S5000x512.size inb_S5000x512_S5000x512_0_0,
    k6_pay1 (View.ld x0 (Rect.unit (s := S5000x128) ![0, 0] S5000x128.size inb_S5000x128_S5000x128_0_0))
      (View.ld x1 (Rect.unit (s := S128x512) ![0, 0] S128x512.size inb_S128x512_S128x512_0_0))
      (View.ld x2 (Rect.unit (s := S512) ![0] S512.size inb_S512_S512_0))⟩]

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem after6_3 (t : Fin cfg6.N) :
    (dat6 V c).after 3 t = out6_3 (iblk6 V c 0 t) (iblk6 V c 1 t) (iblk6 V c 2 t) := by dsimp only [dat6]

-- Both sides are the block of the array at the point.
theorem before6 (t : Fin cfg6.N) : ∀ (w : Fin cfg6.W) (_ : (cfg6.win w).isOut = false) (d), (dat6 V c).before w t d = (dat6 V c).after w t
  | ⟨0, _⟩, h, d | ⟨1, _⟩, h, d | ⟨2, _⟩, h, d =>
    ((dat6 V c).before_in_eq_fetched _ h (fun _ => rfl) (fun _ _ _ => rfl) (fun _ => rfl) t d).trans rfl
  | ⟨3, _⟩, h, _ => nomatch h

theorem body_obligation6 : BodyObligation (dat6 (F := F) V c) (defs₀ (F := F)) Variants.none () Set.univ := fun t => by
  rw [bigSep_W6, bigSep_W6]
  simp +decide only [before6 V c t]
  dsimp only [dat6]
  sl_whnfR [defs₀, Defs.onTc]
  simp only [cc6__proj_kernel_eq_skeleton]; unfold cc6__proj_kernel_skel owns
  iintro ⟨HΦ, Ho, ⟨%_, %f0, %h0, H0⟩, ⟨%_, %f1, %h1, H1⟩, ⟨%_, %f2, %h2, H2⟩, ⟨%_, %_, -, H3⟩⟩
  rw [← h0, ← h1, ← h2]
  sl_exec
  sl_step
  iframe HΦ
  isplitl [Ho]; · iexact Ho
  isplitl [H0]; · istop; exact owns_intro _ _ _ _
  isplitl [H1]; · istop; exact owns_intro _ _ _ _
  isplitl [H2]; · istop; exact owns_intro _ _ _ _
  iexists _; isplitr
  swap; · iexact H3
  ipureintro
  exact View.read_writes_eq_canon _ _ _ (View.cover_of_tiled _ S5000x512.size rfl)

end Cert.Kernel.Hand

end
-- ==== Proof.K.Reg7.lean ====
import proofs.«405917_j13073880449508_1_alg».proof.Proof.Gen.Kernel.Launch
import proofs.«405917_j13073880449508_1_alg».proof.Proof.Gen.Kernel.Skeleton
import proofs.«405917_j13073880449508_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk7 (w : Fin cfg7.W) (t : Fin cfg7.N) :
    ((cfg7.win w).xblock (cfg7.grid.coords t)).Idx → Elt F (cfg7.win w).elt :=
  ((cfg7.win w).blk t).view.read (Elt F) (V c (Pipeline.arrRef spec7 w))

abbrev r7_0 : Rect S6400x128 := Rect.unit (s := S6400x128) ![0, 0] S6400x128.size inb_S6400x128_S6400x128_0_0

def out7_3 (x0 x1 x2 : Vec F S6400x128 .f32) : Vec F S6400x128 .f32 :=
  View.canon [⟨r7_0, k7_pay1 (View.ld x0 r7_0) (View.ld x1 r7_0) (View.ld x2 r7_0)⟩]

-- The body's triple: the three inputs are kept, the output becomes `out7_3` of them, any `P ∗ Q` is framed.
theorem sound_kernel7 (E : Set ℕ) (i : grid7.Coords) (a0 a1 a2 a3 : Memref sig .tc .vmem S6400x128 .f32)
    (h0 : a0.IsWhole) (h1 : a1.IsWhole) (h2 : a2.IsWhole) (h3 : a3.IsWhole)
    (x0 x1 x2 : Vec F S6400x128 .f32) (x3 : Vec F S6400x128 .f32 → Vec F S6400x128 .f32) (P Q : sProp 𝕄) :
    iprop(P ∗ Q ∗ (∃ _d : Vec F S6400x128 .f32, owns (c : Thread nD τ) a0 fullShare x0)
        ∗ (∃ _d : Vec F S6400x128 .f32, owns (c : Thread nD τ) a1 fullShare x1)
        ∗ (∃ _d : Vec F S6400x128 .f32, owns (c : Thread nD τ) a2 fullShare x2)
        ∗ (∃ d, owns (c : Thread nD τ) a3 fullShare (x3 d)))
      ⊢ wp frame (wpE (defs₀ (F := F)) Variants.none c none) E (cc7__msg_kernel i a0 h0 a1 h1 a2 h2 a3 h3) fun _ =>
        iprop(P ∗ Q ∗ owns (c : Thread nD τ) a0 fullShare x0 ∗ owns (c : Thread nD τ) a1 fullShare x1
          ∗ owns (c : Thread nD τ) a2 fullShare x2 ∗ owns (c : Thread nD τ) a3 fullShare (out7_3 x0 x1 x2)) := by
  simp only [cc7__msg_kernel_eq_skeleton]
  unfold cc7__msg_kernel_skel owns
  iintro ⟨HP, HQ, ⟨%_, %f0, %e0, H0⟩, ⟨%_, %f1, %e1, H1⟩, ⟨%_, %f2, %e2, H2⟩, ⟨%_, %f3, -, H3⟩⟩
  subst e0 e1 e2
  sl_exec
  sl_step
  isplitl [HP]; · iexact HP
  isplitl [HQ]; · iexact HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (View.cover_of_tiled _ S6400x128.size (by rfl))

def dat7 : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem after7_3 (t : Fin cfg7.N) :
    (dat7 V c).after 3 t = out7_3 (iblk7 V c 0 t) (iblk7 V c 1 t) (iblk7 V c 2 t) := by dsimp only [dat7]

theorem before7_0 (t : Fin cfg7.N) (d) : (dat7 V c).before 0 t d = iblk7 V c 0 t := Dat.before_fetched _ 0 t (fetch7_0 t) d
theorem before7_1 (t : Fin cfg7.N) (d) : (dat7 V c).before 1 t d = iblk7 V c 1 t := Dat.before_fetched _ 1 t (fetch7_1 t) d
theorem before7_2 (t : Fin cfg7.N) (d) : (dat7 V c).before 2 t d = iblk7 V c 2 t := Dat.before_fetched _ 2 t (fetch7_2 t) d

theorem body_obligation7 : BodyObligation (dat7 (F := F) V c) (defs₀ (F := F)) Variants.none () Set.univ := fun t => by
  rw [bigSep_W7, bigSep_W7]
  simp only [before7_0, before7_1, before7_2]
  dsimp only [dat7]
  show _ ⊢ wp _ _ _ (bodyAt7 t) _
  exact sound_kernel7 c _ _ _ _ _ _ _ _ _ _ (iblk7 V c 0 t) (iblk7 V c 1 t) (iblk7 V c 2 t) _ _ _

end Cert.Kernel.Hand
-- ==== Proof.K.Reg8.lean ====
import proofs.«405917_j13073880449508_1_alg».proof.Proof.Gen.Kernel.Launch
import proofs.«405917_j13073880449508_1_alg».proof.Proof.Gen.Kernel.Skeleton
import proofs.«405917_j13073880449508_1_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_a : Rect S5000x128 := Rect.unit (s := S5000x128) ![0, 0] S5000x128.size inb_S5000x128_S5000x128_0_0
abbrev r8_b : Rect S128 := Rect.unit (s := S128) ![0] S128.size inb_S128_S128_0

def out8_5 (x0 x1 x2 : Vec F S5000x128 .f32) (x3 x4 : Vec F S128 .f32) : Vec F S5000x128 .f32 :=
  View.canon [⟨r8_a, k8_pay1 (View.ld x0 r8_a) (View.ld x1 r8_a) (View.ld x3 r8_b) (View.ld x4 r8_b) (View.ld x2 r8_a)⟩]

theorem hz8_a : (![0, 0] : Fin S5000x128.rank → Nat) = fun _ => 0 :=
  funext fun a => match a with | ⟨0, _⟩ => rfl | ⟨1, _⟩ => rfl
theorem hz8_b : (![0] : Fin S128.rank → Nat) = fun _ => 0 :=
  funext fun a => match a with | ⟨0, _⟩ => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

-- At every point each of the five inputs is its block of the array at entry.
theorem before8_in (c : Dev nD) (t : Fin cfg8.N) :
    (∀ d, (dat8 V c).before 0 t d = iblk8 V c 0 t) ∧ (∀ d, (dat8 V c).before 1 t d = iblk8 V c 1 t)
    ∧ (∀ d, (dat8 V c).before 2 t d = iblk8 V c 2 t) ∧ (∀ d, (dat8 V c).before 3 t d = iblk8 V c 3 t)
    ∧ (∀ d, (dat8 V c).before 4 t d = iblk8 V c 4 t) := by
  refine ⟨?_, ?_, ?_, ?_, ?_⟩ <;> intro d <;>
    refine ((dat8 V c).before_in_eq_fetched _ rfl (fun _ => rfl) (fun _ _ _ => rfl) (fun _ => ?_) t d).trans ?_ <;>
    dsimp only [Dat.fetched, Dat.blockOf, iblk8, dat8] <;> rfl

-- The body keeps the five input blocks and leaves, as the output block, the payload of the five.
theorem body_obligation8 (c : Dev nD) : BodyObligation (dat8 (F := F) V c) (defs₀ (F := F)) Variants.none () Set.univ := fun t => by
  rw [bigSep_W8, bigSep_W8]
  dsimp only
  simp only [before8_in V c t]
  rewrite [show (dat8 V c).owesAt () t.succ = (dat8 V c).owesAt () t.castSucc from rfl, after8_5]
  dsimp only [dat8]
  sl_whnfR [defs₀, Defs.onTc]
  simp only [cc8__combine_kernel_eq_skeleton]; unfold cc8__combine_kernel_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [← h0, ← h1, ← h2, ← h3, ← h4]
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ fun y => ⟨_, List.mem_singleton_self _, View.mem_set_unit_zero hz8_a inb_S5000x128_S5000x128_0_0 y⟩

end Cert.Kernel.Hand
-- ==== Proof.K.Reg9.lean ====
import proofs.«405917_j13073880449508_1_alg».proof.Proof.Gen.Kernel.Launch
import proofs.«405917_j13073880449508_1_alg».proof.Proof.Gen.Kernel.Skeleton
import proofs.«405917_j13073880449508_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S5000x128 := Rect.unit (s := S5000x128) ![0, 0] S5000x128.size inb_S5000x128_S5000x128_0_0

def out9_1 (x0 : Vec F S5000x128 .f32) : Vec F S5000x128 .f32 :=
  View.canon [⟨r9_0, k9_pay1 (View.ld x0 r9_0)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem after9_1 (c : Dev nD) (t : Fin cfg9.N) : (dat9 V c).after 1 t = out9_1 (iblk9 V c 0 t) := by dsimp only [dat9]

theorem before9_0 (c : Dev nD) (t : Fin cfg9.N) (d) : (dat9 V c).before 0 t d = iblk9 V c 0 t :=
  (dat9 V c).before_fetched 0 t (fetch9_0 t) d

theorem body_obligation9 (c : Dev nD) : BodyObligation (dat9 (F := F) V c) (defs₀ (F := F)) Variants.none () Set.univ := fun t => by
  rw [bigSep_W9, bigSep_W9]
  show iprop(_ ∗ _ ∗ (∃ d, owns (c : Thread nD τ) (st9_0 t) fullShare ((dat9 V c).before 0 t d))
      ∗ (∃ d, owns (c : Thread nD τ) (st9_1 t) fullShare _))
    ⊢ wp _ _ _ (bodyAt9 t) (fun _ => iprop(_ ∗ _ ∗ owns (c : Thread nD τ) (st9_0 t) fullShare _
      ∗ owns (c : Thread nD τ) (st9_1 t) fullShare _))
  simp only [before9_0]
  rw [show (dat9 V c).Φ t.succ = (dat9 V c).Φ t.castSucc from rfl,
    show (dat9 V c).owesAt () t.succ = (dat9 V c).owesAt () t.castSucc from rfl,
    show (dat9 V c).after 0 t = iblk9 V c 0 t by dsimp only [dat9], after9_1]
  unfold bodyAt9
  simp only [cc9__l2norm_kernel_eq_skeleton]; unfold cc9__l2norm_kernel_skel owns
  iintro ⟨HΦ, Ho, ⟨%d0, %f1, %hf1, H1⟩, ⟨%d1, %f2, -, H2⟩⟩
  rw [← hf1]
  sl_exec
  sl_step
  iframe HΦ Ho
  isplitl [H1]
  · iexists f1; isplitr; · ipureintro; rfl
    iexact H1
  iexists _; isplitr
  swap; · iexact H2
  ipureintro
  exact View.read_writes_eq_canon _ _ _ fun y => ⟨_, List.mem_singleton_self _, View.mem_set_unit_zero (by decide) inb_S5000x128_S5000x128_0_0 y⟩

end Cert.Kernel.Hand

end
-- ==== Proof.K.Run.lean ====
import proofs.«405917_j13073880449508_1_alg».proof.Proof.Gen.Kernel.Regions
import proofs.«405917_j13073880449508_1_alg».proof.Proof.K.Reg0
import proofs.«405917_j13073880449508_1_alg».proof.Proof.K.Reg1
import proofs.«405917_j13073880449508_1_alg».proof.Proof.K.Reg2
import proofs.«405917_j13073880449508_1_alg».proof.Proof.K.Reg3
import proofs.«405917_j13073880449508_1_alg».proof.Proof.K.Reg4
import proofs.«405917_j13073880449508_1_alg».proof.Proof.K.Reg5
import proofs.«405917_j13073880449508_1_alg».proof.Proof.K.Reg6
import proofs.«405917_j13073880449508_1_alg».proof.Proof.K.Reg7
import proofs.«405917_j13073880449508_1_alg».proof.Proof.K.Reg8
import proofs.«405917_j13073880449508_1_alg».proof.Proof.K.Reg9
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

abbrev tcV (W : Dev nD → Valuation τ sig (Elt F)) : (c : Dev nD) → (b : Ref sig .tc) → Buf (Elt F) ((c : Thread nD τ).loc b) :=
  fun c b => W c b

abbrev putAt (Vi : Dev nD → Valuation τ sig (Elt F)) (r : Ref sig .tc) (v : (c : Dev nD) → Buf (Elt F) ((c : Thread nD τ).loc r)) :
    Dev nD → Valuation τ sig (Elt F) := fun c => Function.update (Vi c) (Proc.devRef .tc r) (v c)

abbrev 𝒱₀ : Variants := Variants.none
abbrev L : GSem nD τ sig → Finset Unit := fun _ => ∅
abbrev lv : GSem nD τ sig → Unit → ℕ := fun _ _ => 0

abbrev R (c : Dev nD) : sProp 𝕄 :=
  iprop((∃ r, prngReg c r) ∗ ∃ W, owes (c : Thread nD τ) (0 : CellTallies nD τ sig Unit) W)

structure Plain {p : Fin 10} {c : Dev nD} (dat : Dat τ (Elt F) Unit ℕ (UR sig nD τ) ℕ (cfgs p) c)
    (V : (b : Ref sig .tc) → Buf (Elt F) ((c : Thread nD τ).loc b)) : Prop where
  arr : ∀ w, dat.A w = V (Pipeline.arrRef (cfgs p).spec w)
  inv : ∀ t, dat.Φ t = Pipeline.ΦA (cfgs p).spec c
  full : ∀ w, dat.q w = fullShare
  owed : ∀ t, dat.owed t = 0
  norec : ∀ t, dat.recorded t = Set.univ

section Builder

variable (pd : (p : Fin 10) → (c : Dev nD) → Dat τ (Elt F) Unit ℕ (UR sig nD τ) ℕ (cfgs p) c)

-- Every array but the one at `wo` keeps its entry contents, so the exit contents are the entry contents with that array replaced.
set_option backward.isDefEq.respectTransparency.types false in
def regOf (p : Fin 10) (lf : Pipeline.LaunchFacts (nD := nD) (τ := τ) cfgs p) (Vi : Dev nD → Valuation τ sig (Elt F))
    (hb : ∀ c, BodyObligation (pd p c) (defs₀ (F := F)) Variants.none () Set.univ) (wo : Fin (cfgs p).W)
    (v : (c : Dev nD) → Buf (Elt F) ((c : Thread nD τ).loc (Pipeline.arrRef (cfgs p).spec wo)))
    (hv : ∀ c, (pd p c).arrAt wo (cfgs p).N = v c)
    (hio : ∀ w, ((cfgs p).win w).isOut = false ∨ w = wo := by decide)
    (hpl : ∀ c, Plain (pd p c) (tcV Vi c) := by exact fun _ => ⟨fun _ => rfl, fun _ => rfl, fun _ => rfl, fun _ => rfl, fun _ => rfl⟩) :
    RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c t => (hpl c).owed t
  pre c := iprop(StableHlo.held (c : Thread nD τ) (Pipeline.ucRefs τ sig) (Vi c) ∗ R c)
  post c := iprop(StableHlo.held (c : Thread nD τ) (Pipeline.ucRefs τ sig) (putAt Vi _ v c) ∗ R c)
  X c := iprop(∃ r, prngReg c r)
  Y c := iprop(∃ r, prngReg c r)
  Z c := Pipeline.unscopedRest (Ix := Unit) (Name := ℕ) (U := UR sig nD τ) (Lvl := ℕ) (cfgs p).spec c (tcV Vi c)
  hentry c := by
    have hs := Pipeline.arrays_of_unscopedBufs (p := p) (pcfgs (F := F)) adm pd lf.win lf.arr_whole c
      ((pd p c).share_full (hpl c).full) (tcV Vi c) (hpl c).arr
    rw [Pipeline.unscopedBufs_held c (Vi c)] at hs
    rw [Pipeline.ownSems0_none]
    iintro ⟨⟨Hbufs, Hprng, Howes⟩, -, -⟩
    ihave Hs := hs $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.Dat.bound Pipeline.owesWithin
      rw [(hpl c).owed, (hpl c).norec]
      icases Howes with ⟨%W, Howes⟩
      iexists W
      isplitr; · ipureintro; exact fun _ _ => Or.inl trivial
      iexact Howes
    isplitl [Hprng]; · iexact Hprng
    iexact Hrest
  hin c := by
    rw [(hpl c).inv]; unfold Pipeline.ΦA
    iintro ⟨Hprng, -, Hsc⟩
    isplitl [Hsc]; · iexact Hsc
    iexact Hprng
  hout c := by
    rw [(hpl c).inv, Pipeline.ownSems0_none]; unfold Pipeline.ΦA
    iintro ⟨Hsc, Hprng⟩
    isplitl [Hprng]; · iexact Hprng
    isplitr; · iempintro
    iexact Hsc
  hexit c := by
    have hF : ∀ w, (pd p c).arrAt w (cfgs p).N = tcV (putAt Vi _ v) c (Pipeline.arrRef (cfgs p).spec w) := fun w => by
      by_cases h : w = wo
      · subst h
        show _ = Function.update (Vi c) (Proc.devRef .tc (Pipeline.arrRef (cfgs p).spec w)) (v c) (Proc.devRef .tc (Pipeline.arrRef (cfgs p).spec w))
        rw [Function.update_self]; exact hv c
      · exact ((pd p c).arrAt_in w ((hio w).resolve_right h) _).trans (((hpl c).arr w).trans
          (Function.update_of_ne (StableHlo.devRef_ne_of_ne (lf.win.arr_inj.ne h)) _ _).symm)
    have hrest : ∀ b, b ∉ Finset.univ.image (Pipeline.arrRef (cfgs p).spec) → tcV (putAt Vi _ v) c b = tcV Vi c b := fun b hb =>
      Function.update_of_ne (StableHlo.devRef_ne_of_ne fun e => hb (Finset.mem_image.mpr ⟨wo, Finset.mem_univ _, e.symm⟩)) _ _
    have hj := Pipeline.unscopedBufs_of_arrays (p := p) (pcfgs (F := F)) adm (Ix := Unit) (Name := ℕ) (U := UR sig nD τ) (Lvl := ℕ)
      lf.win lf.arr_whole c pd ((pd p c).share_full (hpl c).full) (tcV Vi c) (tcV (putAt Vi _ v) c)
      ((pd p c).arrAt · (cfgs p).N) hF hrest
    rw [Pipeline.unscopedBufs_held c (putAt Vi _ v c)] at hj
    iintro ⟨Harr, Howes, Hprng, Hrest⟩
    imodintro
    isplitl [Harr Hrest]
    · iapply hj
      isplitl [Harr]; · iexact Harr
      iexact Hrest
    isplitl [Hprng]; · iexact Hprng
    unfold Pipeline.Dat.owesAt Pipeline.owesWithin
    rw [(hpl c).owed]
    icases Howes with ⟨%W, -, Howes⟩
    iexists W; iexact Howes

end Builder

variable (m : (ℓ : Loc nD τ sig) → Buf (Elt F) ℓ)

section Stages
variable (c : Dev nD)

def o0 : Buf (Elt F) ((c : Thread nD τ).loc main_v25) := (dat0 (tcV (V1 m)) c).arrAt 3 cfg0.N
def X6 : Valuation τ sig (Elt F) := StableHlo.after hostOps1_3 (StableHlo.after hostOps1_2 (StableHlo.after hostOps1_1 (StableHlo.after hostOps1 (Function.update (V1 m c) main_v25 (o0 m c)))))
def o1 : Buf (Elt F) ((c : Thread nD τ).loc main_v33) := (dat1 (tcV (X6 m)) c).arrAt 3 cfg1.N
def X8 : Valuation τ sig (Elt F) := StableHlo.after hostOps2 (Function.update (X6 m c) main_v33 (o1 m c))
def o2 : Buf (Elt F) ((c : Thread nD τ).loc main_v41) := (dat2 (tcV (X8 m)) c).arrAt 5 cfg2.N
def X10 : Valuation τ sig (Elt F) := StableHlo.after hostOps3 (Function.update (X8 m c) main_v41 (o2 m c))
def o3 : Buf (Elt F) ((c : Thread nD τ).loc main_v63) := (dat3 (tcV (X10 m)) c).arrAt 3 cfg3.N
def X15 : Valuation τ sig (Elt F) := StableHlo.after hostOps4_3 (StableHlo.after hostOps4_2 (StableHlo.after hostOps4_1 (StableHlo.after hostOps4 (Function.update (X10 m c) main_v63 (o3 m c)))))
def o4 : Buf (Elt F) ((c : Thread nD τ).loc main_v71) := (dat4 (tcV (X15 m)) c).arrAt 3 cfg4.N
def X17 : Valuation τ sig (Elt F) := StableHlo.after hostOps5 (Function.update (X15 m c) main_v71 (o4 m c))
def o5 : Buf (Elt F) ((c : Thread nD τ).loc main_v79) := (dat5 (tcV (X17 m)) c).arrAt 5 cfg5.N
def X19 : Valuation τ sig (Elt F) := StableHlo.after hostOps6 (Function.update (X17 m c) main_v79 (o5 m c))
def o6 : Buf (Elt F) ((c : Thread nD τ).loc main_v101) := (dat6 (tcV (X19 m)) c).arrAt 3 cfg6.N
def X24 : Valuation τ sig (Elt F) := StableHlo.after hostOps7_3 (StableHlo.after hostOps7_2 (StableHlo.after hostOps7_1 (StableHlo.after hostOps7 (Function.update (X19 m c) main_v101 (o6 m c)))))
def o7 : Buf (Elt F) ((c : Thread nD τ).loc main_v109) := (dat7 (tcV (X24 m)) c).arrAt 3 cfg7.N
def X26 : Valuation τ sig (Elt F) := StableHlo.after hostOps8 (Function.update (X24 m c) main_v109 (o7 m c))
def o8 : Buf (Elt F) ((c : Thread nD τ).loc main_v117) := (dat8 (tcV (X26 m)) c).arrAt 5 cfg8.N
def X27 : Valuation τ sig (Elt F) := Function.update (X26 m c) main_v117 (o8 m c)
def o9 : Buf (Elt F) ((c : Thread nD τ).loc main_v118) := (dat9 (tcV (X27 m)) c).arrAt 1 cfg9.N

end Stages

def outs : Outs (F := F) := fun J r c =>
  let b : (r : Ref sig .tc) → Buf (Elt F) ((c : Thread nD τ).loc r) := fun r => m ((c : Thread nD τ).loc r)
  (match J with
   | 2 => Function.update b main_v25 (o0 m c)
   | 7 => Function.update b main_v33 (o1 m c)
   | 9 => Function.update b main_v41 (o2 m c)
   | 11 => Function.update b main_v63 (o3 m c)
   | 16 => Function.update b main_v71 (o4 m c)
   | 18 => Function.update b main_v79 (o5 m c)
   | 20 => Function.update b main_v101 (o6 m c)
   | 25 => Function.update b main_v109 (o7 m c)
   | 27 => Function.update b main_v117 (o8 m c)
   | 28 => Function.update b main_v118 (o9 m c)
   | _ => b) r

section Chain
variable (c : Dev nD)

theorem outs_at0 : outs m 2 main_v25 c = o0 m c := by unfold outs; exact Function.update_self ..
theorem outs_at1 : outs m 7 main_v33 c = o1 m c := by unfold outs; exact Function.update_self ..
theorem outs_at2 : outs m 9 main_v41 c = o2 m c := by unfold outs; exact Function.update_self ..
theorem outs_at3 : outs m 11 main_v63 c = o3 m c := by unfold outs; exact Function.update_self ..
theorem outs_at4 : outs m 16 main_v71 c = o4 m c := by unfold outs; exact Function.update_self ..
theorem outs_at5 : outs m 18 main_v79 c = o5 m c := by unfold outs; exact Function.update_self ..
theorem outs_at6 : outs m 20 main_v101 c = o6 m c := by unfold outs; exact Function.update_self ..
theorem outs_at7 : outs m 25 main_v109 c = o7 m c := by unfold outs; exact Function.update_self ..
theorem outs_at8 : outs m 27 main_v117 c = o8 m c := by unfold outs; exact Function.update_self ..
theorem outs_at9 : outs m 28 main_v118 c = o9 m c := by unfold outs; exact Function.update_self ..

-- By induction along the items: each generated valuation at `outs` is the stage contents computed above.
theorem V6_eq : V6 m (outs m) = X6 m := funext fun c => by rw [X6, ← outs_at0]
theorem V8_eq : V8 m (outs m) = X8 m := funext fun c => by rw [X8, ← V6_eq, ← outs_at1]
theorem V10_eq : V10 m (outs m) = X10 m := funext fun c => by rw [X10, ← V8_eq, ← outs_at2]
theorem V15_eq : V15 m (outs m) = X15 m := funext fun c => by rw [X15, ← V10_eq, ← outs_at3]
theorem V17_eq : V17 m (outs m) = X17 m := funext fun c => by rw [X17, ← V15_eq, ← outs_at4]
theorem V19_eq : V19 m (outs m) = X19 m := funext fun c => by rw [X19, ← V17_eq, ← outs_at5]
theorem V24_eq : V24 m (outs m) = X24 m := funext fun c => by rw [X24, ← V19_eq, ← outs_at6]
theorem V26_eq : V26 m (outs m) = X26 m := funext fun c => by rw [X26, ← V24_eq, ← outs_at7]
theorem V27_eq : V27 m (outs m) = X27 m := funext fun c => by rw [X27, ← V26_eq, ← outs_at8]

theorem outs_eq0 : outs m 2 main_v25 c = (dat0 (tcV (V1 m)) c).arrAt 3 cfg0.N := outs_at0 m c
theorem outs_eq1 : outs m 7 main_v33 c = (dat1 (tcV (V6 m (outs m))) c).arrAt 3 cfg1.N := by
  rw [V6_eq]; exact outs_at1 m c
theorem outs_eq2 : outs m 9 main_v41 c = (dat2 (tcV (V8 m (outs m))) c).arrAt 5 cfg2.N := by
  rw [V8_eq]; exact outs_at2 m c
theorem outs_eq3 : outs m 11 main_v63 c = (dat3 (tcV (V10 m (outs m))) c).arrAt 3 cfg3.N := by
  rw [V10_eq]; exact outs_at3 m c
theorem outs_eq4 : outs m 16 main_v71 c = (dat4 (tcV (V15 m (outs m))) c).arrAt 3 cfg4.N := by
  rw [V15_eq]; exact outs_at4 m c
theorem outs_eq5 : outs m 18 main_v79 c = (dat5 (tcV (V17 m (outs m))) c).arrAt 5 cfg5.N := by
  rw [V17_eq]; exact outs_at5 m c
theorem outs_eq6 : outs m 20 main_v101 c = (dat6 (tcV (V19 m (outs m))) c).arrAt 3 cfg6.N := by
  rw [V19_eq]; exact outs_at6 m c
theorem outs_eq7 : outs m 25 main_v109 c = (dat7 (tcV (V24 m (outs m))) c).arrAt 3 cfg7.N := by
  rw [V24_eq]; exact outs_at7 m c
theorem outs_eq8 : outs m 27 main_v117 c = (dat8 (tcV (V26 m (outs m))) c).arrAt 5 cfg8.N := by
  rw [V26_eq]; exact outs_at8 m c
theorem outs_eq9 : outs m 28 main_v118 c = (dat9 (tcV (V27 m (outs m))) c).arrAt 1 cfg9.N := by
  rw [V27_eq]; exact outs_at9 m c

end Chain

def pdats : (p : Fin 10) → (c : Dev nD) → Dat τ (Elt F) Unit ℕ (UR sig nD τ) ℕ (cfgs p) c
  | ⟨0, _⟩ => fun c => dat0 (tcV (V1 m)) c
  | ⟨1, _⟩ => fun c => dat1 (tcV (V6 m (outs m))) c
  | ⟨2, _⟩ => fun c => dat2 (tcV (V8 m (outs m))) c
  | ⟨3, _⟩ => fun c => dat3 (tcV (V10 m (outs m))) c
  | ⟨4, _⟩ => fun c => dat4 (tcV (V15 m (outs m))) c
  | ⟨5, _⟩ => fun c => dat5 (tcV (V17 m (outs m))) c
  | ⟨6, _⟩ => fun c => dat6 (tcV (V19 m (outs m))) c
  | ⟨7, _⟩ => fun c => dat7 (tcV (V24 m (outs m))) c
  | ⟨8, _⟩ => fun c => dat8 (tcV (V26 m (outs m))) c
  | ⟨9, _⟩ => fun c => dat9 (tcV (V27 m (outs m))) c

def reg0 : RegionSeg (pcfgs (F := F)) adm (pdats m) () defs₀ 𝒱₀ L lv 0 :=
  regOf (pdats m) 0 launch0 (V1 m) (body_obligation0 _) 3 (outs m 2 main_v25) fun c => (outs_eq0 m c).symm
def reg1 : RegionSeg (pcfgs (F := F)) adm (pdats m) () defs₀ 𝒱₀ L lv 1 :=
  regOf (pdats m) 1 launch1 (V6 m (outs m)) (body_obligation1 _) 3 (outs m 7 main_v33) fun c => (outs_eq1 m c).symm
def reg2 : RegionSeg (pcfgs (F := F)) adm (pdats m) () defs₀ 𝒱₀ L lv 2 :=
  regOf (pdats m) 2 launch2 (V8 m (outs m)) (body_obligation2 _) 5 (outs m 9 main_v41) fun c => (outs_eq2 m c).symm
def reg3 : RegionSeg (pcfgs (F := F)) adm (pdats m) () defs₀ 𝒱₀ L lv 3 :=
  regOf (pdats m) 3 launch3 (V10 m (outs m)) (body_obligation3 _) 3 (outs m 11 main_v63) fun c => (outs_eq3 m c).symm
def reg4 : RegionSeg (pcfgs (F := F)) adm (pdats m) () defs₀ 𝒱₀ L lv 4 :=
  regOf (pdats m) 4 launch4 (V15 m (outs m)) (body_obligation4 _) 3 (outs m 16 main_v71) fun c => (outs_eq4 m c).symm
def reg5 : RegionSeg (pcfgs (F := F)) adm (pdats m) () defs₀ 𝒱₀ L lv 5 :=
  regOf (pdats m) 5 launch5 (V17 m (outs m)) (body_obligation5 _) 5 (outs m 18 main_v79) fun c => (outs_eq5 m c).symm
def reg6 : RegionSeg (pcfgs (F := F)) adm (pdats m) () defs₀ 𝒱₀ L lv 6 :=
  regOf (pdats m) 6 launch6 (V19 m (outs m)) (body_obligation6 _) 3 (outs m 20 main_v101) fun c => (outs_eq6 m c).symm
def reg7 : RegionSeg (pcfgs (F := F)) adm (pdats m) () defs₀ 𝒱₀ L lv 7 :=
  regOf (pdats m) 7 launch7 (V24 m (outs m)) (body_obligation7 _) 3 (outs m 25 main_v109) fun c => (outs_eq7 m c).symm
def reg8 : RegionSeg (pcfgs (F := F)) adm (pdats m) () defs₀ 𝒱₀ L lv 8 :=
  regOf (pdats m) 8 launch8 (V26 m (outs m)) (body_obligation8 _) 5 (outs m 27 main_v117) fun c => (outs_eq8 m c).symm
def reg9 : RegionSeg (pcfgs (F := F)) adm (pdats m) () defs₀ 𝒱₀ L lv 9 :=
  regOf (pdats m) 9 launch9 (V27 m (outs m)) (body_obligation9 _) 1 (outs m 28 main_v118) fun c => (outs_eq9 m c).symm

abbrev u₀ : UR sig nD τ := initOf (Pipeline.cells cfgs cellOf_inj) (Pipeline.launchToks cfgs cellOf_inj)

theorem hu₀ : (ownU (u₀) : sProp 𝕄)
    ⊢ |={Set.univ}=> iprop(BI.own ((emb₁ : Emb _ 𝕄) (initOf (Pipeline.cells cfgs cellOf_inj) (Pipeline.launchToks cfgs cellOf_inj)))
        ∗ bigSep Finset.univ fun _ : Dev nD => (BI.emp : sProp 𝕄)) := by
  rw [ownU_emb₁, BI.bigSep_emp_const]
  iintro Hu; imodintro
  isplitl [Hu]; · iexact Hu
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, Howes, -, Hprng, -⟩, -⟩
  imodintro
  isplitl [Hprng]; · iexists _; iexact Hprng
  iexists ∅; iexact Howes

theorem hE10 (c : Dev nD) : R (F := F) c ⊢ (iprop(∃ W, owes (c : Thread nD τ) (0 : CellTallies nD τ sig Unit) W) : sProp 𝕄) := by
  iintro ⟨-, Howes⟩; iexact Howes

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (emb₁) () 𝒱₀ L lv (fun _ _ => rfl) ρ (outs m) (pdats m) 0 (fun _ => BI.emp) u₀ hu₀
    (fun _ c => R c) (hE0 ρ) hE10
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)

end Cert.Kernel.Hand

end
-- ==== Proof.KI.Reg0.lean ====
import proofs.«405917_j13073880449508_1_alg».proof.Proof.Gen.KernelIdeal.Launch
import proofs.«405917_j13073880449508_1_alg».proof.Proof.Gen.KernelIdeal.Skeleton
import proofs.«405917_j13073880449508_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.Pipeline (Dat BodyObligation)

variable {F : FTy → Type} [FloatOps F]
variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S5000x128 .f32) (x1 : Vec F S128x512 .f32) (x2 : Vec F S512 .f32) : Vec F S5000x512 .f32 :=
  View.canon [⟨Rect.unit (s := S5000x512) ![0, 0] S5000x512.size inb_S5000x512_S5000x512_0_0,
    k0_pay1 (View.ld x0 (Rect.unit (s := S5000x128) ![0, 0] S5000x128.size inb_S5000x128_S5000x128_0_0))
      (View.ld x1 (Rect.unit (s := S128x512) ![0, 0] S128x512.size inb_S128x512_S128x512_0_0))
      (View.ld x2 (Rect.unit (s := S512) ![0] S512.size inb_S512_S512_0))⟩]

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_3 (t : Fin cfg0.N) :
    (dat0 V c).after 3 t = out0_3 (iblk0 V c 0 t) (iblk0 V c 1 t) (iblk0 V c 2 t) := by dsimp only [dat0]

-- Both sides are the block of the array at the point.
theorem before0 (t : Fin cfg0.N) : ∀ (w : Fin cfg0.W) (_ : (cfg0.win w).isOut = false) (d), (dat0 V c).before w t d = (dat0 V c).after w t
  | ⟨0, _⟩, h, d | ⟨1, _⟩, h, d | ⟨2, _⟩, h, d =>
    ((dat0 V c).before_in_eq_fetched _ h (fun _ => rfl) (fun _ _ _ => rfl) (fun _ => rfl) t d).trans rfl
  | ⟨3, _⟩, h, _ => nomatch h

theorem body_obligation0 : BodyObligation (dat0 (F := F) V c) (defs₀ (F := F)) Variants.none () Set.univ := fun t => by
  rw [bigSep_W0, bigSep_W0]
  simp +decide only [before0 V c t]
  dsimp only [dat0]
  sl_whnfR [defs₀, Defs.onTc]
  simp only [cc0__proj_kernel_eq_skeleton]; unfold cc0__proj_kernel_skel owns
  iintro ⟨HΦ, Ho, ⟨%_, %f0, %h0, H0⟩, ⟨%_, %f1, %h1, H1⟩, ⟨%_, %f2, %h2, H2⟩, ⟨%_, %_, -, H3⟩⟩
  rw [← h0, ← h1, ← h2]
  sl_exec
  sl_step
  iframe HΦ
  isplitl [Ho]; · iexact Ho
  isplitl [H0]; · istop; exact owns_intro _ _ _ _
  isplitl [H1]; · istop; exact owns_intro _ _ _ _
  isplitl [H2]; · istop; exact owns_intro _ _ _ _
  iexists _; isplitr
  swap; · iexact H3
  ipureintro
  exact View.read_writes_eq_canon _ _ _ (View.cover_of_tiled _ S5000x512.size rfl)

end Cert.KernelIdeal.Hand

end
-- ==== Proof.KI.Reg1.lean ====
import proofs.«405917_j13073880449508_1_alg».proof.Proof.Gen.KernelIdeal.Launch
import proofs.«405917_j13073880449508_1_alg».proof.Proof.Gen.KernelIdeal.Skeleton
import proofs.«405917_j13073880449508_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk1 (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev r1_0 : Rect S6400x128 := Rect.unit (s := S6400x128) ![0, 0] S6400x128.size inb_S6400x128_S6400x128_0_0

def out1_3 (x0 x1 x2 : Vec F S6400x128 .f32) : Vec F S6400x128 .f32 :=
  View.canon [⟨r1_0, k1_pay1 (View.ld x0 r1_0) (View.ld x1 r1_0) (View.ld x2 r1_0)⟩]

-- The body's triple: the three inputs are kept, the output becomes `out1_3` of them, any `P ∗ Q` is framed.
theorem sound_kernel1 (E : Set ℕ) (i : grid1.Coords) (a0 a1 a2 a3 : Memref sig .tc .vmem S6400x128 .f32)
    (h0 : a0.IsWhole) (h1 : a1.IsWhole) (h2 : a2.IsWhole) (h3 : a3.IsWhole)
    (x0 x1 x2 : Vec F S6400x128 .f32) (x3 : Vec F S6400x128 .f32 → Vec F S6400x128 .f32) (P Q : sProp 𝕄) :
    iprop(P ∗ Q ∗ (∃ _d : Vec F S6400x128 .f32, owns (c : Thread nD τ) a0 fullShare x0)
        ∗ (∃ _d : Vec F S6400x128 .f32, owns (c : Thread nD τ) a1 fullShare x1)
        ∗ (∃ _d : Vec F S6400x128 .f32, owns (c : Thread nD τ) a2 fullShare x2)
        ∗ (∃ d, owns (c : Thread nD τ) a3 fullShare (x3 d)))
      ⊢ wp frame (wpE (defs₀ (F := F)) Variants.none c none) E (cc1__msg_kernel i a0 h0 a1 h1 a2 h2 a3 h3) fun _ =>
        iprop(P ∗ Q ∗ owns (c : Thread nD τ) a0 fullShare x0 ∗ owns (c : Thread nD τ) a1 fullShare x1
          ∗ owns (c : Thread nD τ) a2 fullShare x2 ∗ owns (c : Thread nD τ) a3 fullShare (out1_3 x0 x1 x2)) := by
  simp only [cc1__msg_kernel_eq_skeleton]
  unfold cc1__msg_kernel_skel owns
  iintro ⟨HP, HQ, ⟨%_, %f0, %e0, H0⟩, ⟨%_, %f1, %e1, H1⟩, ⟨%_, %f2, %e2, H2⟩, ⟨%_, %f3, -, H3⟩⟩
  subst e0 e1 e2
  sl_exec
  sl_step
  isplitl [HP]; · iexact HP
  isplitl [HQ]; · iexact HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (View.cover_of_tiled _ S6400x128.size (by rfl))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_3 (t : Fin cfg1.N) :
    (dat1 V c).after 3 t = out1_3 (iblk1 V c 0 t) (iblk1 V c 1 t) (iblk1 V c 2 t) := by dsimp only [dat1]

theorem before1_0 (t : Fin cfg1.N) (d) : (dat1 V c).before 0 t d = iblk1 V c 0 t := Dat.before_fetched _ 0 t (fetch1_0 t) d
theorem before1_1 (t : Fin cfg1.N) (d) : (dat1 V c).before 1 t d = iblk1 V c 1 t := Dat.before_fetched _ 1 t (fetch1_1 t) d
theorem before1_2 (t : Fin cfg1.N) (d) : (dat1 V c).before 2 t d = iblk1 V c 2 t := Dat.before_fetched _ 2 t (fetch1_2 t) d

theorem body_obligation1 : BodyObligation (dat1 (F := F) V c) (defs₀ (F := F)) Variants.none () Set.univ := fun t => by
  rw [bigSep_W1, bigSep_W1]
  simp only [before1_0, before1_1, before1_2]
  dsimp only [dat1]
  show _ ⊢ wp _ _ _ (bodyAt1 t) _
  exact sound_kernel1 c _ _ _ _ _ _ _ _ _ _ (iblk1 V c 0 t) (iblk1 V c 1 t) (iblk1 V c 2 t) _ _ _

end Cert.KernelIdeal.Hand
-- ==== Proof.KI.Reg2.lean ====
import proofs.«405917_j13073880449508_1_alg».proof.Proof.Gen.KernelIdeal.Launch
import proofs.«405917_j13073880449508_1_alg».proof.Proof.Gen.KernelIdeal.Skeleton
import proofs.«405917_j13073880449508_1_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x128 := Rect.unit (s := S5000x128) ![0, 0] S5000x128.size inb_S5000x128_S5000x128_0_0
abbrev r2_b : Rect S128 := Rect.unit (s := S128) ![0] S128.size inb_S128_S128_0

def out2_5 (x0 x1 x2 : Vec F S5000x128 .f32) (x3 x4 : Vec F S128 .f32) : Vec F S5000x128 .f32 :=
  View.canon [⟨r2_a, k2_pay1 (View.ld x0 r2_a) (View.ld x1 r2_a) (View.ld x3 r2_b) (View.ld x4 r2_b) (View.ld x2 r2_a)⟩]

theorem hz2_a : (![0, 0] : Fin S5000x128.rank → Nat) = fun _ => 0 :=
  funext fun a => match a with | ⟨0, _⟩ => rfl | ⟨1, _⟩ => rfl
theorem hz2_b : (![0] : Fin S128.rank → Nat) = fun _ => 0 :=
  funext fun a => match a with | ⟨0, _⟩ => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

-- At every point each of the five inputs is its block of the array at entry.
theorem before2_in (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) := by
  refine ⟨?_, ?_, ?_, ?_, ?_⟩ <;> intro d <;>
    refine ((dat2 V c).before_in_eq_fetched _ rfl (fun _ => rfl) (fun _ _ _ => rfl) (fun _ => ?_) t d).trans ?_ <;>
    dsimp only [Dat.fetched, Dat.blockOf, iblk2, dat2] <;> rfl

-- The body keeps the five input blocks and leaves, as the output block, the payload of the five.
theorem body_obligation2 (c : Dev nD) : BodyObligation (dat2 (F := F) V c) (defs₀ (F := F)) Variants.none () Set.univ := fun t => by
  rw [bigSep_W2, bigSep_W2]
  dsimp only
  simp only [before2_in V c t]
  rewrite [show (dat2 V c).owesAt () t.succ = (dat2 V c).owesAt () t.castSucc from rfl, after2_5]
  dsimp only [dat2]
  sl_whnfR [defs₀, Defs.onTc]
  simp only [cc2__combine_kernel_eq_skeleton]; unfold cc2__combine_kernel_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [← h0, ← h1, ← h2, ← h3, ← h4]
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ fun y => ⟨_, List.mem_singleton_self _, View.mem_set_unit_zero hz2_a inb_S5000x128_S5000x128_0_0 y⟩

end Cert.KernelIdeal.Hand
-- ==== Proof.KI.Reg3.lean ====
import proofs.«405917_j13073880449508_1_alg».proof.Proof.Gen.KernelIdeal.Launch
import proofs.«405917_j13073880449508_1_alg».proof.Proof.Gen.KernelIdeal.Skeleton
import proofs.«405917_j13073880449508_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.Pipeline (Dat BodyObligation)

variable {F : FTy → Type} [FloatOps F]
variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_3 (x0 : Vec F S5000x128 .f32) (x1 : Vec F S128x512 .f32) (x2 : Vec F S512 .f32) : Vec F S5000x512 .f32 :=
  View.canon [⟨Rect.unit (s := S5000x512) ![0, 0] S5000x512.size inb_S5000x512_S5000x512_0_0,
    k3_pay1 (View.ld x0 (Rect.unit (s := S5000x128) ![0, 0] S5000x128.size inb_S5000x128_S5000x128_0_0))
      (View.ld x1 (Rect.unit (s := S128x512) ![0, 0] S128x512.size inb_S128x512_S128x512_0_0))
      (View.ld x2 (Rect.unit (s := S512) ![0] S512.size inb_S512_S512_0))⟩]

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem after3_3 (t : Fin cfg3.N) :
    (dat3 V c).after 3 t = out3_3 (iblk3 V c 0 t) (iblk3 V c 1 t) (iblk3 V c 2 t) := by dsimp only [dat3]

-- Both sides are the block of the array at the point.
theorem before3 (t : Fin cfg3.N) : ∀ (w : Fin cfg3.W) (_ : (cfg3.win w).isOut = false) (d), (dat3 V c).before w t d = (dat3 V c).after w t
  | ⟨0, _⟩, h, d | ⟨1, _⟩, h, d | ⟨2, _⟩, h, d =>
    ((dat3 V c).before_in_eq_fetched _ h (fun _ => rfl) (fun _ _ _ => rfl) (fun _ => rfl) t d).trans rfl
  | ⟨3, _⟩, h, _ => nomatch h

theorem body_obligation3 : BodyObligation (dat3 (F := F) V c) (defs₀ (F := F)) Variants.none () Set.univ := fun t => by
  rw [bigSep_W3, bigSep_W3]
  simp +decide only [before3 V c t]
  dsimp only [dat3]
  sl_whnfR [defs₀, Defs.onTc]
  simp only [cc3__proj_kernel_eq_skeleton]; unfold cc3__proj_kernel_skel owns
  iintro ⟨HΦ, Ho, ⟨%_, %f0, %h0, H0⟩, ⟨%_, %f1, %h1, H1⟩, ⟨%_, %f2, %h2, H2⟩, ⟨%_, %_, -, H3⟩⟩
  rw [← h0, ← h1, ← h2]
  sl_exec
  sl_step
  iframe HΦ
  isplitl [Ho]; · iexact Ho
  isplitl [H0]; · istop; exact owns_intro _ _ _ _
  isplitl [H1]; · istop; exact owns_intro _ _ _ _
  isplitl [H2]; · istop; exact owns_intro _ _ _ _
  iexists _; isplitr
  swap; · iexact H3
  ipureintro
  exact View.read_writes_eq_canon _ _ _ (View.cover_of_tiled _ S5000x512.size rfl)

end Cert.KernelIdeal.Hand

end
-- ==== Proof.KI.Reg4.lean ====
import proofs.«405917_j13073880449508_1_alg».proof.Proof.Gen.KernelIdeal.Launch
import proofs.«405917_j13073880449508_1_alg».proof.Proof.Gen.KernelIdeal.Skeleton
import proofs.«405917_j13073880449508_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk4 (w : Fin cfg4.W) (t : Fin cfg4.N) :
    ((cfg4.win w).xblock (cfg4.grid.coords t)).Idx → Elt F (cfg4.win w).elt :=
  ((cfg4.win w).blk t).view.read (Elt F) (V c (Pipeline.arrRef spec4 w))

abbrev r4_0 : Rect S6400x128 := Rect.unit (s := S6400x128) ![0, 0] S6400x128.size inb_S6400x128_S6400x128_0_0

def out4_3 (x0 x1 x2 : Vec F S6400x128 .f32) : Vec F S6400x128 .f32 :=
  View.canon [⟨r4_0, k4_pay1 (View.ld x0 r4_0) (View.ld x1 r4_0) (View.ld x2 r4_0)⟩]

-- The body's triple: the three inputs are kept, the output becomes `out4_3` of them, any `P ∗ Q` is framed.
theorem sound_kernel4 (E : Set ℕ) (i : grid4.Coords) (a0 a1 a2 a3 : Memref sig .tc .vmem S6400x128 .f32)
    (h0 : a0.IsWhole) (h1 : a1.IsWhole) (h2 : a2.IsWhole) (h3 : a3.IsWhole)
    (x0 x1 x2 : Vec F S6400x128 .f32) (x3 : Vec F S6400x128 .f32 → Vec F S6400x128 .f32) (P Q : sProp 𝕄) :
    iprop(P ∗ Q ∗ (∃ _d : Vec F S6400x128 .f32, owns (c : Thread nD τ) a0 fullShare x0)
        ∗ (∃ _d : Vec F S6400x128 .f32, owns (c : Thread nD τ) a1 fullShare x1)
        ∗ (∃ _d : Vec F S6400x128 .f32, owns (c : Thread nD τ) a2 fullShare x2)
        ∗ (∃ d, owns (c : Thread nD τ) a3 fullShare (x3 d)))
      ⊢ wp frame (wpE (defs₀ (F := F)) Variants.none c none) E (cc4__msg_kernel i a0 h0 a1 h1 a2 h2 a3 h3) fun _ =>
        iprop(P ∗ Q ∗ owns (c : Thread nD τ) a0 fullShare x0 ∗ owns (c : Thread nD τ) a1 fullShare x1
          ∗ owns (c : Thread nD τ) a2 fullShare x2 ∗ owns (c : Thread nD τ) a3 fullShare (out4_3 x0 x1 x2)) := by
  simp only [cc4__msg_kernel_eq_skeleton]
  unfold cc4__msg_kernel_skel owns
  iintro ⟨HP, HQ, ⟨%_, %f0, %e0, H0⟩, ⟨%_, %f1, %e1, H1⟩, ⟨%_, %f2, %e2, H2⟩, ⟨%_, %f3, -, H3⟩⟩
  subst e0 e1 e2
  sl_exec
  sl_step
  isplitl [HP]; · iexact HP
  isplitl [HQ]; · iexact HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (View.cover_of_tiled _ S6400x128.size (by rfl))

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem after4_3 (t : Fin cfg4.N) :
    (dat4 V c).after 3 t = out4_3 (iblk4 V c 0 t) (iblk4 V c 1 t) (iblk4 V c 2 t) := by dsimp only [dat4]

theorem before4_0 (t : Fin cfg4.N) (d) : (dat4 V c).before 0 t d = iblk4 V c 0 t := Dat.before_fetched _ 0 t (fetch4_0 t) d
theorem before4_1 (t : Fin cfg4.N) (d) : (dat4 V c).before 1 t d = iblk4 V c 1 t := Dat.before_fetched _ 1 t (fetch4_1 t) d
theorem before4_2 (t : Fin cfg4.N) (d) : (dat4 V c).before 2 t d = iblk4 V c 2 t := Dat.before_fetched _ 2 t (fetch4_2 t) d

theorem body_obligation4 : BodyObligation (dat4 (F := F) V c) (defs₀ (F := F)) Variants.none () Set.univ := fun t => by
  rw [bigSep_W4, bigSep_W4]
  simp only [before4_0, before4_1, before4_2]
  dsimp only [dat4]
  show _ ⊢ wp _ _ _ (bodyAt4 t) _
  exact sound_kernel4 c _ _ _ _ _ _ _ _ _ _ (iblk4 V c 0 t) (iblk4 V c 1 t) (iblk4 V c 2 t) _ _ _

end Cert.KernelIdeal.Hand
-- ==== Proof.KI.Reg5.lean ====
import proofs.«405917_j13073880449508_1_alg».proof.Proof.Gen.KernelIdeal.Launch
import proofs.«405917_j13073880449508_1_alg».proof.Proof.Gen.KernelIdeal.Skeleton
import proofs.«405917_j13073880449508_1_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_a : Rect S5000x128 := Rect.unit (s := S5000x128) ![0, 0] S5000x128.size inb_S5000x128_S5000x128_0_0
abbrev r5_b : Rect S128 := Rect.unit (s := S128) ![0] S128.size inb_S128_S128_0

def out5_5 (x0 x1 x2 : Vec F S5000x128 .f32) (x3 x4 : Vec F S128 .f32) : Vec F S5000x128 .f32 :=
  View.canon [⟨r5_a, k5_pay1 (View.ld x0 r5_a) (View.ld x1 r5_a) (View.ld x3 r5_b) (View.ld x4 r5_b) (View.ld x2 r5_a)⟩]

theorem hz5_a : (![0, 0] : Fin S5000x128.rank → Nat) = fun _ => 0 :=
  funext fun a => match a with | ⟨0, _⟩ => rfl | ⟨1, _⟩ => rfl
theorem hz5_b : (![0] : Fin S128.rank → Nat) = fun _ => 0 :=
  funext fun a => match a with | ⟨0, _⟩ => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

-- At every point each of the five inputs is its block of the array at entry.
theorem before5_in (c : Dev nD) (t : Fin cfg5.N) :
    (∀ d, (dat5 V c).before 0 t d = iblk5 V c 0 t) ∧ (∀ d, (dat5 V c).before 1 t d = iblk5 V c 1 t)
    ∧ (∀ d, (dat5 V c).before 2 t d = iblk5 V c 2 t) ∧ (∀ d, (dat5 V c).before 3 t d = iblk5 V c 3 t)
    ∧ (∀ d, (dat5 V c).before 4 t d = iblk5 V c 4 t) := by
  refine ⟨?_, ?_, ?_, ?_, ?_⟩ <;> intro d <;>
    refine ((dat5 V c).before_in_eq_fetched _ rfl (fun _ => rfl) (fun _ _ _ => rfl) (fun _ => ?_) t d).trans ?_ <;>
    dsimp only [Dat.fetched, Dat.blockOf, iblk5, dat5] <;> rfl

-- The body keeps the five input blocks and leaves, as the output block, the payload of the five.
theorem body_obligation5 (c : Dev nD) : BodyObligation (dat5 (F := F) V c) (defs₀ (F := F)) Variants.none () Set.univ := fun t => by
  rw [bigSep_W5, bigSep_W5]
  dsimp only
  simp only [before5_in V c t]
  rewrite [show (dat5 V c).owesAt () t.succ = (dat5 V c).owesAt () t.castSucc from rfl, after5_5]
  dsimp only [dat5]
  sl_whnfR [defs₀, Defs.onTc]
  simp only [cc5__combine_kernel_eq_skeleton]; unfold cc5__combine_kernel_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [← h0, ← h1, ← h2, ← h3, ← h4]
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ fun y => ⟨_, List.mem_singleton_self _, View.mem_set_unit_zero hz5_a inb_S5000x128_S5000x128_0_0 y⟩

end Cert.KernelIdeal.Hand
-- ==== Proof.KI.Reg6.lean ====
import proofs.«405917_j13073880449508_1_alg».proof.Proof.Gen.KernelIdeal.Launch
import proofs.«405917_j13073880449508_1_alg».proof.Proof.Gen.KernelIdeal.Skeleton
import proofs.«405917_j13073880449508_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.Pipeline (Dat BodyObligation)

variable {F : FTy → Type} [FloatOps F]
variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_3 (x0 : Vec F S5000x128 .f32) (x1 : Vec F S128x512 .f32) (x2 : Vec F S512 .f32) : Vec F S5000x512 .f32 :=
  View.canon [⟨Rect.unit (s := S5000x512) ![0, 0] S5000x512.size inb_S5000x512_S5000x512_0_0,
    k6_pay1 (View.ld x0 (Rect.unit (s := S5000x128) ![0, 0] S5000x128.size inb_S5000x128_S5000x128_0_0))
      (View.ld x1 (Rect.unit (s := S128x512) ![0, 0] S128x512.size inb_S128x512_S128x512_0_0))
      (View.ld x2 (Rect.unit (s := S512) ![0] S512.size inb_S512_S512_0))⟩]

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem after6_3 (t : Fin cfg6.N) :
    (dat6 V c).after 3 t = out6_3 (iblk6 V c 0 t) (iblk6 V c 1 t) (iblk6 V c 2 t) := by dsimp only [dat6]

-- Both sides are the block of the array at the point.
theorem before6 (t : Fin cfg6.N) : ∀ (w : Fin cfg6.W) (_ : (cfg6.win w).isOut = false) (d), (dat6 V c).before w t d = (dat6 V c).after w t
  | ⟨0, _⟩, h, d | ⟨1, _⟩, h, d | ⟨2, _⟩, h, d =>
    ((dat6 V c).before_in_eq_fetched _ h (fun _ => rfl) (fun _ _ _ => rfl) (fun _ => rfl) t d).trans rfl
  | ⟨3, _⟩, h, _ => nomatch h

theorem body_obligation6 : BodyObligation (dat6 (F := F) V c) (defs₀ (F := F)) Variants.none () Set.univ := fun t => by
  rw [bigSep_W6, bigSep_W6]
  simp +decide only [before6 V c t]
  dsimp only [dat6]
  sl_whnfR [defs₀, Defs.onTc]
  simp only [cc6__proj_kernel_eq_skeleton]; unfold cc6__proj_kernel_skel owns
  iintro ⟨HΦ, Ho, ⟨%_, %f0, %h0, H0⟩, ⟨%_, %f1, %h1, H1⟩, ⟨%_, %f2, %h2, H2⟩, ⟨%_, %_, -, H3⟩⟩
  rw [← h0, ← h1, ← h2]
  sl_exec
  sl_step
  iframe HΦ
  isplitl [Ho]; · iexact Ho
  isplitl [H0]; · istop; exact owns_intro _ _ _ _
  isplitl [H1]; · istop; exact owns_intro _ _ _ _
  isplitl [H2]; · istop; exact owns_intro _ _ _ _
  iexists _; isplitr
  swap; · iexact H3
  ipureintro
  exact View.read_writes_eq_canon _ _ _ (View.cover_of_tiled _ S5000x512.size rfl)

end Cert.KernelIdeal.Hand

end
-- ==== Proof.KI.Reg7.lean ====
import proofs.«405917_j13073880449508_1_alg».proof.Proof.Gen.KernelIdeal.Launch
import proofs.«405917_j13073880449508_1_alg».proof.Proof.Gen.KernelIdeal.Skeleton
import proofs.«405917_j13073880449508_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk7 (w : Fin cfg7.W) (t : Fin cfg7.N) :
    ((cfg7.win w).xblock (cfg7.grid.coords t)).Idx → Elt F (cfg7.win w).elt :=
  ((cfg7.win w).blk t).view.read (Elt F) (V c (Pipeline.arrRef spec7 w))

abbrev r7_0 : Rect S6400x128 := Rect.unit (s := S6400x128) ![0, 0] S6400x128.size inb_S6400x128_S6400x128_0_0

def out7_3 (x0 x1 x2 : Vec F S6400x128 .f32) : Vec F S6400x128 .f32 :=
  View.canon [⟨r7_0, k7_pay1 (View.ld x0 r7_0) (View.ld x1 r7_0) (View.ld x2 r7_0)⟩]

-- The body's triple: the three inputs are kept, the output becomes `out7_3` of them, any `P ∗ Q` is framed.
theorem sound_kernel7 (E : Set ℕ) (i : grid7.Coords) (a0 a1 a2 a3 : Memref sig .tc .vmem S6400x128 .f32)
    (h0 : a0.IsWhole) (h1 : a1.IsWhole) (h2 : a2.IsWhole) (h3 : a3.IsWhole)
    (x0 x1 x2 : Vec F S6400x128 .f32) (x3 : Vec F S6400x128 .f32 → Vec F S6400x128 .f32) (P Q : sProp 𝕄) :
    iprop(P ∗ Q ∗ (∃ _d : Vec F S6400x128 .f32, owns (c : Thread nD τ) a0 fullShare x0)
        ∗ (∃ _d : Vec F S6400x128 .f32, owns (c : Thread nD τ) a1 fullShare x1)
        ∗ (∃ _d : Vec F S6400x128 .f32, owns (c : Thread nD τ) a2 fullShare x2)
        ∗ (∃ d, owns (c : Thread nD τ) a3 fullShare (x3 d)))
      ⊢ wp frame (wpE (defs₀ (F := F)) Variants.none c none) E (cc7__msg_kernel i a0 h0 a1 h1 a2 h2 a3 h3) fun _ =>
        iprop(P ∗ Q ∗ owns (c : Thread nD τ) a0 fullShare x0 ∗ owns (c : Thread nD τ) a1 fullShare x1
          ∗ owns (c : Thread nD τ) a2 fullShare x2 ∗ owns (c : Thread nD τ) a3 fullShare (out7_3 x0 x1 x2)) := by
  simp only [cc7__msg_kernel_eq_skeleton]
  unfold cc7__msg_kernel_skel owns
  iintro ⟨HP, HQ, ⟨%_, %f0, %e0, H0⟩, ⟨%_, %f1, %e1, H1⟩, ⟨%_, %f2, %e2, H2⟩, ⟨%_, %f3, -, H3⟩⟩
  subst e0 e1 e2
  sl_exec
  sl_step
  isplitl [HP]; · iexact HP
  isplitl [HQ]; · iexact HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (View.cover_of_tiled _ S6400x128.size (by rfl))

def dat7 : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem after7_3 (t : Fin cfg7.N) :
    (dat7 V c).after 3 t = out7_3 (iblk7 V c 0 t) (iblk7 V c 1 t) (iblk7 V c 2 t) := by dsimp only [dat7]

theorem before7_0 (t : Fin cfg7.N) (d) : (dat7 V c).before 0 t d = iblk7 V c 0 t := Dat.before_fetched _ 0 t (fetch7_0 t) d
theorem before7_1 (t : Fin cfg7.N) (d) : (dat7 V c).before 1 t d = iblk7 V c 1 t := Dat.before_fetched _ 1 t (fetch7_1 t) d
theorem before7_2 (t : Fin cfg7.N) (d) : (dat7 V c).before 2 t d = iblk7 V c 2 t := Dat.before_fetched _ 2 t (fetch7_2 t) d

theorem body_obligation7 : BodyObligation (dat7 (F := F) V c) (defs₀ (F := F)) Variants.none () Set.univ := fun t => by
  rw [bigSep_W7, bigSep_W7]
  simp only [before7_0, before7_1, before7_2]
  dsimp only [dat7]
  show _ ⊢ wp _ _ _ (bodyAt7 t) _
  exact sound_kernel7 c _ _ _ _ _ _ _ _ _ _ (iblk7 V c 0 t) (iblk7 V c 1 t) (iblk7 V c 2 t) _ _ _

end Cert.KernelIdeal.Hand
-- ==== Proof.KI.Reg8.lean ====
import proofs.«405917_j13073880449508_1_alg».proof.Proof.Gen.KernelIdeal.Launch
import proofs.«405917_j13073880449508_1_alg».proof.Proof.Gen.KernelIdeal.Skeleton
import proofs.«405917_j13073880449508_1_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_a : Rect S5000x128 := Rect.unit (s := S5000x128) ![0, 0] S5000x128.size inb_S5000x128_S5000x128_0_0
abbrev r8_b : Rect S128 := Rect.unit (s := S128) ![0] S128.size inb_S128_S128_0

def out8_5 (x0 x1 x2 : Vec F S5000x128 .f32) (x3 x4 : Vec F S128 .f32) : Vec F S5000x128 .f32 :=
  View.canon [⟨r8_a, k8_pay1 (View.ld x0 r8_a) (View.ld x1 r8_a) (View.ld x3 r8_b) (View.ld x4 r8_b) (View.ld x2 r8_a)⟩]

theorem hz8_a : (![0, 0] : Fin S5000x128.rank → Nat) = fun _ => 0 :=
  funext fun a => match a with | ⟨0, _⟩ => rfl | ⟨1, _⟩ => rfl
theorem hz8_b : (![0] : Fin S128.rank → Nat) = fun _ => 0 :=
  funext fun a => match a with | ⟨0, _⟩ => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

-- At every point each of the five inputs is its block of the array at entry.
theorem before8_in (c : Dev nD) (t : Fin cfg8.N) :
    (∀ d, (dat8 V c).before 0 t d = iblk8 V c 0 t) ∧ (∀ d, (dat8 V c).before 1 t d = iblk8 V c 1 t)
    ∧ (∀ d, (dat8 V c).before 2 t d = iblk8 V c 2 t) ∧ (∀ d, (dat8 V c).before 3 t d = iblk8 V c 3 t)
    ∧ (∀ d, (dat8 V c).before 4 t d = iblk8 V c 4 t) := by
  refine ⟨?_, ?_, ?_, ?_, ?_⟩ <;> intro d <;>
    refine ((dat8 V c).before_in_eq_fetched _ rfl (fun _ => rfl) (fun _ _ _ => rfl) (fun _ => ?_) t d).trans ?_ <;>
    dsimp only [Dat.fetched, Dat.blockOf, iblk8, dat8] <;> rfl

-- The body keeps the five input blocks and leaves, as the output block, the payload of the five.
theorem body_obligation8 (c : Dev nD) : BodyObligation (dat8 (F := F) V c) (defs₀ (F := F)) Variants.none () Set.univ := fun t => by
  rw [bigSep_W8, bigSep_W8]
  dsimp only
  simp only [before8_in V c t]
  rewrite [show (dat8 V c).owesAt () t.succ = (dat8 V c).owesAt () t.castSucc from rfl, after8_5]
  dsimp only [dat8]
  sl_whnfR [defs₀, Defs.onTc]
  simp only [cc8__combine_kernel_eq_skeleton]; unfold cc8__combine_kernel_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [← h0, ← h1, ← h2, ← h3, ← h4]
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ fun y => ⟨_, List.mem_singleton_self _, View.mem_set_unit_zero hz8_a inb_S5000x128_S5000x128_0_0 y⟩

end Cert.KernelIdeal.Hand
-- ==== Proof.KI.Reg9.lean ====
import proofs.«405917_j13073880449508_1_alg».proof.Proof.Gen.KernelIdeal.Launch
import proofs.«405917_j13073880449508_1_alg».proof.Proof.Gen.KernelIdeal.Skeleton
import proofs.«405917_j13073880449508_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S5000x128 := Rect.unit (s := S5000x128) ![0, 0] S5000x128.size inb_S5000x128_S5000x128_0_0

def out9_1 (x0 : Vec F S5000x128 .f32) : Vec F S5000x128 .f32 :=
  View.canon [⟨r9_0, k9_pay1 (View.ld x0 r9_0)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem after9_1 (c : Dev nD) (t : Fin cfg9.N) : (dat9 V c).after 1 t = out9_1 (iblk9 V c 0 t) := by dsimp only [dat9]

theorem before9_0 (c : Dev nD) (t : Fin cfg9.N) (d) : (dat9 V c).before 0 t d = iblk9 V c 0 t :=
  (dat9 V c).before_fetched 0 t (fetch9_0 t) d

theorem body_obligation9 (c : Dev nD) : BodyObligation (dat9 (F := F) V c) (defs₀ (F := F)) Variants.none () Set.univ := fun t => by
  rw [bigSep_W9, bigSep_W9]
  show iprop(_ ∗ _ ∗ (∃ d, owns (c : Thread nD τ) (st9_0 t) fullShare ((dat9 V c).before 0 t d))
      ∗ (∃ d, owns (c : Thread nD τ) (st9_1 t) fullShare _))
    ⊢ wp _ _ _ (bodyAt9 t) (fun _ => iprop(_ ∗ _ ∗ owns (c : Thread nD τ) (st9_0 t) fullShare _
      ∗ owns (c : Thread nD τ) (st9_1 t) fullShare _))
  simp only [before9_0]
  rw [show (dat9 V c).Φ t.succ = (dat9 V c).Φ t.castSucc from rfl,
    show (dat9 V c).owesAt () t.succ = (dat9 V c).owesAt () t.castSucc from rfl,
    show (dat9 V c).after 0 t = iblk9 V c 0 t by dsimp only [dat9], after9_1]
  unfold bodyAt9
  simp only [cc9__l2norm_kernel_eq_skeleton]; unfold cc9__l2norm_kernel_skel owns
  iintro ⟨HΦ, Ho, ⟨%d0, %f1, %hf1, H1⟩, ⟨%d1, %f2, -, H2⟩⟩
  rw [← hf1]
  sl_exec
  sl_step
  iframe HΦ Ho
  isplitl [H1]
  · iexists f1; isplitr; · ipureintro; rfl
    iexact H1
  iexists _; isplitr
  swap; · iexact H2
  ipureintro
  exact View.read_writes_eq_canon _ _ _ fun y => ⟨_, List.mem_singleton_self _, View.mem_set_unit_zero (by decide) inb_S5000x128_S5000x128_0_0 y⟩

end Cert.KernelIdeal.Hand

end
-- ==== Proof.KI.Run.lean ====
import proofs.«405917_j13073880449508_1_alg».proof.Proof.Gen.KernelIdeal.Regions
import proofs.«405917_j13073880449508_1_alg».proof.Proof.KI.Reg0
import proofs.«405917_j13073880449508_1_alg».proof.Proof.KI.Reg1
import proofs.«405917_j13073880449508_1_alg».proof.Proof.KI.Reg2
import proofs.«405917_j13073880449508_1_alg».proof.Proof.KI.Reg3
import proofs.«405917_j13073880449508_1_alg».proof.Proof.KI.Reg4
import proofs.«405917_j13073880449508_1_alg».proof.Proof.KI.Reg5
import proofs.«405917_j13073880449508_1_alg».proof.Proof.KI.Reg6
import proofs.«405917_j13073880449508_1_alg».proof.Proof.KI.Reg7
import proofs.«405917_j13073880449508_1_alg».proof.Proof.KI.Reg8
import proofs.«405917_j13073880449508_1_alg».proof.Proof.KI.Reg9
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

abbrev tcV (W : Dev nD → Valuation τ sig (Elt F)) : (c : Dev nD) → (b : Ref sig .tc) → Buf (Elt F) ((c : Thread nD τ).loc b) :=
  fun c b => W c b

abbrev putAt (Vi : Dev nD → Valuation τ sig (Elt F)) (r : Ref sig .tc) (v : (c : Dev nD) → Buf (Elt F) ((c : Thread nD τ).loc r)) :
    Dev nD → Valuation τ sig (Elt F) := fun c => Function.update (Vi c) (Proc.devRef .tc r) (v c)

abbrev 𝒱₀ : Variants := Variants.none
abbrev L : GSem nD τ sig → Finset Unit := fun _ => ∅
abbrev lv : GSem nD τ sig → Unit → ℕ := fun _ _ => 0

abbrev R (c : Dev nD) : sProp 𝕄 :=
  iprop((∃ r, prngReg c r) ∗ ∃ W, owes (c : Thread nD τ) (0 : CellTallies nD τ sig Unit) W)

structure Plain {p : Fin 10} {c : Dev nD} (dat : Dat τ (Elt F) Unit ℕ (UR sig nD τ) ℕ (cfgs p) c)
    (V : (b : Ref sig .tc) → Buf (Elt F) ((c : Thread nD τ).loc b)) : Prop where
  arr : ∀ w, dat.A w = V (Pipeline.arrRef (cfgs p).spec w)
  inv : ∀ t, dat.Φ t = Pipeline.ΦA (cfgs p).spec c
  full : ∀ w, dat.q w = fullShare
  owed : ∀ t, dat.owed t = 0
  norec : ∀ t, dat.recorded t = Set.univ

section Builder

variable (pd : (p : Fin 10) → (c : Dev nD) → Dat τ (Elt F) Unit ℕ (UR sig nD τ) ℕ (cfgs p) c)

-- Every array but the one at `wo` keeps its entry contents, so the exit contents are the entry contents with that array replaced.
set_option backward.isDefEq.respectTransparency.types false in
def regOf (p : Fin 10) (lf : Pipeline.LaunchFacts (nD := nD) (τ := τ) cfgs p) (Vi : Dev nD → Valuation τ sig (Elt F))
    (hb : ∀ c, BodyObligation (pd p c) (defs₀ (F := F)) Variants.none () Set.univ) (wo : Fin (cfgs p).W)
    (v : (c : Dev nD) → Buf (Elt F) ((c : Thread nD τ).loc (Pipeline.arrRef (cfgs p).spec wo)))
    (hv : ∀ c, (pd p c).arrAt wo (cfgs p).N = v c)
    (hio : ∀ w, ((cfgs p).win w).isOut = false ∨ w = wo := by decide)
    (hpl : ∀ c, Plain (pd p c) (tcV Vi c) := by exact fun _ => ⟨fun _ => rfl, fun _ => rfl, fun _ => rfl, fun _ => rfl, fun _ => rfl⟩) :
    RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c t => (hpl c).owed t
  pre c := iprop(StableHlo.held (c : Thread nD τ) (Pipeline.ucRefs τ sig) (Vi c) ∗ R c)
  post c := iprop(StableHlo.held (c : Thread nD τ) (Pipeline.ucRefs τ sig) (putAt Vi _ v c) ∗ R c)
  X c := iprop(∃ r, prngReg c r)
  Y c := iprop(∃ r, prngReg c r)
  Z c := Pipeline.unscopedRest (Ix := Unit) (Name := ℕ) (U := UR sig nD τ) (Lvl := ℕ) (cfgs p).spec c (tcV Vi c)
  hentry c := by
    have hs := Pipeline.arrays_of_unscopedBufs (p := p) (pcfgs (F := F)) adm pd lf.win lf.arr_whole c
      ((pd p c).share_full (hpl c).full) (tcV Vi c) (hpl c).arr
    rw [Pipeline.unscopedBufs_held c (Vi c)] at hs
    rw [Pipeline.ownSems0_none]
    iintro ⟨⟨Hbufs, Hprng, Howes⟩, -, -⟩
    ihave Hs := hs $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.Dat.bound Pipeline.owesWithin
      rw [(hpl c).owed, (hpl c).norec]
      icases Howes with ⟨%W, Howes⟩
      iexists W
      isplitr; · ipureintro; exact fun _ _ => Or.inl trivial
      iexact Howes
    isplitl [Hprng]; · iexact Hprng
    iexact Hrest
  hin c := by
    rw [(hpl c).inv]; unfold Pipeline.ΦA
    iintro ⟨Hprng, -, Hsc⟩
    isplitl [Hsc]; · iexact Hsc
    iexact Hprng
  hout c := by
    rw [(hpl c).inv, Pipeline.ownSems0_none]; unfold Pipeline.ΦA
    iintro ⟨Hsc, Hprng⟩
    isplitl [Hprng]; · iexact Hprng
    isplitr; · iempintro
    iexact Hsc
  hexit c := by
    have hF : ∀ w, (pd p c).arrAt w (cfgs p).N = tcV (putAt Vi _ v) c (Pipeline.arrRef (cfgs p).spec w) := fun w => by
      by_cases h : w = wo
      · subst h
        show _ = Function.update (Vi c) (Proc.devRef .tc (Pipeline.arrRef (cfgs p).spec w)) (v c) (Proc.devRef .tc (Pipeline.arrRef (cfgs p).spec w))
        rw [Function.update_self]; exact hv c
      · exact ((pd p c).arrAt_in w ((hio w).resolve_right h) _).trans (((hpl c).arr w).trans
          (Function.update_of_ne (StableHlo.devRef_ne_of_ne (lf.win.arr_inj.ne h)) _ _).symm)
    have hrest : ∀ b, b ∉ Finset.univ.image (Pipeline.arrRef (cfgs p).spec) → tcV (putAt Vi _ v) c b = tcV Vi c b := fun b hb =>
      Function.update_of_ne (StableHlo.devRef_ne_of_ne fun e => hb (Finset.mem_image.mpr ⟨wo, Finset.mem_univ _, e.symm⟩)) _ _
    have hj := Pipeline.unscopedBufs_of_arrays (p := p) (pcfgs (F := F)) adm (Ix := Unit) (Name := ℕ) (U := UR sig nD τ) (Lvl := ℕ)
      lf.win lf.arr_whole c pd ((pd p c).share_full (hpl c).full) (tcV Vi c) (tcV (putAt Vi _ v) c)
      ((pd p c).arrAt · (cfgs p).N) hF hrest
    rw [Pipeline.unscopedBufs_held c (putAt Vi _ v c)] at hj
    iintro ⟨Harr, Howes, Hprng, Hrest⟩
    imodintro
    isplitl [Harr Hrest]
    · iapply hj
      isplitl [Harr]; · iexact Harr
      iexact Hrest
    isplitl [Hprng]; · iexact Hprng
    unfold Pipeline.Dat.owesAt Pipeline.owesWithin
    rw [(hpl c).owed]
    icases Howes with ⟨%W, -, Howes⟩
    iexists W; iexact Howes

end Builder

variable (m : (ℓ : Loc nD τ sig) → Buf (Elt F) ℓ)

section Stages
variable (c : Dev nD)

def o0 : Buf (Elt F) ((c : Thread nD τ).loc main_v25) := (dat0 (tcV (V1 m)) c).arrAt 3 cfg0.N
def X6 : Valuation τ sig (Elt F) := StableHlo.after hostOps1_3 (StableHlo.after hostOps1_2 (StableHlo.after hostOps1_1 (StableHlo.after hostOps1 (Function.update (V1 m c) main_v25 (o0 m c)))))
def o1 : Buf (Elt F) ((c : Thread nD τ).loc main_v33) := (dat1 (tcV (X6 m)) c).arrAt 3 cfg1.N
def X8 : Valuation τ sig (Elt F) := StableHlo.after hostOps2 (Function.update (X6 m c) main_v33 (o1 m c))
def o2 : Buf (Elt F) ((c : Thread nD τ).loc main_v41) := (dat2 (tcV (X8 m)) c).arrAt 5 cfg2.N
def X10 : Valuation τ sig (Elt F) := StableHlo.after hostOps3 (Function.update (X8 m c) main_v41 (o2 m c))
def o3 : Buf (Elt F) ((c : Thread nD τ).loc main_v63) := (dat3 (tcV (X10 m)) c).arrAt 3 cfg3.N
def X15 : Valuation τ sig (Elt F) := StableHlo.after hostOps4_3 (StableHlo.after hostOps4_2 (StableHlo.after hostOps4_1 (StableHlo.after hostOps4 (Function.update (X10 m c) main_v63 (o3 m c)))))
def o4 : Buf (Elt F) ((c : Thread nD τ).loc main_v71) := (dat4 (tcV (X15 m)) c).arrAt 3 cfg4.N
def X17 : Valuation τ sig (Elt F) := StableHlo.after hostOps5 (Function.update (X15 m c) main_v71 (o4 m c))
def o5 : Buf (Elt F) ((c : Thread nD τ).loc main_v79) := (dat5 (tcV (X17 m)) c).arrAt 5 cfg5.N
def X19 : Valuation τ sig (Elt F) := StableHlo.after hostOps6 (Function.update (X17 m c) main_v79 (o5 m c))
def o6 : Buf (Elt F) ((c : Thread nD τ).loc main_v101) := (dat6 (tcV (X19 m)) c).arrAt 3 cfg6.N
def X24 : Valuation τ sig (Elt F) := StableHlo.after hostOps7_3 (StableHlo.after hostOps7_2 (StableHlo.after hostOps7_1 (StableHlo.after hostOps7 (Function.update (X19 m c) main_v101 (o6 m c)))))
def o7 : Buf (Elt F) ((c : Thread nD τ).loc main_v109) := (dat7 (tcV (X24 m)) c).arrAt 3 cfg7.N
def X26 : Valuation τ sig (Elt F) := StableHlo.after hostOps8 (Function.update (X24 m c) main_v109 (o7 m c))
def o8 : Buf (Elt F) ((c : Thread nD τ).loc main_v117) := (dat8 (tcV (X26 m)) c).arrAt 5 cfg8.N
def X27 : Valuation τ sig (Elt F) := Function.update (X26 m c) main_v117 (o8 m c)
def o9 : Buf (Elt F) ((c : Thread nD τ).loc main_v118) := (dat9 (tcV (X27 m)) c).arrAt 1 cfg9.N

end Stages

def outs : Outs (F := F) := fun J r c =>
  let b : (r : Ref sig .tc) → Buf (Elt F) ((c : Thread nD τ).loc r) := fun r => m ((c : Thread nD τ).loc r)
  (match J with
   | 2 => Function.update b main_v25 (o0 m c)
   | 7 => Function.update b main_v33 (o1 m c)
   | 9 => Function.update b main_v41 (o2 m c)
   | 11 => Function.update b main_v63 (o3 m c)
   | 16 => Function.update b main_v71 (o4 m c)
   | 18 => Function.update b main_v79 (o5 m c)
   | 20 => Function.update b main_v101 (o6 m c)
   | 25 => Function.update b main_v109 (o7 m c)
   | 27 => Function.update b main_v117 (o8 m c)
   | 28 => Function.update b main_v118 (o9 m c)
   | _ => b) r

section Chain
variable (c : Dev nD)

theorem outs_at0 : outs m 2 main_v25 c = o0 m c := by unfold outs; exact Function.update_self ..
theorem outs_at1 : outs m 7 main_v33 c = o1 m c := by unfold outs; exact Function.update_self ..
theorem outs_at2 : outs m 9 main_v41 c = o2 m c := by unfold outs; exact Function.update_self ..
theorem outs_at3 : outs m 11 main_v63 c = o3 m c := by unfold outs; exact Function.update_self ..
theorem outs_at4 : outs m 16 main_v71 c = o4 m c := by unfold outs; exact Function.update_self ..
theorem outs_at5 : outs m 18 main_v79 c = o5 m c := by unfold outs; exact Function.update_self ..
theorem outs_at6 : outs m 20 main_v101 c = o6 m c := by unfold outs; exact Function.update_self ..
theorem outs_at7 : outs m 25 main_v109 c = o7 m c := by unfold outs; exact Function.update_self ..
theorem outs_at8 : outs m 27 main_v117 c = o8 m c := by unfold outs; exact Function.update_self ..
theorem outs_at9 : outs m 28 main_v118 c = o9 m c := by unfold outs; exact Function.update_self ..

-- By induction along the items: each generated valuation at `outs` is the stage contents computed above.
theorem V6_eq : V6 m (outs m) = X6 m := funext fun c => by rw [X6, ← outs_at0]
theorem V8_eq : V8 m (outs m) = X8 m := funext fun c => by rw [X8, ← V6_eq, ← outs_at1]
theorem V10_eq : V10 m (outs m) = X10 m := funext fun c => by rw [X10, ← V8_eq, ← outs_at2]
theorem V15_eq : V15 m (outs m) = X15 m := funext fun c => by rw [X15, ← V10_eq, ← outs_at3]
theorem V17_eq : V17 m (outs m) = X17 m := funext fun c => by rw [X17, ← V15_eq, ← outs_at4]
theorem V19_eq : V19 m (outs m) = X19 m := funext fun c => by rw [X19, ← V17_eq, ← outs_at5]
theorem V24_eq : V24 m (outs m) = X24 m := funext fun c => by rw [X24, ← V19_eq, ← outs_at6]
theorem V26_eq : V26 m (outs m) = X26 m := funext fun c => by rw [X26, ← V24_eq, ← outs_at7]
theorem V27_eq : V27 m (outs m) = X27 m := funext fun c => by rw [X27, ← V26_eq, ← outs_at8]

theorem outs_eq0 : outs m 2 main_v25 c = (dat0 (tcV (V1 m)) c).arrAt 3 cfg0.N := outs_at0 m c
theorem outs_eq1 : outs m 7 main_v33 c = (dat1 (tcV (V6 m (outs m))) c).arrAt 3 cfg1.N := by
  rw [V6_eq]; exact outs_at1 m c
theorem outs_eq2 : outs m 9 main_v41 c = (dat2 (tcV (V8 m (outs m))) c).arrAt 5 cfg2.N := by
  rw [V8_eq]; exact outs_at2 m c
theorem outs_eq3 : outs m 11 main_v63 c = (dat3 (tcV (V10 m (outs m))) c).arrAt 3 cfg3.N := by
  rw [V10_eq]; exact outs_at3 m c
theorem outs_eq4 : outs m 16 main_v71 c = (dat4 (tcV (V15 m (outs m))) c).arrAt 3 cfg4.N := by
  rw [V15_eq]; exact outs_at4 m c
theorem outs_eq5 : outs m 18 main_v79 c = (dat5 (tcV (V17 m (outs m))) c).arrAt 5 cfg5.N := by
  rw [V17_eq]; exact outs_at5 m c
theorem outs_eq6 : outs m 20 main_v101 c = (dat6 (tcV (V19 m (outs m))) c).arrAt 3 cfg6.N := by
  rw [V19_eq]; exact outs_at6 m c
theorem outs_eq7 : outs m 25 main_v109 c = (dat7 (tcV (V24 m (outs m))) c).arrAt 3 cfg7.N := by
  rw [V24_eq]; exact outs_at7 m c
theorem outs_eq8 : outs m 27 main_v117 c = (dat8 (tcV (V26 m (outs m))) c).arrAt 5 cfg8.N := by
  rw [V26_eq]; exact outs_at8 m c
theorem outs_eq9 : outs m 28 main_v118 c = (dat9 (tcV (V27 m (outs m))) c).arrAt 1 cfg9.N := by
  rw [V27_eq]; exact outs_at9 m c

end Chain

def pdats : (p : Fin 10) → (c : Dev nD) → Dat τ (Elt F) Unit ℕ (UR sig nD τ) ℕ (cfgs p) c
  | ⟨0, _⟩ => fun c => dat0 (tcV (V1 m)) c
  | ⟨1, _⟩ => fun c => dat1 (tcV (V6 m (outs m))) c
  | ⟨2, _⟩ => fun c => dat2 (tcV (V8 m (outs m))) c
  | ⟨3, _⟩ => fun c => dat3 (tcV (V10 m (outs m))) c
  | ⟨4, _⟩ => fun c => dat4 (tcV (V15 m (outs m))) c
  | ⟨5, _⟩ => fun c => dat5 (tcV (V17 m (outs m))) c
  | ⟨6, _⟩ => fun c => dat6 (tcV (V19 m (outs m))) c
  | ⟨7, _⟩ => fun c => dat7 (tcV (V24 m (outs m))) c
  | ⟨8, _⟩ => fun c => dat8 (tcV (V26 m (outs m))) c
  | ⟨9, _⟩ => fun c => dat9 (tcV (V27 m (outs m))) c

def reg0 : RegionSeg (pcfgs (F := F)) adm (pdats m) () defs₀ 𝒱₀ L lv 0 :=
  regOf (pdats m) 0 launch0 (V1 m) (body_obligation0 _) 3 (outs m 2 main_v25) fun c => (outs_eq0 m c).symm
def reg1 : RegionSeg (pcfgs (F := F)) adm (pdats m) () defs₀ 𝒱₀ L lv 1 :=
  regOf (pdats m) 1 launch1 (V6 m (outs m)) (body_obligation1 _) 3 (outs m 7 main_v33) fun c => (outs_eq1 m c).symm
def reg2 : RegionSeg (pcfgs (F := F)) adm (pdats m) () defs₀ 𝒱₀ L lv 2 :=
  regOf (pdats m) 2 launch2 (V8 m (outs m)) (body_obligation2 _) 5 (outs m 9 main_v41) fun c => (outs_eq2 m c).symm
def reg3 : RegionSeg (pcfgs (F := F)) adm (pdats m) () defs₀ 𝒱₀ L lv 3 :=
  regOf (pdats m) 3 launch3 (V10 m (outs m)) (body_obligation3 _) 3 (outs m 11 main_v63) fun c => (outs_eq3 m c).symm
def reg4 : RegionSeg (pcfgs (F := F)) adm (pdats m) () defs₀ 𝒱₀ L lv 4 :=
  regOf (pdats m) 4 launch4 (V15 m (outs m)) (body_obligation4 _) 3 (outs m 16 main_v71) fun c => (outs_eq4 m c).symm
def reg5 : RegionSeg (pcfgs (F := F)) adm (pdats m) () defs₀ 𝒱₀ L lv 5 :=
  regOf (pdats m) 5 launch5 (V17 m (outs m)) (body_obligation5 _) 5 (outs m 18 main_v79) fun c => (outs_eq5 m c).symm
def reg6 : RegionSeg (pcfgs (F := F)) adm (pdats m) () defs₀ 𝒱₀ L lv 6 :=
  regOf (pdats m) 6 launch6 (V19 m (outs m)) (body_obligation6 _) 3 (outs m 20 main_v101) fun c => (outs_eq6 m c).symm
def reg7 : RegionSeg (pcfgs (F := F)) adm (pdats m) () defs₀ 𝒱₀ L lv 7 :=
  regOf (pdats m) 7 launch7 (V24 m (outs m)) (body_obligation7 _) 3 (outs m 25 main_v109) fun c => (outs_eq7 m c).symm
def reg8 : RegionSeg (pcfgs (F := F)) adm (pdats m) () defs₀ 𝒱₀ L lv 8 :=
  regOf (pdats m) 8 launch8 (V26 m (outs m)) (body_obligation8 _) 5 (outs m 27 main_v117) fun c => (outs_eq8 m c).symm
def reg9 : RegionSeg (pcfgs (F := F)) adm (pdats m) () defs₀ 𝒱₀ L lv 9 :=
  regOf (pdats m) 9 launch9 (V27 m (outs m)) (body_obligation9 _) 1 (outs m 28 main_v118) fun c => (outs_eq9 m c).symm

abbrev u₀ : UR sig nD τ := initOf (Pipeline.cells cfgs cellOf_inj) (Pipeline.launchToks cfgs cellOf_inj)

theorem hu₀ : (ownU (u₀) : sProp 𝕄)
    ⊢ |={Set.univ}=> iprop(BI.own ((emb₁ : Emb _ 𝕄) (initOf (Pipeline.cells cfgs cellOf_inj) (Pipeline.launchToks cfgs cellOf_inj)))
        ∗ bigSep Finset.univ fun _ : Dev nD => (BI.emp : sProp 𝕄)) := by
  rw [ownU_emb₁, BI.bigSep_emp_const]
  iintro Hu; imodintro
  isplitl [Hu]; · iexact Hu
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, Howes, -, Hprng, -⟩, -⟩
  imodintro
  isplitl [Hprng]; · iexists _; iexact Hprng
  iexists ∅; iexact Howes

theorem hE10 (c : Dev nD) : R (F := F) c ⊢ (iprop(∃ W, owes (c : Thread nD τ) (0 : CellTallies nD τ sig Unit) W) : sProp 𝕄) := by
  iintro ⟨-, Howes⟩; iexact Howes

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (emb₁) () 𝒱₀ L lv (fun _ _ => rfl) ρ (outs m) (pdats m) 0 (fun _ => BI.emp) u₀ hu₀
    (fun _ c => R c) (hE0 ρ) hE10
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)

section Value

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run_result (ρ : Dev nD → PrngReg) :
    θ_run defs (onTc (τ := τ) (main (F := F))) ⟨m, fun _ => 0, ρ⟩ (fun r => ∀ c : Dev nD,
      r.2.mem ((c.tc : Thread nD τ).loc main_v118) = outs m 28 main_v118 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m) (reg6 m) (reg7 m) (reg8 m) (reg9 m))
    (fun c Q => by
      rewrite [main_chain c, Seg.run_eq_chain,
        show (segs m (outs m) 𝒱₀ L lv (fun _ c => R c) () (pdats m) (reg0 m) (reg1 m) (reg2 m) (reg3 m) (reg4 m) (reg5 m) (reg6 m) (reg7 m) (reg8 m) (reg9 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          StableHlo.seq hostOps7_3,
          Prog.lift (.customCall (Pipeline.entry 7) ()),
          StableHlo.seq hostOps8,
          Prog.lift (.customCall (Pipeline.entry 8) ()),
          Prog.lift (.customCall (Pipeline.entry 9) ()) ] from rfl]
      exact .rfl)
    (fun c => by simp only [segs, Seg.pipes_host, Seg.pipes_region, Seg.pipes_nil]; decide)
    0 (fun _ _ => rfl) (fun _ => BI.emp) u₀ hu₀
    (T₀ := fun c => iprop(StableHlo.held (c : Thread nD τ) (Pipeline.ucRefs τ sig) (V0 m c) ∗ R c))
    (Tₙ := fun c => StableHlo.held (c : Thread nD τ) (Pipeline.ucRefs τ sig) (V28 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hE10 c)⟩)
    (hinit := ?_)
    (QY := fun c s => s.mem ((c.tc : Thread nD τ).loc main_v118) = outs m 28 main_v118 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10))
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hbufs, -, Howes, -, Hprng, -⟩, -⟩
    imodintro
    isplitl [Hbufs]; · iexact Hbufs
    isplitl [Hprng]; · iexists _; iexact Hprng
    iexists ∅; iexact Howes
  · unfold StableHlo.held
    iintro ⟨Hh, HSI⟩
    ihave Hr := (pointsTo_read_all (Pipeline.ucRefs τ sig) (fun b => ((c : Thread nD τ).1, b)) (V28 m (outs m) c) s') $$ [Hh HSI]
    · isplitl [Hh] <;> iassumption
    icases Hr with ⟨%h, HSI⟩
    have a := fun (b : Ref sig .tc) (hb : ¬ (Proc.devRef .tc b : DevRef τ sig).isScoped) => h _ (mem_uc b hb)
    imodintro
    isplitr
    · ipureintro
      exact ⟨(a main_v118 (by decide)).trans
          (Function.update_self (f := V27 m (outs m) c) (Proc.devRef .tc main_v118) (outs m 28 main_v118 c)),
        (a main_arg0 (by decide)).trans (V28_main_arg0 m (outs m) c),
        (a main_arg1 (by decide)).trans (V28_main_arg1 m (outs m) c),
        (a main_arg2 (by decide)).trans (V28_main_arg2 m (outs m) c),
        (a main_arg3 (by decide)).trans (V28_main_arg3 m (outs m) c),
        (a main_arg4 (by decide)).trans (V28_main_arg4 m (outs m) c),
        (a main_arg5 (by decide)).trans (V28_main_arg5 m (outs m) c),
        (a main_arg6 (by decide)).trans (V28_main_arg6 m (outs m) c),
        (a main_arg7 (by decide)).trans (V28_main_arg7 m (outs m) c),
        (a main_arg8 (by decide)).trans (V28_main_arg8 m (outs m) c),
        (a main_arg9 (by decide)).trans (V28_main_arg9 m (outs m) c),
        (a main_arg10 (by decide)).trans (V28_main_arg10 m (outs m) c)⟩
    · iexact HSI

end Value

end Cert.KernelIdeal.Hand

end
-- ==== Proof.Spec.Proj.lean ====
import Idealize.ShloMosaic.Lib.ValueIdx

noncomputable section

namespace Cert.Spec

open Idealize.ShloMosaic Idealize.ShloMosaic.ValueIdx
open scoped BigOperators

def proj (x : (⟨2, ![40000, 128]⟩ : Shape).Idx → Ideal .f32) (w : (⟨2, ![128, 512]⟩ : Shape).Idx → Ideal .f32)
    (b : (⟨1, ![512]⟩ : Shape).Idx → Ideal .f32) : (⟨2, ![40000, 512]⟩ : Shape).Idx → Ideal .f32 :=
  fun i => (∑ k : Fin 128, x (ix2 (i 0) k) * w (ix2 k (i 1))) + b (ix1 (i 1))

theorem proj_apply (x : (⟨2, ![40000, 128]⟩ : Shape).Idx → Ideal .f32) (w : (⟨2, ![128, 512]⟩ : Shape).Idx → Ideal .f32)
    (b : (⟨1, ![512]⟩ : Shape).Idx → Ideal .f32) (i : (⟨2, ![40000, 512]⟩ : Shape).Idx) :
    proj x w b i = (∑ k : Fin 128, x (ix2 (i 0) k) * w (ix2 k (i 1))) + b (ix1 (i 1)) := rfl

end Cert.Spec

end
-- ==== Proof.Spec.ProjOps.lean ====
import Idealize.ShloMosaic.Lib.StackMember

noncomputable section

namespace Cert.Spec

open Idealize.ShloMosaic Idealize.ShloMosaic.ValueIdx
open scoped BigOperators

theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant ⟨2, ![M, N]⟩ .f32 0x00000000#32) (ix2 a b)
      = ∑ c : Fin K, A (ix2 a c) * B (ix2 c b) := by
  rw [matmul_zero_eq_dotGeneral]
  exact StackMember.dotGeneral_plain_apply prec A B a b

theorem row_broadcast_apply {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (b : Fin n) :
    broadcastTo ⟨2, ![m, n]⟩ (shapeCast ⟨2, ![1, n]⟩ x h1) hb (ix2 a b) = x (ix1 b) := by
  have hrow : broadcastTo ⟨2, ![m, n]⟩ (shapeCast ⟨2, ![1, n]⟩ x h1) hb (ix2 a b)
      = shapeCast ⟨2, ![1, n]⟩ x h1 (ix2 (0 : Fin 1) b) := by
    refine broadcastTo_apply _ hb (ix2 a b) (ix2 (0 : Fin 1) b) ?_
    intro ax
    match ax with
    | ⟨0, _⟩ => rfl
    | ⟨1, _⟩ =>
      show b.val = if n = 1 then 0 else b.val
      split
      · have := b.isLt; omega
      · rfl
  have hcast : shapeCast ⟨2, ![1, n]⟩ x h1 (ix2 (0 : Fin 1) b) = x (ix1 b) := by
    refine shapeCast_apply x h1 (ix2 (0 : Fin 1) b) (ix1 b) ?_
    rw [Shape.rowMajor_val_two, Shape.rowMajor_val_one]
    show b.val = 0 * n + b.val
    omega
  exact hrow.trans hcast

end Cert.Spec

end
-- ==== Proof.KI.Val0.lean ====
import proofs.«405917_j13073880449508_1_alg».proof.Proof.KI.Reg0
import proofs.«405917_j13073880449508_1_alg».proof.Proof.Spec.Proj
import proofs.«405917_j13073880449508_1_alg».proof.Proof.Spec.ProjOps
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b)) (c : Dev nD)

-- The casts are identities at the ideal values, the product accumulates into zero, and the bias is laid along every row.
theorem pay0_apply (x0 x1 x2) (a : Fin 5000) (b : Fin 512) :
    k0_pay1 (F := Ideal) x0 x1 x2 (ix2 a b) = (∑ k : Fin 128, x0 (ix2 a k) * x1 (ix2 k b)) + x2 (ix1 b) := by
  unfold k0_pay1
  simp only [shapeCast_self]
  exact congrArg₂ (· + ·) (Cert.Spec.matmul_plain_zero_apply none _ _ a b) (Cert.Spec.row_broadcast_apply x2 _ _ a b)

theorem zeros0_2 : (![0, 0] : Fin 2 → Nat) = fun _ => 0 := by decide
theorem zeros0_1 : (![0] : Fin 1 → Nat) = fun _ => 0 := by decide

-- Row a of output block t is row a of block t of x; the weights and the bias have one block, so every other block index is zero.
theorem flushed_eq0 (t : Fin cfg0.N) :
    (dat0 (F := Ideal) V c).flushed 3 t
      = ((cfg0.win 3).blk t).view.read (Elt Ideal) (Cert.Spec.proj (V c main_arg0) (V c main_v16) (V c main_v24)) := by
  show (cfg0.win 3).cut (grid0.coords t) ((dat0 V c).after 3 t) = _
  rw [after0_3]; unfold out0_3
  rw [View.canon_unit_zero zeros0_2]
  simp only [View.ld_unit_zero (S := S5000x128) zeros0_2, View.ld_unit_zero (S := S128x512) zeros0_2,
    View.ld_unit_zero (S := S512) zeros0_1]
  funext j
  obtain ⟨a, b, rfl⟩ : ∃ (a : Fin 5000) (b : Fin 512), j = ix2 a b := ⟨j 0, j 1, eq_ix2 j⟩
  show k0_pay1 _ _ _ (ix2 a b) = Cert.Spec.proj _ _ _ (((cfg0.win 3).blk t).view.emb (ix2 a b))
  rw [pay0_apply, Cert.Spec.proj_apply]
  have hb := (win0_3.rect_emb_val_of_index_zero t 1 rfl (ix2 a b)).symm
  refine congrArg₂ (· + ·) (Finset.sum_congr rfl fun k _ => congrArg₂ (· * ·) ?_ ?_) ?_
  · exact congrArg (V c main_arg0) (Shape.idx_ext₂ rfl (win0_0.rect_emb_val_of_index_zero t 1 rfl _))
  · exact congrArg (V c main_v16) (Shape.idx_ext₂ (win0_1.rect_emb_val_of_index_zero t 0 rfl _)
      ((win0_1.rect_emb_val_of_index_zero t 1 rfl (ix2 k b)).trans hb))
  · exact congrArg (V c main_v24) (funext fun | ⟨0, _⟩ => Fin.ext ((win0_2.rect_emb_val_of_index_zero t 0 rfl (ix1 b)).trans hb))

theorem idx_onto0 : ∀ q < 8, ∃ t : Fin cfg0.N, win0_3.index t (0 : Fin 2) = q :=
  (by decide +kernel : ∀ q < 8, ∃ t : Fin grid0.N, win0_3.index t (0 : Fin 2) = q)

-- An index of the output lies in the block of the point whose row block holds its row.
theorem cover0 (i : S40000x512.Idx) :
    ∃ t : Fin cfg0.N, (cfg0.win 3).flush t = true ∧ i ∈ ((cfg0.win 3).blk t).view.set := by
  have h0 : (i 0).val < 40000 := (i 0).isLt
  have h1 : (i 1).val < 512 := (i 1).isLt
  obtain ⟨t, ht⟩ := idx_onto0 ((i 0).val / 5000) (by omega)
  refine ⟨t, flush0_3 t, ?_⟩
  show i ∈ ((View.whole main_v25).slice (win0_3.rect t)).set
  rw [View.set_slice_whole, Rect.mem_set_unit]
  exact fun
    | ⟨0, _⟩ => by
      show win0_3.index t (0 : Fin 2) * 5000 ≤ (i 0).val ∧ (i 0).val < win0_3.index t (0 : Fin 2) * 5000 + 5000
      omega
    | ⟨1, _⟩ => by
      show 0 * 512 ≤ (i 1).val ∧ (i 1).val < 0 * 512 + 512
      omega

theorem arrAt0 :
    (dat0 (F := Ideal) V c).arrAt 3 cfg0.N = Cert.Spec.proj (V c main_arg0) (V c main_v16) (V c main_v24) :=
  (dat0 (F := Ideal) V c).arrAt_eq_of_cover 3 _ (fun t _ => flushed_eq0 V c t) cover0

end Cert.KernelIdeal.Hand

end
-- ==== Proof.Spec.Msg.lean ====
import Idealize.ShloMosaic.PureOps.Ideal

noncomputable section

namespace Cert.Spec

open Idealize.ShloMosaic

def msg (a b v : FVec Ideal (⟨2, ![640000, 128]⟩ : Shape) .f32) : FVec Ideal (⟨2, ![640000, 128]⟩ : Shape) .f32 :=
  mulf (logistic (addf a b)) v

theorem msg_apply (a b v : FVec Ideal (⟨2, ![640000, 128]⟩ : Shape) .f32) (i : (⟨2, ![640000, 128]⟩ : Shape).Idx) :
    msg a b v i = FloatOps.mulf (FloatOps.logistic (FloatOps.addf (a i) (b i))) (v i) := rfl

theorem logistic_eq_host (x : Ideal .f32) :
    FloatOps.logistic x = FloatOps.hostDivf (1 : Ideal .f32) (FloatOps.addf 1 (FloatOps.hostUnary .exp (FloatOps.hostNegf x))) := rfl

end Cert.Spec

end
-- ==== Proof.KI.Val1.lean ====
import proofs.«405917_j13073880449508_1_alg».proof.Proof.KI.Reg1
import proofs.«405917_j13073880449508_1_alg».proof.Proof.Spec.Msg
import Idealize.ShloMosaic.Lib.Pipeline.Value
import Idealize.ShloMosaic.PureOps.Ideal

noncomputable section

namespace Cert.KernelIdeal.Hand

open Cert.KernelIdeal Cert.KernelIdeal.Gen
open Idealize.ShloMosaic Idealize.ShloMosaic.TcCoe
open Idealize.SL Idealize.SL.Sem

theorem zeroOff1 : (![0, 0] : Fin 2 → Nat) = fun _ => 0 := funext fun a => by fin_cases a <;> rfl

-- A single piece over the whole shape is its payload, and the payload's casts are between equal shapes.
theorem out1_3_eq {F : FTy → Type} [FloatOps F] (x0 x1 x2 : Vec F S6400x128 .f32) :
    out1_3 x0 x1 x2 = mulf (logistic (addf x0 x1)) x2 := by
  unfold out1_3 k1_pay1
  simp only [View.canon_unit_zero (S := S6400x128) zeroOff1, View.ld_unit_zero (S := S6400x128) zeroOff1, shapeCast_self]

theorem rowIdx1 : ∀ t : Fin cfg1.N, win1_3.index t 0 = t.val ∧ win1_3.index t 1 = 0 :=
  (by decide +kernel : ∀ t : Fin grid1.N, _)

-- Row `r` lies in the block of point `r / 6400`.
theorem covered1 (i : S640000x128.Idx) :
    ∃ t : Fin cfg1.N, (cfg1.win 3).flush t = true ∧ i ∈ ((cfg1.win 3).blk t).view.set := by
  have h0 : (i 0).val < 640000 := (i 0).isLt
  have h1 : (i 1).val < 128 := (i 1).isLt
  have ht : (i 0).val / 6400 < cfg1.N := by rw [show cfg1.N = 100 from N_1]; omega
  obtain ⟨o0, o1⟩ := rowIdx1 ⟨_, ht⟩
  refine ⟨⟨_, ht⟩, flush1_3 _, ?_⟩
  show i ∈ ((View.whole (Pipeline.arrRef spec1 3)).slice (win1_3.rect ⟨_, ht⟩)).set
  rw [View.set_slice_whole, Rect.mem_set_unit]
  refine Fin.forall_fin_two.mpr ⟨?_, ?_⟩
  · show win1_3.index _ 0 * 6400 ≤ (i 0).val ∧ (i 0).val < win1_3.index _ 0 * 6400 + 6400
    rw [o0]; show (i 0).val / 6400 * 6400 ≤ _ ∧ _ < (i 0).val / 6400 * 6400 + 6400; omega
  · show win1_3.index _ 1 * 128 ≤ (i 1).val ∧ (i 1).val < win1_3.index _ 1 * 128 + 128
    rw [o1]; omega

variable (V : (c : Dev nD) → (b : Ref sig .tc) → Buf (Elt Ideal) ((c : Thread nD τ).loc b)) (c : Dev nD)

-- All four windows have one index map, so the pointwise term of the input blocks is the block of the array term.
theorem arrAt1 :
    (dat1 (F := Ideal) V c).arrAt 3 cfg1.N
      = Cert.Spec.msg (V c (Pipeline.arrRef spec1 0)) (V c (Pipeline.arrRef spec1 1)) (V c (Pipeline.arrRef spec1 2)) :=
  (dat1 (F := Ideal) V c).arrAt_eq_of_cover 3 _ (fun t _ => by
    show (cfg1.win 3).cut _ ((dat1 V c).after 3 t) = _
    rw [after1_3, out1_3_eq]; rfl) covered1

end Cert.KernelIdeal.Hand

end
-- ==== Proof.Spec.L2norm.lean ====
import Idealize.ShloMosaic.PureOps.Ideal
import Idealize.ShloMosaic.PureOps.ShapeOps

noncomputable section

namespace Cert.Spec

open Idealize.ShloMosaic

abbrev inRow {n : Nat} (i : (⟨2, ![n, 128]⟩ : Shape).Idx) (k : Fin 128) : (⟨2, ![n, 128]⟩ : Shape).Idx :=
  Shape.Idx.along i (1 : Fin 2) k

def rowSumSq {n : Nat} (h : (⟨2, ![n, 128]⟩ : Shape).Idx → EReal) (i : (⟨2, ![n, 128]⟩ : Shape).Idx) : EReal :=
  ∑ k : Fin 128, h (inRow i k) * h (inRow i k)

def l2normRows (n : Nat) (h : (⟨2, ![n, 128]⟩ : Shape).Idx → EReal) : (⟨2, ![n, 128]⟩ : Shape).Idx → EReal :=
  fun i => Ideal.div (h i) (max (Ideal.sqrt (rowSumSq h i)) (Ideal.ofBits .f32 0x2B8CBCCC#32))

abbrev l2norm (h : (⟨2, ![40000, 128]⟩ : Shape).Idx → EReal) : (⟨2, ![40000, 128]⟩ : Shape).Idx → EReal :=
  l2normRows 40000 h

theorem rowSumSq_congr {n n' : Nat} (h : (⟨2, ![n, 128]⟩ : Shape).Idx → EReal) (h' : (⟨2, ![n', 128]⟩ : Shape).Idx → EReal)
    (i : (⟨2, ![n, 128]⟩ : Shape).Idx) (i' : (⟨2, ![n', 128]⟩ : Shape).Idx)
    (e : ∀ k : Fin 128, h (inRow i k) = h' (inRow i' k)) : rowSumSq h i = rowSumSq h' i' := by
  unfold rowSumSq
  exact Finset.sum_congr rfl fun k _ => by rw [e k]

theorem l2normRows_congr {n n' : Nat} (h : (⟨2, ![n, 128]⟩ : Shape).Idx → EReal) (h' : (⟨2, ![n', 128]⟩ : Shape).Idx → EReal)
    (i : (⟨2, ![n, 128]⟩ : Shape).Idx) (i' : (⟨2, ![n', 128]⟩ : Shape).Idx)
    (e0 : h i = h' i') (e : ∀ k : Fin 128, h (inRow i k) = h' (inRow i' k)) : l2normRows n h i = l2normRows n' h' i' := by
  unfold l2normRows
  rw [e0, rowSumSq_congr h h' i i' e]

end Cert.Spec

end
-- ==== Proof.Spec.Combine.lean ====
import proofs.«405917_j13073880449508_1_alg».proof.Proof.Spec.L2norm
import Idealize.ShloMosaic.Lib.ValueIdx

noncomputable section

namespace Cert.Spec

open Idealize.ShloMosaic Idealize.ShloMosaic.ValueIdx

theorem inRow_row {n : Nat} (i : (⟨2, ![n, 128]⟩ : Shape).Idx) (k : Fin 128) : (inRow i k 0 : Fin n) = i 0 := by
  unfold inRow Shape.Idx.along; exact Function.update_of_ne (show (0 : Fin 2) ≠ 1 by decide) _ _

theorem inRow_col {n : Nat} (i : (⟨2, ![n, 128]⟩ : Shape).Idx) (k : Fin 128) : (inRow i k 1 : Fin 128) = k := by
  unfold inRow Shape.Idx.along; exact Function.update_self _ _ _

theorem inRow_self {n : Nat} (i : (⟨2, ![n, 128]⟩ : Shape).Idx) : inRow i (i 1) = i := by
  unfold inRow Shape.Idx.along; exact Function.update_eq_self _ _

def combineAct {n : Nat} (agg skip : (⟨2, ![n, 128]⟩ : Shape).Idx → EReal) (γ β : (⟨1, ![128]⟩ : Shape).Idx → EReal) :
    (⟨2, ![n, 128]⟩ : Shape).Idx → EReal :=
  fun i => max ((agg i + skip i) * γ (ix1 (i 1)) + β (ix1 (i 1))) 0

def combineRows (n : Nat) (agg skip xin : (⟨2, ![n, 128]⟩ : Shape).Idx → EReal) (γ β : (⟨1, ![128]⟩ : Shape).Idx → EReal) :
    (⟨2, ![n, 128]⟩ : Shape).Idx → EReal :=
  fun i => xin i + l2normRows n (combineAct agg skip γ β) i

abbrev combine (agg skip xin : (⟨2, ![40000, 128]⟩ : Shape).Idx → EReal) (γ β : (⟨1, ![128]⟩ : Shape).Idx → EReal) :
    (⟨2, ![40000, 128]⟩ : Shape).Idx → EReal :=
  combineRows 40000 agg skip xin γ β

theorem combineRows_congr {n n' : Nat} (agg skip xin : (⟨2, ![n, 128]⟩ : Shape).Idx → EReal)
    (agg' skip' xin' : (⟨2, ![n', 128]⟩ : Shape).Idx → EReal) (γ β : (⟨1, ![128]⟩ : Shape).Idx → EReal)
    (i : (⟨2, ![n, 128]⟩ : Shape).Idx) (i' : (⟨2, ![n', 128]⟩ : Shape).Idx) (hcol : (i 1 : Fin 128) = i' 1)
    (ea : ∀ k : Fin 128, agg (inRow i k) = agg' (inRow i' k)) (es : ∀ k : Fin 128, skip (inRow i k) = skip' (inRow i' k))
    (ex : xin i = xin' i') : combineRows n agg skip xin γ β i = combineRows n' agg' skip' xin' γ β i' := by
  have act : ∀ k : Fin 128, combineAct agg skip γ β (inRow i k) = combineAct agg' skip' γ β (inRow i' k) := fun k => by
    have c1 : (inRow i k 1 : Fin 128) = k := inRow_col _ k
    have c2 : (inRow i' k 1 : Fin 128) = k := inRow_col _ k
    show max ((agg (inRow i k) + skip (inRow i k)) * γ (ix1 (inRow i k 1)) + β (ix1 (inRow i k 1))) 0
      = max ((agg' (inRow i' k) + skip' (inRow i' k)) * γ (ix1 (inRow i' k 1)) + β (ix1 (inRow i' k 1))) 0
    rw [ea k, es k, c1, c2]
  have hi : inRow i (i 1) = i := inRow_self i
  have hi' : inRow i' (i 1) = i' := by rw [hcol]; exact inRow_self i'
  have act0 : combineAct agg skip γ β i = combineAct agg' skip' γ β i' := by
    have h := act (i 1)
    rwa [hi, hi'] at h
  unfold combineRows
  rw [ex, l2normRows_congr _ _ i i' act0 act]

end Cert.Spec

end
-- ==== Proof.KI.Val2.lean ====
import proofs.«405917_j13073880449508_1_alg».proof.Proof.KI.Reg2
import proofs.«405917_j13073880449508_1_alg».proof.Proof.Spec.Combine
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec (inRow combineAct combineRows combine)

-- A vector broadcast along the rows reads, at an index, the vector's entry in the index's column.
theorem bcast2 (x : Vec Ideal S128 .f32) (j : S5000x128.Idx) :
    broadcastTo S5000x128 (shapeCast S1x128 x shapeCasts_S128_S1x128) broadcasts_S1x128_S5000x128 j = x (ix1 (j 1 : Fin 128)) :=
  (broadcastTo_apply _ broadcasts_S1x128_S5000x128 j (ix2 (0 : Fin 1) (j 1 : Fin 128))
    (fun a => match a with | ⟨0, _⟩ => rfl | ⟨1, _⟩ => rfl)).trans
    (shapeCast_a_1a_apply x shapeCasts_S128_S1x128 (0 : Fin 1) (j 1 : Fin 128))

theorem lift2_inRow (j : S5000x128.Idx) (k : Fin 128) :
    reduces_S5000x128_S5000.lift (ix1 (j 0 : Fin 5000)) k = inRow (n := 5000) j k := by
  funext a; apply Fin.ext
  match a with
  | ⟨0, _⟩ => rfl
  | ⟨1, _⟩ => rfl

-- The quotient by the floored row norms, read at an index, is the row L2 normalisation there: the row sum runs over the 128 columns of the index's row.
theorem rownorm2_apply (u : Vec Ideal S5000x128 .f32) (j : S5000x128.Idx) :
    divf (F := Ideal) u (broadcastTo S5000x128 (maximumf (sqrt (shapeCast S5000x1 (multiReduction (F := Ideal) .add [1] S5000 (mulf u u) 0x00000000#32
          reduces_S5000x128_S5000 (.inl rfl) rfl) shapeCasts_S5000_S5000x1))
        (broadcast S5000x1 (Scalar.ofBits (F := Ideal) .f32 0x2B8CBCCC#32))) broadcasts_S5000x1_S5000x128) j
      = Cert.Spec.l2normRows 5000 u j := by
  rw [divf_apply, broadcastTo_apply _ broadcasts_S5000x1_S5000x128 j (ix2 (j 0 : Fin 5000) (0 : Fin 1))
    (fun a => match a with | ⟨0, _⟩ => rfl | ⟨1, _⟩ => rfl)]
  rw [maximumf_apply, broadcast_apply]
  show Ideal.div (u j) (max (Ideal.sqrt (shapeCast S5000x1 _ shapeCasts_S5000_S5000x1 (ix2 (j 0 : Fin 5000) (0 : Fin 1))))
    (Ideal.ofBits .f32 0x2B8CBCCC#32)) = _
  rw [shapeCast_apply _ shapeCasts_S5000_S5000x1 (ix2 (j 0 : Fin 5000) (0 : Fin 1)) (ix1 (j 0 : Fin 5000))
    (by rw [Shape.rowMajor_val_one, Shape.rowMajor_val_two]; show (j 0).val = (j 0).val * 1 + 0; omega)]
  have hs := Ideal.multiReduction_add_single (mulf u u) 0x00000000#32 reduces_S5000x128_S5000 (.inl rfl) rfl (ix1 (j 0 : Fin 5000))
  unfold Cert.Spec.l2normRows Cert.Spec.rowSumSq
  refine congrArg (fun s => Ideal.div (u j) (max (Ideal.sqrt s) (Ideal.ofBits .f32 0x2B8CBCCC#32))) (hs.trans ?_)
  exact Finset.sum_congr rfl fun k _ => congrArg (fun y => u y * u y) (lift2_inRow j k)

-- The payload at an index is the combine step of the five blocks.
theorem pay2_apply (x0 x1 x2 : Vec Ideal S5000x128 .f32) (x3 x4 : Vec Ideal S128 .f32) (j : S5000x128.Idx) :
    k2_pay1 (F := Ideal) x0 x1 x3 x4 x2 j = combineRows 5000 x0 x1 x2 x3 x4 j := by
  unfold k2_pay1
  simp only [shapeCast_self]
  rw [addf_apply, rownorm2_apply]
  refine congrArg (fun u => x2 j + Cert.Spec.l2normRows 5000 u j) (funext fun i => ?_)
  rw [maximumf_apply, addf_apply, mulf_apply, addf_apply, bcast2, bcast2]
  exact congrArg (max _) Ideal.ofBits_zero_f32

variable (V : (c : Dev nD) → (b : Ref sig .tc) → Buf (Elt Ideal) ((c : Thread nD τ).loc b))

theorem idx2 : ∀ t : Fin cfg2.N, win2_5.index t (0 : Fin 2) = t.val :=
  (by decide +kernel : ∀ t : Fin grid2.N, _)

abbrev arrIdx2 (t : Fin cfg2.N) (y : S5000x128.Idx) : S40000x128.Idx := ((cfg2.win 5).blk t).view.emb y

theorem iblk2_vec (c : Dev nD) (t : Fin cfg2.N) :
    (iblk2 V c 3 t : Vec Ideal S128 .f32) = V c main_v38 ∧ (iblk2 V c 4 t : Vec Ideal S128 .f32) = V c main_v40 := by
  constructor <;> funext y <;> unfold iblk2 <;> rw [View.read_apply] <;>
    exact congrArg (V c _) (funext fun a => Fin.ext (match a with | ⟨0, _⟩ => (Nat.zero_add _).trans (Nat.one_mul _)))

-- The block's index map keeps rows and columns apart.
theorem arrIdx2_inRow (t : Fin cfg2.N) (y : S5000x128.Idx) (k : Fin 128) :
    arrIdx2 t (inRow (n := 5000) y k) = inRow (n := 40000) (arrIdx2 t y) k := by
  have r0 := congrArg Fin.val (Cert.Spec.inRow_row (n := 5000) y k)
  have r1 := congrArg Fin.val (Cert.Spec.inRow_col (n := 5000) y k)
  have s0 := congrArg Fin.val (Cert.Spec.inRow_row (n := 40000) (arrIdx2 t y) k)
  have s1 := congrArg Fin.val (Cert.Spec.inRow_col (n := 40000) (arrIdx2 t y) k)
  funext a; apply Fin.ext
  match a with
  | ⟨0, _⟩ =>
    show win2_5.index t (0 : Fin 2) * 5000 + 1 * (inRow (n := 5000) y k 0).val = (inRow (n := 40000) (arrIdx2 t y) k 0).val
    rw [r0, s0]; rfl
  | ⟨1, _⟩ =>
    show 0 * 128 + 1 * (inRow (n := 5000) y k 1).val = (inRow (n := 40000) (arrIdx2 t y) k 1).val
    rw [r1, s1]; omega

-- Block t of the output is block t of the combine step of the five arrays: the step at an index reads them only along that index's row.
theorem flushed2_eq (c : Dev nD) (t : Fin cfg2.N) :
    (dat2 V c).flushed 5 t = ((cfg2.win 5).blk t).view.read (Elt Ideal)
      (combine (V c main_v36) (V c main_v29) (V c main_arg0) (V c main_v38) (V c main_v40)) := by
  show (cfg2.win 5).cut (grid2.coords t) ((dat2 V c).after 5 t) = _
  rw [after2_5]
  unfold out2_5
  rw [View.canon_unit_zero hz2_a]
  simp only [View.ld_unit_zero (S := S5000x128) hz2_a, View.ld_unit_zero (S := S128) hz2_b]
  funext j
  show k2_pay1 (F := Ideal) (iblk2 V c 0 t) (iblk2 V c 1 t) (iblk2 V c 3 t) (iblk2 V c 4 t) (iblk2 V c 2 t) j
    = combineRows 40000 (V c main_v36) (V c main_v29) (V c main_arg0) (V c main_v38) (V c main_v40) (arrIdx2 t j)
  rw [pay2_apply, (iblk2_vec V c t).1, (iblk2_vec V c t).2]
  refine Cert.Spec.combineRows_congr _ _ _ _ _ _ _ _ j (arrIdx2 t j) (Fin.ext ?_)
    (fun k => congrArg (V c main_v36) (arrIdx2_inRow t j k)) (fun k => congrArg (V c main_v29) (arrIdx2_inRow t j k)) rfl
  show (j 1).val = 0 * 128 + 1 * (j 1).val
  omega

-- Row r lies in block r / 5000: the eight blocks of 5000 rows tile the 40000 rows.
theorem cover2 (i : S40000x128.Idx) :
    ∃ t : Fin cfg2.N, (cfg2.win 5).flush t = true ∧ i ∈ ((cfg2.win 5).blk t).view.set := by
  have hi : (i 0).val < 40000 := (i 0).isLt
  have ht : (i 0).val / 5000 < cfg2.N := by rw [show cfg2.N = 8 from N_2]; omega
  have e : ((cfg2.win 5).blk ⟨_, ht⟩).view.emb (ix2 ⟨(i 0).val % 5000, Nat.mod_lt _ (by decide)⟩ (i 1)) = i := by
    funext a; apply Fin.ext
    match a with
    | ⟨0, _⟩ =>
      show win2_5.index ⟨(i 0).val / 5000, ht⟩ (0 : Fin 2) * 5000 + 1 * ((i 0).val % 5000) = (i 0).val
      rw [idx2]; show (i 0).val / 5000 * 5000 + 1 * ((i 0).val % 5000) = (i 0).val; omega
    | ⟨1, _⟩ => show 0 * 128 + 1 * (i 1).val = (i 1).val; omega
  have h := View.emb_mem_set ((cfg2.win 5).blk ⟨_, ht⟩).view (ix2 ⟨(i 0).val % 5000, Nat.mod_lt _ (by decide)⟩ (i 1))
  rw [e] at h
  exact ⟨_, flush2_5 _, h⟩

theorem arrAt2 (c : Dev nD) : (dat2 (F := Ideal) V c).arrAt 5 cfg2.N
    = combine (V c main_v36) (V c main_v29) (V c main_arg0) (V c main_v38) (V c main_v40) :=
  (dat2 V c).arrAt_eq_of_cover 5 _ (fun t _ => flushed2_eq V c t) (cover2)

end Cert.KernelIdeal.Hand
end
-- ==== Proof.KI.Val3.lean ====
import proofs.«405917_j13073880449508_1_alg».proof.Proof.KI.Reg3
import proofs.«405917_j13073880449508_1_alg».proof.Proof.Spec.Proj
import proofs.«405917_j13073880449508_1_alg».proof.Proof.Spec.ProjOps
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b)) (c : Dev nD)

-- The casts are identities at the ideal values, the product accumulates into zero, and the bias is laid along every row.
theorem pay3_apply (x0 x1 x2) (a : Fin 5000) (b : Fin 512) :
    k3_pay1 (F := Ideal) x0 x1 x2 (ix2 a b) = (∑ k : Fin 128, x0 (ix2 a k) * x1 (ix2 k b)) + x2 (ix1 b) := by
  unfold k3_pay1
  simp only [shapeCast_self]
  exact congrArg₂ (· + ·) (Cert.Spec.matmul_plain_zero_apply none _ _ a b) (Cert.Spec.row_broadcast_apply x2 _ _ a b)

theorem zeros3_2 : (![0, 0] : Fin 2 → Nat) = fun _ => 0 := by decide
theorem zeros3_1 : (![0] : Fin 1 → Nat) = fun _ => 0 := by decide

-- Row a of output block t is row a of block t of x; the weights and the bias have one block, so every other block index is zero.
theorem flushed_eq3 (t : Fin cfg3.N) :
    (dat3 (F := Ideal) V c).flushed 3 t
      = ((cfg3.win 3).blk t).view.read (Elt Ideal) (Cert.Spec.proj (V c main_v41) (V c main_v54) (V c main_v62)) := by
  show (cfg3.win 3).cut (grid3.coords t) ((dat3 V c).after 3 t) = _
  rw [after3_3]; unfold out3_3
  rw [View.canon_unit_zero zeros3_2]
  simp only [View.ld_unit_zero (S := S5000x128) zeros3_2, View.ld_unit_zero (S := S128x512) zeros3_2,
    View.ld_unit_zero (S := S512) zeros3_1]
  funext j
  obtain ⟨a, b, rfl⟩ : ∃ (a : Fin 5000) (b : Fin 512), j = ix2 a b := ⟨j 0, j 1, eq_ix2 j⟩
  show k3_pay1 _ _ _ (ix2 a b) = Cert.Spec.proj _ _ _ (((cfg3.win 3).blk t).view.emb (ix2 a b))
  rw [pay3_apply, Cert.Spec.proj_apply]
  have hb := (win3_3.rect_emb_val_of_index_zero t 1 rfl (ix2 a b)).symm
  refine congrArg₂ (· + ·) (Finset.sum_congr rfl fun k _ => congrArg₂ (· * ·) ?_ ?_) ?_
  · exact congrArg (V c main_v41) (Shape.idx_ext₂ rfl (win3_0.rect_emb_val_of_index_zero t 1 rfl _))
  · exact congrArg (V c main_v54) (Shape.idx_ext₂ (win3_1.rect_emb_val_of_index_zero t 0 rfl _)
      ((win3_1.rect_emb_val_of_index_zero t 1 rfl (ix2 k b)).trans hb))
  · exact congrArg (V c main_v62) (funext fun | ⟨0, _⟩ => Fin.ext ((win3_2.rect_emb_val_of_index_zero t 0 rfl (ix1 b)).trans hb))

theorem idx_onto3 : ∀ q < 8, ∃ t : Fin cfg3.N, win3_3.index t (0 : Fin 2) = q :=
  (by decide +kernel : ∀ q < 8, ∃ t : Fin grid3.N, win3_3.index t (0 : Fin 2) = q)

-- An index of the output lies in the block of the point whose row block holds its row.
theorem cover3 (i : S40000x512.Idx) :
    ∃ t : Fin cfg3.N, (cfg3.win 3).flush t = true ∧ i ∈ ((cfg3.win 3).blk t).view.set := by
  have h0 : (i 0).val < 40000 := (i 0).isLt
  have h1 : (i 1).val < 512 := (i 1).isLt
  obtain ⟨t, ht⟩ := idx_onto3 ((i 0).val / 5000) (by omega)
  refine ⟨t, flush3_3 t, ?_⟩
  show i ∈ ((View.whole main_v63).slice (win3_3.rect t)).set
  rw [View.set_slice_whole, Rect.mem_set_unit]
  exact fun
    | ⟨0, _⟩ => by
      show win3_3.index t (0 : Fin 2) * 5000 ≤ (i 0).val ∧ (i 0).val < win3_3.index t (0 : Fin 2) * 5000 + 5000
      omega
    | ⟨1, _⟩ => by
      show 0 * 512 ≤ (i 1).val ∧ (i 1).val < 0 * 512 + 512
      omega

theorem arrAt3 :
    (dat3 (F := Ideal) V c).arrAt 3 cfg3.N = Cert.Spec.proj (V c main_v41) (V c main_v54) (V c main_v62) :=
  (dat3 (F := Ideal) V c).arrAt_eq_of_cover 3 _ (fun t _ => flushed_eq3 V c t) cover3

end Cert.KernelIdeal.Hand

end
-- ==== Proof.KI.Val4.lean ====
import proofs.«405917_j13073880449508_1_alg».proof.Proof.KI.Reg4
import proofs.«405917_j13073880449508_1_alg».proof.Proof.Spec.Msg
import Idealize.ShloMosaic.Lib.Pipeline.Value
import Idealize.ShloMosaic.PureOps.Ideal

noncomputable section

namespace Cert.KernelIdeal.Hand

open Cert.KernelIdeal Cert.KernelIdeal.Gen
open Idealize.ShloMosaic Idealize.ShloMosaic.TcCoe
open Idealize.SL Idealize.SL.Sem

theorem zeroOff4 : (![0, 0] : Fin 2 → Nat) = fun _ => 0 := funext fun a => by fin_cases a <;> rfl

-- A single piece over the whole shape is its payload, and the payload's casts are between equal shapes.
theorem out4_3_eq {F : FTy → Type} [FloatOps F] (x0 x1 x2 : Vec F S6400x128 .f32) :
    out4_3 x0 x1 x2 = mulf (logistic (addf x0 x1)) x2 := by
  unfold out4_3 k4_pay1
  simp only [View.canon_unit_zero (S := S6400x128) zeroOff4, View.ld_unit_zero (S := S6400x128) zeroOff4, shapeCast_self]

theorem rowIdx4 : ∀ t : Fin cfg4.N, win4_3.index t 0 = t.val ∧ win4_3.index t 1 = 0 :=
  (by decide +kernel : ∀ t : Fin grid4.N, _)

-- Row `r` lies in the block of point `r / 6400`.
theorem covered4 (i : S640000x128.Idx) :
    ∃ t : Fin cfg4.N, (cfg4.win 3).flush t = true ∧ i ∈ ((cfg4.win 3).blk t).view.set := by
  have h0 : (i 0).val < 640000 := (i 0).isLt
  have h1 : (i 1).val < 128 := (i 1).isLt
  have ht : (i 0).val / 6400 < cfg4.N := by rw [show cfg4.N = 100 from N_4]; omega
  obtain ⟨o0, o1⟩ := rowIdx4 ⟨_, ht⟩
  refine ⟨⟨_, ht⟩, flush4_3 _, ?_⟩
  show i ∈ ((View.whole (Pipeline.arrRef spec4 3)).slice (win4_3.rect ⟨_, ht⟩)).set
  rw [View.set_slice_whole, Rect.mem_set_unit]
  refine Fin.forall_fin_two.mpr ⟨?_, ?_⟩
  · show win4_3.index _ 0 * 6400 ≤ (i 0).val ∧ (i 0).val < win4_3.index _ 0 * 6400 + 6400
    rw [o0]; show (i 0).val / 6400 * 6400 ≤ _ ∧ _ < (i 0).val / 6400 * 6400 + 6400; omega
  · show win4_3.index _ 1 * 128 ≤ (i 1).val ∧ (i 1).val < win4_3.index _ 1 * 128 + 128
    rw [o1]; omega

variable (V : (c : Dev nD) → (b : Ref sig .tc) → Buf (Elt Ideal) ((c : Thread nD τ).loc b)) (c : Dev nD)

-- All four windows have one index map, so the pointwise term of the input blocks is the block of the array term.
theorem arrAt4 :
    (dat4 (F := Ideal) V c).arrAt 3 cfg4.N
      = Cert.Spec.msg (V c (Pipeline.arrRef spec4 0)) (V c (Pipeline.arrRef spec4 1)) (V c (Pipeline.arrRef spec4 2)) :=
  (dat4 (F := Ideal) V c).arrAt_eq_of_cover 3 _ (fun t _ => by
    show (cfg4.win 3).cut _ ((dat4 V c).after 3 t) = _
    rw [after4_3, out4_3_eq]; rfl) covered4

end Cert.KernelIdeal.Hand

end
-- ==== Proof.KI.Val5.lean ====
import proofs.«405917_j13073880449508_1_alg».proof.Proof.KI.Reg5
import proofs.«405917_j13073880449508_1_alg».proof.Proof.Spec.Combine
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec (inRow combineAct combineRows combine)

-- A vector broadcast along the rows reads, at an index, the vector's entry in the index's column.
theorem bcast5 (x : Vec Ideal S128 .f32) (j : S5000x128.Idx) :
    broadcastTo S5000x128 (shapeCast S1x128 x shapeCasts_S128_S1x128) broadcasts_S1x128_S5000x128 j = x (ix1 (j 1 : Fin 128)) :=
  (broadcastTo_apply _ broadcasts_S1x128_S5000x128 j (ix2 (0 : Fin 1) (j 1 : Fin 128))
    (fun a => match a with | ⟨0, _⟩ => rfl | ⟨1, _⟩ => rfl)).trans
    (shapeCast_a_1a_apply x shapeCasts_S128_S1x128 (0 : Fin 1) (j 1 : Fin 128))

theorem lift5_inRow (j : S5000x128.Idx) (k : Fin 128) :
    reduces_S5000x128_S5000.lift (ix1 (j 0 : Fin 5000)) k = inRow (n := 5000) j k := by
  funext a; apply Fin.ext
  match a with
  | ⟨0, _⟩ => rfl
  | ⟨1, _⟩ => rfl

-- The quotient by the floored row norms, read at an index, is the row L2 normalisation there: the row sum runs over the 128 columns of the index's row.
theorem rownorm5_apply (u : Vec Ideal S5000x128 .f32) (j : S5000x128.Idx) :
    divf (F := Ideal) u (broadcastTo S5000x128 (maximumf (sqrt (shapeCast S5000x1 (multiReduction (F := Ideal) .add [1] S5000 (mulf u u) 0x00000000#32
          reduces_S5000x128_S5000 (.inl rfl) rfl) shapeCasts_S5000_S5000x1))
        (broadcast S5000x1 (Scalar.ofBits (F := Ideal) .f32 0x2B8CBCCC#32))) broadcasts_S5000x1_S5000x128) j
      = Cert.Spec.l2normRows 5000 u j := by
  rw [divf_apply, broadcastTo_apply _ broadcasts_S5000x1_S5000x128 j (ix2 (j 0 : Fin 5000) (0 : Fin 1))
    (fun a => match a with | ⟨0, _⟩ => rfl | ⟨1, _⟩ => rfl)]
  rw [maximumf_apply, broadcast_apply]
  show Ideal.div (u j) (max (Ideal.sqrt (shapeCast S5000x1 _ shapeCasts_S5000_S5000x1 (ix2 (j 0 : Fin 5000) (0 : Fin 1))))
    (Ideal.ofBits .f32 0x2B8CBCCC#32)) = _
  rw [shapeCast_apply _ shapeCasts_S5000_S5000x1 (ix2 (j 0 : Fin 5000) (0 : Fin 1)) (ix1 (j 0 : Fin 5000))
    (by rw [Shape.rowMajor_val_one, Shape.rowMajor_val_two]; show (j 0).val = (j 0).val * 1 + 0; omega)]
  have hs := Ideal.multiReduction_add_single (mulf u u) 0x00000000#32 reduces_S5000x128_S5000 (.inl rfl) rfl (ix1 (j 0 : Fin 5000))
  unfold Cert.Spec.l2normRows Cert.Spec.rowSumSq
  refine congrArg (fun s => Ideal.div (u j) (max (Ideal.sqrt s) (Ideal.ofBits .f32 0x2B8CBCCC#32))) (hs.trans ?_)
  exact Finset.sum_congr rfl fun k _ => congrArg (fun y => u y * u y) (lift5_inRow j k)

-- The payload at an index is the combine step of the five blocks.
theorem pay5_apply (x0 x1 x2 : Vec Ideal S5000x128 .f32) (x3 x4 : Vec Ideal S128 .f32) (j : S5000x128.Idx) :
    k5_pay1 (F := Ideal) x0 x1 x3 x4 x2 j = combineRows 5000 x0 x1 x2 x3 x4 j := by
  unfold k5_pay1
  simp only [shapeCast_self]
  rw [addf_apply, rownorm5_apply]
  refine congrArg (fun u => x2 j + Cert.Spec.l2normRows 5000 u j) (funext fun i => ?_)
  rw [maximumf_apply, addf_apply, mulf_apply, addf_apply, bcast5, bcast5]
  exact congrArg (max _) Ideal.ofBits_zero_f32

variable (V : (c : Dev nD) → (b : Ref sig .tc) → Buf (Elt Ideal) ((c : Thread nD τ).loc b))

theorem idx5 : ∀ t : Fin cfg5.N, win5_5.index t (0 : Fin 2) = t.val :=
  (by decide +kernel : ∀ t : Fin grid5.N, _)

abbrev arrIdx5 (t : Fin cfg5.N) (y : S5000x128.Idx) : S40000x128.Idx := ((cfg5.win 5).blk t).view.emb y

theorem iblk5_vec (c : Dev nD) (t : Fin cfg5.N) :
    (iblk5 V c 3 t : Vec Ideal S128 .f32) = V c main_v76 ∧ (iblk5 V c 4 t : Vec Ideal S128 .f32) = V c main_v78 := by
  constructor <;> funext y <;> unfold iblk5 <;> rw [View.read_apply] <;>
    exact congrArg (V c _) (funext fun a => Fin.ext (match a with | ⟨0, _⟩ => (Nat.zero_add _).trans (Nat.one_mul _)))

-- The block's index map keeps rows and columns apart.
theorem arrIdx5_inRow (t : Fin cfg5.N) (y : S5000x128.Idx) (k : Fin 128) :
    arrIdx5 t (inRow (n := 5000) y k) = inRow (n := 40000) (arrIdx5 t y) k := by
  have r0 := congrArg Fin.val (Cert.Spec.inRow_row (n := 5000) y k)
  have r1 := congrArg Fin.val (Cert.Spec.inRow_col (n := 5000) y k)
  have s0 := congrArg Fin.val (Cert.Spec.inRow_row (n := 40000) (arrIdx5 t y) k)
  have s1 := congrArg Fin.val (Cert.Spec.inRow_col (n := 40000) (arrIdx5 t y) k)
  funext a; apply Fin.ext
  match a with
  | ⟨0, _⟩ =>
    show win5_5.index t (0 : Fin 2) * 5000 + 1 * (inRow (n := 5000) y k 0).val = (inRow (n := 40000) (arrIdx5 t y) k 0).val
    rw [r0, s0]; rfl
  | ⟨1, _⟩ =>
    show 0 * 128 + 1 * (inRow (n := 5000) y k 1).val = (inRow (n := 40000) (arrIdx5 t y) k 1).val
    rw [r1, s1]; omega

-- Block t of the output is block t of the combine step of the five arrays: the step at an index reads them only along that index's row.
theorem flushed5_eq (c : Dev nD) (t : Fin cfg5.N) :
    (dat5 V c).flushed 5 t = ((cfg5.win 5).blk t).view.read (Elt Ideal)
      (combine (V c main_v74) (V c main_v67) (V c main_v41) (V c main_v76) (V c main_v78)) := by
  show (cfg5.win 5).cut (grid5.coords t) ((dat5 V c).after 5 t) = _
  rw [after5_5]
  unfold out5_5
  rw [View.canon_unit_zero hz5_a]
  simp only [View.ld_unit_zero (S := S5000x128) hz5_a, View.ld_unit_zero (S := S128) hz5_b]
  funext j
  show k5_pay1 (F := Ideal) (iblk5 V c 0 t) (iblk5 V c 1 t) (iblk5 V c 3 t) (iblk5 V c 4 t) (iblk5 V c 2 t) j
    = combineRows 40000 (V c main_v74) (V c main_v67) (V c main_v41) (V c main_v76) (V c main_v78) (arrIdx5 t j)
  rw [pay5_apply, (iblk5_vec V c t).1, (iblk5_vec V c t).2]
  refine Cert.Spec.combineRows_congr _ _ _ _ _ _ _ _ j (arrIdx5 t j) (Fin.ext ?_)
    (fun k => congrArg (V c main_v74) (arrIdx5_inRow t j k)) (fun k => congrArg (V c main_v67) (arrIdx5_inRow t j k)) rfl
  show (j 1).val = 0 * 128 + 1 * (j 1).val
  omega

-- Row r lies in block r / 5000: the eight blocks of 5000 rows tile the 40000 rows.
theorem cover5 (i : S40000x128.Idx) :
    ∃ t : Fin cfg5.N, (cfg5.win 5).flush t = true ∧ i ∈ ((cfg5.win 5).blk t).view.set := by
  have hi : (i 0).val < 40000 := (i 0).isLt
  have ht : (i 0).val / 5000 < cfg5.N := by rw [show cfg5.N = 8 from N_5]; omega
  have e : ((cfg5.win 5).blk ⟨_, ht⟩).view.emb (ix2 ⟨(i 0).val % 5000, Nat.mod_lt _ (by decide)⟩ (i 1)) = i := by
    funext a; apply Fin.ext
    match a with
    | ⟨0, _⟩ =>
      show win5_5.index ⟨(i 0).val / 5000, ht⟩ (0 : Fin 2) * 5000 + 1 * ((i 0).val % 5000) = (i 0).val
      rw [idx5]; show (i 0).val / 5000 * 5000 + 1 * ((i 0).val % 5000) = (i 0).val; omega
    | ⟨1, _⟩ => show 0 * 128 + 1 * (i 1).val = (i 1).val; omega
  have h := View.emb_mem_set ((cfg5.win 5).blk ⟨_, ht⟩).view (ix2 ⟨(i 0).val % 5000, Nat.mod_lt _ (by decide)⟩ (i 1))
  rw [e] at h
  exact ⟨_, flush5_5 _, h⟩

theorem arrAt5 (c : Dev nD) : (dat5 (F := Ideal) V c).arrAt 5 cfg5.N
    = combine (V c main_v74) (V c main_v67) (V c main_v41) (V c main_v76) (V c main_v78) :=
  (dat5 V c).arrAt_eq_of_cover 5 _ (fun t _ => flushed5_eq V c t) (cover5)

end Cert.KernelIdeal.Hand
end
-- ==== Proof.KI.Val6.lean ====
import proofs.«405917_j13073880449508_1_alg».proof.Proof.KI.Reg6
import proofs.«405917_j13073880449508_1_alg».proof.Proof.Spec.Proj
import proofs.«405917_j13073880449508_1_alg».proof.Proof.Spec.ProjOps
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b)) (c : Dev nD)

-- The casts are identities at the ideal values, the product accumulates into zero, and the bias is laid along every row.
theorem pay6_apply (x0 x1 x2) (a : Fin 5000) (b : Fin 512) :
    k6_pay1 (F := Ideal) x0 x1 x2 (ix2 a b) = (∑ k : Fin 128, x0 (ix2 a k) * x1 (ix2 k b)) + x2 (ix1 b) := by
  unfold k6_pay1
  simp only [shapeCast_self]
  exact congrArg₂ (· + ·) (Cert.Spec.matmul_plain_zero_apply none _ _ a b) (Cert.Spec.row_broadcast_apply x2 _ _ a b)

theorem zeros6_2 : (![0, 0] : Fin 2 → Nat) = fun _ => 0 := by decide
theorem zeros6_1 : (![0] : Fin 1 → Nat) = fun _ => 0 := by decide

-- Row a of output block t is row a of block t of x; the weights and the bias have one block, so every other block index is zero.
theorem flushed_eq6 (t : Fin cfg6.N) :
    (dat6 (F := Ideal) V c).flushed 3 t
      = ((cfg6.win 3).blk t).view.read (Elt Ideal) (Cert.Spec.proj (V c main_v79) (V c main_v92) (V c main_v100)) := by
  show (cfg6.win 3).cut (grid6.coords t) ((dat6 V c).after 3 t) = _
  rw [after6_3]; unfold out6_3
  rw [View.canon_unit_zero zeros6_2]
  simp only [View.ld_unit_zero (S := S5000x128) zeros6_2, View.ld_unit_zero (S := S128x512) zeros6_2,
    View.ld_unit_zero (S := S512) zeros6_1]
  funext j
  obtain ⟨a, b, rfl⟩ : ∃ (a : Fin 5000) (b : Fin 512), j = ix2 a b := ⟨j 0, j 1, eq_ix2 j⟩
  show k6_pay1 _ _ _ (ix2 a b) = Cert.Spec.proj _ _ _ (((cfg6.win 3).blk t).view.emb (ix2 a b))
  rw [pay6_apply, Cert.Spec.proj_apply]
  have hb := (win6_3.rect_emb_val_of_index_zero t 1 rfl (ix2 a b)).symm
  refine congrArg₂ (· + ·) (Finset.sum_congr rfl fun k _ => congrArg₂ (· * ·) ?_ ?_) ?_
  · exact congrArg (V c main_v79) (Shape.idx_ext₂ rfl (win6_0.rect_emb_val_of_index_zero t 1 rfl _))
  · exact congrArg (V c main_v92) (Shape.idx_ext₂ (win6_1.rect_emb_val_of_index_zero t 0 rfl _)
      ((win6_1.rect_emb_val_of_index_zero t 1 rfl (ix2 k b)).trans hb))
  · exact congrArg (V c main_v100) (funext fun | ⟨0, _⟩ => Fin.ext ((win6_2.rect_emb_val_of_index_zero t 0 rfl (ix1 b)).trans hb))

theorem idx_onto6 : ∀ q < 8, ∃ t : Fin cfg6.N, win6_3.index t (0 : Fin 2) = q :=
  (by decide +kernel : ∀ q < 8, ∃ t : Fin grid6.N, win6_3.index t (0 : Fin 2) = q)

-- An index of the output lies in the block of the point whose row block holds its row.
theorem cover6 (i : S40000x512.Idx) :
    ∃ t : Fin cfg6.N, (cfg6.win 3).flush t = true ∧ i ∈ ((cfg6.win 3).blk t).view.set := by
  have h0 : (i 0).val < 40000 := (i 0).isLt
  have h1 : (i 1).val < 512 := (i 1).isLt
  obtain ⟨t, ht⟩ := idx_onto6 ((i 0).val / 5000) (by omega)
  refine ⟨t, flush6_3 t, ?_⟩
  show i ∈ ((View.whole main_v101).slice (win6_3.rect t)).set
  rw [View.set_slice_whole, Rect.mem_set_unit]
  exact fun
    | ⟨0, _⟩ => by
      show win6_3.index t (0 : Fin 2) * 5000 ≤ (i 0).val ∧ (i 0).val < win6_3.index t (0 : Fin 2) * 5000 + 5000
      omega
    | ⟨1, _⟩ => by
      show 0 * 512 ≤ (i 1).val ∧ (i 1).val < 0 * 512 + 512
      omega

theorem arrAt6 :
    (dat6 (F := Ideal) V c).arrAt 3 cfg6.N = Cert.Spec.proj (V c main_v79) (V c main_v92) (V c main_v100) :=
  (dat6 (F := Ideal) V c).arrAt_eq_of_cover 3 _ (fun t _ => flushed_eq6 V c t) cover6

end Cert.KernelIdeal.Hand

end
-- ==== Proof.KI.Val7.lean ====
import proofs.«405917_j13073880449508_1_alg».proof.Proof.KI.Reg7
import proofs.«405917_j13073880449508_1_alg».proof.Proof.Spec.Msg
import Idealize.ShloMosaic.Lib.Pipeline.Value
import Idealize.ShloMosaic.PureOps.Ideal

noncomputable section

namespace Cert.KernelIdeal.Hand

open Cert.KernelIdeal Cert.KernelIdeal.Gen
open Idealize.ShloMosaic Idealize.ShloMosaic.TcCoe
open Idealize.SL Idealize.SL.Sem

theorem zeroOff7 : (![0, 0] : Fin 2 → Nat) = fun _ => 0 := funext fun a => by fin_cases a <;> rfl

-- A single piece over the whole shape is its payload, and the payload's casts are between equal shapes.
theorem out7_3_eq {F : FTy → Type} [FloatOps F] (x0 x1 x2 : Vec F S6400x128 .f32) :
    out7_3 x0 x1 x2 = mulf (logistic (addf x0 x1)) x2 := by
  unfold out7_3 k7_pay1
  simp only [View.canon_unit_zero (S := S6400x128) zeroOff7, View.ld_unit_zero (S := S6400x128) zeroOff7, shapeCast_self]

theorem rowIdx7 : ∀ t : Fin cfg7.N, win7_3.index t 0 = t.val ∧ win7_3.index t 1 = 0 :=
  (by decide +kernel : ∀ t : Fin grid7.N, _)

-- Row `r` lies in the block of point `r / 6400`.
theorem covered7 (i : S640000x128.Idx) :
    ∃ t : Fin cfg7.N, (cfg7.win 3).flush t = true ∧ i ∈ ((cfg7.win 3).blk t).view.set := by
  have h0 : (i 0).val < 640000 := (i 0).isLt
  have h1 : (i 1).val < 128 := (i 1).isLt
  have ht : (i 0).val / 6400 < cfg7.N := by rw [show cfg7.N = 100 from N_7]; omega
  obtain ⟨o0, o1⟩ := rowIdx7 ⟨_, ht⟩
  refine ⟨⟨_, ht⟩, flush7_3 _, ?_⟩
  show i ∈ ((View.whole (Pipeline.arrRef spec7 3)).slice (win7_3.rect ⟨_, ht⟩)).set
  rw [View.set_slice_whole, Rect.mem_set_unit]
  refine Fin.forall_fin_two.mpr ⟨?_, ?_⟩
  · show win7_3.index _ 0 * 6400 ≤ (i 0).val ∧ (i 0).val < win7_3.index _ 0 * 6400 + 6400
    rw [o0]; show (i 0).val / 6400 * 6400 ≤ _ ∧ _ < (i 0).val / 6400 * 6400 + 6400; omega
  · show win7_3.index _ 1 * 128 ≤ (i 1).val ∧ (i 1).val < win7_3.index _ 1 * 128 + 128
    rw [o1]; omega

variable (V : (c : Dev nD) → (b : Ref sig .tc) → Buf (Elt Ideal) ((c : Thread nD τ).loc b)) (c : Dev nD)

-- All four windows have one index map, so the pointwise term of the input blocks is the block of the array term.
theorem arrAt7 :
    (dat7 (F := Ideal) V c).arrAt 3 cfg7.N
      = Cert.Spec.msg (V c (Pipeline.arrRef spec7 0)) (V c (Pipeline.arrRef spec7 1)) (V c (Pipeline.arrRef spec7 2)) :=
  (dat7 (F := Ideal) V c).arrAt_eq_of_cover 3 _ (fun t _ => by
    show (cfg7.win 3).cut _ ((dat7 V c).after 3 t) = _
    rw [after7_3, out7_3_eq]; rfl) covered7

end Cert.KernelIdeal.Hand

end
-- ==== Proof.KI.Val8.lean ====
import proofs.«405917_j13073880449508_1_alg».proof.Proof.KI.Reg8
import proofs.«405917_j13073880449508_1_alg».proof.Proof.Spec.Combine
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec (inRow combineAct combineRows combine)

-- A vector broadcast along the rows reads, at an index, the vector's entry in the index's column.
theorem bcast8 (x : Vec Ideal S128 .f32) (j : S5000x128.Idx) :
    broadcastTo S5000x128 (shapeCast S1x128 x shapeCasts_S128_S1x128) broadcasts_S1x128_S5000x128 j = x (ix1 (j 1 : Fin 128)) :=
  (broadcastTo_apply _ broadcasts_S1x128_S5000x128 j (ix2 (0 : Fin 1) (j 1 : Fin 128))
    (fun a => match a with | ⟨0, _⟩ => rfl | ⟨1, _⟩ => rfl)).trans
    (shapeCast_a_1a_apply x shapeCasts_S128_S1x128 (0 : Fin 1) (j 1 : Fin 128))

theorem lift8_inRow (j : S5000x128.Idx) (k : Fin 128) :
    reduces_S5000x128_S5000.lift (ix1 (j 0 : Fin 5000)) k = inRow (n := 5000) j k := by
  funext a; apply Fin.ext
  match a with
  | ⟨0, _⟩ => rfl
  | ⟨1, _⟩ => rfl

-- The quotient by the floored row norms, read at an index, is the row L2 normalisation there: the row sum runs over the 128 columns of the index's row.
theorem rownorm8_apply (u : Vec Ideal S5000x128 .f32) (j : S5000x128.Idx) :
    divf (F := Ideal) u (broadcastTo S5000x128 (maximumf (sqrt (shapeCast S5000x1 (multiReduction (F := Ideal) .add [1] S5000 (mulf u u) 0x00000000#32
          reduces_S5000x128_S5000 (.inl rfl) rfl) shapeCasts_S5000_S5000x1))
        (broadcast S5000x1 (Scalar.ofBits (F := Ideal) .f32 0x2B8CBCCC#32))) broadcasts_S5000x1_S5000x128) j
      = Cert.Spec.l2normRows 5000 u j := by
  rw [divf_apply, broadcastTo_apply _ broadcasts_S5000x1_S5000x128 j (ix2 (j 0 : Fin 5000) (0 : Fin 1))
    (fun a => match a with | ⟨0, _⟩ => rfl | ⟨1, _⟩ => rfl)]
  rw [maximumf_apply, broadcast_apply]
  show Ideal.div (u j) (max (Ideal.sqrt (shapeCast S5000x1 _ shapeCasts_S5000_S5000x1 (ix2 (j 0 : Fin 5000) (0 : Fin 1))))
    (Ideal.ofBits .f32 0x2B8CBCCC#32)) = _
  rw [shapeCast_apply _ shapeCasts_S5000_S5000x1 (ix2 (j 0 : Fin 5000) (0 : Fin 1)) (ix1 (j 0 : Fin 5000))
    (by rw [Shape.rowMajor_val_one, Shape.rowMajor_val_two]; show (j 0).val = (j 0).val * 1 + 0; omega)]
  have hs := Ideal.multiReduction_add_single (mulf u u) 0x00000000#32 reduces_S5000x128_S5000 (.inl rfl) rfl (ix1 (j 0 : Fin 5000))
  unfold Cert.Spec.l2normRows Cert.Spec.rowSumSq
  refine congrArg (fun s => Ideal.div (u j) (max (Ideal.sqrt s) (Ideal.ofBits .f32 0x2B8CBCCC#32))) (hs.trans ?_)
  exact Finset.sum_congr rfl fun k _ => congrArg (fun y => u y * u y) (lift8_inRow j k)

-- The payload at an index is the combine step of the five blocks.
theorem pay8_apply (x0 x1 x2 : Vec Ideal S5000x128 .f32) (x3 x4 : Vec Ideal S128 .f32) (j : S5000x128.Idx) :
    k8_pay1 (F := Ideal) x0 x1 x3 x4 x2 j = combineRows 5000 x0 x1 x2 x3 x4 j := by
  unfold k8_pay1
  simp only [shapeCast_self]
  rw [addf_apply, rownorm8_apply]
  refine congrArg (fun u => x2 j + Cert.Spec.l2normRows 5000 u j) (funext fun i => ?_)
  rw [maximumf_apply, addf_apply, mulf_apply, addf_apply, bcast8, bcast8]
  exact congrArg (max _) Ideal.ofBits_zero_f32

variable (V : (c : Dev nD) → (b : Ref sig .tc) → Buf (Elt Ideal) ((c : Thread nD τ).loc b))

theorem idx8 : ∀ t : Fin cfg8.N, win8_5.index t (0 : Fin 2) = t.val :=
  (by decide +kernel : ∀ t : Fin grid8.N, _)

abbrev arrIdx8 (t : Fin cfg8.N) (y : S5000x128.Idx) : S40000x128.Idx := ((cfg8.win 5).blk t).view.emb y

theorem iblk8_vec (c : Dev nD) (t : Fin cfg8.N) :
    (iblk8 V c 3 t : Vec Ideal S128 .f32) = V c main_v114 ∧ (iblk8 V c 4 t : Vec Ideal S128 .f32) = V c main_v116 := by
  constructor <;> funext y <;> unfold iblk8 <;> rw [View.read_apply] <;>
    exact congrArg (V c _) (funext fun a => Fin.ext (match a with | ⟨0, _⟩ => (Nat.zero_add _).trans (Nat.one_mul _)))

-- The block's index map keeps rows and columns apart.
theorem arrIdx8_inRow (t : Fin cfg8.N) (y : S5000x128.Idx) (k : Fin 128) :
    arrIdx8 t (inRow (n := 5000) y k) = inRow (n := 40000) (arrIdx8 t y) k := by
  have r0 := congrArg Fin.val (Cert.Spec.inRow_row (n := 5000) y k)
  have r1 := congrArg Fin.val (Cert.Spec.inRow_col (n := 5000) y k)
  have s0 := congrArg Fin.val (Cert.Spec.inRow_row (n := 40000) (arrIdx8 t y) k)
  have s1 := congrArg Fin.val (Cert.Spec.inRow_col (n := 40000) (arrIdx8 t y) k)
  funext a; apply Fin.ext
  match a with
  | ⟨0, _⟩ =>
    show win8_5.index t (0 : Fin 2) * 5000 + 1 * (inRow (n := 5000) y k 0).val = (inRow (n := 40000) (arrIdx8 t y) k 0).val
    rw [r0, s0]; rfl
  | ⟨1, _⟩ =>
    show 0 * 128 + 1 * (inRow (n := 5000) y k 1).val = (inRow (n := 40000) (arrIdx8 t y) k 1).val
    rw [r1, s1]; omega

-- Block t of the output is block t of the combine step of the five arrays: the step at an index reads them only along that index's row.
theorem flushed8_eq (c : Dev nD) (t : Fin cfg8.N) :
    (dat8 V c).flushed 5 t = ((cfg8.win 5).blk t).view.read (Elt Ideal)
      (combine (V c main_v112) (V c main_v105) (V c main_v79) (V c main_v114) (V c main_v116)) := by
  show (cfg8.win 5).cut (grid8.coords t) ((dat8 V c).after 5 t) = _
  rw [after8_5]
  unfold out8_5
  rw [View.canon_unit_zero hz8_a]
  simp only [View.ld_unit_zero (S := S5000x128) hz8_a, View.ld_unit_zero (S := S128) hz8_b]
  funext j
  show k8_pay1 (F := Ideal) (iblk8 V c 0 t) (iblk8 V c 1 t) (iblk8 V c 3 t) (iblk8 V c 4 t) (iblk8 V c 2 t) j
    = combineRows 40000 (V c main_v112) (V c main_v105) (V c main_v79) (V c main_v114) (V c main_v116) (arrIdx8 t j)
  rw [pay8_apply, (iblk8_vec V c t).1, (iblk8_vec V c t).2]
  refine Cert.Spec.combineRows_congr _ _ _ _ _ _ _ _ j (arrIdx8 t j) (Fin.ext ?_)
    (fun k => congrArg (V c main_v112) (arrIdx8_inRow t j k)) (fun k => congrArg (V c main_v105) (arrIdx8_inRow t j k)) rfl
  show (j 1).val = 0 * 128 + 1 * (j 1).val
  omega

-- Row r lies in block r / 5000: the eight blocks of 5000 rows tile the 40000 rows.
theorem cover8 (i : S40000x128.Idx) :
    ∃ t : Fin cfg8.N, (cfg8.win 5).flush t = true ∧ i ∈ ((cfg8.win 5).blk t).view.set := by
  have hi : (i 0).val < 40000 := (i 0).isLt
  have ht : (i 0).val / 5000 < cfg8.N := by rw [show cfg8.N = 8 from N_8]; omega
  have e : ((cfg8.win 5).blk ⟨_, ht⟩).view.emb (ix2 ⟨(i 0).val % 5000, Nat.mod_lt _ (by decide)⟩ (i 1)) = i := by
    funext a; apply Fin.ext
    match a with
    | ⟨0, _⟩ =>
      show win8_5.index ⟨(i 0).val / 5000, ht⟩ (0 : Fin 2) * 5000 + 1 * ((i 0).val % 5000) = (i 0).val
      rw [idx8]; show (i 0).val / 5000 * 5000 + 1 * ((i 0).val % 5000) = (i 0).val; omega
    | ⟨1, _⟩ => show 0 * 128 + 1 * (i 1).val = (i 1).val; omega
  have h := View.emb_mem_set ((cfg8.win 5).blk ⟨_, ht⟩).view (ix2 ⟨(i 0).val % 5000, Nat.mod_lt _ (by decide)⟩ (i 1))
  rw [e] at h
  exact ⟨_, flush8_5 _, h⟩

theorem arrAt8 (c : Dev nD) : (dat8 (F := Ideal) V c).arrAt 5 cfg8.N
    = combine (V c main_v112) (V c main_v105) (V c main_v79) (V c main_v114) (V c main_v116) :=
  (dat8 V c).arrAt_eq_of_cover 5 _ (fun t _ => flushed8_eq V c t) (cover8)

end Cert.KernelIdeal.Hand
end
-- ==== Proof.KI.Val9.lean ====
import proofs.«405917_j13073880449508_1_alg».proof.Proof.KI.Reg9
import proofs.«405917_j13073880449508_1_alg».proof.Proof.Spec.L2norm
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Cert.Spec
open Idealize.ShloMosaic Idealize.ShloMosaic.TcCoe Idealize.ShloMosaic.ValueIdx

-- the row sum over the 128 columns, its square root floored by the constant, and the quotient, read at one index
theorem pay9_apply (x : Vec Ideal S5000x128 .f32) (j : S5000x128.Idx) :
    k9_pay1 (F := Ideal) x j = l2normRows 5000 x j := by
  unfold k9_pay1 l2normRows rowSumSq
  simp only []
  rw [shapeCast_self x, divf_apply,
    broadcastTo_apply _ broadcasts_S5000x1_S5000x128 j (ix2 (j 0) 0) (fun a => match a with | ⟨0, _⟩ => rfl | ⟨1, _⟩ => rfl),
    maximumf_apply, broadcast_apply]
  show Ideal.div (x j) (max (Ideal.sqrt (shapeCast S5000x1 _ shapeCasts_S5000_S5000x1 (ix2 (j 0) 0))) _) = _
  rw [shapeCast_apply _ shapeCasts_S5000_S5000x1 _ (ix1 (j 0))
      (by rw [Shape.rowMajor_val_one, Shape.rowMajor_val_two]; show (j 0).val = (j 0).val * 1 + 0; omega)]
  exact congrArg (fun s => Ideal.div (x j) (max (Ideal.sqrt s) _))
    ((Ideal.multiReduction_add_single (mulf x x) 0x00000000#32 reduces_S5000x128_S5000 (.inl rfl) rfl (ix1 (j 0))).trans
      (Finset.sum_congr rfl fun k _ => congrArg (fun i => x i * x i) (Shape.idx_ext₂ rfl rfl : reduces_S5000x128_S5000.lift (ix1 (j 0)) k = inRow j k)))

theorem idx_facts9 : ∀ t : Fin cfg9.N, win9_0.index t 0 = t.val ∧ win9_0.index t 1 = 0
    ∧ win9_1.index t 0 = t.val ∧ win9_1.index t 1 = 0 :=
  (by decide +kernel : ∀ t : Fin grid9.N, _)

variable (V : (c : Dev nD) → (b : Ref sig .tc) → Buf (Elt Ideal) ((c : Thread nD τ).loc b))

-- a row of the block at point t is a whole row of the array, and the normalisation at an index reads only that index's row
theorem flushed9_eq (c : Dev nD) (t : Fin cfg9.N) :
    (dat9 (F := Ideal) V c).flushed 1 t
      = ((cfg9.win 1).blk t).view.read (Elt Ideal) (l2norm (V c main_v117)) := by
  obtain ⟨e0, e1, e2, e3⟩ := idx_facts9 t
  show (cfg9.win 1).cut (grid9.coords t) ((dat9 V c).after 1 t) = _
  rw [after9_1]
  unfold out9_1
  rw [View.canon_unit_zero (by decide), View.ld_unit_zero (by decide)]
  funext y
  show k9_pay1 (F := Ideal) (iblk9 V c 0 t) y = l2norm (V c main_v117) (((cfg9.win 1).blk t).view.emb y)
  rw [pay9_apply]
  have h0 : win9_0.index t 0 * 5000 + 1 * (y 0).val = win9_1.index t 0 * 5000 + 1 * (y 0).val := by omega
  refine l2normRows_congr _ (V c main_v117) y _ (congrArg (V c main_v117) (Shape.idx_ext₂ h0 ?_))
    fun k => congrArg (V c main_v117) (Shape.idx_ext₂ h0 ?_)
  · show win9_0.index t 1 * 128 + 1 * (y 1).val = win9_1.index t 1 * 128 + 1 * (y 1).val; omega
  · show win9_0.index t 1 * 128 + 1 * k.val = k.val; omega

-- row r lies in the block of point r / 5000
theorem cover9 (i : S40000x128.Idx) :
    ∃ t : Fin cfg9.N, (cfg9.win 1).flush t = true ∧ i ∈ ((cfg9.win 1).blk t).view.set := by
  have hi0 : (i 0).val < 40000 := (i 0).isLt
  have hi1 : (i 1).val < 128 := (i 1).isLt
  obtain ⟨t, ht⟩ : ∃ t : Fin cfg9.N, t.val = (i 0).val / 5000 := ⟨⟨_, by rw [show cfg9.N = 8 from N_9]; omega⟩, rfl⟩
  obtain ⟨-, -, e2, e3⟩ := idx_facts9 t
  refine ⟨t, flush9_1 t, ?_⟩
  show i ∈ ((View.whole main_v118).slice (win9_1.rect t)).set
  rw [View.set_slice_whole, Rect.mem_set_unit]
  intro a
  match a with
  | ⟨0, _⟩ => show win9_1.index t 0 * 5000 ≤ (i 0).val ∧ (i 0).val < win9_1.index t 0 * 5000 + 5000; omega
  | ⟨1, _⟩ => show win9_1.index t 1 * 128 ≤ (i 1).val ∧ (i 1).val < win9_1.index t 1 * 128 + 128; omega

theorem arrAt9 (c : Dev nD) :
    (dat9 (F := Ideal) V c).arrAt 1 cfg9.N = Cert.Spec.l2norm (V c main_v117) :=
  (dat9 (F := Ideal) V c).arrAt_eq_of_cover 1 (Cert.Spec.l2norm (V c main_v117)) (fun t _ => flushed9_eq V c t) cover9

end Cert.KernelIdeal.Hand

end
-- ==== Proof.RefRead.lean ====
import proofs.«405917_j13073880449508_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

section
variable {F : FTy → Type} [FloatOps F]
variable (x0 : (⟨S40000x128, .f32⟩ : BufTy).Contents (Elt F)) (x1 : (⟨S2x640000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3x128x128, .f32⟩ : BufTy).Contents (Elt F)) (x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128, .f32⟩ : BufTy).Contents (Elt F))

-- Each stage of the reference as a function of @main's arguments (`val_…`), and the stage read at an index (`val_…_apply`).
def val_main_v0 : (⟨S1x640000, .i32⟩ : BufTy).Contents (Elt F) :=
  extractStridedSlice S1x640000 ![0, 0] (x1) slices_S2x640000_S1x640000_0_0
def val_main_v1 : (⟨S640000, .i32⟩ : BufTy).Contents (Elt F) :=
  shapeCast _ (val_main_v0 (F := F) x1) shapeCasts_S1x640000_S640000
def val_main_v2 : (⟨S1x640000, .i32⟩ : BufTy).Contents (Elt F) :=
  extractStridedSlice S1x640000 ![1, 0] (x1) slices_S2x640000_S1x640000_1_0
def val_main_v3 : (⟨S640000, .i32⟩ : BufTy).Contents (Elt F) :=
  shapeCast _ (val_main_v2 (F := F) x1) shapeCasts_S1x640000_S640000
def val_main_v4 : (⟨S1x128x128, .f32⟩ : BufTy).Contents (Elt F) :=
  extractStridedSlice S1x128x128 ![0, 0, 0] (x2) slices_S3x128x128_S1x128x128_0_0_0
def val_main_v5 : (⟨S128x128, .f32⟩ : BufTy).Contents (Elt F) :=
  shapeCast _ (val_main_v4 (F := F) x2) shapeCasts_S1x128x128_S128x128
def val_main_v6 : (⟨S128x128, .f32⟩ : BufTy).Contents (Elt F) :=
  transpose S128x128 [1, 0] (val_main_v5 (F := F) x2) transposes_S128x128_S128x128_1_0
def val_main_v7 : (⟨S40000x128, .f32⟩ : BufTy).Contents (Elt F) :=
  Host.dotGeneral dot_S40000x128_S128x128_S40000x128_1_0_0_1_n_n none (x0) (val_main_v6 (F := F) x2)
theorem lhs_main_v7_0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl
theorem lhs_main_v7_1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q
theorem rhs_main_v7_0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q
theorem rhs_main_v7_1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl
abbrev lidx_main_v7 (i : S40000x128.Idx) (k : Fin 128) : S40000x128.Idx := fun a => match a with
  | ⟨0, _⟩ => ⟨(i 0).val, (i 0).isLt⟩
  | ⟨1, _⟩ => ⟨k.val, k.isLt⟩
abbrev ridx_main_v7 (i : S40000x128.Idx) (k : Fin 128) : S128x128.Idx := fun a => match a with
  | ⟨0, _⟩ => ⟨k.val, k.isLt⟩
  | ⟨1, _⟩ => ⟨(i 1).val, (i 1).isLt⟩
def val_main_v8 : (⟨S1x128, .f32⟩ : BufTy).Contents (Elt F) :=
  extractStridedSlice S1x128 ![0, 0] (x3) slices_S3x128_S1x128_0_0
def val_main_v9 : (⟨S128, .f32⟩ : BufTy).Contents (Elt F) :=
  shapeCast _ (val_main_v8 (F := F) x3) shapeCasts_S1x128_S128
def val_main_v10 : (⟨S1x128, .f32⟩ : BufTy).Contents (Elt F) :=
  broadcastInDim S1x128 ![1] bcast_S128_S1x128_1 (val_main_v9 (F := F) x3)
abbrev idx_main_v10 (i : S1x128.Idx) : S128.Idx := fun a => match a with
  | ⟨0, _⟩ => ⟨(i 1).val, (i 1).isLt⟩
theorem val_main_v10_apply (i : S1x128.Idx) :
    val_main_v10 (F := F) x3 i = val_main_v9 (F := F) x3 (idx_main_v10 i) := by
  unfold val_main_v10
  generalize val_main_v9 (F := F) x3 = y
  exact broadcastInDim_apply _ bcast_S128_S1x128_1 y i (idx_main_v10 i) (fun a => match a with
    | ⟨0, _⟩ => by show (i 1).val = if (128 : Nat) = 1 then 0 else (i 1).val; rw [if_neg (by decide)])
def val_main_v11 : (⟨S40000x128, .f32⟩ : BufTy).Contents (Elt F) :=
  broadcastInDim S40000x128 ![0, 1] bcast_S1x128_S40000x128_0_1 (val_main_v10 (F := F) x3)
abbrev idx_main_v11 (i : S40000x128.Idx) : S1x128.Idx := fun a => match a with
  | ⟨0, _⟩ => ⟨0, Nat.one_pos⟩
  | ⟨1, _⟩ => ⟨(i 1).val, (i 1).isLt⟩
theorem val_main_v11_apply (i : S40000x128.Idx) :
    val_main_v11 (F := F) x3 i = val_main_v10 (F := F) x3 (idx_main_v11 i) := by
  unfold val_main_v11
  generalize val_main_v10 (F := F) x3 = y
  exact broadcastInDim_apply _ bcast_S1x128_S40000x128_0_1 y i (idx_main_v11 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v12 : (⟨S40000x128, .f32⟩ : BufTy).Contents (Elt F) :=
  addf (val_main_v7 (F := F) x0 x2) (val_main_v11 (F := F) x3)
theorem val_main_v12_apply (i : S40000x128.Idx) :
    val_main_v12 (F := F) x0 x2 x3 i = FloatOps.addf (val_main_v7 (F := F) x0 x2 i) (val_main_v11 (F := F) x3 i) := rfl
def val_main_v13 : (⟨S1x128x128, .f32⟩ : BufTy).Contents (Elt F) :=
  extractStridedSlice S1x128x128 ![0, 0, 0] (x4) slices_S3x128x128_S1x128x128_0_0_0
def val_main_v14 : (⟨S128x128, .f32⟩ : BufTy).Contents (Elt F) :=
  shapeCast _ (val_main_v13 (F := F) x4) shapeCasts_S1x128x128_S128x128
def val_main_v15 : (⟨S128x128, .f32⟩ : BufTy).Contents (Elt F) :=
  transpose S128x128 [1, 0] (val_main_v14 (F := F) x4) transposes_S128x128_S128x128_1_0
def val_main_v16 : (⟨S40000x128, .f32⟩ : BufTy).Contents (Elt F) :=
  Host.dotGeneral dot_S40000x128_S128x128_S40000x128_1_0_0_1_n_n none (x0) (val_main_v15 (F := F) x4)
theorem lhs_main_v16_0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl
theorem lhs_main_v16_1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q
theorem rhs_main_v16_0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q
theorem rhs_main_v16_1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl
abbrev lidx_main_v16 (i : S40000x128.Idx) (k : Fin 128) : S40000x128.Idx := fun a => match a with
  | ⟨0, _⟩ => ⟨(i 0).val, (i 0).isLt⟩
  | ⟨1, _⟩ => ⟨k.val, k.isLt⟩
abbrev ridx_main_v16 (i : S40000x128.Idx) (k : Fin 128) : S128x128.Idx := fun a => match a with
  | ⟨0, _⟩ => ⟨k.val, k.isLt⟩
  | ⟨1, _⟩ => ⟨(i 1).val, (i 1).isLt⟩
def val_main_v17 : (⟨S1x128, .f32⟩ : BufTy).Contents (Elt F) :=
  extractStridedSlice S1x128 ![0, 0] (x5) slices_S3x128_S1x128_0_0
def val_main_v18 : (⟨S128, .f32⟩ : BufTy).Contents (Elt F) :=
  shapeCast _ (val_main_v17 (F := F) x5) shapeCasts_S1x128_S128
def val_main_v19 : (⟨S1x128, .f32⟩ : BufTy).Contents (Elt F) :=
  broadcastInDim S1x128 ![1] bcast_S128_S1x128_1 (val_main_v18 (F := F) x5)
abbrev idx_main_v19 (i : S1x128.Idx) : S128.Idx := fun a => match a with
  | ⟨0, _⟩ => ⟨(i 1).val, (i 1).isLt⟩
theorem val_main_v19_apply (i : S1x128.Idx) :
    val_main_v19 (F := F) x5 i = val_main_v18 (F := F) x5 (idx_main_v19 i) := by
  unfold val_main_v19
  generalize val_main_v18 (F := F) x5 = y
  exact broadcastInDim_apply _ bcast_S128_S1x128_1 y i (idx_main_v19 i) (fun a => match a with
    | ⟨0, _⟩ => by show (i 1).val = if (128 : Nat) = 1 then 0 else (i 1).val; rw [if_neg (by decide)])
def val_main_v20 : (⟨S40000x128, .f32⟩ : BufTy).Contents (Elt F) :=
  broadcastInDim S40000x128 ![0, 1] bcast_S1x128_S40000x128_0_1 (val_main_v19 (F := F) x5)
abbrev idx_main_v20 (i : S40000x128.Idx) : S1x128.Idx := fun a => match a with
  | ⟨0, _⟩ => ⟨0, Nat.one_pos⟩
  | ⟨1, _⟩ => ⟨(i 1).val, (i 1).isLt⟩
theorem val_main_v20_apply (i : S40000x128.Idx) :
    val_main_v20 (F := F) x5 i = val_main_v19 (F := F) x5 (idx_main_v20 i) := by
  unfold val_main_v20
  generalize val_main_v19 (F := F) x5 = y
  exact broadcastInDim_apply _ bcast_S1x128_S40000x128_0_1 y i (idx_main_v20 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v21 : (⟨S40000x128, .f32⟩ : BufTy).Contents (Elt F) :=
  addf (val_main_v16 (F := F) x0 x4) (val_main_v20 (F := F) x5)
theorem val_main_v21_apply (i : S40000x128.Idx) :
    val_main_v21 (F := F) x0 x4 x5 i = FloatOps.addf (val_main_v16 (F := F) x0 x4 i) (val_main_v20 (F := F) x5 i) := rfl
def val_main_v22 : (⟨S1x128x128, .f32⟩ : BufTy).Contents (Elt F) :=
  extractStridedSlice S1x128x128 ![0, 0, 0] (x6) slices_S3x128x128_S1x128x128_0_0_0
def val_main_v23 : (⟨S128x128, .f32⟩ : BufTy).Contents (Elt F) :=
  shapeCast _ (val_main_v22 (F := F) x6) shapeCasts_S1x128x128_S128x128
def val_main_v24 : (⟨S128x128, .f32⟩ : BufTy).Contents (Elt F) :=
  transpose S128x128 [1, 0] (val_main_v23 (F := F) x6) transposes_S128x128_S128x128_1_0
def val_main_v25 : (⟨S40000x128, .f32⟩ : BufTy).Contents (Elt F) :=
  Host.dotGeneral dot_S40000x128_S128x128_S40000x128_1_0_0_1_n_n none (x0) (val_main_v24 (F := F) x6)
theorem lhs_main_v25_0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl
theorem lhs_main_v25_1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q
theorem rhs_main_v25_0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q
theorem rhs_main_v25_1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl
abbrev lidx_main_v25 (i : S40000x128.Idx) (k : Fin 128) : S40000x128.Idx := fun a => match a with
  | ⟨0, _⟩ => ⟨(i 0).val, (i 0).isLt⟩
  | ⟨1, _⟩ => ⟨k.val, k.isLt⟩
abbrev ridx_main_v25 (i : S40000x128.Idx) (k : Fin 128) : S128x128.Idx := fun a => match a with
  | ⟨0, _⟩ => ⟨k.val, k.isLt⟩
  | ⟨1, _⟩ => ⟨(i 1).val, (i 1).isLt⟩
def val_main_v26 : (⟨S1x128, .f32⟩ : BufTy).Contents (Elt F) :=
  extractStridedSlice S1x128 ![0, 0] (x7) slices_S3x128_S1x128_0_0
def val_main_v27 : (⟨S128, .f32⟩ : BufTy).Contents (Elt F) :=
  shapeCast _ (val_main_v26 (F := F) x7) shapeCasts_S1x128_S128
def val_main_v28 : (⟨S1x128, .f32⟩ : BufTy).Contents (Elt F) :=
  broadcastInDim S1x128 ![1] bcast_S128_S1x128_1 (val_main_v27 (F := F) x7)
abbrev idx_main_v28 (i : S1x128.Idx) : S128.Idx := fun a => match a with
  | ⟨0, _⟩ => ⟨(i 1).val, (i 1).isLt⟩
theorem val_main_v28_apply (i : S1x128.Idx) :
    val_main_v28 (F := F) x7 i = val_main_v27 (F := F) x7 (idx_main_v28 i) := by
  unfold val_main_v28
  generalize val_main_v27 (F := F) x7 = y
  exact broadcastInDim_apply _ bcast_S128_S1x128_1 y i (idx_main_v28 i) (fun a => match a with
    | ⟨0, _⟩ => by show (i 1).val = if (128 : Nat) = 1 then 0 else (i 1).val; rw [if_neg (by decide)])
def val_main_v29 : (⟨S40000x128, .f32⟩ : BufTy).Contents (Elt F) :=
  broadcastInDim S40000x128 ![0, 1] bcast_S1x128_S40000x128_0_1 (val_main_v28 (F := F) x7)
abbrev idx_main_v29 (i : S40000x128.Idx) : S1x128.Idx := fun a => match a with
  | ⟨0, _⟩ => ⟨0, Nat.one_pos⟩
  | ⟨1, _⟩ => ⟨(i 1).val, (i 1).isLt⟩
theorem val_main_v29_apply (i : S40000x128.Idx) :
    val_main_v29 (F := F) x7 i = val_main_v28 (F := F) x7 (idx_main_v29 i) := by
  unfold val_main_v29
  generalize val_main_v28 (F := F) x7 = y
  exact broadcastInDim_apply _ bcast_S1x128_S40000x128_0_1 y i (idx_main_v29 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v30 : (⟨S40000x128, .f32⟩ : BufTy).Contents (Elt F) :=
  addf (val_main_v25 (F := F) x0 x6) (val_main_v29 (F := F) x7)
theorem val_main_v30_apply (i : S40000x128.Idx) :
    val_main_v30 (F := F) x0 x6 x7 i = FloatOps.addf (val_main_v25 (F := F) x0 x6 i) (val_main_v29 (F := F) x7 i) := rfl
def val_main_c : (⟨S_, .i32⟩ : BufTy).Contents (Elt F) :=
  constantI S_ 32 0#32
def val_main_v31 : (⟨S640000, .i32⟩ : BufTy).Contents (Elt F) :=
  broadcastInDim S640000 ![] bcast_S_S640000 (val_main_c (F := F))
def val_main_v32 : (⟨S640000, .i1⟩ : BufTy).Contents (Elt F) :=
  cmpi .slt (val_main_v3 (F := F) x1) (val_main_v31 (F := F))
def val_main_c_0 : (⟨S_, .i32⟩ : BufTy).Contents (Elt F) :=
  constantI S_ 32 40000#32
def val_main_v33 : (⟨S640000, .i32⟩ : BufTy).Contents (Elt F) :=
  broadcastInDim S640000 ![] bcast_S_S640000 (val_main_c_0 (F := F))
def val_main_v34 : (⟨S640000, .i32⟩ : BufTy).Contents (Elt F) :=
  addi (val_main_v3 (F := F) x1) (val_main_v33 (F := F))
def val_main_v35 : (⟨S640000, .i32⟩ : BufTy).Contents (Elt F) :=
  select (val_main_v32 (F := F) x1) (val_main_v34 (F := F) x1) (val_main_v3 (F := F) x1)
def val_main_v36 : (⟨S640000x1, .i32⟩ : BufTy).Contents (Elt F) :=
  broadcastInDim S640000x1 ![0] bcast_S640000_S640000x1_0 (val_main_v35 (F := F) x1)
def val_main_v37 : (⟨S640000x128, .f32⟩ : BufTy).Contents (Elt F) :=
  Host.gather gather_S40000x128_S640000x1_S640000x128_1_0_n_n_0_1_1128 (val_main_v12 (F := F) x0 x2 x3) (val_main_v36 (F := F) x1)
def val_main_c_1 : (⟨S_, .i32⟩ : BufTy).Contents (Elt F) :=
  constantI S_ 32 0#32
def val_main_v38 : (⟨S640000, .i32⟩ : BufTy).Contents (Elt F) :=
  broadcastInDim S640000 ![] bcast_S_S640000 (val_main_c_1 (F := F))
def val_main_v39 : (⟨S640000, .i1⟩ : BufTy).Contents (Elt F) :=
  cmpi .slt (val_main_v1 (F := F) x1) (val_main_v38 (F := F))
def val_main_c_2 : (⟨S_, .i32⟩ : BufTy).Contents (Elt F) :=
  constantI S_ 32 40000#32
def val_main_v40 : (⟨S640000, .i32⟩ : BufTy).Contents (Elt F) :=
  broadcastInDim S640000 ![] bcast_S_S640000 (val_main_c_2 (F := F))
def val_main_v41 : (⟨S640000, .i32⟩ : BufTy).Contents (Elt F) :=
  addi (val_main_v1 (F := F) x1) (val_main_v40 (F := F))
def val_main_v42 : (⟨S640000, .i32⟩ : BufTy).Contents (Elt F) :=
  select (val_main_v39 (F := F) x1) (val_main_v41 (F := F) x1) (val_main_v1 (F := F) x1)
def val_main_v43 : (⟨S640000x1, .i32⟩ : BufTy).Contents (Elt F) :=
  broadcastInDim S640000x1 ![0] bcast_S640000_S640000x1_0 (val_main_v42 (F := F) x1)
def val_main_v44 : (⟨S640000x128, .f32⟩ : BufTy).Contents (Elt F) :=
  Host.gather gather_S40000x128_S640000x1_S640000x128_1_0_n_n_0_1_1128 (val_main_v21 (F := F) x0 x4 x5) (val_main_v43 (F := F) x1)
def val_main_v45 : (⟨S640000x128, .f32⟩ : BufTy).Contents (Elt F) :=
  addf (val_main_v37 (F := F) x0 x1 x2 x3) (val_main_v44 (F := F) x0 x1 x4 x5)
def val_main_v46 : (⟨S640000x128, .f32⟩ : BufTy).Contents (Elt F) :=
  Host.negf (val_main_v45 (F := F) x0 x1 x2 x3 x4 x5)
def val_main_v47 : (⟨S640000x128, .f32⟩ : BufTy).Contents (Elt F) :=
  Host.exp (val_main_v46 (F := F) x0 x1 x2 x3 x4 x5)
def val_main_cst : (⟨S_, .f32⟩ : BufTy).Contents (Elt F) :=
  constant S_ .f32 0x3F800000#32
def val_main_v48 : (⟨S640000x128, .f32⟩ : BufTy).Contents (Elt F) :=
  broadcastInDim S640000x128 ![] bcast_S_S640000x128 (val_main_cst (F := F))
def val_main_v49 : (⟨S640000x128, .f32⟩ : BufTy).Contents (Elt F) :=
  addf (val_main_v48 (F := F)) (val_main_v47 (F := F) x0 x1 x2 x3 x4 x5)
def val_main_cst_3 : (⟨S_, .f32⟩ : BufTy).Contents (Elt F) :=
  constant S_ .f32 0x3F800000#32
def val_main_v50 : (⟨S640000x128, .f32⟩ : BufTy).Contents (Elt F) :=
  broadcastInDim S640000x128 ![] bcast_S_S640000x128 (val_main_cst_3 (F := F))
def val_main_v51 : (⟨S640000x128, .f32⟩ : BufTy).Contents (Elt F) :=
  Host.divf (val_main_v50 (F := F)) (val_main_v49 (F := F) x0 x1 x2 x3 x4 x5)
def val_main_c_4 : (⟨S_, .i32⟩ : BufTy).Contents (Elt F) :=
  constantI S_ 32 0#32
def val_main_v52 : (⟨S640000, .i32⟩ : BufTy).Contents (Elt F) :=
  broadcastInDim S640000 ![] bcast_S_S640000 (val_main_c_4 (F := F))
def val_main_v53 : (⟨S640000, .i1⟩ : BufTy).Contents (Elt F) :=
  cmpi .slt (val_main_v1 (F := F) x1) (val_main_v52 (F := F))
def val_main_c_5 : (⟨S_, .i32⟩ : BufTy).Contents (Elt F) :=
  constantI S_ 32 40000#32
def val_main_v54 : (⟨S640000, .i32⟩ : BufTy).Contents (Elt F) :=
  broadcastInDim S640000 ![] bcast_S_S640000 (val_main_c_5 (F := F))
def val_main_v55 : (⟨S640000, .i32⟩ : BufTy).Contents (Elt F) :=
  addi (val_main_v1 (F := F) x1) (val_main_v54 (F := F))
def val_main_v56 : (⟨S640000, .i32⟩ : BufTy).Contents (Elt F) :=
  select (val_main_v53 (F := F) x1) (val_main_v55 (F := F) x1) (val_main_v1 (F := F) x1)
def val_main_v57 : (⟨S640000x1, .i32⟩ : BufTy).Contents (Elt F) :=
  broadcastInDim S640000x1 ![0] bcast_S640000_S640000x1_0 (val_main_v56 (F := F) x1)
def val_main_v58 : (⟨S640000x128, .f32⟩ : BufTy).Contents (Elt F) :=
  Host.gather gather_S40000x128_S640000x1_S640000x128_1_0_n_n_0_1_1128 (val_main_v30 (F := F) x0 x6 x7) (val_main_v57 (F := F) x1)
def val_main_v59 : (⟨S640000x128, .f32⟩ : BufTy).Contents (Elt F) :=
  mulf (val_main_v51 (F := F) x0 x1 x2 x3 x4 x5) (val_main_v58 (F := F) x0 x1 x6 x7)
def val_main_cst_6 : (⟨S_, .f32⟩ : BufTy).Contents (Elt F) :=
  constant S_ .f32 0x00000000#32
def val_main_v60 : (⟨S40000x128, .f32⟩ : BufTy).Contents (Elt F) :=
  broadcastInDim S40000x128 ![] bcast_S_S40000x128 (val_main_cst_6 (F := F))
def val_main_v61 : (⟨S640000x1, .i32⟩ : BufTy).Contents (Elt F) :=
  broadcastInDim S640000x1 ![0] bcast_S640000_S640000x1_0 (val_main_v3 (F := F) x1)
def val_main_v62 : (⟨S40000x128, .f32⟩ : BufTy).Contents (Elt F) :=
  Host.scatterAdd scatter_S40000x128_S640000x1_S640000x128_1_0_0_1 (val_main_v60 (F := F)) (val_main_v61 (F := F) x1) (val_main_v59 (F := F) x0 x1 x2 x3 x4 x5 x6 x7)
def val_main_v63 : (⟨S1x128x128, .f32⟩ : BufTy).Contents (Elt F) :=
  extractStridedSlice S1x128x128 ![0, 0, 0] (x8) slices_S3x128x128_S1x128x128_0_0_0
def val_main_v64 : (⟨S128x128, .f32⟩ : BufTy).Contents (Elt F) :=
  shapeCast _ (val_main_v63 (F := F) x8) shapeCasts_S1x128x128_S128x128
def val_main_v65 : (⟨S128x128, .f32⟩ : BufTy).Contents (Elt F) :=
  transpose S128x128 [1, 0] (val_main_v64 (F := F) x8) transposes_S128x128_S128x128_1_0
def val_main_v66 : (⟨S40000x128, .f32⟩ : BufTy).Contents (Elt F) :=
  Host.dotGeneral dot_S40000x128_S128x128_S40000x128_1_0_0_1_n_n none (x0) (val_main_v65 (F := F) x8)
theorem lhs_main_v66_0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl
theorem lhs_main_v66_1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q
theorem rhs_main_v66_0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q
theorem rhs_main_v66_1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl
abbrev lidx_main_v66 (i : S40000x128.Idx) (k : Fin 128) : S40000x128.Idx := fun a => match a with
  | ⟨0, _⟩ => ⟨(i 0).val, (i 0).isLt⟩
  | ⟨1, _⟩ => ⟨k.val, k.isLt⟩
abbrev ridx_main_v66 (i : S40000x128.Idx) (k : Fin 128) : S128x128.Idx := fun a => match a with
  | ⟨0, _⟩ => ⟨k.val, k.isLt⟩
  | ⟨1, _⟩ => ⟨(i 1).val, (i 1).isLt⟩
def val_main_v67 : (⟨S40000x128, .f32⟩ : BufTy).Contents (Elt F) :=
  addf (val_main_v62 (F := F) x0 x1 x2 x3 x4 x5 x6 x7) (val_main_v66 (F := F) x0 x8)
def val_main_v68 : (⟨S1x128, .f32⟩ : BufTy).Contents (Elt F) :=
  extractStridedSlice S1x128 ![0, 0] (x9) slices_S3x128_S1x128_0_0
def val_main_v69 : (⟨S128, .f32⟩ : BufTy).Contents (Elt F) :=
  shapeCast _ (val_main_v68 (F := F) x9) shapeCasts_S1x128_S128
def val_main_v70 : (⟨S1x128, .f32⟩ : BufTy).Contents (Elt F) :=
  broadcastInDim S1x128 ![1] bcast_S128_S1x128_1 (val_main_v69 (F := F) x9)
def val_main_v71 : (⟨S40000x128, .f32⟩ : BufTy).Contents (Elt F) :=
  broadcastInDim S40000x128 ![0, 1] bcast_S1x128_S40000x128_0_1 (val_main_v70 (F := F) x9)
def val_main_v72 : (⟨S40000x128, .f32⟩ : BufTy).Contents (Elt F) :=
  mulf (val_main_v67 (F := F) x0 x1 x2 x3 x4 x5 x6 x7 x8) (val_main_v71 (F := F) x9)
def val_main_v73 : (⟨S1x128, .f32⟩ : BufTy).Contents (Elt F) :=
  extractStridedSlice S1x128 ![0, 0] (x10) slices_S3x128_S1x128_0_0
def val_main_v74 : (⟨S128, .f32⟩ : BufTy).Contents (Elt F) :=
  shapeCast _ (val_main_v73 (F := F) x10) shapeCasts_S1x128_S128
def val_main_v75 : (⟨S1x128, .f32⟩ : BufTy).Contents (Elt F) :=
  broadcastInDim S1x128 ![1] bcast_S128_S1x128_1 (val_main_v74 (F := F) x10)
def val_main_v76 : (⟨S40000x128, .f32⟩ : BufTy).Contents (Elt F) :=
  broadcastInDim S40000x128 ![0, 1] bcast_S1x128_S40000x128_0_1 (val_main_v75 (F := F) x10)
def val_main_v77 : (⟨S40000x128, .f32⟩ : BufTy).Contents (Elt F) :=
  addf (val_main_v72 (F := F) x0 x1 x2 x3 x4 x5 x6 x7 x8 x9) (val_main_v76 (F := F) x10)
def val_main_call0_cst : (⟨S_, .f32⟩ : BufTy).Contents (Elt F) :=
  constant S_ .f32 0x00000000#32
def val_main_call0_v0 : (⟨S40000x128, .f32⟩ : BufTy).Contents (Elt F) :=
  broadcastInDim S40000x128 ![] bcast_S_S40000x128 (val_main_call0_cst (F := F))
def val_main_v78 : (⟨S40000x128, .f32⟩ : BufTy).Contents (Elt F) :=
  maximumf (val_main_v77 (F := F) x0 x1 x2 x3 x4 x5 x6 x7 x8 x9 x10) (val_main_call0_v0 (F := F))
def val_main_v79 : (⟨S40000x128, .f32⟩ : BufTy).Contents (Elt F) :=
  mulf (val_main_v78 (F := F) x0 x1 x2 x3 x4 x5 x6 x7 x8 x9 x10) (val_main_v78 (F := F) x0 x1 x2 x3 x4 x5 x6 x7 x8 x9 x10)
def val_main_cst_7 : (⟨S_, .f32⟩ : BufTy).Contents (Elt F) :=
  constant S_ .f32 0x00000000#32
def val_main_v80 : (⟨S40000, .f32⟩ : BufTy).Contents (Elt F) :=
  Host.reduceAdd (val_main_v79 (F := F) x0 x1 x2 x3 x4 x5 x6 x7 x8 x9 x10) (val_main_cst_7 (F := F)) reducesTo_S40000x128_S40000_d1 h_S_
abbrev idx_main_v80 (i : S40000.Idx) (k : Fin 128) : S40000x128.Idx := fun a => match a with
  | ⟨0, _⟩ => ⟨(i 0).val, (i 0).isLt⟩
  | ⟨1, _⟩ => ⟨k.val, k.isLt⟩
def val_main_v81 : (⟨S40000x1, .f32⟩ : BufTy).Contents (Elt F) :=
  broadcastInDim S40000x1 ![0] bcast_S40000_S40000x1_0 (val_main_v80 (F := F) x0 x1 x2 x3 x4 x5 x6 x7 x8 x9 x10)
abbrev idx_main_v81 (i : S40000x1.Idx) : S40000.Idx := fun a => match a with
  | ⟨0, _⟩ => ⟨(i 0).val, (i 0).isLt⟩
def val_main_v82 : (⟨S40000x1, .f32⟩ : BufTy).Contents (Elt F) :=
  Host.sqrt (val_main_v81 (F := F) x0 x1 x2 x3 x4 x5 x6 x7 x8 x9 x10)
def val_main_cst_8 : (⟨S_, .f32⟩ : BufTy).Contents (Elt F) :=
  constant S_ .f32 0x2B8CBCCC#32
def val_main_v83 : (⟨S40000x1, .f32⟩ : BufTy).Contents (Elt F) :=
  broadcastInDim S40000x1 ![] bcast_S_S40000x1 (val_main_cst_8 (F := F))
def val_main_v84 : (⟨S40000x1, .f32⟩ : BufTy).Contents (Elt F) :=
  maximumf (val_main_v82 (F := F) x0 x1 x2 x3 x4 x5 x6 x7 x8 x9 x10) (val_main_v83 (F := F))
def val_main_v85 : (⟨S40000x128, .f32⟩ : BufTy).Contents (Elt F) :=
  broadcastInDim S40000x128 ![0, 1] bcast_S40000x1_S40000x128_0_1 (val_main_v84 (F := F) x0 x1 x2 x3 x4 x5 x6 x7 x8 x9 x10)
abbrev idx_main_v85 (i : S40000x128.Idx) : S40000x1.Idx := fun a => match a with
  | ⟨0, _⟩ => ⟨(i 0).val, (i 0).isLt⟩
  | ⟨1, _⟩ => ⟨0, Nat.one_pos⟩
def val_main_v86 : (⟨S40000x128, .f32⟩ : BufTy).Contents (Elt F) :=
  Host.divf (val_main_v78 (F := F) x0 x1 x2 x3 x4 x5 x6 x7 x8 x9 x10) (val_main_v85 (F := F) x0 x1 x2 x3 x4 x5 x6 x7 x8 x9 x10)
def val_main_v87 : (⟨S40000x128, .f32⟩ : BufTy).Contents (Elt F) :=
  addf (x0) (val_main_v86 (F := F) x0 x1 x2 x3 x4 x5 x6 x7 x8 x9 x10)
def val_main_v88 : (⟨S1x128x128, .f32⟩ : BufTy).Contents (Elt F) :=
  extractStridedSlice S1x128x128 ![1, 0, 0] (x2) slices_S3x128x128_S1x128x128_1_0_0
def val_main_v89 : (⟨S128x128, .f32⟩ : BufTy).Contents (Elt F) :=
  shapeCast _ (val_main_v88 (F := F) x2) shapeCasts_S1x128x128_S128x128
def val_main_v90 : (⟨S128x128, .f32⟩ : BufTy).Contents (Elt F) :=
  transpose S128x128 [1, 0] (val_main_v89 (F := F) x2) transposes_S128x128_S128x128_1_0
def val_main_v91 : (⟨S40000x128, .f32⟩ : BufTy).Contents (Elt F) :=
  Host.dotGeneral dot_S40000x128_S128x128_S40000x128_1_0_0_1_n_n none (val_main_v87 (F := F) x0 x1 x2 x3 x4 x5 x6 x7 x8 x9 x10) (val_main_v90 (F := F) x2)
theorem lhs_main_v91_0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl
theorem lhs_main_v91_1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q
theorem rhs_main_v91_0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q
theorem rhs_main_v91_1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl
abbrev lidx_main_v91 (i : S40000x128.Idx) (k : Fin 128) : S40000x128.Idx := fun a => match a with
  | ⟨0, _⟩ => ⟨(i 0).val, (i 0).isLt⟩
  | ⟨1, _⟩ => ⟨k.val, k.isLt⟩
abbrev ridx_main_v91 (i : S40000x128.Idx) (k : Fin 128) : S128x128.Idx := fun a => match a with
  | ⟨0, _⟩ => ⟨k.val, k.isLt⟩
  | ⟨1, _⟩ => ⟨(i 1).val, (i 1).isLt⟩
def val_main_v92 : (⟨S1x128, .f32⟩ : BufTy).Contents (Elt F) :=
  extractStridedSlice S1x128 ![1, 0] (x3) slices_S3x128_S1x128_1_0
def val_main_v93 : (⟨S128, .f32⟩ : BufTy).Contents (Elt F) :=
  shapeCast _ (val_main_v92 (F := F) x3) shapeCasts_S1x128_S128
def val_main_v94 : (⟨S1x128, .f32⟩ : BufTy).Contents (Elt F) :=
  broadcastInDim S1x128 ![1] bcast_S128_S1x128_1 (val_main_v93 (F := F) x3)
abbrev idx_main_v94 (i : S1x128.Idx) : S128.Idx := fun a => match a with
  | ⟨0, _⟩ => ⟨(i 1).val, (i 1).isLt⟩
theorem val_main_v94_apply (i : S1x128.Idx) :
    val_main_v94 (F := F) x3 i = val_main_v93 (F := F) x3 (idx_main_v94 i) := by
  unfold val_main_v94
  generalize val_main_v93 (F := F) x3 = y
  exact broadcastInDim_apply _ bcast_S128_S1x128_1 y i (idx_main_v94 i) (fun a => match a with
    | ⟨0, _⟩ => by show (i 1).val = if (128 : Nat) = 1 then 0 else (i 1).val; rw [if_neg (by decide)])
def val_main_v95 : (⟨S40000x128, .f32⟩ : BufTy).Contents (Elt F) :=
  broadcastInDim S40000x128 ![0, 1] bcast_S1x128_S40000x128_0_1 (val_main_v94 (F := F) x3)
abbrev idx_main_v95 (i : S40000x128.Idx) : S1x128.Idx := fun a => match a with
  | ⟨0, _⟩ => ⟨0, Nat.one_pos⟩
  | ⟨1, _⟩ => ⟨(i 1).val, (i 1).isLt⟩
theorem val_main_v95_apply (i : S40000x128.Idx) :
    val_main_v95 (F := F) x3 i = val_main_v94 (F := F) x3 (idx_main_v95 i) := by
  unfold val_main_v95
  generalize val_main_v94 (F := F) x3 = y
  exact broadcastInDim_apply _ bcast_S1x128_S40000x128_0_1 y i (idx_main_v95 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v96 : (⟨S40000x128, .f32⟩ : BufTy).Contents (Elt F) :=
  addf (val_main_v91 (F := F) x0 x1 x2 x3 x4 x5 x6 x7 x8 x9 x10) (val_main_v95 (F := F) x3)
theorem val_main_v96_apply (i : S40000x128.Idx) :
    val_main_v96 (F := F) x0 x1 x2 x3 x4 x5 x6 x7 x8 x9 x10 i = FloatOps.addf (val_main_v91 (F := F) x0 x1 x2 x3 x4 x5 x6 x7 x8 x9 x10 i) (val_main_v95 (F := F) x3 i) := rfl
def val_main_v97 : (⟨S1x128x128, .f32⟩ : BufTy).Contents (Elt F) :=
  extractStridedSlice S1x128x128 ![1, 0, 0] (x4) slices_S3x128x128_S1x128x128_1_0_0
def val_main_v98 : (⟨S128x128, .f32⟩ : BufTy).Contents (Elt F) :=
  shapeCast _ (val_main_v97 (F := F) x4) shapeCasts_S1x128x128_S128x128
def val_main_v99 : (⟨S128x128, .f32⟩ : BufTy).Contents (Elt F) :=
  transpose S128x128 [1, 0] (val_main_v98 (F := F) x4) transposes_S128x128_S128x128_1_0
def val_main_v100 : (⟨S40000x128, .f32⟩ : BufTy).Contents (Elt F) :=
  Host.dotGeneral dot_S40000x128_S128x128_S40000x128_1_0_0_1_n_n none (val_main_v87 (F := F) x0 x1 x2 x3 x4 x5 x6 x7 x8 x9 x10) (val_main_v99 (F := F) x4)
theorem lhs_main_v100_0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl
theorem lhs_main_v100_1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q
theorem rhs_main_v100_0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q
theorem rhs_main_v100_1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl
abbrev lidx_main_v100 (i : S40000x128.Idx) (k : Fin 128) : S40000x128.Idx := fun a => match a with
  | ⟨0, _⟩ => ⟨(i 0).val, (i 0).isLt⟩
  | ⟨1, _⟩ => ⟨k.val, k.isLt⟩
abbrev ridx_main_v100 (i : S40000x128.Idx) (k : Fin 128) : S128x128.Idx := fun a => match a with
  | ⟨0, _⟩ => ⟨k.val, k.isLt⟩
  | ⟨1, _⟩ => ⟨(i 1).val, (i 1).isLt⟩
def val_main_v101 : (⟨S1x128, .f32⟩ : BufTy).Contents (Elt F) :=
  extractStridedSlice S1x128 ![1, 0] (x5) slices_S3x128_S1x128_1_0
def val_main_v102 : (⟨S128, .f32⟩ : BufTy).Contents (Elt F) :=
  shapeCast _ (val_main_v101 (F := F) x5) shapeCasts_S1x128_S128
def val_main_v103 : (⟨S1x128, .f32⟩ : BufTy).Contents (Elt F) :=
  broadcastInDim S1x128 ![1] bcast_S128_S1x128_1 (val_main_v102 (F := F) x5)
abbrev idx_main_v103 (i : S1x128.Idx) : S128.Idx := fun a => match a with
  | ⟨0, _⟩ => ⟨(i 1).val, (i 1).isLt⟩
theorem val_main_v103_apply (i : S1x128.Idx) :
    val_main_v103 (F := F) x5 i = val_main_v102 (F := F) x5 (idx_main_v103 i) := by
  unfold val_main_v103
  generalize val_main_v102 (F := F) x5 = y
  exact broadcastInDim_apply _ bcast_S128_S1x128_1 y i (idx_main_v103 i) (fun a => match a with
    | ⟨0, _⟩ => by show (i 1).val = if (128 : Nat) = 1 then 0 else (i 1).val; rw [if_neg (by decide)])
def val_main_v104 : (⟨S40000x128, .f32⟩ : BufTy).Contents (Elt F) :=
  broadcastInDim S40000x128 ![0, 1] bcast_S1x128_S40000x128_0_1 (val_main_v103 (F := F) x5)
abbrev idx_main_v104 (i : S40000x128.Idx) : S1x128.Idx := fun a => match a with
  | ⟨0, _⟩ => ⟨0, Nat.one_pos⟩
  | ⟨1, _⟩ => ⟨(i 1).val, (i 1).isLt⟩
theorem val_main_v104_apply (i : S40000x128.Idx) :
    val_main_v104 (F := F) x5 i = val_main_v103 (F := F) x5 (idx_main_v104 i) := by
  unfold val_main_v104
  generalize val_main_v103 (F := F) x5 = y
  exact broadcastInDim_apply _ bcast_S1x128_S40000x128_0_1 y i (idx_main_v104 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v105 : (⟨S40000x128, .f32⟩ : BufTy).Contents (Elt F) :=
  addf (val_main_v100 (F := F) x0 x1 x2 x3 x4 x5 x6 x7 x8 x9 x10) (val_main_v104 (F := F) x5)
theorem val_main_v105_apply (i : S40000x128.Idx) :
    val_main_v105 (F := F) x0 x1 x2 x3 x4 x5 x6 x7 x8 x9 x10 i = FloatOps.addf (val_main_v100 (F := F) x0 x1 x2 x3 x4 x5 x6 x7 x8 x9 x10 i) (val_main_v104 (F := F) x5 i) := rfl
def val_main_v106 : (⟨S1x128x128, .f32⟩ : BufTy).Contents (Elt F) :=
  extractStridedSlice S1x128x128 ![1, 0, 0] (x6) slices_S3x128x128_S1x128x128_1_0_0
def val_main_v107 : (⟨S128x128, .f32⟩ : BufTy).Contents (Elt F) :=
  shapeCast _ (val_main_v106 (F := F) x6) shapeCasts_S1x128x128_S128x128
def val_main_v108 : (⟨S128x128, .f32⟩ : BufTy).Contents (Elt F) :=
  transpose S128x128 [1, 0] (val_main_v107 (F := F) x6) transposes_S128x128_S128x128_1_0
def val_main_v109 : (⟨S40000x128, .f32⟩ : BufTy).Contents (Elt F) :=
  Host.dotGeneral dot_S40000x128_S128x128_S40000x128_1_0_0_1_n_n none (val_main_v87 (F := F) x0 x1 x2 x3 x4 x5 x6 x7 x8 x9 x10) (val_main_v108 (F := F) x6)
theorem lhs_main_v109_0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl
theorem lhs_main_v109_1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q
theorem rhs_main_v109_0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q
theorem rhs_main_v109_1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl
abbrev lidx_main_v109 (i : S40000x128.Idx) (k : Fin 128) : S40000x128.Idx := fun a => match a with
  | ⟨0, _⟩ => ⟨(i 0).val, (i 0).isLt⟩
  | ⟨1, _⟩ => ⟨k.val, k.isLt⟩
abbrev ridx_main_v109 (i : S40000x128.Idx) (k : Fin 128) : S128x128.Idx := fun a => match a with
  | ⟨0, _⟩ => ⟨k.val, k.isLt⟩
  | ⟨1, _⟩ => ⟨(i 1).val, (i 1).isLt⟩
def val_main_v110 : (⟨S1x128, .f32⟩ : BufTy).Contents (Elt F) :=
  extractStridedSlice S1x128 ![1, 0] (x7) slices_S3x128_S1x128_1_0
def val_main_v111 : (⟨S128, .f32⟩ : BufTy).Contents (Elt F) :=
  shapeCast _ (val_main_v110 (F := F) x7) shapeCasts_S1x128_S128
def val_main_v112 : (⟨S1x128, .f32⟩ : BufTy).Contents (Elt F) :=
  broadcastInDim S1x128 ![1] bcast_S128_S1x128_1 (val_main_v111 (F := F) x7)
abbrev idx_main_v112 (i : S1x128.Idx) : S128.Idx := fun a => match a with
  | ⟨0, _⟩ => ⟨(i 1).val, (i 1).isLt⟩
theorem val_main_v112_apply (i : S1x128.Idx) :
    val_main_v112 (F := F) x7 i = val_main_v111 (F := F) x7 (idx_main_v112 i) := by
  unfold val_main_v112
  generalize val_main_v111 (F := F) x7 = y
  exact broadcastInDim_apply _ bcast_S128_S1x128_1 y i (idx_main_v112 i) (fun a => match a with
    | ⟨0, _⟩ => by show (i 1).val = if (128 : Nat) = 1 then 0 else (i 1).val; rw [if_neg (by decide)])
def val_main_v113 : (⟨S40000x128, .f32⟩ : BufTy).Contents (Elt F) :=
  broadcastInDim S40000x128 ![0, 1] bcast_S1x128_S40000x128_0_1 (val_main_v112 (F := F) x7)
abbrev idx_main_v113 (i : S40000x128.Idx) : S1x128.Idx := fun a => match a with
  | ⟨0, _⟩ => ⟨0, Nat.one_pos⟩
  | ⟨1, _⟩ => ⟨(i 1).val, (i 1).isLt⟩
theorem val_main_v113_apply (i : S40000x128.Idx) :
    val_main_v113 (F := F) x7 i = val_main_v112 (F := F) x7 (idx_main_v113 i) := by
  unfold val_main_v113
  generalize val_main_v112 (F := F) x7 = y
  exact broadcastInDim_apply _ bcast_S1x128_S40000x128_0_1 y i (idx_main_v113 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v114 : (⟨S40000x128, .f32⟩ : BufTy).Contents (Elt F) :=
  addf (val_main_v109 (F := F) x0 x1 x2 x3 x4 x5 x6 x7 x8 x9 x10) (val_main_v113 (F := F) x7)
theorem val_main_v114_apply (i : S40000x128.Idx) :
    val_main_v114 (F := F) x0 x1 x2 x3 x4 x5 x6 x7 x8 x9 x10 i = FloatOps.addf (val_main_v109 (F := F) x0 x1 x2 x3 x4 x5 x6 x7 x8 x9 x10 i) (val_main_v113 (F := F) x7 i) := rfl
def val_main_c_9 : (⟨S_, .i32⟩ : BufTy).Contents (Elt F) :=
  constantI S_ 32 0#32
def val_main_v115 : (⟨S640000, .i32⟩ : BufTy).Contents (Elt F) :=
  broadcastInDim S640000 ![] bcast_S_S640000 (val_main_c_9 (F := F))
def val_main_v116 : (⟨S640000, .i1⟩ : BufTy).Contents (Elt F) :=
  cmpi .slt (val_main_v3 (F := F) x1) (val_main_v115 (F := F))
def val_main_c_10 : (⟨S_, .i32⟩ : BufTy).Contents (Elt F) :=
  constantI S_ 32 40000#32
def val_main_v117 : (⟨S640000, .i32⟩ : BufTy).Contents (Elt F) :=
  broadcastInDim S640000 ![] bcast_S_S640000 (val_main_c_10 (F := F))
def val_main_v118 : (⟨S640000, .i32⟩ : BufTy).Contents (Elt F) :=
  addi (val_main_v3 (F := F) x1) (val_main_v117 (F := F))
def val_main_v119 : (⟨S640000, .i32⟩ : BufTy).Contents (Elt F) :=
  select (val_main_v116 (F := F) x1) (val_main_v118 (F := F) x1) (val_main_v3 (F := F) x1)
def val_main_v120 : (⟨S640000x1, .i32⟩ : BufTy).Contents (Elt F) :=
  broadcastInDim S640000x1 ![0] bcast_S640000_S640000x1_0 (val_main_v119 (F := F) x1)
def val_main_v121 : (⟨S640000x128, .f32⟩ : BufTy).Contents (Elt F) :=
  Host.gather gather_S40000x128_S640000x1_S640000x128_1_0_n_n_0_1_1128 (val_main_v96 (F := F) x0 x1 x2 x3 x4 x5 x6 x7 x8 x9 x10) (val_main_v120 (F := F) x1)
def val_main_c_11 : (⟨S_, .i32⟩ : BufTy).Contents (Elt F) :=
  constantI S_ 32 0#32
def val_main_v122 : (⟨S640000, .i32⟩ : BufTy).Contents (Elt F) :=
  broadcastInDim S640000 ![] bcast_S_S640000 (val_main_c_11 (F := F))
def val_main_v123 : (⟨S640000, .i1⟩ : BufTy).Contents (Elt F) :=
  cmpi .slt (val_main_v1 (F := F) x1) (val_main_v122 (F := F))
def val_main_c_12 : (⟨S_, .i32⟩ : BufTy).Contents (Elt F) :=
  constantI S_ 32 40000#32
def val_main_v124 : (⟨S640000, .i32⟩ : BufTy).Contents (Elt F) :=
  broadcastInDim S640000 ![] bcast_S_S640000 (val_main_c_12 (F := F))
def val_main_v125 : (⟨S640000, .i32⟩ : BufTy).Contents (Elt F) :=
  addi (val_main_v1 (F := F) x1) (val_main_v124 (F := F))
def val_main_v126 : (⟨S640000, .i32⟩ : BufTy).Contents (Elt F) :=
  select (val_main_v123 (F := F) x1) (val_main_v125 (F := F) x1) (val_main_v1 (F := F) x1)
def val_main_v127 : (⟨S640000x1, .i32⟩ : BufTy).Contents (Elt F) :=
  broadcastInDim S640000x1 ![0] bcast_S640000_S640000x1_0 (val_main_v126 (F := F) x1)
def val_main_v128 : (⟨S640000x128, .f32⟩ : BufTy).Contents (Elt F) :=
  Host.gather gather_S40000x128_S640000x1_S640000x128_1_0_n_n_0_1_1128 (val_main_v105 (F := F) x0 x1 x2 x3 x4 x5 x6 x7 x8 x9 x10) (val_main_v127 (F := F) x1)
def val_main_v129 : (⟨S640000x128, .f32⟩ : BufTy).Contents (Elt F) :=
  addf (val_main_v121 (F := F) x0 x1 x2 x3 x4 x5 x6 x7 x8 x9 x10) (val_main_v128 (F := F) x0 x1 x2 x3 x4 x5 x6 x7 x8 x9 x10)
def val_main_v130 : (⟨S640000x128, .f32⟩ : BufTy).Contents (Elt F) :=
  Host.negf (val_main_v129 (F := F) x0 x1 x2 x3 x4 x5 x6 x7 x8 x9 x10)
def val_main_v131 : (⟨S640000x128, .f32⟩ : BufTy).Contents (Elt F) :=
  Host.exp (val_main_v130 (F := F) x0 x1 x2 x3 x4 x5 x6 x7 x8 x9 x10)
def val_main_cst_13 : (⟨S_, .f32⟩ : BufTy).Contents (Elt F) :=
  constant S_ .f32 0x3F800000#32
def val_main_v132 : (⟨S640000x128, .f32⟩ : BufTy).Contents (Elt F) :=
  broadcastInDim S640000x128 ![] bcast_S_S640000x128 (val_main_cst_13 (F := F))
def val_main_v133 : (⟨S640000x128, .f32⟩ : BufTy).Contents (Elt F) :=
  addf (val_main_v132 (F := F)) (val_main_v131 (F := F) x0 x1 x2 x3 x4 x5 x6 x7 x8 x9 x10)
def val_main_cst_14 : (⟨S_, .f32⟩ : BufTy).Contents (Elt F) :=
  constant S_ .f32 0x3F800000#32
def val_main_v134 : (⟨S640000x128, .f32⟩ : BufTy).Contents (Elt F) :=
  broadcastInDim S640000x128 ![] bcast_S_S640000x128 (val_main_cst_14 (F := F))
def val_main_v135 : (⟨S640000x128, .f32⟩ : BufTy).Contents (Elt F) :=
  Host.divf (val_main_v134 (F := F)) (val_main_v133 (F := F) x0 x1 x2 x3 x4 x5 x6 x7 x8 x9 x10)
def val_main_c_15 : (⟨S_, .i32⟩ : BufTy).Contents (Elt F) :=
  constantI S_ 32 0#32
def val_main_v136 : (⟨S640000, .i32⟩ : BufTy).Contents (Elt F) :=
  broadcastInDim S640000 ![] bcast_S_S640000 (val_main_c_15 (F := F))
def val_main_v137 : (⟨S640000, .i1⟩ : BufTy).Contents (Elt F) :=
  cmpi .slt (val_main_v1 (F := F) x1) (val_main_v136 (F := F))
def val_main_c_16 : (⟨S_, .i32⟩ : BufTy).Contents (Elt F) :=
  constantI S_ 32 40000#32
def val_main_v138 : (⟨S640000, .i32⟩ : BufTy).Contents (Elt F) :=
  broadcastInDim S640000 ![] bcast_S_S640000 (val_main_c_16 (F := F))
def val_main_v139 : (⟨S640000, .i32⟩ : BufTy).Contents (Elt F) :=
  addi (val_main_v1 (F := F) x1) (val_main_v138 (F := F))
def val_main_v140 : (⟨S640000, .i32⟩ : BufTy).Contents (Elt F) :=
  select (val_main_v137 (F := F) x1) (val_main_v139 (F := F) x1) (val_main_v1 (F := F) x1)
def val_main_v141 : (⟨S640000x1, .i32⟩ : BufTy).Contents (Elt F) :=
  broadcastInDim S640000x1 ![0] bcast_S640000_S640000x1_0 (val_main_v140 (F := F) x1)
def val_main_v142 : (⟨S640000x128, .f32⟩ : BufTy).Contents (Elt F) :=
  Host.gather gather_S40000x128_S640000x1_S640000x128_1_0_n_n_0_1_1128 (val_main_v114 (F := F) x0 x1 x2 x3 x4 x5 x6 x7 x8 x9 x10) (val_main_v141 (F := F) x1)
def val_main_v143 : (⟨S640000x128, .f32⟩ : BufTy).Contents (Elt F) :=
  mulf (val_main_v135 (F := F) x0 x1 x2 x3 x4 x5 x6 x7 x8 x9 x10) (val_main_v142 (F := F) x0 x1 x2 x3 x4 x5 x6 x7 x8 x9 x10)
def val_main_cst_17 : (⟨S_, .f32⟩ : BufTy).Contents (Elt F) :=
  constant S_ .f32 0x00000000#32
def val_main_v144 : (⟨S40000x128, .f32⟩ : BufTy).Contents (Elt F) :=
  broadcastInDim S40000x128 ![] bcast_S_S40000x128 (val_main_cst_17 (F := F))
def val_main_v145 : (⟨S640000x1, .i32⟩ : BufTy).Contents (Elt F) :=
  broadcastInDim S640000x1 ![0] bcast_S640000_S640000x1_0 (val_main_v3 (F := F) x1)
def val_main_v146 : (⟨S40000x128, .f32⟩ : BufTy).Contents (Elt F) :=
  Host.scatterAdd scatter_S40000x128_S640000x1_S640000x128_1_0_0_1 (val_main_v144 (F := F)) (val_main_v145 (F := F) x1) (val_main_v143 (F := F) x0 x1 x2 x3 x4 x5 x6 x7 x8 x9 x10)
def val_main_v147 : (⟨S1x128x128, .f32⟩ : BufTy).Contents (Elt F) :=
  extractStridedSlice S1x128x128 ![1, 0, 0] (x8) slices_S3x128x128_S1x128x128_1_0_0
def val_main_v148 : (⟨S128x128, .f32⟩ : BufTy).Contents (Elt F) :=
  shapeCast _ (val_main_v147 (F := F) x8) shapeCasts_S1x128x128_S128x128
def val_main_v149 : (⟨S128x128, .f32⟩ : BufTy).Contents (Elt F) :=
  transpose S128x128 [1, 0] (val_main_v148 (F := F) x8) transposes_S128x128_S128x128_1_0
def val_main_v150 : (⟨S40000x128, .f32⟩ : BufTy).Contents (Elt F) :=
  Host.dotGeneral dot_S40000x128_S128x128_S40000x128_1_0_0_1_n_n none (val_main_v87 (F := F) x0 x1 x2 x3 x4 x5 x6 x7 x8 x9 x10) (val_main_v149 (F := F) x8)
theorem lhs_main_v150_0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl
theorem lhs_main_v150_1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q
theorem rhs_main_v150_0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q
theorem rhs_main_v150_1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl
abbrev lidx_main_v150 (i : S40000x128.Idx) (k : Fin 128) : S40000x128.Idx := fun a => match a with
  | ⟨0, _⟩ => ⟨(i 0).val, (i 0).isLt⟩
  | ⟨1, _⟩ => ⟨k.val, k.isLt⟩
abbrev ridx_main_v150 (i : S40000x128.Idx) (k : Fin 128) : S128x128.Idx := fun a => match a with
  | ⟨0, _⟩ => ⟨k.val, k.isLt⟩
  | ⟨1, _⟩ => ⟨(i 1).val, (i 1).isLt⟩
def val_main_v151 : (⟨S40000x128, .f32⟩ : BufTy).Contents (Elt F) :=
  addf (val_main_v146 (F := F) x0 x1 x2 x3 x4 x5 x6 x7 x8 x9 x10) (val_main_v150 (F := F) x0 x1 x2 x3 x4 x5 x6 x7 x8 x9 x10)
def val_main_v152 : (⟨S1x128, .f32⟩ : BufTy).Contents (Elt F) :=
  extractStridedSlice S1x128 ![1, 0] (x9) slices_S3x128_S1x128_1_0
def val_main_v153 : (⟨S128, .f32⟩ : BufTy).Contents (Elt F) :=
  shapeCast _ (val_main_v152 (F := F) x9) shapeCasts_S1x128_S128
def val_main_v154 : (⟨S1x128, .f32⟩ : BufTy).Contents (Elt F) :=
  broadcastInDim S1x128 ![1] bcast_S128_S1x128_1 (val_main_v153 (F := F) x9)
def val_main_v155 : (⟨S40000x128, .f32⟩ : BufTy).Contents (Elt F) :=
  broadcastInDim S40000x128 ![0, 1] bcast_S1x128_S40000x128_0_1 (val_main_v154 (F := F) x9)
def val_main_v156 : (⟨S40000x128, .f32⟩ : BufTy).Contents (Elt F) :=
  mulf (val_main_v151 (F := F) x0 x1 x2 x3 x4 x5 x6 x7 x8 x9 x10) (val_main_v155 (F := F) x9)
def val_main_v157 : (⟨S1x128, .f32⟩ : BufTy).Contents (Elt F) :=
  extractStridedSlice S1x128 ![1, 0] (x10) slices_S3x128_S1x128_1_0
def val_main_v158 : (⟨S128, .f32⟩ : BufTy).Contents (Elt F) :=
  shapeCast _ (val_main_v157 (F := F) x10) shapeCasts_S1x128_S128
def val_main_v159 : (⟨S1x128, .f32⟩ : BufTy).Contents (Elt F) :=
  broadcastInDim S1x128 ![1] bcast_S128_S1x128_1 (val_main_v158 (F := F) x10)
def val_main_v160 : (⟨S40000x128, .f32⟩ : BufTy).Contents (Elt F) :=
  broadcastInDim S40000x128 ![0, 1] bcast_S1x128_S40000x128_0_1 (val_main_v159 (F := F) x10)
def val_main_v161 : (⟨S40000x128, .f32⟩ : BufTy).Contents (Elt F) :=
  addf (val_main_v156 (F := F) x0 x1 x2 x3 x4 x5 x6 x7 x8 x9 x10) (val_main_v160 (F := F) x10)
def val_main_call1_cst : (⟨S_, .f32⟩ : BufTy).Contents (Elt F) :=
  constant S_ .f32 0x00000000#32
def val_main_call1_v0 : (⟨S40000x128, .f32⟩ : BufTy).Contents (Elt F) :=
  broadcastInDim S40000x128 ![] bcast_S_S40000x128 (val_main_call1_cst (F := F))
def val_main_v162 : (⟨S40000x128, .f32⟩ : BufTy).Contents (Elt F) :=
  maximumf (val_main_v161 (F := F) x0 x1 x2 x3 x4 x5 x6 x7 x8 x9 x10) (val_main_call1_v0 (F := F))
def val_main_v163 : (⟨S40000x128, .f32⟩ : BufTy).Contents (Elt F) :=
  mulf (val_main_v162 (F := F) x0 x1 x2 x3 x4 x5 x6 x7 x8 x9 x10) (val_main_v162 (F := F) x0 x1 x2 x3 x4 x5 x6 x7 x8 x9 x10)
def val_main_cst_18 : (⟨S_, .f32⟩ : BufTy).Contents (Elt F) :=
  constant S_ .f32 0x00000000#32
def val_main_v164 : (⟨S40000, .f32⟩ : BufTy).Contents (Elt F) :=
  Host.reduceAdd (val_main_v163 (F := F) x0 x1 x2 x3 x4 x5 x6 x7 x8 x9 x10) (val_main_cst_18 (F := F)) reducesTo_S40000x128_S40000_d1 h_S_
def val_main_v165 : (⟨S40000x1, .f32⟩ : BufTy).Contents (Elt F) :=
  broadcastInDim S40000x1 ![0] bcast_S40000_S40000x1_0 (val_main_v164 (F := F) x0 x1 x2 x3 x4 x5 x6 x7 x8 x9 x10)
def val_main_v166 : (⟨S40000x1, .f32⟩ : BufTy).Contents (Elt F) :=
  Host.sqrt (val_main_v165 (F := F) x0 x1 x2 x3 x4 x5 x6 x7 x8 x9 x10)
def val_main_cst_19 : (⟨S_, .f32⟩ : BufTy).Contents (Elt F) :=
  constant S_ .f32 0x2B8CBCCC#32
def val_main_v167 : (⟨S40000x1, .f32⟩ : BufTy).Contents (Elt F) :=
  broadcastInDim S40000x1 ![] bcast_S_S40000x1 (val_main_cst_19 (F := F))
def val_main_v168 : (⟨S40000x1, .f32⟩ : BufTy).Contents (Elt F) :=
  maximumf (val_main_v166 (F := F) x0 x1 x2 x3 x4 x5 x6 x7 x8 x9 x10) (val_main_v167 (F := F))
def val_main_v169 : (⟨S40000x128, .f32⟩ : BufTy).Contents (Elt F) :=
  broadcastInDim S40000x128 ![0, 1] bcast_S40000x1_S40000x128_0_1 (val_main_v168 (F := F) x0 x1 x2 x3 x4 x5 x6 x7 x8 x9 x10)
def val_main_v170 : (⟨S40000x128, .f32⟩ : BufTy).Contents (Elt F) :=
  Host.divf (val_main_v162 (F := F) x0 x1 x2 x3 x4 x5 x6 x7 x8 x9 x10) (val_main_v169 (F := F) x0 x1 x2 x3 x4 x5 x6 x7 x8 x9 x10)
def val_main_v171 : (⟨S40000x128, .f32⟩ : BufTy).Contents (Elt F) :=
  addf (val_main_v87 (F := F) x0 x1 x2 x3 x4 x5 x6 x7 x8 x9 x10) (val_main_v170 (F := F) x0 x1 x2 x3 x4 x5 x6 x7 x8 x9 x10)
def val_main_v172 : (⟨S1x128x128, .f32⟩ : BufTy).Contents (Elt F) :=
  extractStridedSlice S1x128x128 ![2, 0, 0] (x2) slices_S3x128x128_S1x128x128_2_0_0
def val_main_v173 : (⟨S128x128, .f32⟩ : BufTy).Contents (Elt F) :=
  shapeCast _ (val_main_v172 (F := F) x2) shapeCasts_S1x128x128_S128x128
def val_main_v174 : (⟨S128x128, .f32⟩ : BufTy).Contents (Elt F) :=
  transpose S128x128 [1, 0] (val_main_v173 (F := F) x2) transposes_S128x128_S128x128_1_0
def val_main_v175 : (⟨S40000x128, .f32⟩ : BufTy).Contents (Elt F) :=
  Host.dotGeneral dot_S40000x128_S128x128_S40000x128_1_0_0_1_n_n none (val_main_v171 (F := F) x0 x1 x2 x3 x4 x5 x6 x7 x8 x9 x10) (val_main_v174 (F := F) x2)
theorem lhs_main_v175_0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl
theorem lhs_main_v175_1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q
theorem rhs_main_v175_0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q
theorem rhs_main_v175_1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl
abbrev lidx_main_v175 (i : S40000x128.Idx) (k : Fin 128) : S40000x128.Idx := fun a => match a with
  | ⟨0, _⟩ => ⟨(i 0).val, (i 0).isLt⟩
  | ⟨1, _⟩ => ⟨k.val, k.isLt⟩
abbrev ridx_main_v175 (i : S40000x128.Idx) (k : Fin 128) : S128x128.Idx := fun a => match a with
  | ⟨0, _⟩ => ⟨k.val, k.isLt⟩
  | ⟨1, _⟩ => ⟨(i 1).val, (i 1).isLt⟩
def val_main_v176 : (⟨S1x128, .f32⟩ : BufTy).Contents (Elt F) :=
  extractStridedSlice S1x128 ![2, 0] (x3) slices_S3x128_S1x128_2_0
def val_main_v177 : (⟨S128, .f32⟩ : BufTy).Contents (Elt F) :=
  shapeCast _ (val_main_v176 (F := F) x3) shapeCasts_S1x128_S128
def val_main_v178 : (⟨S1x128, .f32⟩ : BufTy).Contents (Elt F) :=
  broadcastInDim S1x128 ![1] bcast_S128_S1x128_1 (val_main_v177 (F := F) x3)
abbrev idx_main_v178 (i : S1x128.Idx) : S128.Idx := fun a => match a with
  | ⟨0, _⟩ => ⟨(i 1).val, (i 1).isLt⟩
theorem val_main_v178_apply (i : S1x128.Idx) :
    val_main_v178 (F := F) x3 i = val_main_v177 (F := F) x3 (idx_main_v178 i) := by
  unfold val_main_v178
  generalize val_main_v177 (F := F) x3 = y
  exact broadcastInDim_apply _ bcast_S128_S1x128_1 y i (idx_main_v178 i) (fun a => match a with
    | ⟨0, _⟩ => by show (i 1).val = if (128 : Nat) = 1 then 0 else (i 1).val; rw [if_neg (by decide)])
def val_main_v179 : (⟨S40000x128, .f32⟩ : BufTy).Contents (Elt F) :=
  broadcastInDim S40000x128 ![0, 1] bcast_S1x128_S40000x128_0_1 (val_main_v178 (F := F) x3)
abbrev idx_main_v179 (i : S40000x128.Idx) : S1x128.Idx := fun a => match a with
  | ⟨0, _⟩ => ⟨0, Nat.one_pos⟩
  | ⟨1, _⟩ => ⟨(i 1).val, (i 1).isLt⟩
theorem val_main_v179_apply (i : S40000x128.Idx) :
    val_main_v179 (F := F) x3 i = val_main_v178 (F := F) x3 (idx_main_v179 i) := by
  unfold val_main_v179
  generalize val_main_v178 (F := F) x3 = y
  exact broadcastInDim_apply _ bcast_S1x128_S40000x128_0_1 y i (idx_main_v179 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v180 : (⟨S40000x128, .f32⟩ : BufTy).Contents (Elt F) :=
  addf (val_main_v175 (F := F) x0 x1 x2 x3 x4 x5 x6 x7 x8 x9 x10) (val_main_v179 (F := F) x3)
theorem val_main_v180_apply (i : S40000x128.Idx) :
    val_main_v180 (F := F) x0 x1 x2 x3 x4 x5 x6 x7 x8 x9 x10 i = FloatOps.addf (val_main_v175 (F := F) x0 x1 x2 x3 x4 x5 x6 x7 x8 x9 x10 i) (val_main_v179 (F := F) x3 i) := rfl
def val_main_v181 : (⟨S1x128x128, .f32⟩ : BufTy).Contents (Elt F) :=
  extractStridedSlice S1x128x128 ![2, 0, 0] (x4) slices_S3x128x128_S1x128x128_2_0_0
def val_main_v182 : (⟨S128x128, .f32⟩ : BufTy).Contents (Elt F) :=
  shapeCast _ (val_main_v181 (F := F) x4) shapeCasts_S1x128x128_S128x128
def val_main_v183 : (⟨S128x128, .f32⟩ : BufTy).Contents (Elt F) :=
  transpose S128x128 [1, 0] (val_main_v182 (F := F) x4) transposes_S128x128_S128x128_1_0
def val_main_v184 : (⟨S40000x128, .f32⟩ : BufTy).Contents (Elt F) :=
  Host.dotGeneral dot_S40000x128_S128x128_S40000x128_1_0_0_1_n_n none (val_main_v171 (F := F) x0 x1 x2 x3 x4 x5 x6 x7 x8 x9 x10) (val_main_v183 (F := F) x4)
theorem lhs_main_v184_0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl
theorem lhs_main_v184_1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q
theorem rhs_main_v184_0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q
theorem rhs_main_v184_1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl
abbrev lidx_main_v184 (i : S40000x128.Idx) (k : Fin 128) : S40000x128.Idx := fun a => match a with
  | ⟨0, _⟩ => ⟨(i 0).val, (i 0).isLt⟩
  | ⟨1, _⟩ => ⟨k.val, k.isLt⟩
abbrev ridx_main_v184 (i : S40000x128.Idx) (k : Fin 128) : S128x128.Idx := fun a => match a with
  | ⟨0, _⟩ => ⟨k.val, k.isLt⟩
  | ⟨1, _⟩ => ⟨(i 1).val, (i 1).isLt⟩
def val_main_v185 : (⟨S1x128, .f32⟩ : BufTy).Contents (Elt F) :=
  extractStridedSlice S1x128 ![2, 0] (x5) slices_S3x128_S1x128_2_0
def val_main_v186 : (⟨S128, .f32⟩ : BufTy).Contents (Elt F) :=
  shapeCast _ (val_main_v185 (F := F) x5) shapeCasts_S1x128_S128
def val_main_v187 : (⟨S1x128, .f32⟩ : BufTy).Contents (Elt F) :=
  broadcastInDim S1x128 ![1] bcast_S128_S1x128_1 (val_main_v186 (F := F) x5)
abbrev idx_main_v187 (i : S1x128.Idx) : S128.Idx := fun a => match a with
  | ⟨0, _⟩ => ⟨(i 1).val, (i 1).isLt⟩
theorem val_main_v187_apply (i : S1x128.Idx) :
    val_main_v187 (F := F) x5 i = val_main_v186 (F := F) x5 (idx_main_v187 i) := by
  unfold val_main_v187
  generalize val_main_v186 (F := F) x5 = y
  exact broadcastInDim_apply _ bcast_S128_S1x128_1 y i (idx_main_v187 i) (fun a => match a with
    | ⟨0, _⟩ => by show (i 1).val = if (128 : Nat) = 1 then 0 else (i 1).val; rw [if_neg (by decide)])
def val_main_v188 : (⟨S40000x128, .f32⟩ : BufTy).Contents (Elt F) :=
  broadcastInDim S40000x128 ![0, 1] bcast_S1x128_S40000x128_0_1 (val_main_v187 (F := F) x5)
abbrev idx_main_v188 (i : S40000x128.Idx) : S1x128.Idx := fun a => match a with
  | ⟨0, _⟩ => ⟨0, Nat.one_pos⟩
  | ⟨1, _⟩ => ⟨(i 1).val, (i 1).isLt⟩
theorem val_main_v188_apply (i : S40000x128.Idx) :
    val_main_v188 (F := F) x5 i = val_main_v187 (F := F) x5 (idx_main_v188 i) := by
  unfold val_main_v188
  generalize val_main_v187 (F := F) x5 = y
  exact broadcastInDim_apply _ bcast_S1x128_S40000x128_0_1 y i (idx_main_v188 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v189 : (⟨S40000x128, .f32⟩ : BufTy).Contents (Elt F) :=
  addf (val_main_v184 (F := F) x0 x1 x2 x3 x4 x5 x6 x7 x8 x9 x10) (val_main_v188 (F := F) x5)
theorem val_main_v189_apply (i : S40000x128.Idx) :
    val_main_v189 (F := F) x0 x1 x2 x3 x4 x5 x6 x7 x8 x9 x10 i = FloatOps.addf (val_main_v184 (F := F) x0 x1 x2 x3 x4 x5 x6 x7 x8 x9 x10 i) (val_main_v188 (F := F) x5 i) := rfl
def val_main_v190 : (⟨S1x128x128, .f32⟩ : BufTy).Contents (Elt F) :=
  extractStridedSlice S1x128x128 ![2, 0, 0] (x6) slices_S3x128x128_S1x128x128_2_0_0
def val_main_v191 : (⟨S128x128, .f32⟩ : BufTy).Contents (Elt F) :=
  shapeCast _ (val_main_v190 (F := F) x6) shapeCasts_S1x128x128_S128x128
def val_main_v192 : (⟨S128x128, .f32⟩ : BufTy).Contents (Elt F) :=
  transpose S128x128 [1, 0] (val_main_v191 (F := F) x6) transposes_S128x128_S128x128_1_0
def val_main_v193 : (⟨S40000x128, .f32⟩ : BufTy).Contents (Elt F) :=
  Host.dotGeneral dot_S40000x128_S128x128_S40000x128_1_0_0_1_n_n none (val_main_v171 (F := F) x0 x1 x2 x3 x4 x5 x6 x7 x8 x9 x10) (val_main_v192 (F := F) x6)
theorem lhs_main_v193_0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl
theorem lhs_main_v193_1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q
theorem rhs_main_v193_0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q
theorem rhs_main_v193_1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl
abbrev lidx_main_v193 (i : S40000x128.Idx) (k : Fin 128) : S40000x128.Idx := fun a => match a with
  | ⟨0, _⟩ => ⟨(i 0).val, (i 0).isLt⟩
  | ⟨1, _⟩ => ⟨k.val, k.isLt⟩
abbrev ridx_main_v193 (i : S40000x128.Idx) (k : Fin 128) : S128x128.Idx := fun a => match a with
  | ⟨0, _⟩ => ⟨k.val, k.isLt⟩
  | ⟨1, _⟩ => ⟨(i 1).val, (i 1).isLt⟩
def val_main_v194 : (⟨S1x128, .f32⟩ : BufTy).Contents (Elt F) :=
  extractStridedSlice S1x128 ![2, 0] (x7) slices_S3x128_S1x128_2_0
def val_main_v195 : (⟨S128, .f32⟩ : BufTy).Contents (Elt F) :=
  shapeCast _ (val_main_v194 (F := F) x7) shapeCasts_S1x128_S128
def val_main_v196 : (⟨S1x128, .f32⟩ : BufTy).Contents (Elt F) :=
  broadcastInDim S1x128 ![1] bcast_S128_S1x128_1 (val_main_v195 (F := F) x7)
abbrev idx_main_v196 (i : S1x128.Idx) : S128.Idx := fun a => match a with
  | ⟨0, _⟩ => ⟨(i 1).val, (i 1).isLt⟩
theorem val_main_v196_apply (i : S1x128.Idx) :
    val_main_v196 (F := F) x7 i = val_main_v195 (F := F) x7 (idx_main_v196 i) := by
  unfold val_main_v196
  generalize val_main_v195 (F := F) x7 = y
  exact broadcastInDim_apply _ bcast_S128_S1x128_1 y i (idx_main_v196 i) (fun a => match a with
    | ⟨0, _⟩ => by show (i 1).val = if (128 : Nat) = 1 then 0 else (i 1).val; rw [if_neg (by decide)])
def val_main_v197 : (⟨S40000x128, .f32⟩ : BufTy).Contents (Elt F) :=
  broadcastInDim S40000x128 ![0, 1] bcast_S1x128_S40000x128_0_1 (val_main_v196 (F := F) x7)
abbrev idx_main_v197 (i : S40000x128.Idx) : S1x128.Idx := fun a => match a with
  | ⟨0, _⟩ => ⟨0, Nat.one_pos⟩
  | ⟨1, _⟩ => ⟨(i 1).val, (i 1).isLt⟩
theorem val_main_v197_apply (i : S40000x128.Idx) :
    val_main_v197 (F := F) x7 i = val_main_v196 (F := F) x7 (idx_main_v197 i) := by
  unfold val_main_v197
  generalize val_main_v196 (F := F) x7 = y
  exact broadcastInDim_apply _ bcast_S1x128_S40000x128_0_1 y i (idx_main_v197 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v198 : (⟨S40000x128, .f32⟩ : BufTy).Contents (Elt F) :=
  addf (val_main_v193 (F := F) x0 x1 x2 x3 x4 x5 x6 x7 x8 x9 x10) (val_main_v197 (F := F) x7)
theorem val_main_v198_apply (i : S40000x128.Idx) :
    val_main_v198 (F := F) x0 x1 x2 x3 x4 x5 x6 x7 x8 x9 x10 i = FloatOps.addf (val_main_v193 (F := F) x0 x1 x2 x3 x4 x5 x6 x7 x8 x9 x10 i) (val_main_v197 (F := F) x7 i) := rfl
def val_main_c_20 : (⟨S_, .i32⟩ : BufTy).Contents (Elt F) :=
  constantI S_ 32 0#32
def val_main_v199 : (⟨S640000, .i32⟩ : BufTy).Contents (Elt F) :=
  broadcastInDim S640000 ![] bcast_S_S640000 (val_main_c_20 (F := F))
def val_main_v200 : (⟨S640000, .i1⟩ : BufTy).Contents (Elt F) :=
  cmpi .slt (val_main_v3 (F := F) x1) (val_main_v199 (F := F))
def val_main_c_21 : (⟨S_, .i32⟩ : BufTy).Contents (Elt F) :=
  constantI S_ 32 40000#32
def val_main_v201 : (⟨S640000, .i32⟩ : BufTy).Contents (Elt F) :=
  broadcastInDim S640000 ![] bcast_S_S640000 (val_main_c_21 (F := F))
def val_main_v202 : (⟨S640000, .i32⟩ : BufTy).Contents (Elt F) :=
  addi (val_main_v3 (F := F) x1) (val_main_v201 (F := F))
def val_main_v203 : (⟨S640000, .i32⟩ : BufTy).Contents (Elt F) :=
  select (val_main_v200 (F := F) x1) (val_main_v202 (F := F) x1) (val_main_v3 (F := F) x1)
def val_main_v204 : (⟨S640000x1, .i32⟩ : BufTy).Contents (Elt F) :=
  broadcastInDim S640000x1 ![0] bcast_S640000_S640000x1_0 (val_main_v203 (F := F) x1)
def val_main_v205 : (⟨S640000x128, .f32⟩ : BufTy).Contents (Elt F) :=
  Host.gather gather_S40000x128_S640000x1_S640000x128_1_0_n_n_0_1_1128 (val_main_v180 (F := F) x0 x1 x2 x3 x4 x5 x6 x7 x8 x9 x10) (val_main_v204 (F := F) x1)
def val_main_c_22 : (⟨S_, .i32⟩ : BufTy).Contents (Elt F) :=
  constantI S_ 32 0#32
def val_main_v206 : (⟨S640000, .i32⟩ : BufTy).Contents (Elt F) :=
  broadcastInDim S640000 ![] bcast_S_S640000 (val_main_c_22 (F := F))
def val_main_v207 : (⟨S640000, .i1⟩ : BufTy).Contents (Elt F) :=
  cmpi .slt (val_main_v1 (F := F) x1) (val_main_v206 (F := F))
def val_main_c_23 : (⟨S_, .i32⟩ : BufTy).Contents (Elt F) :=
  constantI S_ 32 40000#32
def val_main_v208 : (⟨S640000, .i32⟩ : BufTy).Contents (Elt F) :=
  broadcastInDim S640000 ![] bcast_S_S640000 (val_main_c_23 (F := F))
def val_main_v209 : (⟨S640000, .i32⟩ : BufTy).Contents (Elt F) :=
  addi (val_main_v1 (F := F) x1) (val_main_v208 (F := F))
def val_main_v210 : (⟨S640000, .i32⟩ : BufTy).Contents (Elt F) :=
  select (val_main_v207 (F := F) x1) (val_main_v209 (F := F) x1) (val_main_v1 (F := F) x1)
def val_main_v211 : (⟨S640000x1, .i32⟩ : BufTy).Contents (Elt F) :=
  broadcastInDim S640000x1 ![0] bcast_S640000_S640000x1_0 (val_main_v210 (F := F) x1)
def val_main_v212 : (⟨S640000x128, .f32⟩ : BufTy).Contents (Elt F) :=
  Host.gather gather_S40000x128_S640000x1_S640000x128_1_0_n_n_0_1_1128 (val_main_v189 (F := F) x0 x1 x2 x3 x4 x5 x6 x7 x8 x9 x10) (val_main_v211 (F := F) x1)
def val_main_v213 : (⟨S640000x128, .f32⟩ : BufTy).Contents (Elt F) :=
  addf (val_main_v205 (F := F) x0 x1 x2 x3 x4 x5 x6 x7 x8 x9 x10) (val_main_v212 (F := F) x0 x1 x2 x3 x4 x5 x6 x7 x8 x9 x10)
def val_main_v214 : (⟨S640000x128, .f32⟩ : BufTy).Contents (Elt F) :=
  Host.negf (val_main_v213 (F := F) x0 x1 x2 x3 x4 x5 x6 x7 x8 x9 x10)
def val_main_v215 : (⟨S640000x128, .f32⟩ : BufTy).Contents (Elt F) :=
  Host.exp (val_main_v214 (F := F) x0 x1 x2 x3 x4 x5 x6 x7 x8 x9 x10)
def val_main_cst_24 : (⟨S_, .f32⟩ : BufTy).Contents (Elt F) :=
  constant S_ .f32 0x3F800000#32
def val_main_v216 : (⟨S640000x128, .f32⟩ : BufTy).Contents (Elt F) :=
  broadcastInDim S640000x128 ![] bcast_S_S640000x128 (val_main_cst_24 (F := F))
def val_main_v217 : (⟨S640000x128, .f32⟩ : BufTy).Contents (Elt F) :=
  addf (val_main_v216 (F := F)) (val_main_v215 (F := F) x0 x1 x2 x3 x4 x5 x6 x7 x8 x9 x10)
def val_main_cst_25 : (⟨S_, .f32⟩ : BufTy).Contents (Elt F) :=
  constant S_ .f32 0x3F800000#32
def val_main_v218 : (⟨S640000x128, .f32⟩ : BufTy).Contents (Elt F) :=
  broadcastInDim S640000x128 ![] bcast_S_S640000x128 (val_main_cst_25 (F := F))
def val_main_v219 : (⟨S640000x128, .f32⟩ : BufTy).Contents (Elt F) :=
  Host.divf (val_main_v218 (F := F)) (val_main_v217 (F := F) x0 x1 x2 x3 x4 x5 x6 x7 x8 x9 x10)
def val_main_c_26 : (⟨S_, .i32⟩ : BufTy).Contents (Elt F) :=
  constantI S_ 32 0#32
def val_main_v220 : (⟨S640000, .i32⟩ : BufTy).Contents (Elt F) :=
  broadcastInDim S640000 ![] bcast_S_S640000 (val_main_c_26 (F := F))
def val_main_v221 : (⟨S640000, .i1⟩ : BufTy).Contents (Elt F) :=
  cmpi .slt (val_main_v1 (F := F) x1) (val_main_v220 (F := F))
def val_main_c_27 : (⟨S_, .i32⟩ : BufTy).Contents (Elt F) :=
  constantI S_ 32 40000#32
def val_main_v222 : (⟨S640000, .i32⟩ : BufTy).Contents (Elt F) :=
  broadcastInDim S640000 ![] bcast_S_S640000 (val_main_c_27 (F := F))
def val_main_v223 : (⟨S640000, .i32⟩ : BufTy).Contents (Elt F) :=
  addi (val_main_v1 (F := F) x1) (val_main_v222 (F := F))
def val_main_v224 : (⟨S640000, .i32⟩ : BufTy).Contents (Elt F) :=
  select (val_main_v221 (F := F) x1) (val_main_v223 (F := F) x1) (val_main_v1 (F := F) x1)
def val_main_v225 : (⟨S640000x1, .i32⟩ : BufTy).Contents (Elt F) :=
  broadcastInDim S640000x1 ![0] bcast_S640000_S640000x1_0 (val_main_v224 (F := F) x1)
def val_main_v226 : (⟨S640000x128, .f32⟩ : BufTy).Contents (Elt F) :=
  Host.gather gather_S40000x128_S640000x1_S640000x128_1_0_n_n_0_1_1128 (val_main_v198 (F := F) x0 x1 x2 x3 x4 x5 x6 x7 x8 x9 x10) (val_main_v225 (F := F) x1)
def val_main_v227 : (⟨S640000x128, .f32⟩ : BufTy).Contents (Elt F) :=
  mulf (val_main_v219 (F := F) x0 x1 x2 x3 x4 x5 x6 x7 x8 x9 x10) (val_main_v226 (F := F) x0 x1 x2 x3 x4 x5 x6 x7 x8 x9 x10)
def val_main_cst_28 : (⟨S_, .f32⟩ : BufTy).Contents (Elt F) :=
  constant S_ .f32 0x00000000#32
def val_main_v228 : (⟨S40000x128, .f32⟩ : BufTy).Contents (Elt F) :=
  broadcastInDim S40000x128 ![] bcast_S_S40000x128 (val_main_cst_28 (F := F))
def val_main_v229 : (⟨S640000x1, .i32⟩ : BufTy).Contents (Elt F) :=
  broadcastInDim S640000x1 ![0] bcast_S640000_S640000x1_0 (val_main_v3 (F := F) x1)
def val_main_v230 : (⟨S40000x128, .f32⟩ : BufTy).Contents (Elt F) :=
  Host.scatterAdd scatter_S40000x128_S640000x1_S640000x128_1_0_0_1 (val_main_v228 (F := F)) (val_main_v229 (F := F) x1) (val_main_v227 (F := F) x0 x1 x2 x3 x4 x5 x6 x7 x8 x9 x10)
def val_main_v231 : (⟨S1x128x128, .f32⟩ : BufTy).Contents (Elt F) :=
  extractStridedSlice S1x128x128 ![2, 0, 0] (x8) slices_S3x128x128_S1x128x128_2_0_0
def val_main_v232 : (⟨S128x128, .f32⟩ : BufTy).Contents (Elt F) :=
  shapeCast _ (val_main_v231 (F := F) x8) shapeCasts_S1x128x128_S128x128
def val_main_v233 : (⟨S128x128, .f32⟩ : BufTy).Contents (Elt F) :=
  transpose S128x128 [1, 0] (val_main_v232 (F := F) x8) transposes_S128x128_S128x128_1_0
def val_main_v234 : (⟨S40000x128, .f32⟩ : BufTy).Contents (Elt F) :=
  Host.dotGeneral dot_S40000x128_S128x128_S40000x128_1_0_0_1_n_n none (val_main_v171 (F := F) x0 x1 x2 x3 x4 x5 x6 x7 x8 x9 x10) (val_main_v233 (F := F) x8)
theorem lhs_main_v234_0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl
theorem lhs_main_v234_1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q
theorem rhs_main_v234_0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q
theorem rhs_main_v234_1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl
abbrev lidx_main_v234 (i : S40000x128.Idx) (k : Fin 128) : S40000x128.Idx := fun a => match a with
  | ⟨0, _⟩ => ⟨(i 0).val, (i 0).isLt⟩
  | ⟨1, _⟩ => ⟨k.val, k.isLt⟩
abbrev ridx_main_v234 (i : S40000x128.Idx) (k : Fin 128) : S128x128.Idx := fun a => match a with
  | ⟨0, _⟩ => ⟨k.val, k.isLt⟩
  | ⟨1, _⟩ => ⟨(i 1).val, (i 1).isLt⟩
def val_main_v235 : (⟨S40000x128, .f32⟩ : BufTy).Contents (Elt F) :=
  addf (val_main_v230 (F := F) x0 x1 x2 x3 x4 x5 x6 x7 x8 x9 x10) (val_main_v234 (F := F) x0 x1 x2 x3 x4 x5 x6 x7 x8 x9 x10)
def val_main_v236 : (⟨S1x128, .f32⟩ : BufTy).Contents (Elt F) :=
  extractStridedSlice S1x128 ![2, 0] (x9) slices_S3x128_S1x128_2_0
def val_main_v237 : (⟨S128, .f32⟩ : BufTy).Contents (Elt F) :=
  shapeCast _ (val_main_v236 (F := F) x9) shapeCasts_S1x128_S128
def val_main_v238 : (⟨S1x128, .f32⟩ : BufTy).Contents (Elt F) :=
  broadcastInDim S1x128 ![1] bcast_S128_S1x128_1 (val_main_v237 (F := F) x9)
def val_main_v239 : (⟨S40000x128, .f32⟩ : BufTy).Contents (Elt F) :=
  broadcastInDim S40000x128 ![0, 1] bcast_S1x128_S40000x128_0_1 (val_main_v238 (F := F) x9)
def val_main_v240 : (⟨S40000x128, .f32⟩ : BufTy).Contents (Elt F) :=
  mulf (val_main_v235 (F := F) x0 x1 x2 x3 x4 x5 x6 x7 x8 x9 x10) (val_main_v239 (F := F) x9)
def val_main_v241 : (⟨S1x128, .f32⟩ : BufTy).Contents (Elt F) :=
  extractStridedSlice S1x128 ![2, 0] (x10) slices_S3x128_S1x128_2_0
def val_main_v242 : (⟨S128, .f32⟩ : BufTy).Contents (Elt F) :=
  shapeCast _ (val_main_v241 (F := F) x10) shapeCasts_S1x128_S128
def val_main_v243 : (⟨S1x128, .f32⟩ : BufTy).Contents (Elt F) :=
  broadcastInDim S1x128 ![1] bcast_S128_S1x128_1 (val_main_v242 (F := F) x10)
def val_main_v244 : (⟨S40000x128, .f32⟩ : BufTy).Contents (Elt F) :=
  broadcastInDim S40000x128 ![0, 1] bcast_S1x128_S40000x128_0_1 (val_main_v243 (F := F) x10)
def val_main_v245 : (⟨S40000x128, .f32⟩ : BufTy).Contents (Elt F) :=
  addf (val_main_v240 (F := F) x0 x1 x2 x3 x4 x5 x6 x7 x8 x9 x10) (val_main_v244 (F := F) x10)
def val_main_call2_cst : (⟨S_, .f32⟩ : BufTy).Contents (Elt F) :=
  constant S_ .f32 0x00000000#32
def val_main_call2_v0 : (⟨S40000x128, .f32⟩ : BufTy).Contents (Elt F) :=
  broadcastInDim S40000x128 ![] bcast_S_S40000x128 (val_main_call2_cst (F := F))
def val_main_v246 : (⟨S40000x128, .f32⟩ : BufTy).Contents (Elt F) :=
  maximumf (val_main_v245 (F := F) x0 x1 x2 x3 x4 x5 x6 x7 x8 x9 x10) (val_main_call2_v0 (F := F))
def val_main_v247 : (⟨S40000x128, .f32⟩ : BufTy).Contents (Elt F) :=
  mulf (val_main_v246 (F := F) x0 x1 x2 x3 x4 x5 x6 x7 x8 x9 x10) (val_main_v246 (F := F) x0 x1 x2 x3 x4 x5 x6 x7 x8 x9 x10)
def val_main_cst_29 : (⟨S_, .f32⟩ : BufTy).Contents (Elt F) :=
  constant S_ .f32 0x00000000#32
def val_main_v248 : (⟨S40000, .f32⟩ : BufTy).Contents (Elt F) :=
  Host.reduceAdd (val_main_v247 (F := F) x0 x1 x2 x3 x4 x5 x6 x7 x8 x9 x10) (val_main_cst_29 (F := F)) reducesTo_S40000x128_S40000_d1 h_S_
def val_main_v249 : (⟨S40000x1, .f32⟩ : BufTy).Contents (Elt F) :=
  broadcastInDim S40000x1 ![0] bcast_S40000_S40000x1_0 (val_main_v248 (F := F) x0 x1 x2 x3 x4 x5 x6 x7 x8 x9 x10)
def val_main_v250 : (⟨S40000x1, .f32⟩ : BufTy).Contents (Elt F) :=
  Host.sqrt (val_main_v249 (F := F) x0 x1 x2 x3 x4 x5 x6 x7 x8 x9 x10)
def val_main_cst_30 : (⟨S_, .f32⟩ : BufTy).Contents (Elt F) :=
  constant S_ .f32 0x2B8CBCCC#32
def val_main_v251 : (⟨S40000x1, .f32⟩ : BufTy).Contents (Elt F) :=
  broadcastInDim S40000x1 ![] bcast_S_S40000x1 (val_main_cst_30 (F := F))
def val_main_v252 : (⟨S40000x1, .f32⟩ : BufTy).Contents (Elt F) :=
  maximumf (val_main_v250 (F := F) x0 x1 x2 x3 x4 x5 x6 x7 x8 x9 x10) (val_main_v251 (F := F))
def val_main_v253 : (⟨S40000x128, .f32⟩ : BufTy).Contents (Elt F) :=
  broadcastInDim S40000x128 ![0, 1] bcast_S40000x1_S40000x128_0_1 (val_main_v252 (F := F) x0 x1 x2 x3 x4 x5 x6 x7 x8 x9 x10)
def val_main_v254 : (⟨S40000x128, .f32⟩ : BufTy).Contents (Elt F) :=
  Host.divf (val_main_v246 (F := F) x0 x1 x2 x3 x4 x5 x6 x7 x8 x9 x10) (val_main_v253 (F := F) x0 x1 x2 x3 x4 x5 x6 x7 x8 x9 x10)
def val_main_v255 : (⟨S40000x128, .f32⟩ : BufTy).Contents (Elt F) :=
  addf (val_main_v171 (F := F) x0 x1 x2 x3 x4 x5 x6 x7 x8 x9 x10) (val_main_v254 (F := F) x0 x1 x2 x3 x4 x5 x6 x7 x8 x9 x10)
def val_main_v256 : (⟨S40000x128, .f32⟩ : BufTy).Contents (Elt F) :=
  mulf (val_main_v255 (F := F) x0 x1 x2 x3 x4 x5 x6 x7 x8 x9 x10) (val_main_v255 (F := F) x0 x1 x2 x3 x4 x5 x6 x7 x8 x9 x10)
theorem val_main_v256_apply (i : S40000x128.Idx) :
    val_main_v256 (F := F) x0 x1 x2 x3 x4 x5 x6 x7 x8 x9 x10 i = FloatOps.mulf (val_main_v255 (F := F) x0 x1 x2 x3 x4 x5 x6 x7 x8 x9 x10 i) (val_main_v255 (F := F) x0 x1 x2 x3 x4 x5 x6 x7 x8 x9 x10 i) := rfl
def val_main_cst_31 : (⟨S_, .f32⟩ : BufTy).Contents (Elt F) :=
  constant S_ .f32 0x00000000#32
theorem val_main_cst_31_apply (i : S_.Idx) :
    val_main_cst_31 (F := F) i = FloatOps.ofBits .f32 0x00000000#32 := rfl
def val_main_v257 : (⟨S40000, .f32⟩ : BufTy).Contents (Elt F) :=
  Host.reduceAdd (val_main_v256 (F := F) x0 x1 x2 x3 x4 x5 x6 x7 x8 x9 x10) (val_main_cst_31 (F := F)) reducesTo_S40000x128_S40000_d1 h_S_
abbrev idx_main_v257 (i : S40000.Idx) (k : Fin 128) : S40000x128.Idx := fun a => match a with
  | ⟨0, _⟩ => ⟨(i 0).val, (i 0).isLt⟩
  | ⟨1, _⟩ => ⟨k.val, k.isLt⟩
def val_main_v258 : (⟨S40000x1, .f32⟩ : BufTy).Contents (Elt F) :=
  broadcastInDim S40000x1 ![0] bcast_S40000_S40000x1_0 (val_main_v257 (F := F) x0 x1 x2 x3 x4 x5 x6 x7 x8 x9 x10)
abbrev idx_main_v258 (i : S40000x1.Idx) : S40000.Idx := fun a => match a with
  | ⟨0, _⟩ => ⟨(i 0).val, (i 0).isLt⟩
theorem val_main_v258_apply (i : S40000x1.Idx) :
    val_main_v258 (F := F) x0 x1 x2 x3 x4 x5 x6 x7 x8 x9 x10 i = val_main_v257 (F := F) x0 x1 x2 x3 x4 x5 x6 x7 x8 x9 x10 (idx_main_v258 i) := by
  unfold val_main_v258
  generalize val_main_v257 (F := F) x0 x1 x2 x3 x4 x5 x6 x7 x8 x9 x10 = y
  exact broadcastInDim_apply _ bcast_S40000_S40000x1_0 y i (idx_main_v258 i) (fun a => match a with
    | ⟨0, _⟩ => by show (i 0).val = if (40000 : Nat) = 1 then 0 else (i 0).val; rw [if_neg (by decide)])
def val_main_v259 : (⟨S40000x1, .f32⟩ : BufTy).Contents (Elt F) :=
  Host.sqrt (val_main_v258 (F := F) x0 x1 x2 x3 x4 x5 x6 x7 x8 x9 x10)
theorem val_main_v259_apply (i : S40000x1.Idx) :
    val_main_v259 (F := F) x0 x1 x2 x3 x4 x5 x6 x7 x8 x9 x10 i = FloatOps.hostUnary .sqrt (val_main_v258 (F := F) x0 x1 x2 x3 x4 x5 x6 x7 x8 x9 x10 i) := rfl
def val_main_cst_32 : (⟨S_, .f32⟩ : BufTy).Contents (Elt F) :=
  constant S_ .f32 0x2B8CBCCC#32
theorem val_main_cst_32_apply (i : S_.Idx) :
    val_main_cst_32 (F := F) i = FloatOps.ofBits .f32 0x2B8CBCCC#32 := rfl
def val_main_v260 : (⟨S40000x1, .f32⟩ : BufTy).Contents (Elt F) :=
  broadcastInDim S40000x1 ![] bcast_S_S40000x1 (val_main_cst_32 (F := F))
abbrev idx_main_v260 (i : S40000x1.Idx) : S_.Idx := fun a => a.elim0
theorem val_main_v260_apply (i : S40000x1.Idx) :
    val_main_v260 (F := F) i = val_main_cst_32 (F := F) (idx_main_v260 i) := by
  unfold val_main_v260
  generalize val_main_cst_32 (F := F) = y
  exact broadcastInDim_apply _ bcast_S_S40000x1 y i (idx_main_v260 i) (fun a => a.elim0)
def val_main_v261 : (⟨S40000x1, .f32⟩ : BufTy).Contents (Elt F) :=
  maximumf (val_main_v259 (F := F) x0 x1 x2 x3 x4 x5 x6 x7 x8 x9 x10) (val_main_v260 (F := F))
theorem val_main_v261_apply (i : S40000x1.Idx) :
    val_main_v261 (F := F) x0 x1 x2 x3 x4 x5 x6 x7 x8 x9 x10 i = FloatOps.maximumf (val_main_v259 (F := F) x0 x1 x2 x3 x4 x5 x6 x7 x8 x9 x10 i) (val_main_v260 (F := F) i) := rfl
def val_main_v262 : (⟨S40000x128, .f32⟩ : BufTy).Contents (Elt F) :=
  broadcastInDim S40000x128 ![0, 1] bcast_S40000x1_S40000x128_0_1 (val_main_v261 (F := F) x0 x1 x2 x3 x4 x5 x6 x7 x8 x9 x10)
abbrev idx_main_v262 (i : S40000x128.Idx) : S40000x1.Idx := fun a => match a with
  | ⟨0, _⟩ => ⟨(i 0).val, (i 0).isLt⟩
  | ⟨1, _⟩ => ⟨0, Nat.one_pos⟩
theorem val_main_v262_apply (i : S40000x128.Idx) :
    val_main_v262 (F := F) x0 x1 x2 x3 x4 x5 x6 x7 x8 x9 x10 i = val_main_v261 (F := F) x0 x1 x2 x3 x4 x5 x6 x7 x8 x9 x10 (idx_main_v262 i) := by
  unfold val_main_v262
  generalize val_main_v261 (F := F) x0 x1 x2 x3 x4 x5 x6 x7 x8 x9 x10 = y
  exact broadcastInDim_apply _ bcast_S40000x1_S40000x128_0_1 y i (idx_main_v262 i) (fun a => match a with
    | ⟨0, _⟩ => by show (i 0).val = if (40000 : Nat) = 1 then 0 else (i 0).val; rw [if_neg (by decide)]
    | ⟨1, _⟩ => by show 0 = if (1 : Nat) = 1 then 0 else (i 1).val; rw [if_pos rfl])
def val_main_v263 : (⟨S40000x128, .f32⟩ : BufTy).Contents (Elt F) :=
  Host.divf (val_main_v255 (F := F) x0 x1 x2 x3 x4 x5 x6 x7 x8 x9 x10) (val_main_v262 (F := F) x0 x1 x2 x3 x4 x5 x6 x7 x8 x9 x10)
theorem val_main_v263_apply (i : S40000x128.Idx) :
    val_main_v263 (F := F) x0 x1 x2 x3 x4 x5 x6 x7 x8 x9 x10 i = FloatOps.hostDivf (val_main_v255 (F := F) x0 x1 x2 x3 x4 x5 x6 x7 x8 x9 x10 i) (val_main_v262 (F := F) x0 x1 x2 x3 x4 x5 x6 x7 x8 x9 x10 i) := rfl

end

section
variable (x0 : (⟨S40000x128, .f32⟩ : BufTy).Contents (Elt Ideal)) (x1 : (⟨S2x640000, .i32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S3x128x128, .f32⟩ : BufTy).Contents (Elt Ideal)) (x9 : (⟨S3x128, .f32⟩ : BufTy).Contents (Elt Ideal)) (x10 : (⟨S3x128, .f32⟩ : BufTy).Contents (Elt Ideal))

theorem val_main_v7_apply (i : S40000x128.Idx) :
    val_main_v7 (F := Ideal) x0 x2 i = ∑ k : Fin 128, x0 (lidx_main_v7 i k) * (val_main_v6 (F := Ideal) x2) (ridx_main_v7 i k) := by
  unfold val_main_v7
  generalize val_main_v6 (F := Ideal) x2 = y0
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx i ((ValueIdx.contrEquiv1 dot_S40000x128_S128x128_S40000x128_1_0_0_1_n_n 128 rfl rfl).symm k) = lidx_main_v7 i k := funext fun a => Fin.ext (by
    match a with
    | ⟨0, _⟩ => exact lhs_main_v7_0 _ _
    | ⟨1, _⟩ => exact (lhs_main_v7_1 _ _).trans hk)
  have er : dot_S40000x128_S128x128_S40000x128_1_0_0_1_n_n.rhsIdx i ((ValueIdx.contrEquiv1 dot_S40000x128_S128x128_S40000x128_1_0_0_1_n_n 128 rfl rfl).symm k) = ridx_main_v7 i k := funext fun a => Fin.ext (by
    match a with
    | ⟨0, _⟩ => exact (rhs_main_v7_0 _ _).trans hk
    | ⟨1, _⟩ => exact rhs_main_v7_1 _ _)
  rw [el, er]
theorem val_main_v16_apply (i : S40000x128.Idx) :
    val_main_v16 (F := Ideal) x0 x4 i = ∑ k : Fin 128, x0 (lidx_main_v16 i k) * (val_main_v15 (F := Ideal) x4) (ridx_main_v16 i k) := by
  unfold val_main_v16
  generalize val_main_v15 (F := Ideal) x4 = y0
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx i ((ValueIdx.contrEquiv1 dot_S40000x128_S128x128_S40000x128_1_0_0_1_n_n 128 rfl rfl).symm k) = lidx_main_v16 i k := funext fun a => Fin.ext (by
    match a with
    | ⟨0, _⟩ => exact lhs_main_v16_0 _ _
    | ⟨1, _⟩ => exact (lhs_main_v16_1 _ _).trans hk)
  have er : dot_S40000x128_S128x128_S40000x128_1_0_0_1_n_n.rhsIdx i ((ValueIdx.contrEquiv1 dot_S40000x128_S128x128_S40000x128_1_0_0_1_n_n 128 rfl rfl).symm k) = ridx_main_v16 i k := funext fun a => Fin.ext (by
    match a with
    | ⟨0, _⟩ => exact (rhs_main_v16_0 _ _).trans hk
    | ⟨1, _⟩ => exact rhs_main_v16_1 _ _)
  rw [el, er]
theorem val_main_v25_apply (i : S40000x128.Idx) :
    val_main_v25 (F := Ideal) x0 x6 i = ∑ k : Fin 128, x0 (lidx_main_v25 i k) * (val_main_v24 (F := Ideal) x6) (ridx_main_v25 i k) := by
  unfold val_main_v25
  generalize val_main_v24 (F := Ideal) x6 = y0
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx i ((ValueIdx.contrEquiv1 dot_S40000x128_S128x128_S40000x128_1_0_0_1_n_n 128 rfl rfl).symm k) = lidx_main_v25 i k := funext fun a => Fin.ext (by
    match a with
    | ⟨0, _⟩ => exact lhs_main_v25_0 _ _
    | ⟨1, _⟩ => exact (lhs_main_v25_1 _ _).trans hk)
  have er : dot_S40000x128_S128x128_S40000x128_1_0_0_1_n_n.rhsIdx i ((ValueIdx.contrEquiv1 dot_S40000x128_S128x128_S40000x128_1_0_0_1_n_n 128 rfl rfl).symm k) = ridx_main_v25 i k := funext fun a => Fin.ext (by
    match a with
    | ⟨0, _⟩ => exact (rhs_main_v25_0 _ _).trans hk
    | ⟨1, _⟩ => exact rhs_main_v25_1 _ _)
  rw [el, er]
theorem val_main_v66_apply (i : S40000x128.Idx) :
    val_main_v66 (F := Ideal) x0 x8 i = ∑ k : Fin 128, x0 (lidx_main_v66 i k) * (val_main_v65 (F := Ideal) x8) (ridx_main_v66 i k) := by
  unfold val_main_v66
  generalize val_main_v65 (F := Ideal) x8 = y0
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx i ((ValueIdx.contrEquiv1 dot_S40000x128_S128x128_S40000x128_1_0_0_1_n_n 128 rfl rfl).symm k) = lidx_main_v66 i k := funext fun a => Fin.ext (by
    match a with
    | ⟨0, _⟩ => exact lhs_main_v66_0 _ _
    | ⟨1, _⟩ => exact (lhs_main_v66_1 _ _).trans hk)
  have er : dot_S40000x128_S128x128_S40000x128_1_0_0_1_n_n.rhsIdx i ((ValueIdx.contrEquiv1 dot_S40000x128_S128x128_S40000x128_1_0_0_1_n_n 128 rfl rfl).symm k) = ridx_main_v66 i k := funext fun a => Fin.ext (by
    match a with
    | ⟨0, _⟩ => exact (rhs_main_v66_0 _ _).trans hk
    | ⟨1, _⟩ => exact rhs_main_v66_1 _ _)
  rw [el, er]
theorem val_main_v91_apply (i : S40000x128.Idx) :
    val_main_v91 (F := Ideal) x0 x1 x2 x3 x4 x5 x6 x7 x8 x9 x10 i = ∑ k : Fin 128, (val_main_v87 (F := Ideal) x0 x1 x2 x3 x4 x5 x6 x7 x8 x9 x10) (lidx_main_v91 i k) * (val_main_v90 (F := Ideal) x2) (ridx_main_v91 i k) := by
  unfold val_main_v91
  generalize val_main_v87 (F := Ideal) x0 x1 x2 x3 x4 x5 x6 x7 x8 x9 x10 = y0
  generalize val_main_v90 (F := Ideal) x2 = y1
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx i ((ValueIdx.contrEquiv1 dot_S40000x128_S128x128_S40000x128_1_0_0_1_n_n 128 rfl rfl).symm k) = lidx_main_v91 i k := funext fun a => Fin.ext (by
    match a with
    | ⟨0, _⟩ => exact lhs_main_v91_0 _ _
    | ⟨1, _⟩ => exact (lhs_main_v91_1 _ _).trans hk)
  have er : dot_S40000x128_S128x128_S40000x128_1_0_0_1_n_n.rhsIdx i ((ValueIdx.contrEquiv1 dot_S40000x128_S128x128_S40000x128_1_0_0_1_n_n 128 rfl rfl).symm k) = ridx_main_v91 i k := funext fun a => Fin.ext (by
    match a with
    | ⟨0, _⟩ => exact (rhs_main_v91_0 _ _).trans hk
    | ⟨1, _⟩ => exact rhs_main_v91_1 _ _)
  rw [el, er]
theorem val_main_v100_apply (i : S40000x128.Idx) :
    val_main_v100 (F := Ideal) x0 x1 x2 x3 x4 x5 x6 x7 x8 x9 x10 i = ∑ k : Fin 128, (val_main_v87 (F := Ideal) x0 x1 x2 x3 x4 x5 x6 x7 x8 x9 x10) (lidx_main_v100 i k) * (val_main_v99 (F := Ideal) x4) (ridx_main_v100 i k) := by
  unfold val_main_v100
  generalize val_main_v87 (F := Ideal) x0 x1 x2 x3 x4 x5 x6 x7 x8 x9 x10 = y0
  generalize val_main_v99 (F := Ideal) x4 = y1
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx i ((ValueIdx.contrEquiv1 dot_S40000x128_S128x128_S40000x128_1_0_0_1_n_n 128 rfl rfl).symm k) = lidx_main_v100 i k := funext fun a => Fin.ext (by
    match a with
    | ⟨0, _⟩ => exact lhs_main_v100_0 _ _
    | ⟨1, _⟩ => exact (lhs_main_v100_1 _ _).trans hk)
  have er : dot_S40000x128_S128x128_S40000x128_1_0_0_1_n_n.rhsIdx i ((ValueIdx.contrEquiv1 dot_S40000x128_S128x128_S40000x128_1_0_0_1_n_n 128 rfl rfl).symm k) = ridx_main_v100 i k := funext fun a => Fin.ext (by
    match a with
    | ⟨0, _⟩ => exact (rhs_main_v100_0 _ _).trans hk
    | ⟨1, _⟩ => exact rhs_main_v100_1 _ _)
  rw [el, er]
theorem val_main_v109_apply (i : S40000x128.Idx) :
    val_main_v109 (F := Ideal) x0 x1 x2 x3 x4 x5 x6 x7 x8 x9 x10 i = ∑ k : Fin 128, (val_main_v87 (F := Ideal) x0 x1 x2 x3 x4 x5 x6 x7 x8 x9 x10) (lidx_main_v109 i k) * (val_main_v108 (F := Ideal) x6) (ridx_main_v109 i k) := by
  unfold val_main_v109
  generalize val_main_v87 (F := Ideal) x0 x1 x2 x3 x4 x5 x6 x7 x8 x9 x10 = y0
  generalize val_main_v108 (F := Ideal) x6 = y1
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx i ((ValueIdx.contrEquiv1 dot_S40000x128_S128x128_S40000x128_1_0_0_1_n_n 128 rfl rfl).symm k) = lidx_main_v109 i k := funext fun a => Fin.ext (by
    match a with
    | ⟨0, _⟩ => exact lhs_main_v109_0 _ _
    | ⟨1, _⟩ => exact (lhs_main_v109_1 _ _).trans hk)
  have er : dot_S40000x128_S128x128_S40000x128_1_0_0_1_n_n.rhsIdx i ((ValueIdx.contrEquiv1 dot_S40000x128_S128x128_S40000x128_1_0_0_1_n_n 128 rfl rfl).symm k) = ridx_main_v109 i k := funext fun a => Fin.ext (by
    match a with
    | ⟨0, _⟩ => exact (rhs_main_v109_0 _ _).trans hk
    | ⟨1, _⟩ => exact rhs_main_v109_1 _ _)
  rw [el, er]
theorem val_main_v150_apply (i : S40000x128.Idx) :
    val_main_v150 (F := Ideal) x0 x1 x2 x3 x4 x5 x6 x7 x8 x9 x10 i = ∑ k : Fin 128, (val_main_v87 (F := Ideal) x0 x1 x2 x3 x4 x5 x6 x7 x8 x9 x10) (lidx_main_v150 i k) * (val_main_v149 (F := Ideal) x8) (ridx_main_v150 i k) := by
  unfold val_main_v150
  generalize val_main_v87 (F := Ideal) x0 x1 x2 x3 x4 x5 x6 x7 x8 x9 x10 = y0
  generalize val_main_v149 (F := Ideal) x8 = y1
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx i ((ValueIdx.contrEquiv1 dot_S40000x128_S128x128_S40000x128_1_0_0_1_n_n 128 rfl rfl).symm k) = lidx_main_v150 i k := funext fun a => Fin.ext (by
    match a with
    | ⟨0, _⟩ => exact lhs_main_v150_0 _ _
    | ⟨1, _⟩ => exact (lhs_main_v150_1 _ _).trans hk)
  have er : dot_S40000x128_S128x128_S40000x128_1_0_0_1_n_n.rhsIdx i ((ValueIdx.contrEquiv1 dot_S40000x128_S128x128_S40000x128_1_0_0_1_n_n 128 rfl rfl).symm k) = ridx_main_v150 i k := funext fun a => Fin.ext (by
    match a with
    | ⟨0, _⟩ => exact (rhs_main_v150_0 _ _).trans hk
    | ⟨1, _⟩ => exact rhs_main_v150_1 _ _)
  rw [el, er]
theorem val_main_v175_apply (i : S40000x128.Idx) :
    val_main_v175 (F := Ideal) x0 x1 x2 x3 x4 x5 x6 x7 x8 x9 x10 i = ∑ k : Fin 128, (val_main_v171 (F := Ideal) x0 x1 x2 x3 x4 x5 x6 x7 x8 x9 x10) (lidx_main_v175 i k) * (val_main_v174 (F := Ideal) x2) (ridx_main_v175 i k) := by
  unfold val_main_v175
  generalize val_main_v171 (F := Ideal) x0 x1 x2 x3 x4 x5 x6 x7 x8 x9 x10 = y0
  generalize val_main_v174 (F := Ideal) x2 = y1
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx i ((ValueIdx.contrEquiv1 dot_S40000x128_S128x128_S40000x128_1_0_0_1_n_n 128 rfl rfl).symm k) = lidx_main_v175 i k := funext fun a => Fin.ext (by
    match a with
    | ⟨0, _⟩ => exact lhs_main_v175_0 _ _
    | ⟨1, _⟩ => exact (lhs_main_v175_1 _ _).trans hk)
  have er : dot_S40000x128_S128x128_S40000x128_1_0_0_1_n_n.rhsIdx i ((ValueIdx.contrEquiv1 dot_S40000x128_S128x128_S40000x128_1_0_0_1_n_n 128 rfl rfl).symm k) = ridx_main_v175 i k := funext fun a => Fin.ext (by
    match a with
    | ⟨0, _⟩ => exact (rhs_main_v175_0 _ _).trans hk
    | ⟨1, _⟩ => exact rhs_main_v175_1 _ _)
  rw [el, er]
theorem val_main_v184_apply (i : S40000x128.Idx) :
    val_main_v184 (F := Ideal) x0 x1 x2 x3 x4 x5 x6 x7 x8 x9 x10 i = ∑ k : Fin 128, (val_main_v171 (F := Ideal) x0 x1 x2 x3 x4 x5 x6 x7 x8 x9 x10) (lidx_main_v184 i k) * (val_main_v183 (F := Ideal) x4) (ridx_main_v184 i k) := by
  unfold val_main_v184
  generalize val_main_v171 (F := Ideal) x0 x1 x2 x3 x4 x5 x6 x7 x8 x9 x10 = y0
  generalize val_main_v183 (F := Ideal) x4 = y1
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx i ((ValueIdx.contrEquiv1 dot_S40000x128_S128x128_S40000x128_1_0_0_1_n_n 128 rfl rfl).symm k) = lidx_main_v184 i k := funext fun a => Fin.ext (by
    match a with
    | ⟨0, _⟩ => exact lhs_main_v184_0 _ _
    | ⟨1, _⟩ => exact (lhs_main_v184_1 _ _).trans hk)
  have er : dot_S40000x128_S128x128_S40000x128_1_0_0_1_n_n.rhsIdx i ((ValueIdx.contrEquiv1 dot_S40000x128_S128x128_S40000x128_1_0_0_1_n_n 128 rfl rfl).symm k) = ridx_main_v184 i k := funext fun a => Fin.ext (by
    match a with
    | ⟨0, _⟩ => exact (rhs_main_v184_0 _ _).trans hk
    | ⟨1, _⟩ => exact rhs_main_v184_1 _ _)
  rw [el, er]
theorem val_main_v193_apply (i : S40000x128.Idx) :
    val_main_v193 (F := Ideal) x0 x1 x2 x3 x4 x5 x6 x7 x8 x9 x10 i = ∑ k : Fin 128, (val_main_v171 (F := Ideal) x0 x1 x2 x3 x4 x5 x6 x7 x8 x9 x10) (lidx_main_v193 i k) * (val_main_v192 (F := Ideal) x6) (ridx_main_v193 i k) := by
  unfold val_main_v193
  generalize val_main_v171 (F := Ideal) x0 x1 x2 x3 x4 x5 x6 x7 x8 x9 x10 = y0
  generalize val_main_v192 (F := Ideal) x6 = y1
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx i ((ValueIdx.contrEquiv1 dot_S40000x128_S128x128_S40000x128_1_0_0_1_n_n 128 rfl rfl).symm k) = lidx_main_v193 i k := funext fun a => Fin.ext (by
    match a with
    | ⟨0, _⟩ => exact lhs_main_v193_0 _ _
    | ⟨1, _⟩ => exact (lhs_main_v193_1 _ _).trans hk)
  have er : dot_S40000x128_S128x128_S40000x128_1_0_0_1_n_n.rhsIdx i ((ValueIdx.contrEquiv1 dot_S40000x128_S128x128_S40000x128_1_0_0_1_n_n 128 rfl rfl).symm k) = ridx_main_v193 i k := funext fun a => Fin.ext (by
    match a with
    | ⟨0, _⟩ => exact (rhs_main_v193_0 _ _).trans hk
    | ⟨1, _⟩ => exact rhs_main_v193_1 _ _)
  rw [el, er]
theorem val_main_v234_apply (i : S40000x128.Idx) :
    val_main_v234 (F := Ideal) x0 x1 x2 x3 x4 x5 x6 x7 x8 x9 x10 i = ∑ k : Fin 128, (val_main_v171 (F := Ideal) x0 x1 x2 x3 x4 x5 x6 x7 x8 x9 x10) (lidx_main_v234 i k) * (val_main_v233 (F := Ideal) x8) (ridx_main_v234 i k) := by
  unfold val_main_v234
  generalize val_main_v171 (F := Ideal) x0 x1 x2 x3 x4 x5 x6 x7 x8 x9 x10 = y0
  generalize val_main_v233 (F := Ideal) x8 = y1
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx i ((ValueIdx.contrEquiv1 dot_S40000x128_S128x128_S40000x128_1_0_0_1_n_n 128 rfl rfl).symm k) = lidx_main_v234 i k := funext fun a => Fin.ext (by
    match a with
    | ⟨0, _⟩ => exact lhs_main_v234_0 _ _
    | ⟨1, _⟩ => exact (lhs_main_v234_1 _ _).trans hk)
  have er : dot_S40000x128_S128x128_S40000x128_1_0_0_1_n_n.rhsIdx i ((ValueIdx.contrEquiv1 dot_S40000x128_S128x128_S40000x128_1_0_0_1_n_n 128 rfl rfl).symm k) = ridx_main_v234 i k := funext fun a => Fin.ext (by
    match a with
    | ⟨0, _⟩ => exact (rhs_main_v234_0 _ _).trans hk
    | ⟨1, _⟩ => exact rhs_main_v234_1 _ _)
  rw [el, er]
theorem val_main_v257_apply (i : S40000.Idx) :
    val_main_v257 (F := Ideal) x0 x1 x2 x3 x4 x5 x6 x7 x8 x9 x10 i = (val_main_cst_31 (F := Ideal)) (Shape.Idx.first h_S_) + ∑ k : Fin 128, (val_main_v256 (F := Ideal) x0 x1 x2 x3 x4 x5 x6 x7 x8 x9 x10) (idx_main_v257 i k) := by
  unfold val_main_v257
  generalize val_main_v256 (F := Ideal) x0 x1 x2 x3 x4 x5 x6 x7 x8 x9 x10 = y0
  simp only [Host.reduceAdd, Ideal.hostReduceAdd_def]
  rw [Ideal.hostReduceAdd_single reducesTo_S40000x128_S40000_d1 (by decide)]
  refine congrArg (_ + ·) (Finset.sum_congr rfl fun k _ => ?_)
  exact congrArg y0 (funext fun a => Fin.ext (by match a with | ⟨0, _⟩ => rfl | ⟨1, _⟩ => rfl))

end

end Cert.ReferenceIdeal.Read

end
-- ==== Proof.TakeGather.lean ====
import proofs.«405917_j13073880449508_1_alg».proof.Proof.Gen.KernelIdeal
import Idealize.ShloMosaic.Lib.ReduceAll
import Idealize.ShloMosaic.Lib.ValueIdx
import Idealize.ShloMosaic.Lib.Pipeline.Value
import Idealize.ShloMosaic.PureOps.Ideal

noncomputable section

namespace Cert.TakeGather

open Cert.KernelIdeal Cert.KernelIdeal.Gen
open Idealize.ShloMosaic Idealize.ShloMosaic.ValueIdx

def wrapIdx (i : S640000.Idx → BitVec 32) : S640000x1.Idx → BitVec 32 :=
  broadcastInDim S640000x1 ![0] bcast_S640000_S640000x1_0
    (select (cmpi .slt i (broadcastInDim S640000 ![] bcast_S_S640000 (constantI S_ 32 0#32)))
      (addi i (broadcastInDim S640000 ![] bcast_S_S640000 (constantI S_ 32 40000#32))) i)

def takeOf (x : S40000x128.Idx → EReal) (i : S640000.Idx → BitVec 32) : S640000x128.Idx → EReal :=
  select
    (broadcastInDim S640000x128 ![0] bcast_S640000_S640000x128_0
      (Host.reduce IntOp.andi
        (andi (cmpi .sge (wrapIdx i) (broadcastInDim S640000x1 ![] bcast_S_S640000x1 (constantI S_ 32 0#32)))
          (cmpi .sle (wrapIdx i)
            (broadcastInDim S640000x1 ![0, 1] bcast_S1x1_S640000x1_0_1 (broadcastInDim S1x1 ![1] bcast_S1_S1x1_1 (constantI S1 32 39999#32)))))
        (constantI S_ 1 1#1) reducesTo_S640000x1_S640000_d1 h_S_))
    (Host.gather gather_S40000x128_S640000x1_S640000x128_1_0_n_n_0_1_1128 x (wrapIdx i))
    (broadcastInDim S640000x128 ![] bcast_S_S640000x128 (constant (F := Ideal) S_ .f32 0x7FC00000#32))

theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

-- a conjunction over all entries, started from 1, of entries that are all 1
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ p, x p = 1#1) (j : t.Idx) :
    Host.reduce IntOp.andi x init h hu j = 1#1 := by
  rw [Host.reduce_eq_foldl, hinit]
  exact foldl_andi_one x _ fun n _ => hx n

-- an index in [0, 40000) is not moved by the wrap and passes both bounds
theorem bounds_one (i : S640000.Idx → BitVec 32) (h : ∀ j, 0 ≤ (i j).toInt ∧ (i j).toInt < 40000) (y : S640000x1.Idx) :
    IntOp.andi (IntOp.cmpi .sge (wrapIdx i y) 0#32) (IntOp.cmpi .sle (wrapIdx i y) 39999#32) = 1#1 := by
  have e : wrapIdx i y = Scalar.select (IntOp.cmpi .slt (i (ix1 (y 0))) 0#32) (IntOp.addi (i (ix1 (y 0))) 40000#32) (i (ix1 (y 0))) :=
    broadcastInDim_apply _ bcast_S640000_S640000x1_0 _ y (ix1 (y 0)) (fun a => match a with | ⟨0, _⟩ => rfl)
  have := h (ix1 (y 0))
  have hn : ¬ IntOp.cmpi .slt (i (ix1 (y 0))) 0#32 = 1#1 := by
    rw [IntOp.cmpi_slt, show (0#32 : BitVec 32).toInt = 0 from by decide]; omega
  rw [e, show Scalar.select _ _ _ = i (ix1 (y 0)) from if_neg hn, IntOp.andi_eq_one, IntOp.cmpi_sge, IntOp.cmpi_sle,
    show (0#32 : BitVec 32).toInt = 0 from by decide, show (39999#32 : BitVec 32).toInt = 39999 from by decide]
  omega

theorem takeOf_eq_gather (x : S40000x128.Idx → EReal) (i : S640000.Idx → BitVec 32)
    (h : ∀ j, 0 ≤ (i j).toInt ∧ (i j).toInt < 40000) :
    takeOf x i = Host.gather gather_S40000x128_S640000x1_S640000x128_1_0_n_n_0_1_1128 x (wrapIdx i) := by
  funext y
  unfold takeOf select
  exact if_pos (reduce_andi_one _ _ _ _ rfl (bounds_one i h) _)

theorem src_range (A1 : S2x640000.Idx → BitVec 32) (hidx : ∀ p : S2x640000.Idx, 0 ≤ (A1 p).toInt ∧ (A1 p).toInt < 40000)
    (j : S640000.Idx) :
    0 ≤ (shapeCast S640000 (extractStridedSlice S1x640000 ![0, 0] A1 slices_S2x640000_S1x640000_0_0) shapeCasts_S1x640000_S640000 j).toInt
      ∧ (shapeCast S640000 (extractStridedSlice S1x640000 ![0, 0] A1 slices_S2x640000_S1x640000_0_0) shapeCasts_S1x640000_S640000 j).toInt < 40000 :=
  hidx _

theorem dst_range (A1 : S2x640000.Idx → BitVec 32) (hidx : ∀ p : S2x640000.Idx, 0 ≤ (A1 p).toInt ∧ (A1 p).toInt < 40000)
    (j : S640000.Idx) :
    0 ≤ (shapeCast S640000 (extractStridedSlice S1x640000 ![1, 0] A1 slices_S2x640000_S1x640000_1_0) shapeCasts_S1x640000_S640000 j).toInt
      ∧ (shapeCast S640000 (extractStridedSlice S1x640000 ![1, 0] A1 slices_S2x640000_S1x640000_1_0) shapeCasts_S1x640000_S640000 j).toInt < 40000 :=
  hidx _

end Cert.TakeGather

end
-- ==== Proof.Layer0aTake.lean ====
import proofs.«405917_j13073880449508_1_alg».proof.Proof.Gen.KernelIdeal.Launch
import proofs.«405917_j13073880449508_1_alg».proof.Proof.TakeGather
import Idealize.ShloMosaic.Lib.StableHlo.Run

noncomputable section

namespace Cert.Layer0a

open Cert.KernelIdeal Cert.KernelIdeal.Gen Cert.TakeGather
open Idealize.ShloMosaic Idealize.ShloMosaic.TcCoe Idealize.ShloMosaic.StableHlo
open Idealize.SL.Sem

-- A value cast to a reference's contents type and back is unchanged: the two casts are along one equation.
theorem ofBuf_toBuf {Val : EltTy → Type} {T : BufTy} (x : StableHlo.TRef sig T) (v : T.Contents Val) :
    x.ofBuf (x.toBuf v) = v := by
  obtain ⟨r, h, h1, h2⟩ := x; subst h; rfl

theorem take0_result (V : Valuation τ sig (Elt Ideal)) :
    (StableHlo.after hostOps1_1 V (Proc.devRef .tc main_v30) : S640000x128.Idx → EReal)
      = takeOf (V (Proc.devRef .tc main_v26)) (V (Proc.devRef .tc main_v3)) := by
  delta hostOps1_1
  after_results_simp
  simp only [ofBuf_toBuf]
  simp only [TRef.ofBuf, TRef.toBuf, cast_eq]
  rfl

theorem take1_result (V : Valuation τ sig (Elt Ideal)) :
    (StableHlo.after hostOps1_2 V (Proc.devRef .tc main_v31) : S640000x128.Idx → EReal)
      = takeOf (V (Proc.devRef .tc main_v27)) (V (Proc.devRef .tc main_v1)) := by
  delta hostOps1_2
  after_results_simp
  simp only [ofBuf_toBuf]
  simp only [TRef.ofBuf, TRef.toBuf, cast_eq]
  rfl

theorem take2_result (V : Valuation τ sig (Elt Ideal)) :
    (StableHlo.after hostOps1_3 V (Proc.devRef .tc main_v32) : S640000x128.Idx → EReal)
      = takeOf (V (Proc.devRef .tc main_v28)) (V (Proc.devRef .tc main_v1)) := by
  delta hostOps1_3
  after_results_simp
  simp only [ofBuf_toBuf]
  simp only [TRef.ofBuf, TRef.toBuf, cast_eq]
  rfl

end Cert.Layer0a
-- ==== Proof.Layer0a.lean ====
import proofs.«405917_j13073880449508_1_alg».proof.Proof.Gen.KernelIdeal.Regions
import proofs.«405917_j13073880449508_1_alg».proof.Proof.RefRead
import proofs.«405917_j13073880449508_1_alg».proof.Proof.Spec.Proj
import proofs.«405917_j13073880449508_1_alg».proof.Proof.TakeGather
import proofs.«405917_j13073880449508_1_alg».proof.Proof.Layer0aTake
import Idealize.ShloMosaic.Lib.StableHlo.Run
import Idealize.ShloMosaic.Lib.Pipeline.Value
import Idealize.ShloMosaic.Lib.ValueIdx
import Idealize.ShloMosaic.PureOps.Ideal.Laws

set_option maxRecDepth 2152

noncomputable section

namespace Cert.Layer0a

open Cert.KernelIdeal Cert.KernelIdeal.Gen Cert.TakeGather
open Cert.ReferenceIdeal.Read
open Idealize.ShloMosaic Idealize.ShloMosaic.TcCoe Idealize.ShloMosaic.StableHlo Idealize.ShloMosaic.ValueIdx
open Idealize.SL.Sem
open scoped BigOperators

section General
variable {x : S40000x128.Idx → Ideal .f32} {w0 w1 w2 w3 : S128x128.Idx → Ideal .f32} {b0 b1 b2 b3 : S128.Idx → Ideal .f32}

-- Column block n of a product with four matrices side by side, plus four vectors end to end: the same sum against the n-th matrix, plus the n-th vector.
theorem proj_block (off : Fin 2 → Nat) (hs : S40000x512.Slices off S40000x128) (n : Nat) (hn : n < 4) (hoff0 : off 0 = 0)
    (hoff1 : off 1 = 128 * n) {wn : S128x128.Idx → Ideal .f32}
    (hw : ([⟨S128x128, w0⟩, ⟨S128x128, w1⟩, ⟨S128x128, w2⟩, ⟨S128x128, w3⟩] : List ((s : Shape) × (s.Idx → Ideal .f32)))[n]'(by simpa using hn) = ⟨S128x128, wn⟩)
    {bn : S128.Idx → Ideal .f32}
    (hb : ([⟨S128, b0⟩, ⟨S128, b1⟩, ⟨S128, b2⟩, ⟨S128, b3⟩] : List ((s : Shape) × (s.Idx → Ideal .f32)))[n]'(by simpa using hn) = ⟨S128, bn⟩)
    (i : S40000x128.Idx) :
    extractStridedSlice S40000x128 off
        (Cert.Spec.proj x
          (concatenate S128x512 1 [⟨S128x128, w0⟩, ⟨S128x128, w1⟩, ⟨S128x128, w2⟩, ⟨S128x128, w3⟩]
            concatenates_S128x128_S128x128_S128x128_S128x128_S128x512_d1)
          (concatenate S512 0 [⟨S128, b0⟩, ⟨S128, b1⟩, ⟨S128, b2⟩, ⟨S128, b3⟩] concatenates_S128_S128_S128_S128_S512_d0))
        hs i
      = (∑ k : Fin 128, x (ix2 (i 0) k) * wn (ix2 k (i 1))) + bn (ix1 (i 1)) := by
  have h1 : (i 1).val < 128 := (i 1).isLt
  refine (extractStridedSlice_apply off _ hs i (ix2 (i 0) (⟨128 * n + (i 1).val, by omega⟩ : Fin 512))
    (fun a => match a with
      | ⟨0, _⟩ => by show (i 0).val = off 0 + (i 0).val; omega
      | ⟨1, _⟩ => by show 128 * n + (i 1).val = off 1 + (i 1).val; omega)).trans ?_
  refine (Cert.Spec.proj_apply _ _ _ _).trans
    (congrArg₂ (· + ·) (Finset.sum_congr rfl fun k _ => congrArg (x (ix2 (i 0) k) * ·) ?_) ?_)
  · refine concatenate_apply_piece (t := S128x512) 1 _ _ _ n (by simpa using hn) S128x128 wn hw rfl (128 * n) ?_ (ix2 k (i 1)) ?_ ?_
    · interval_cases n <;> rfl
    · intro b hb'; match b with | ⟨0, _⟩ => rfl | ⟨1, _⟩ => exact absurd rfl hb'
    · rfl
  · refine concatenate_apply_piece (t := S512) 0 _ _ _ n (by simpa using hn) S128 bn hb rfl (128 * n) ?_ (ix1 (i 1)) ?_ ?_
    · interval_cases n <;> rfl
    · intro b hb'; match b with | ⟨0, _⟩ => exact absurd rfl hb'
    · rfl

theorem zero_block (j : S128.Idx) :
    broadcastInDim S128 ![] bcast_S_S128 (constant (F := Ideal) S_ .f32 0x00000000#32) j = 0 :=
  (broadcastInDim_apply ![] bcast_S_S128 _ j ix0 (fun a => a.elim0)).trans Ideal.ofBits_zero_f32

-- Every index is the index of its coordinates: a contraction whose operands are read at indices given coordinate by coordinate.
theorem sum_ix (x : S40000x128.Idx → Ideal .f32) (W : S128x128.Idx → Ideal .f32) (l : Fin 128 → S40000x128.Idx)
    (r : Fin 128 → S128x128.Idx) :
    (∑ k : Fin 128, x (l k) * W (r k)) = ∑ k : Fin 128, x (ix2 (l k 0) (l k 1)) * W (ix2 (r k 0) (r k 1)) :=
  Finset.sum_congr rfl fun k _ => congrArg₂ (· * ·) (congrArg x (eq_ix2 _)) (congrArg W (eq_ix2 _))

theorem sum_bias_ix (x : S40000x128.Idx → Ideal .f32) (W : S128x128.Idx → Ideal .f32) (B : S128.Idx → Ideal .f32)
    (l : Fin 128 → S40000x128.Idx) (r : Fin 128 → S128x128.Idx) (j : S128.Idx) :
    FloatOps.addf (∑ k : Fin 128, x (l k) * W (r k)) (B j)
      = (∑ k : Fin 128, x (ix2 (l k 0) (l k 1)) * W (ix2 (r k 0) (r k 1))) + B (ix1 (j 0)) :=
  congrArg₂ (· + ·) (sum_ix x W l r) (congrArg B (eq_ix1 j))
end General

section Host0
variable {F : FTy → Type} [FloatOps F] (m : (ℓ : Loc nD τ sig) → Buf (Elt F) ℓ) (c : Dev nD)

theorem src_eq : (V1 m c main_v1 : (⟨S640000, .i32⟩ : BufTy).Contents (Elt F)) = val_main_v1 (F := F) (V0 m c main_arg1) := by
  dsimp only [V1, hostOps0]; after_results; rfl

theorem dst_eq : (V1 m c main_v3 : (⟨S640000, .i32⟩ : BufTy).Contents (Elt F)) = val_main_v3 (F := F) (V0 m c main_arg1) := by
  dsimp only [V1, hostOps0]; after_results; rfl
end Host0

section Layer
variable (m : (ℓ : Loc nD τ sig) → Buf (Elt Ideal) ℓ) (outs : Outs (F := Ideal)) (c : Dev nD)
  (hproj : outs 2 main_v25 c = Cert.Spec.proj (V1 m c main_arg0) (V1 m c main_v16) (V1 m c main_v24))
  (hidx : ∀ i : S2x640000.Idx, 0 ≤ (m ((c : Thread nD τ).loc main_arg1) i).toInt ∧ (m ((c : Thread nD τ).loc main_arg1) i).toInt < 40000)

theorem V3_src : (V3 m outs c main_v1 : S640000.Idx → BitVec 32) = val_main_v1 (F := Ideal) (m ((c : Thread nD τ).loc main_arg1)) :=
  (V3_of m outs c main_v1 (by decide)).trans ((V2_of m outs c main_v1 (by decide)).trans (src_eq m c))

theorem V3_dst : (V3 m outs c main_v3 : S640000.Idx → BitVec 32) = val_main_v3 (F := Ideal) (m ((c : Thread nD τ).loc main_arg1)) :=
  (V3_of m outs c main_v3 (by decide)).trans ((V2_of m outs c main_v3 (by decide)).trans (dst_eq m c))

include hproj

-- The projection's output over the argument arrays: the reference's four transposed matrices side by side, its three biases and a zero block end to end.
theorem out_eq : (V2 m outs c main_v25 : S40000x512.Idx → EReal) = Cert.Spec.proj (V0 m c main_arg0)
      (concatenate S128x512 1
        [⟨S128x128, val_main_v6 (F := Ideal) (V0 m c main_arg2)⟩, ⟨S128x128, val_main_v15 (F := Ideal) (V0 m c main_arg4)⟩,
         ⟨S128x128, val_main_v24 (F := Ideal) (V0 m c main_arg6)⟩, ⟨S128x128, val_main_v65 (F := Ideal) (V0 m c main_arg8)⟩]
        concatenates_S128x128_S128x128_S128x128_S128x128_S128x512_d1)
      (concatenate S512 0
        [⟨S128, val_main_v9 (F := Ideal) (V0 m c main_arg3)⟩, ⟨S128, val_main_v18 (F := Ideal) (V0 m c main_arg5)⟩, ⟨S128, val_main_v27 (F := Ideal) (V0 m c main_arg7)⟩,
         ⟨S128, broadcastInDim S128 ![] bcast_S_S128 (constant (F := Ideal) S_ .f32 0x00000000#32)⟩]
        concatenates_S128_S128_S128_S128_S512_d0) := by
  refine (Function.update_self ..).trans (hproj.trans ?_)
  rw [V1_of m c main_arg0 (by decide)]
  congr 1 <;> (dsimp only [V1, hostOps0]; after_results; rfl)

theorem kproj : (V3 m outs c main_v26 : S40000x128.Idx → EReal)
    = val_main_v12 (F := Ideal) (V0 m c main_arg0) (V0 m c main_arg2) (V0 m c main_arg3) := by
  dsimp only [V3, hostOps1]; after_results
  rw [out_eq m outs c hproj]
  funext i
  refine (proj_block ![0, 0] slices_S40000x512_S40000x128_0_0 0 (by decide) rfl rfl rfl rfl i).trans (Eq.symm ?_)
  rw [val_main_v12_apply, val_main_v7_apply, val_main_v11_apply, val_main_v10_apply]
  exact sum_bias_ix _ _ _ _ _ _

theorem qproj : (V3 m outs c main_v27 : S40000x128.Idx → EReal)
    = val_main_v21 (F := Ideal) (V0 m c main_arg0) (V0 m c main_arg4) (V0 m c main_arg5) := by
  dsimp only [V3, hostOps1]; after_results
  rw [out_eq m outs c hproj]
  funext i
  refine (proj_block ![0, 128] slices_S40000x512_S40000x128_0_128 1 (by decide) rfl rfl rfl rfl i).trans (Eq.symm ?_)
  rw [val_main_v21_apply, val_main_v16_apply, val_main_v20_apply, val_main_v19_apply]
  exact sum_bias_ix _ _ _ _ _ _

theorem vproj : (V3 m outs c main_v28 : S40000x128.Idx → EReal)
    = val_main_v30 (F := Ideal) (V0 m c main_arg0) (V0 m c main_arg6) (V0 m c main_arg7) := by
  dsimp only [V3, hostOps1]; after_results
  rw [out_eq m outs c hproj]
  funext i
  refine (proj_block ![0, 256] slices_S40000x512_S40000x128_0_256 2 (by decide) rfl rfl rfl rfl i).trans (Eq.symm ?_)
  rw [val_main_v30_apply, val_main_v25_apply, val_main_v29_apply, val_main_v28_apply]
  exact sum_bias_ix _ _ _ _ _ _

-- The last block's bias is zero.
theorem sproj : (V3 m outs c main_v29 : S40000x128.Idx → EReal)
    = val_main_v66 (F := Ideal) (V0 m c main_arg0) (V0 m c main_arg8) := by
  dsimp only [V3, hostOps1]; after_results
  rw [out_eq m outs c hproj]
  funext i
  refine (proj_block ![0, 384] slices_S40000x512_S40000x128_0_384 3 (by decide) rfl rfl rfl rfl i).trans (Eq.symm ?_)
  rw [zero_block, add_zero, val_main_v66_apply]
  exact sum_ix _ _ _ _

theorem l0_skip : (V6 m outs c main_v29 : (⟨S40000x128, .f32⟩ : BufTy).Contents (Elt Ideal))
      = val_main_v66 (F := Ideal) (m ((c : Thread nD τ).loc main_arg0)) (m ((c : Thread nD τ).loc main_arg8)) := by
  rw [V6_of m outs c main_v29 (by decide), V5_of m outs c main_v29 (by decide), V4_of m outs c main_v29 (by decide)]
  exact sproj m outs c hproj

include hidx

-- With every endpoint a row number the lookup with a fill is the plain gather.
theorem l0_kdst : (V6 m outs c main_v30 : (⟨S640000x128, .f32⟩ : BufTy).Contents (Elt Ideal))
      = val_main_v37 (F := Ideal) (m ((c : Thread nD τ).loc main_arg0)) (m ((c : Thread nD τ).loc main_arg1)) (m ((c : Thread nD τ).loc main_arg2)) (m ((c : Thread nD τ).loc main_arg3)) := by
  rw [V6_of m outs c main_v30 (by decide), V5_of m outs c main_v30 (by decide)]
  show StableHlo.after hostOps1_1 (V3 m outs c) (Proc.devRef .tc main_v30) = _
  rw [take0_result, kproj m outs c hproj, V3_dst, takeOf_eq_gather _ (val_main_v3 (F := Ideal) (m ((c : Thread nD τ).loc main_arg1))) (dst_range _ hidx)]
  rfl

theorem l0_qsrc : (V6 m outs c main_v31 : (⟨S640000x128, .f32⟩ : BufTy).Contents (Elt Ideal))
      = val_main_v44 (F := Ideal) (m ((c : Thread nD τ).loc main_arg0)) (m ((c : Thread nD τ).loc main_arg1)) (m ((c : Thread nD τ).loc main_arg4)) (m ((c : Thread nD τ).loc main_arg5)) := by
  rw [V6_of m outs c main_v31 (by decide)]
  show StableHlo.after hostOps1_2 (V4 m outs c) (Proc.devRef .tc main_v31) = _
  rw [take1_result, V4_of m outs c main_v27 (by decide), qproj m outs c hproj, V4_of m outs c main_v1 (by decide), V3_src,
    takeOf_eq_gather _ (val_main_v1 (F := Ideal) (m ((c : Thread nD τ).loc main_arg1))) (src_range _ hidx)]
  rfl

theorem l0_vsrc : (V6 m outs c main_v32 : (⟨S640000x128, .f32⟩ : BufTy).Contents (Elt Ideal))
      = val_main_v58 (F := Ideal) (m ((c : Thread nD τ).loc main_arg0)) (m ((c : Thread nD τ).loc main_arg1)) (m ((c : Thread nD τ).loc main_arg6)) (m ((c : Thread nD τ).loc main_arg7)) := by
  show StableHlo.after hostOps1_3 (V5 m outs c) (Proc.devRef .tc main_v32) = _
  rw [take2_result, V5_of m outs c main_v28 (by decide), V4_of m outs c main_v28 (by decide), vproj m outs c hproj,
    V5_of m outs c main_v1 (by decide), V4_of m outs c main_v1 (by decide), V3_src, takeOf_eq_gather _ (val_main_v1 (F := Ideal) (m ((c : Thread nD τ).loc main_arg1))) (src_range _ hidx)]
  rfl
end Layer

end Cert.Layer0a
-- ==== Proof.RowNorm.lean ====
import proofs.«405917_j13073880449508_1_alg».proof.Proof.Spec.L2norm
import Idealize.ShloMosaic.PureOps.Ideal.Laws

noncomputable section

namespace Cert.RowNorm

open Idealize.ShloMosaic

abbrev rowIdx (i : (⟨2, ![40000, 128]⟩ : Shape).Idx) (k : Fin 128) : (⟨2, ![40000, 128]⟩ : Shape).Idx := fun a => match a with
  | ⟨0, _⟩ => ⟨(i 0).val, (i 0).isLt⟩
  | ⟨1, _⟩ => ⟨k.val, k.isLt⟩

theorem l2normRows_eq (h : (⟨2, ![40000, 128]⟩ : Shape).Idx → EReal) (i : (⟨2, ![40000, 128]⟩ : Shape).Idx) :
    Cert.Spec.l2normRows 40000 h i
      = Ideal.div (h i) (max (Ideal.sqrt (Ideal.ofBits .f32 0x00000000#32 + ∑ k : Fin 128, h (rowIdx i k) * h (rowIdx i k)))
          (Ideal.ofBits .f32 0x2B8CBCCC#32)) := by
  have e (k) : Cert.Spec.inRow i k = rowIdx i k := funext fun a => match a with | ⟨0, _⟩ => rfl | ⟨1, _⟩ => rfl
  unfold Cert.Spec.l2normRows Cert.Spec.rowSumSq
  rw [Ideal.ofBits_zero_f32, zero_add]
  simp only [e]

end Cert.RowNorm

end
-- ==== Proof.Layer0b.lean ====
import proofs.«405917_j13073880449508_1_alg».proof.Proof.Gen.KernelIdeal.Regions
import proofs.«405917_j13073880449508_1_alg».proof.Proof.RefRead
import proofs.«405917_j13073880449508_1_alg».proof.Proof.Spec.Msg
import proofs.«405917_j13073880449508_1_alg».proof.Proof.Spec.Combine
import proofs.«405917_j13073880449508_1_alg».proof.Proof.RowNorm
import Idealize.ShloMosaic.Lib.StableHlo.Run
import Idealize.ShloMosaic.Lib.IdealHost
import Idealize.ShloMosaic.PureOps.Ideal.Laws
import Idealize.ShloMosaic.Lib.ValueIdx

noncomputable section

namespace Cert.Layer0b

section Ref

open Idealize.ShloMosaic Idealize.ShloMosaic.TcCoe Idealize.ShloMosaic.StableHlo Idealize.ShloMosaic.ValueIdx
open Cert.ReferenceIdeal Cert.ReferenceIdeal.Gen Cert.ReferenceIdeal.Read Cert.Spec

variable (K Q V : FVec Ideal S640000x128 .f32) (A S X : FVec Ideal S40000x128 .f32) (g b : FVec Ideal S128 .f32)

abbrev splat (t : Shape) (h : S_.BroadcastsInDim t ![]) (w : BitVec 32) : FVec Ideal t .f32 :=
  broadcastInDim t ![] h (constant S_ .f32 w)

abbrev rowB (r : FVec Ideal S128 .f32) : FVec Ideal S40000x128 .f32 :=
  broadcastInDim S40000x128 ![0, 1] bcast_S1x128_S40000x128_0_1 (broadcastInDim S1x128 ![1] bcast_S128_S1x128_1 r)

abbrev act : FVec Ideal S40000x128 .f32 :=
  maximumf (addf (mulf (addf A S) (rowB g)) (rowB b)) (splat S40000x128 bcast_S_S40000x128 0x00000000#32)

-- the logistic is the quotient 1 / (1 + exp (-x)), and the pattern 0x3F800000 denotes one
theorem msg_ref : msg K Q V = mulf (Host.divf (splat S640000x128 bcast_S_S640000x128 0x3F800000#32)
    (addf (splat S640000x128 bcast_S_S640000x128 0x3F800000#32) (Host.exp (Host.negf (addf K Q))))) V := by
  have h : splat S640000x128 bcast_S_S640000x128 0x3F800000#32 = fun _ => 1 := funext fun _ => Ideal.ofBits_one_f32
  rw [h]; rfl

-- a row broadcast to every row reads the row at the entry's column; the all-zero pattern denotes zero
theorem act_ref : act A S g b = combineAct A S g b := by
  have e : ∀ r : FVec Ideal S128 .f32, rowB r = fun p => r (ix1 (p 1)) := fun r =>
    funext fun p => congrArg r (funext fun a => match a with | ⟨0, _⟩ => rfl)
  have z : splat S40000x128 bcast_S_S40000x128 0x00000000#32 = fun _ => 0 := funext fun _ => Ideal.ofBits_zero_f32
  unfold act
  rw [e, e, z]; rfl

-- the sum along axis 1 is the initial value plus the sum over the 128 columns of the row
theorem reduce_rows (h : FVec Ideal S40000x128 .f32) :
    Host.reduceAdd (mulf h h) (constant S_ .f32 0x00000000#32) reducesTo_S40000x128_S40000_d1 h_S_
      = fun r => Ideal.ofBits .f32 0x00000000#32 + ∑ k : Fin 128, h (idx_main_v80 r k) * h (idx_main_v80 r k) := by
  funext r
  simp only [Host.reduceAdd, Ideal.hostReduceAdd_def]
  rw [Ideal.hostReduceAdd_single reducesTo_S40000x128_S40000_d1 (by decide)]
  refine congrArg (_ + ·) (Finset.sum_congr rfl fun k _ => ?_)
  exact congrArg (mulf h h) (funext fun a => Fin.ext (by match a with | ⟨0, _⟩ => rfl | ⟨1, _⟩ => rfl))

theorem combine_ref : combine A S X g b = addf X (Host.divf (act A S g b)
    (broadcastInDim S40000x128 ![0, 1] bcast_S40000x1_S40000x128_0_1
      (maximumf (Host.sqrt (broadcastInDim S40000x1 ![0] bcast_S40000_S40000x1_0
        (Host.reduceAdd (mulf (act A S g b) (act A S g b)) (constant S_ .f32 0x00000000#32) reducesTo_S40000x128_S40000_d1 h_S_)))
        (splat S40000x1 bcast_S_S40000x1 0x2B8CBCCC#32)))) := by
  have e1 : ∀ W : FVec Ideal S40000x1 .f32, broadcastInDim S40000x128 ![0, 1] bcast_S40000x1_S40000x128_0_1 W
      = fun i => W (idx_main_v85 i) := fun W =>
    funext fun i => congrArg W (funext fun a => match a with | ⟨0, _⟩ => rfl | ⟨1, _⟩ => rfl)
  have e2 : ∀ R : FVec Ideal S40000 .f32, broadcastInDim S40000x1 ![0] bcast_S40000_S40000x1_0 R
      = fun j => R (idx_main_v81 j) := fun R =>
    funext fun j => congrArg R (funext fun a => match a with | ⟨0, _⟩ => rfl)
  rw [act_ref, e1, e2, reduce_rows]
  exact funext fun i => congrArg (X i + ·) (Cert.RowNorm.l2normRows_eq (combineAct A S g b) i)

end Ref

open Cert.KernelIdeal Cert.KernelIdeal.Gen
open Idealize.ShloMosaic Idealize.ShloMosaic.TcCoe Idealize.ShloMosaic.StableHlo
open Idealize.SL.Sem
open Cert.ReferenceIdeal.Read

variable (m : (ℓ : Loc nD τ sig) → Buf (Elt Ideal) ℓ) (outs : Outs (F := Ideal)) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)

abbrev atArgs {β : Type} (f : FVec Ideal S40000x128 .f32 → (S2x640000.Idx → BitVec 32) → FVec Ideal S3x128x128 .f32 →
    FVec Ideal S3x128 .f32 → FVec Ideal S3x128x128 .f32 → FVec Ideal S3x128 .f32 → FVec Ideal S3x128x128 .f32 →
    FVec Ideal S3x128 .f32 → FVec Ideal S3x128x128 .f32 → FVec Ideal S3x128 .f32 → FVec Ideal S3x128 .f32 → β) : β :=
  f (a0 m c) (a1 m c) (a2 m c) (a3 m c) (a4 m c) (a5 m c) (a6 m c) (a7 m c) (a8 m c) (a9 m c) (a10 m c)

theorem dst_eq : V7 m outs c main_v3 = val_main_v3 (F := Ideal) (a1 m c) := by
  rw [V7_of, V6_of, V5_of, V4_of, V3_of, V2_of]
  · show StableHlo.after hostOps0 _ _ = _
    after_results <;> rfl
  all_goals decide

theorem arg_eq (r : Ref sig .tc) (h : r ∈ [main_arg0, main_arg9, main_arg10]) : V7 m outs c r = m ((c : Thread nD τ).loc r) := by
  rw [V7_of, V6_of, V5_of, V4_of, V3_of, V2_of, V1_of] <;> first | rfl | (revert r; decide)

theorem layer0b
    (hmsg : outs 7 main_v33 c = Cert.Spec.msg (V6 m outs c main_v30) (V6 m outs c main_v31) (V6 m outs c main_v32))
    (hcomb : outs 9 main_v41 c = Cert.Spec.combine (V8 m outs c main_v36) (V8 m outs c main_v29) (V8 m outs c main_arg0)
      (V8 m outs c main_v38) (V8 m outs c main_v40))
    (hk : V6 m outs c main_v30 = val_main_v37 (F := Ideal) (a0 m c) (a1 m c) (a2 m c) (a3 m c))
    (hq : V6 m outs c main_v31 = val_main_v44 (F := Ideal) (a0 m c) (a1 m c) (a4 m c) (a5 m c))
    (hv : V6 m outs c main_v32 = val_main_v58 (F := Ideal) (a0 m c) (a1 m c) (a6 m c) (a7 m c))
    (hs : V6 m outs c main_v29 = val_main_v66 (F := Ideal) (a0 m c) (a8 m c)) :
    V9 m outs c main_v41 = atArgs m c (val_main_v87 (F := Ideal)) := by
  have e : (V8 m outs c main_v36 : FVec Ideal S40000x128 .f32) = Host.scatterAdd scatter_S40000x128_S640000x1_S640000x128_1_0_0_1
      (broadcastInDim S40000x128 ![] bcast_S_S40000x128 (constant (F := Ideal) S_ .f32 0x00000000#32))
      (broadcastInDim S640000x1 ![0] bcast_S640000_S640000x1_0 (V7 m outs c main_v3)) (outs 7 main_v33 c) ∧
      V8 m outs c main_v38 = val_main_v69 (F := Ideal) (V7 m outs c main_arg9) ∧
      V8 m outs c main_v40 = val_main_v74 (F := Ideal) (V7 m outs c main_arg10) := by
    refine ⟨?_, ?_, ?_⟩ <;> show StableHlo.after hostOps2 _ _ = _ <;> after_results <;> rfl
  show outs 9 main_v41 c = _
  rw [hcomb, e.1, e.2.1, e.2.2, hmsg, hk, hq, hv, dst_eq, arg_eq _ _ _ main_arg9, arg_eq _ _ _ main_arg10, V8_of _ _ _ main_v29, V7_of _ _ _ main_v29, hs,
    V8_of _ _ _ main_arg0, arg_eq _ _ _ main_arg0, msg_ref, combine_ref]
  · rfl
  all_goals decide

end Cert.Layer0b

end
-- ==== Proof.Layer1aTake.lean ====
import proofs.«405917_j13073880449508_1_alg».proof.Proof.Gen.KernelIdeal.Launch
import proofs.«405917_j13073880449508_1_alg».proof.Proof.TakeGather
import proofs.«405917_j13073880449508_1_alg».proof.Proof.Layer0aTake
import Idealize.ShloMosaic.Lib.StableHlo.Run

noncomputable section

namespace Cert.Layer1a

open Cert.KernelIdeal Cert.KernelIdeal.Gen Cert.TakeGather Cert.Layer0a
open Idealize.ShloMosaic Idealize.ShloMosaic.TcCoe Idealize.SL.Sem Idealize.ShloMosaic.StableHlo

theorem take3_result (V : Valuation τ sig (Elt Ideal)) :
    (StableHlo.after hostOps4_1 V (Proc.devRef .tc main_v68) : S640000x128.Idx → EReal)
      = takeOf (V (Proc.devRef .tc main_v64)) (V (Proc.devRef .tc main_v3)) := by
  delta hostOps4_1
  after_results_simp
  simp only [ofBuf_toBuf]
  simp only [TRef.ofBuf, TRef.toBuf, cast_eq]
  rfl

theorem take4_result (V : Valuation τ sig (Elt Ideal)) :
    (StableHlo.after hostOps4_2 V (Proc.devRef .tc main_v69) : S640000x128.Idx → EReal)
      = takeOf (V (Proc.devRef .tc main_v65)) (V (Proc.devRef .tc main_v1)) := by
  delta hostOps4_2
  after_results_simp
  simp only [ofBuf_toBuf]
  simp only [TRef.ofBuf, TRef.toBuf, cast_eq]
  rfl

theorem take5_result (V : Valuation τ sig (Elt Ideal)) :
    (StableHlo.after hostOps4_3 V (Proc.devRef .tc main_v70) : S640000x128.Idx → EReal)
      = takeOf (V (Proc.devRef .tc main_v66)) (V (Proc.devRef .tc main_v1)) := by
  delta hostOps4_3
  after_results_simp
  simp only [ofBuf_toBuf]
  simp only [TRef.ofBuf, TRef.toBuf, cast_eq]
  rfl

end Cert.Layer1a
-- ==== Proof.Layer1a.lean ====
import proofs.«405917_j13073880449508_1_alg».proof.Proof.Gen.KernelIdeal.Regions
import proofs.«405917_j13073880449508_1_alg».proof.Proof.RefRead
import proofs.«405917_j13073880449508_1_alg».proof.Proof.Spec.Proj
import proofs.«405917_j13073880449508_1_alg».proof.Proof.TakeGather
import proofs.«405917_j13073880449508_1_alg».proof.Proof.Layer0a
import proofs.«405917_j13073880449508_1_alg».proof.Proof.Layer1aTake
import Idealize.ShloMosaic.Lib.StableHlo.Run
import Idealize.ShloMosaic.Lib.Pipeline.Value
import Idealize.ShloMosaic.Lib.ValueIdx
import Idealize.ShloMosaic.PureOps.Ideal.Laws

set_option maxRecDepth 2152

noncomputable section

namespace Cert.Layer1a

open Cert.KernelIdeal Cert.KernelIdeal.Gen Cert.TakeGather Cert.Layer0a
open Cert.ReferenceIdeal.Read
open Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ) (outs : Outs (F := Ideal)) (c : Dev nD)

abbrev W9 : List (Ref sig .tc) := ([main_v41] : List (Ref sig .tc)) ++ hostOps2_W ++ [main_v33] ++ hostOps1_3_W ++ hostOps1_2_W ++ hostOps1_1_W ++ hostOps1_W ++ [main_v25]

-- A reference outside every list of written references keeps its contents.
theorem V9_of_V1 (r : Ref sig .tc) (h : r ∉ W9) : V9 m outs c r = V1 m c r := by
  simp only [W9, List.mem_append, not_or] at h
  obtain ⟨⟨⟨⟨⟨⟨⟨h0, h1⟩, h2⟩, h3⟩, h4⟩, h5⟩, h6⟩, h7⟩ := h
  exact (V9_of m outs c r h0).trans <| (V8_of m outs c r h1).trans <| (V7_of m outs c r h2).trans <| (V6_of m outs c r h3).trans <| (V5_of m outs c r h4).trans <| (V4_of m outs c r h5).trans <| (V3_of m outs c r h6).trans <| (V2_of m outs c r h7)

theorem V9_arg (r : Ref sig .tc) (h : r ∉ W9) (h0 : r ∉ hostOps0_W) : V9 m outs c r = m ((c : Thread nD τ).loc r) :=
  (V9_of_V1 m outs c r h).trans (V1_of m c r h0)

theorem V12_src : (V12 m outs c main_v1 : S640000.Idx → BitVec 32) = val_main_v1 (F := Ideal) (m ((c : Thread nD τ).loc main_arg1)) :=
  (V12_of m outs c main_v1 (by decide)).trans <| (V11_of m outs c main_v1 (by decide)).trans <| (V10_of m outs c main_v1 (by decide)).trans <|
  (V9_of_V1 m outs c main_v1 (by decide)).trans (src_eq m c)

theorem V12_dst : (V12 m outs c main_v3 : S640000.Idx → BitVec 32) = val_main_v3 (F := Ideal) (m ((c : Thread nD τ).loc main_arg1)) :=
  (V12_of m outs c main_v3 (by decide)).trans <| (V11_of m outs c main_v3 (by decide)).trans <| (V10_of m outs c main_v3 (by decide)).trans <|
  (V9_of_V1 m outs c main_v3 (by decide)).trans (dst_eq m c)

set_option quotPrecheck false
local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)

-- The stacked weights and biases before the projection: the reference's transposed matrices side by side, its biases and a zero block end to end.
theorem Wcat_eq : (V10 m outs c main_v54 : S128x512.Idx → EReal) = concatenate S128x512 1
        [⟨S128x128, val_main_v90 (F := Ideal) A2⟩, ⟨S128x128, val_main_v99 (F := Ideal) A4⟩,
         ⟨S128x128, val_main_v108 (F := Ideal) A6⟩, ⟨S128x128, val_main_v149 (F := Ideal) A8⟩]
        concatenates_S128x128_S128x128_S128x128_S128x128_S128x512_d1 := by
  rw [← V9_arg m outs c main_arg2 (by decide +kernel) (by decide +kernel), ← V9_arg m outs c main_arg4 (by decide +kernel) (by decide +kernel),
    ← V9_arg m outs c main_arg6 (by decide +kernel) (by decide +kernel), ← V9_arg m outs c main_arg8 (by decide +kernel) (by decide +kernel)]
  dsimp only [V10, hostOps3]; after_results; rfl

theorem bcat_eq : (V10 m outs c main_v62 : S512.Idx → EReal) = concatenate S512 0
        [⟨S128, val_main_v93 (F := Ideal) A3⟩, ⟨S128, val_main_v102 (F := Ideal) A5⟩, ⟨S128, val_main_v111 (F := Ideal) A7⟩,
         ⟨S128, broadcastInDim S128 ![] bcast_S_S128 (constant (F := Ideal) S_ .f32 0x00000000#32)⟩]
        concatenates_S128_S128_S128_S128_S512_d0 := by
  rw [← V9_arg m outs c main_arg3 (by decide +kernel) (by decide +kernel), ← V9_arg m outs c main_arg5 (by decide +kernel) (by decide +kernel),
    ← V9_arg m outs c main_arg7 (by decide +kernel) (by decide +kernel)]
  dsimp only [V10, hostOps3]; after_results; rfl

variable (hh : V10 m outs c main_v41 = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
  (hproj : outs 11 main_v63 c = Cert.Spec.proj (V10 m outs c main_v41) (V10 m outs c main_v54) (V10 m outs c main_v62))
  (hidx : ∀ i : S2x640000.Idx, 0 ≤ (m ((c : Thread nD τ).loc main_arg1) i).toInt ∧ (m ((c : Thread nD τ).loc main_arg1) i).toInt < 40000)
include hh hproj

theorem out_eq : (V11 m outs c main_v63 : S40000x512.Idx → EReal)
    = Cert.Spec.proj (val_main_v87 (F := Ideal) A0 A1 A2 A3 A4 A5 A6 A7 A8 A9 A10) (V10 m outs c main_v54) (V10 m outs c main_v62) :=
  (Function.update_self ..).trans (hproj.trans (congrArg (Cert.Spec.proj · _ _) hh))

theorem k_slice : (V12 m outs c main_v64 : S40000x128.Idx → EReal) = val_main_v96 (F := Ideal) A0 A1 A2 A3 A4 A5 A6 A7 A8 A9 A10 := by
  dsimp only [V12, hostOps4]; after_results
  rw [out_eq m outs c hh hproj, Wcat_eq, bcat_eq]
  funext i
  refine (proj_block ![0, 0] slices_S40000x512_S40000x128_0_0 0 (by decide) rfl rfl rfl rfl i).trans (Eq.symm ?_)
  rw [val_main_v96_apply, val_main_v91_apply, val_main_v95_apply, val_main_v94_apply]
  exact sum_bias_ix _ _ _ _ _ _

theorem q_slice : (V12 m outs c main_v65 : S40000x128.Idx → EReal) = val_main_v105 (F := Ideal) A0 A1 A2 A3 A4 A5 A6 A7 A8 A9 A10 := by
  dsimp only [V12, hostOps4]; after_results
  rw [out_eq m outs c hh hproj, Wcat_eq, bcat_eq]
  funext i
  refine (proj_block ![0, 128] slices_S40000x512_S40000x128_0_128 1 (by decide) rfl rfl rfl rfl i).trans (Eq.symm ?_)
  rw [val_main_v105_apply, val_main_v100_apply, val_main_v104_apply, val_main_v103_apply]
  exact sum_bias_ix _ _ _ _ _ _

theorem v_slice : (V12 m outs c main_v66 : S40000x128.Idx → EReal) = val_main_v114 (F := Ideal) A0 A1 A2 A3 A4 A5 A6 A7 A8 A9 A10 := by
  dsimp only [V12, hostOps4]; after_results
  rw [out_eq m outs c hh hproj, Wcat_eq, bcat_eq]
  funext i
  refine (proj_block ![0, 256] slices_S40000x512_S40000x128_0_256 2 (by decide) rfl rfl rfl rfl i).trans (Eq.symm ?_)
  rw [val_main_v114_apply, val_main_v109_apply, val_main_v113_apply, val_main_v112_apply]
  exact sum_bias_ix _ _ _ _ _ _

-- The last block's bias is zero.
theorem s_slice : (V12 m outs c main_v67 : S40000x128.Idx → EReal) = val_main_v150 (F := Ideal) A0 A1 A2 A3 A4 A5 A6 A7 A8 A9 A10 := by
  dsimp only [V12, hostOps4]; after_results
  rw [out_eq m outs c hh hproj, Wcat_eq, bcat_eq]
  funext i
  refine (proj_block ![0, 384] slices_S40000x512_S40000x128_0_384 3 (by decide) rfl rfl rfl rfl i).trans (Eq.symm ?_)
  rw [zero_block, add_zero, val_main_v150_apply]
  exact sum_ix _ _ _ _

theorem layer1a_skip : V15 m outs c main_v67 = val_main_v150 (F := Ideal) A0 A1 A2 A3 A4 A5 A6 A7 A8 A9 A10 := by
  rw [V15_of m outs c main_v67 (by decide), V14_of m outs c main_v67 (by decide), V13_of m outs c main_v67 (by decide)]
  exact s_slice m outs c hh hproj

include hidx

-- With every endpoint a row number the lookup with a fill is the plain gather.
theorem layer1a_k : V15 m outs c main_v68 = val_main_v121 (F := Ideal) A0 A1 A2 A3 A4 A5 A6 A7 A8 A9 A10 := by
  rw [V15_of m outs c main_v68 (by decide), V14_of m outs c main_v68 (by decide)]
  show StableHlo.after hostOps4_1 (V12 m outs c) (Proc.devRef .tc main_v68) = _
  rw [take3_result, k_slice m outs c hh hproj, V12_dst, takeOf_eq_gather _ (val_main_v3 (F := Ideal) A1) (dst_range _ hidx)]
  rfl

theorem layer1a_q : V15 m outs c main_v69 = val_main_v128 (F := Ideal) A0 A1 A2 A3 A4 A5 A6 A7 A8 A9 A10 := by
  rw [V15_of m outs c main_v69 (by decide)]
  show StableHlo.after hostOps4_2 (V13 m outs c) (Proc.devRef .tc main_v69) = _
  rw [take4_result, V13_of m outs c main_v65 (by decide), q_slice m outs c hh hproj, V13_of m outs c main_v1 (by decide), V12_src,
    takeOf_eq_gather _ (val_main_v1 (F := Ideal) A1) (src_range _ hidx)]
  rfl

theorem layer1a_v : V15 m outs c main_v70 = val_main_v142 (F := Ideal) A0 A1 A2 A3 A4 A5 A6 A7 A8 A9 A10 := by
  show StableHlo.after hostOps4_3 (V14 m outs c) (Proc.devRef .tc main_v70) = _
  rw [take5_result, V14_of m outs c main_v66 (by decide), V13_of m outs c main_v66 (by decide), v_slice m outs c hh hproj,
    V14_of m outs c main_v1 (by decide), V13_of m outs c main_v1 (by decide), V12_src, takeOf_eq_gather _ (val_main_v1 (F := Ideal) A1) (src_range _ hidx)]
  rfl

end Cert.Layer1a
-- ==== Proof.Layer1b.lean ====
import proofs.«405917_j13073880449508_1_alg».proof.Proof.Layer0b

noncomputable section

namespace Cert.Layer1b

open Idealize.ShloMosaic Idealize.ShloMosaic.TcCoe
open Cert.KernelIdeal Cert.KernelIdeal.Gen
open Cert.ReferenceIdeal.Read
open Cert.Spec Cert.Layer0b

variable (m : (ℓ : Loc nD τ sig) → Buf (Elt Ideal) ℓ) (outs : Outs (F := Ideal)) (c : Dev nD)

theorem carry (r : Ref sig .tc) (h : r ∈ [main_v3, main_arg9, main_arg10]) : V16 m outs c r = V7 m outs c r := by
  rw [V16_of, V15_of, V14_of, V13_of, V12_of, V11_of, V10_of, V9_of, V8_of] <;> (revert r; decide)

theorem layer1b
    (hk : V15 m outs c main_v68 = atArgs m c (val_main_v121 (F := Ideal)))
    (hq : V15 m outs c main_v69 = atArgs m c (val_main_v128 (F := Ideal)))
    (hv : V15 m outs c main_v70 = atArgs m c (val_main_v142 (F := Ideal)))
    (hs : V15 m outs c main_v67 = atArgs m c (val_main_v150 (F := Ideal)))
    (hh : V10 m outs c main_v41 = atArgs m c (val_main_v87 (F := Ideal)))
    (hmsg : outs 16 main_v71 c = msg (V15 m outs c main_v68) (V15 m outs c main_v69) (V15 m outs c main_v70))
    (hcomb : outs 18 main_v79 c = combine (V17 m outs c main_v74) (V17 m outs c main_v67) (V17 m outs c main_v41)
      (V17 m outs c main_v76) (V17 m outs c main_v78)) :
    V18 m outs c main_v79 = atArgs m c (val_main_v171 (F := Ideal)) := by
  have e : (V17 m outs c main_v74 : FVec Ideal S40000x128 .f32) = Host.scatterAdd scatter_S40000x128_S640000x1_S640000x128_1_0_0_1
      (broadcastInDim S40000x128 ![] bcast_S_S40000x128 (constant (F := Ideal) S_ .f32 0x00000000#32))
      (broadcastInDim S640000x1 ![0] bcast_S640000_S640000x1_0 (V16 m outs c main_v3)) (outs 16 main_v71 c) ∧
      V17 m outs c main_v76 = val_main_v153 (F := Ideal) (V16 m outs c main_arg9) ∧
      V17 m outs c main_v78 = val_main_v158 (F := Ideal) (V16 m outs c main_arg10) := by
    refine ⟨?_, ?_, ?_⟩ <;> show StableHlo.after hostOps5 _ _ = _ <;> after_results <;> rfl
  show outs 18 main_v79 c = _
  rw [hcomb, e.1, e.2.1, e.2.2, hmsg, hk, hq, hv, carry _ _ _ main_v3, dst_eq, carry _ _ _ main_arg9, arg_eq _ _ _ main_arg9, carry _ _ _ main_arg10,
    arg_eq _ _ _ main_arg10, V17_of _ _ _ main_v67, V16_of _ _ _ main_v67, hs,
    V17_of _ _ _ main_v41, V16_of, V15_of, V14_of, V13_of, V12_of, V11_of, hh, msg_ref, combine_ref]
  · rfl
  all_goals decide

end Cert.Layer1b

end
-- ==== Proof.Layer2aTake.lean ====
import proofs.«405917_j13073880449508_1_alg».proof.Proof.Gen.KernelIdeal.Launch
import proofs.«405917_j13073880449508_1_alg».proof.Proof.TakeGather
import proofs.«405917_j13073880449508_1_alg».proof.Proof.Layer0aTake
import Idealize.ShloMosaic.Lib.StableHlo.Run

noncomputable section

namespace Cert.Layer2a

open Cert.KernelIdeal Cert.KernelIdeal.Gen Cert.TakeGather Cert.Layer0a
open Idealize.ShloMosaic Idealize.ShloMosaic.TcCoe Idealize.ShloMosaic.StableHlo
open Idealize.SL.Sem

theorem takeK_result (V : Valuation τ sig (Elt Ideal)) :
    (StableHlo.after hostOps7_1 V (Proc.devRef .tc main_v106) : S640000x128.Idx → EReal)
      = takeOf (V (Proc.devRef .tc main_v102)) (V (Proc.devRef .tc main_v3)) := by
  delta hostOps7_1
  after_results_simp
  simp only [ofBuf_toBuf]
  simp only [TRef.ofBuf, TRef.toBuf, cast_eq]
  rfl

theorem takeQ_result (V : Valuation τ sig (Elt Ideal)) :
    (StableHlo.after hostOps7_2 V (Proc.devRef .tc main_v107) : S640000x128.Idx → EReal)
      = takeOf (V (Proc.devRef .tc main_v103)) (V (Proc.devRef .tc main_v1)) := by
  delta hostOps7_2
  after_results_simp
  simp only [ofBuf_toBuf]
  simp only [TRef.ofBuf, TRef.toBuf, cast_eq]
  rfl

theorem takeV_result (V : Valuation τ sig (Elt Ideal)) :
    (StableHlo.after hostOps7_3 V (Proc.devRef .tc main_v108) : S640000x128.Idx → EReal)
      = takeOf (V (Proc.devRef .tc main_v104)) (V (Proc.devRef .tc main_v1)) := by
  delta hostOps7_3
  after_results_simp
  simp only [ofBuf_toBuf]
  simp only [TRef.ofBuf, TRef.toBuf, cast_eq]
  rfl

end Cert.Layer2a
-- ==== Proof.Layer2a.lean ====
import proofs.«405917_j13073880449508_1_alg».proof.Proof.Gen.KernelIdeal.Regions
import proofs.«405917_j13073880449508_1_alg».proof.Proof.RefRead
import proofs.«405917_j13073880449508_1_alg».proof.Proof.Spec.Proj
import proofs.«405917_j13073880449508_1_alg».proof.Proof.TakeGather
import proofs.«405917_j13073880449508_1_alg».proof.Proof.Layer1a
import proofs.«405917_j13073880449508_1_alg».proof.Proof.Layer2aTake
import Idealize.ShloMosaic.Lib.StableHlo.Run
import Idealize.ShloMosaic.Lib.Pipeline.Value
import Idealize.ShloMosaic.Lib.ValueIdx

noncomputable section

namespace Cert.Layer2a

open Cert.KernelIdeal Cert.KernelIdeal.Gen Cert.TakeGather Cert.Layer0a
open Cert.ReferenceIdeal.Read
open Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ) (outs : Outs (F := Ideal)) (c : Dev nD)

abbrev W18 : List (Ref sig .tc) := ([main_v79] : List (Ref sig .tc)) ++ hostOps5_W ++ [main_v71] ++ hostOps4_3_W ++ hostOps4_2_W ++ hostOps4_1_W ++ hostOps4_W ++ [main_v63] ++ hostOps3_W

-- A reference outside every list of written references keeps its contents.
theorem V18_of_V9 (r : Ref sig .tc) (h : r ∉ W18) : V18 m outs c r = V9 m outs c r := by
  simp only [W18, List.mem_append, not_or] at h
  obtain ⟨⟨⟨⟨⟨⟨⟨⟨h0, h1⟩, h2⟩, h3⟩, h4⟩, h5⟩, h6⟩, h7⟩, h8⟩ := h
  exact (V18_of m outs c r h0).trans <| (V17_of m outs c r h1).trans <| (V16_of m outs c r h2).trans <| (V15_of m outs c r h3).trans <| (V14_of m outs c r h4).trans <| (V13_of m outs c r h5).trans <| (V12_of m outs c r h6).trans <| (V11_of m outs c r h7).trans <| (V10_of m outs c r h8)

theorem V18_arg (r : Ref sig .tc) (h : r ∉ W18) (h9 : r ∉ Cert.Layer1a.W9) (h0 : r ∉ hostOps0_W) : V18 m outs c r = m ((c : Thread nD τ).loc r) :=
  (V18_of_V9 m outs c r h).trans (Cert.Layer1a.V9_arg m outs c r h9 h0)

theorem V21_src : (V21 m outs c main_v1 : S640000.Idx → BitVec 32) = val_main_v1 (F := Ideal) (m ((c : Thread nD τ).loc main_arg1)) :=
  (V21_of m outs c main_v1 (by decide)).trans <| (V20_of m outs c main_v1 (by decide)).trans <| (V19_of m outs c main_v1 (by decide)).trans <|
  (V18_of_V9 m outs c main_v1 (by decide)).trans <| (Cert.Layer1a.V9_of_V1 m outs c main_v1 (by decide)).trans (src_eq m c)

theorem V21_dst : (V21 m outs c main_v3 : S640000.Idx → BitVec 32) = val_main_v3 (F := Ideal) (m ((c : Thread nD τ).loc main_arg1)) :=
  (V21_of m outs c main_v3 (by decide)).trans <| (V20_of m outs c main_v3 (by decide)).trans <| (V19_of m outs c main_v3 (by decide)).trans <|
  (V18_of_V9 m outs c main_v3 (by decide)).trans <| (Cert.Layer1a.V9_of_V1 m outs c main_v3 (by decide)).trans (dst_eq m c)

set_option quotPrecheck false
local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)

-- The stacked weights and biases before the projection: the reference's transposed matrices side by side, its biases and a zero block end to end.
set_option maxHeartbeats 400000 in
theorem Wcat_eq : (V19 m outs c main_v92 : S128x512.Idx → EReal) = concatenate S128x512 1
        [⟨S128x128, val_main_v174 (F := Ideal) A2⟩, ⟨S128x128, val_main_v183 (F := Ideal) A4⟩,
         ⟨S128x128, val_main_v192 (F := Ideal) A6⟩, ⟨S128x128, val_main_v233 (F := Ideal) A8⟩]
        concatenates_S128x128_S128x128_S128x128_S128x128_S128x512_d1 := by
  rw [← V18_arg m outs c main_arg2 (by decide +kernel) (by decide +kernel) (by decide +kernel), ← V18_arg m outs c main_arg4 (by decide +kernel) (by decide +kernel) (by decide +kernel),
    ← V18_arg m outs c main_arg6 (by decide +kernel) (by decide +kernel) (by decide +kernel), ← V18_arg m outs c main_arg8 (by decide +kernel) (by decide +kernel) (by decide +kernel)]
  dsimp only [V19, hostOps6]; after_results; rfl

set_option maxHeartbeats 400000 in
theorem bcat_eq : (V19 m outs c main_v100 : S512.Idx → EReal) = concatenate S512 0
        [⟨S128, val_main_v177 (F := Ideal) A3⟩, ⟨S128, val_main_v186 (F := Ideal) A5⟩, ⟨S128, val_main_v195 (F := Ideal) A7⟩,
         ⟨S128, broadcastInDim S128 ![] bcast_S_S128 (constant (F := Ideal) S_ .f32 0x00000000#32)⟩]
        concatenates_S128_S128_S128_S128_S512_d0 := by
  rw [← V18_arg m outs c main_arg3 (by decide +kernel) (by decide +kernel) (by decide +kernel), ← V18_arg m outs c main_arg5 (by decide +kernel) (by decide +kernel) (by decide +kernel),
    ← V18_arg m outs c main_arg7 (by decide +kernel) (by decide +kernel) (by decide +kernel)]
  dsimp only [V19, hostOps6]; after_results; rfl

variable (hh : (V19 m outs c main_v79 : (⟨S40000x128, .f32⟩ : BufTy).Contents (Elt Ideal)) = val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
  (hproj : outs 20 main_v101 c = Cert.Spec.proj (V19 m outs c main_v79) (V19 m outs c main_v92) (V19 m outs c main_v100))
  (hidx : ∀ i : S2x640000.Idx, 0 ≤ (m ((c : Thread nD τ).loc main_arg1) i).toInt ∧ (m ((c : Thread nD τ).loc main_arg1) i).toInt < 40000)
include hh hproj

theorem out_eq : (V20 m outs c main_v101 : S40000x512.Idx → EReal)
    = Cert.Spec.proj (val_main_v171 (F := Ideal) A0 A1 A2 A3 A4 A5 A6 A7 A8 A9 A10) (V19 m outs c main_v92) (V19 m outs c main_v100) :=
  (Function.update_self ..).trans (hproj.trans (congrArg (Cert.Spec.proj · _ _) hh))

theorem k_slice : (V21 m outs c main_v102 : S40000x128.Idx → EReal) = val_main_v180 (F := Ideal) A0 A1 A2 A3 A4 A5 A6 A7 A8 A9 A10 := by
  dsimp only [V21, hostOps7]; after_results
  rw [out_eq m outs c hh hproj, Wcat_eq, bcat_eq]
  funext i
  refine (proj_block ![0, 0] slices_S40000x512_S40000x128_0_0 0 (by decide) rfl rfl rfl rfl i).trans (Eq.symm ?_)
  rw [val_main_v180_apply, val_main_v175_apply, val_main_v179_apply, val_main_v178_apply]
  exact sum_bias_ix _ _ _ _ _ _

theorem q_slice : (V21 m outs c main_v103 : S40000x128.Idx → EReal) = val_main_v189 (F := Ideal) A0 A1 A2 A3 A4 A5 A6 A7 A8 A9 A10 := by
  dsimp only [V21, hostOps7]; after_results
  rw [out_eq m outs c hh hproj, Wcat_eq, bcat_eq]
  funext i
  refine (proj_block ![0, 128] slices_S40000x512_S40000x128_0_128 1 (by decide) rfl rfl rfl rfl i).trans (Eq.symm ?_)
  rw [val_main_v189_apply, val_main_v184_apply, val_main_v188_apply, val_main_v187_apply]
  exact sum_bias_ix _ _ _ _ _ _

theorem v_slice : (V21 m outs c main_v104 : S40000x128.Idx → EReal) = val_main_v198 (F := Ideal) A0 A1 A2 A3 A4 A5 A6 A7 A8 A9 A10 := by
  dsimp only [V21, hostOps7]; after_results
  rw [out_eq m outs c hh hproj, Wcat_eq, bcat_eq]
  funext i
  refine (proj_block ![0, 256] slices_S40000x512_S40000x128_0_256 2 (by decide) rfl rfl rfl rfl i).trans (Eq.symm ?_)
  rw [val_main_v198_apply, val_main_v193_apply, val_main_v197_apply, val_main_v196_apply]
  exact sum_bias_ix _ _ _ _ _ _

-- The last block's bias is zero.
theorem s_slice : (V21 m outs c main_v105 : S40000x128.Idx → EReal) = val_main_v234 (F := Ideal) A0 A1 A2 A3 A4 A5 A6 A7 A8 A9 A10 := by
  dsimp only [V21, hostOps7]; after_results
  rw [out_eq m outs c hh hproj, Wcat_eq, bcat_eq]
  funext i
  refine (proj_block ![0, 384] slices_S40000x512_S40000x128_0_384 3 (by decide) rfl rfl rfl rfl i).trans (Eq.symm ?_)
  rw [zero_block, add_zero, val_main_v234_apply]
  exact sum_ix _ _ _ _

theorem skip_eq : (V24 m outs c main_v105 : (⟨S40000x128, .f32⟩ : BufTy).Contents (Elt Ideal)) = val_main_v234 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [V24_of m outs c main_v105 (by decide), V23_of m outs c main_v105 (by decide), V22_of m outs c main_v105 (by decide)]
  exact s_slice m outs c hh hproj

include hidx

-- With every endpoint a row number the lookup with a fill is the plain gather.
theorem gathered_k : (V24 m outs c main_v106 : (⟨S640000x128, .f32⟩ : BufTy).Contents (Elt Ideal)) = val_main_v205 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [V24_of m outs c main_v106 (by decide), V23_of m outs c main_v106 (by decide)]
  show StableHlo.after hostOps7_1 (V21 m outs c) (Proc.devRef .tc main_v106) = _
  rw [takeK_result, k_slice m outs c hh hproj, V21_dst, takeOf_eq_gather _ (val_main_v3 (F := Ideal) A1) (dst_range _ hidx)]
  rfl

theorem gathered_q : (V24 m outs c main_v107 : (⟨S640000x128, .f32⟩ : BufTy).Contents (Elt Ideal)) = val_main_v212 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [V24_of m outs c main_v107 (by decide)]
  show StableHlo.after hostOps7_2 (V22 m outs c) (Proc.devRef .tc main_v107) = _
  rw [takeQ_result, V22_of m outs c main_v103 (by decide), q_slice m outs c hh hproj, V22_of m outs c main_v1 (by decide), V21_src,
    takeOf_eq_gather _ (val_main_v1 (F := Ideal) A1) (src_range _ hidx)]
  rfl

theorem gathered_v : (V24 m outs c main_v108 : (⟨S640000x128, .f32⟩ : BufTy).Contents (Elt Ideal)) = val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps7_3 (V23 m outs c) (Proc.devRef .tc main_v108) = _
  rw [takeV_result, V23_of m outs c main_v104 (by decide), V22_of m outs c main_v104 (by decide), v_slice m outs c hh hproj,
    V23_of m outs c main_v1 (by decide), V22_of m outs c main_v1 (by decide), V21_src, takeOf_eq_gather _ (val_main_v1 (F := Ideal) A1) (src_range _ hidx)]
  rfl

end Cert.Layer2a
-- ==== Proof.Layer2b.lean ====
import proofs.«405917_j13073880449508_1_alg».proof.Proof.Layer0b

noncomputable section

namespace Cert.Layer2b

open Idealize.ShloMosaic Idealize.ShloMosaic.TcCoe
open Cert.KernelIdeal Cert.KernelIdeal.Gen
open Cert.ReferenceIdeal.Read
open Cert.Spec Cert.Layer0b

variable (m : (ℓ : Loc nD τ sig) → Buf (Elt Ideal) ℓ) (outs : Outs (F := Ideal)) (c : Dev nD)

theorem carry (r : Ref sig .tc) (h : r ∈ [main_v3, main_arg9, main_arg10]) : V25 m outs c r = V7 m outs c r := by
  rw [V25_of, V24_of, V23_of, V22_of, V21_of, V20_of, V19_of, V18_of, V17_of, V16_of, V15_of, V14_of, V13_of, V12_of, V11_of,
    V10_of, V9_of, V8_of] <;> (revert r; decide)

theorem layer2b
    (hh : V19 m outs c main_v79 = atArgs m c (val_main_v171 (F := Ideal)))
    (hk : V24 m outs c main_v106 = atArgs m c (val_main_v205 (F := Ideal)))
    (hq : V24 m outs c main_v107 = atArgs m c (val_main_v212 (F := Ideal)))
    (hv : V24 m outs c main_v108 = atArgs m c (val_main_v226 (F := Ideal)))
    (hs : V24 m outs c main_v105 = atArgs m c (val_main_v234 (F := Ideal)))
    (hmsg : outs 25 main_v109 c = msg (V24 m outs c main_v106) (V24 m outs c main_v107) (V24 m outs c main_v108))
    (hcomb : outs 27 main_v117 c = combine (V26 m outs c main_v112) (V26 m outs c main_v105) (V26 m outs c main_v79)
      (V26 m outs c main_v114) (V26 m outs c main_v116)) :
    V27 m outs c main_v117 = atArgs m c (val_main_v255 (F := Ideal)) := by
  have e : (V26 m outs c main_v112 : FVec Ideal S40000x128 .f32) = Host.scatterAdd scatter_S40000x128_S640000x1_S640000x128_1_0_0_1
      (broadcastInDim S40000x128 ![] bcast_S_S40000x128 (constant (F := Ideal) S_ .f32 0x00000000#32))
      (broadcastInDim S640000x1 ![0] bcast_S640000_S640000x1_0 (V25 m outs c main_v3)) (outs 25 main_v109 c) ∧
      V26 m outs c main_v114 = val_main_v237 (F := Ideal) (V25 m outs c main_arg9) ∧
      V26 m outs c main_v116 = val_main_v242 (F := Ideal) (V25 m outs c main_arg10) := by
    refine ⟨?_, ?_, ?_⟩ <;> show StableHlo.after hostOps8 _ _ = _ <;> after_results <;> rfl
  show outs 27 main_v117 c = _
  rw [hcomb, e.1, e.2.1, e.2.2, hmsg, hk, hq, hv, carry _ _ _ main_v3, dst_eq, carry _ _ _ main_arg9, arg_eq _ _ _ main_arg9, carry _ _ _ main_arg10,
    arg_eq _ _ _ main_arg10, V26_of _ _ _ main_v105, V25_of _ _ _ main_v105, hs,
    V26_of _ _ _ main_v79, V25_of, V24_of, V23_of, V22_of, V21_of, V20_of, hh, msg_ref, combine_ref]
  · rfl
  all_goals decide

end Cert.Layer2b

end
-- ==== Proof.Final.lean ====
import proofs.«405917_j13073880449508_1_alg».proof.Proof.Gen.KernelIdeal.Regions
import proofs.«405917_j13073880449508_1_alg».proof.Proof.RefRead
import proofs.«405917_j13073880449508_1_alg».proof.Proof.Spec.L2norm
import proofs.«405917_j13073880449508_1_alg».proof.Proof.RowNorm

noncomputable section

namespace Cert.Final

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (outs : Outs (F := Ideal))

-- square, sum over the columns, square root, floor, divide: the row normalisation, up to the zero the sum starts from
theorem result_eq (c : Dev nD)
    (h2 : (V27 m outs c main_v117 : (⟨S40000x128, .f32⟩ : BufTy).Contents (Elt Ideal)) = val_main_v255 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (hl : outs 28 main_v118 c = Cert.Spec.l2norm (V27 m outs c main_v117)) :
    outs 28 main_v118 c = val_main_v263 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [hl, h2]
  funext i
  rw [val_main_v263_apply, val_main_v262_apply, val_main_v261_apply, val_main_v260_apply, val_main_cst_32_apply,
    val_main_v259_apply, val_main_v258_apply, val_main_v257_apply, val_main_cst_31_apply]
  simp only [val_main_v256_apply]
  exact Cert.RowNorm.l2normRows_eq _ i

end Cert.Final

end
-- ==== Proof.Chain.lean ====
import proofs.«405917_j13073880449508_1_alg».proof.Proof.Gen.KernelIdeal.Regions
import proofs.«405917_j13073880449508_1_alg».proof.Proof.RefRead
import proofs.«405917_j13073880449508_1_alg».proof.Proof.Spec.Proj
import proofs.«405917_j13073880449508_1_alg».proof.Proof.Spec.Msg
import proofs.«405917_j13073880449508_1_alg».proof.Proof.Spec.Combine
import proofs.«405917_j13073880449508_1_alg».proof.Proof.Spec.L2norm
import proofs.«405917_j13073880449508_1_alg».proof.Proof.Layer0a
import proofs.«405917_j13073880449508_1_alg».proof.Proof.Layer0b
import proofs.«405917_j13073880449508_1_alg».proof.Proof.Layer1a
import proofs.«405917_j13073880449508_1_alg».proof.Proof.Layer1b
import proofs.«405917_j13073880449508_1_alg».proof.Proof.Layer2a
import proofs.«405917_j13073880449508_1_alg».proof.Proof.Layer2b
import proofs.«405917_j13073880449508_1_alg».proof.Proof.Final

noncomputable section

namespace Cert.Chain

open Idealize.ShloMosaic Idealize.ShloMosaic.TcCoe
open Cert.KernelIdeal Cert.KernelIdeal.Gen
open Cert.ReferenceIdeal.Read

theorem chain (m : (ℓ : Loc nD τ sig) → Buf (Elt Ideal) ℓ) (outs : Outs (F := Ideal)) (c : Dev nD)
    (hidx : ∀ i : S2x640000.Idx, 0 ≤ (m ((c : Thread nD τ).loc main_arg1) i).toInt ∧ (m ((c : Thread nD τ).loc main_arg1) i).toInt < 40000)
    (h25 : outs 2 main_v25 c = Cert.Spec.proj (V1 m c main_arg0) (V1 m c main_v16) (V1 m c main_v24))
    (h33 : outs 7 main_v33 c = Cert.Spec.msg (V6 m outs c main_v30) (V6 m outs c main_v31) (V6 m outs c main_v32))
    (h41 : outs 9 main_v41 c = Cert.Spec.combine (V8 m outs c main_v36) (V8 m outs c main_v29) (V8 m outs c main_arg0)
      (V8 m outs c main_v38) (V8 m outs c main_v40))
    (h63 : outs 11 main_v63 c = Cert.Spec.proj (V10 m outs c main_v41) (V10 m outs c main_v54) (V10 m outs c main_v62))
    (h71 : outs 16 main_v71 c = Cert.Spec.msg (V15 m outs c main_v68) (V15 m outs c main_v69) (V15 m outs c main_v70))
    (h79 : outs 18 main_v79 c = Cert.Spec.combine (V17 m outs c main_v74) (V17 m outs c main_v67) (V17 m outs c main_v41)
      (V17 m outs c main_v76) (V17 m outs c main_v78))
    (h101 : outs 20 main_v101 c = Cert.Spec.proj (V19 m outs c main_v79) (V19 m outs c main_v92) (V19 m outs c main_v100))
    (h109 : outs 25 main_v109 c = Cert.Spec.msg (V24 m outs c main_v106) (V24 m outs c main_v107) (V24 m outs c main_v108))
    (h117 : outs 27 main_v117 c = Cert.Spec.combine (V26 m outs c main_v112) (V26 m outs c main_v105) (V26 m outs c main_v79)
      (V26 m outs c main_v114) (V26 m outs c main_v116))
    (h118 : outs 28 main_v118 c = Cert.Spec.l2norm (V27 m outs c main_v117)) :
    outs 28 main_v118 c = val_main_v263 (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10)) := by
  have x1 := (V10_of m outs c main_v41 (by decide)).trans (Layer0b.layer0b m outs c h33 h41 (Layer0a.l0_kdst m outs c h25 hidx)
    (Layer0a.l0_qsrc m outs c h25 hidx) (Layer0a.l0_vsrc m outs c h25 hidx) (Layer0a.l0_skip m outs c h25))
  have x2 := (V19_of m outs c main_v79 (by decide)).trans (Layer1b.layer1b m outs c (Layer1a.layer1a_k m outs c x1 h63 hidx)
    (Layer1a.layer1a_q m outs c x1 h63 hidx) (Layer1a.layer1a_v m outs c x1 h63 hidx) (Layer1a.layer1a_skip m outs c x1 h63) x1 h71 h79)
  exact Final.result_eq m outs c (Layer2b.layer2b m outs c x2 (Layer2a.gathered_k m outs c x2 h101 hidx)
    (Layer2a.gathered_q m outs c x2 h101 hidx) (Layer2a.gathered_v m outs c x2 h101 hidx) (Layer2a.skip_eq m outs c x2 h101) h109 h117) h118

end Cert.Chain

end
-- ==== Proof.PreIdx.lean ====
import proofs.«405917_j13073880449508_1_alg».proof.Defs
import proofs.«405917_j13073880449508_1_alg».proof.Proof.Gen.Pre_finite_inputs
import Idealize.ShloMosaic.Lib.ReduceAll
import Idealize.ShloMosaic.Lib.ValueIdx
import Idealize.ShloMosaic.Lib.StableHlo.Predicate

noncomputable section

namespace Cert.PreIdx

open Idealize.ShloMosaic Idealize.SL.Sem Cert.KernelIdeal Idealize.ShloMosaic.TcCoe
open Cert.Pre_finite_inputs (fn fn_part1 fn_part2 fn_part3)

instance : Subsingleton Cert.Pre_finite_inputs.S_.Idx := ⟨fun a b => funext fun d => d.elim0⟩

-- the precondition's last two conjuncts are "every entry ≥ 0" and "every entry < 40000", each a conjunction over all entries
theorem range_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i : S2x640000.Idx, 0 ≤ (m ((c : Thread nD τ).loc main_arg1) i).toInt
      ∧ (m ((c : Thread nD τ).loc main_arg1) i).toInt < 40000 := fun i => by
  have h0 := congrFun (hpre c) ValueIdx.ix0
  unfold fn fn_part1 fn_part2 fn_part3 at h0
  simp only [] at h0
  obtain ⟨h1, hlt⟩ := IntOp.andi_eq_one.1 h0
  obtain ⟨-, hge⟩ := IntOp.andi_eq_one.1 h1
  exact ⟨of_decide_eq_true ((StableHlo.Predicate.ofBool_eq_one_iff _).1 (Host.reduce_andi_all _ _ _ _ _ hge i)),
    of_decide_eq_true ((StableHlo.Predicate.ofBool_eq_one_iff _).1 (Host.reduce_andi_all _ _ _ _ _ hlt i))⟩

end Cert.PreIdx

end
-- ==== Proof.RefRunHand1.lean ====
import proofs.«405917_j13073880449508_1_alg».proof.Proof.Gen.ReferenceIdeal
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in a literal list of references. -/
local macro "wr1" : tactic =>
  `(tactic| (simp only [nullary_writes, unary_writes, binary_writes, ternary_writes, reshape_writes, Finset.singleton_subset_iff, List.mem_toFinset]
             exact List.mem_map_of_mem (by decide)))

/-- @main's operations 1 … 31 of 305, in order. -/
abbrev seg0 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    unary main_arg2 main_v4 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v4 main_v5 rfl shapeCasts_S1x128x128_S128x128,
    unary main_v5 main_v6 ((transpose S128x128 [1, 0] · transposes_S128x128_S128x128_1_0) : (⟨S128x128, .f32⟩ : BufTy).Contents (Elt F) → (⟨S128x128, .f32⟩ : BufTy).Contents (Elt F)),
    binary main_arg0 main_v6 main_v7 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg3 main_v8 ((extractStridedSlice S1x128 ![0, 0] · slices_S3x128_S1x128_0_0) : (⟨S3x128, .f32⟩ : BufTy).Contents (Elt F) → (⟨S1x128, .f32⟩ : BufTy).Contents (Elt F)),
    reshape main_v8 main_v9 rfl shapeCasts_S1x128_S128,
    unary main_v9 main_v10 (broadcastInDim S1x128 ![1] bcast_S128_S1x128_1 : (⟨S128, .f32⟩ : BufTy).Contents (Elt F) → (⟨S1x128, .f32⟩ : BufTy).Contents (Elt F)),
    unary main_v10 main_v11 (broadcastInDim S40000x128 ![0, 1] bcast_S1x128_S40000x128_0_1 : (⟨S1x128, .f32⟩ : BufTy).Contents (Elt F) → (⟨S40000x128, .f32⟩ : BufTy).Contents (Elt F)),
    binary main_v7 main_v11 main_v12 (addf : (⟨S40000x128, .f32⟩ : BufTy).Contents (Elt F) → (⟨S40000x128, .f32⟩ : BufTy).Contents (Elt F) → (⟨S40000x128, .f32⟩ : BufTy).Contents (Elt F)),
    unary main_arg4 main_v13 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v13 main_v14 rfl shapeCasts_S1x128x128_S128x128,
    unary main_v14 main_v15 ((transpose S128x128 [1, 0] · transposes_S128x128_S128x128_1_0) : (⟨S128x128, .f32⟩ : BufTy).Contents (Elt F) → (⟨S128x128, .f32⟩ : BufTy).Contents (Elt F)),
    binary main_arg0 main_v15 main_v16 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg5 main_v17 ((extractStridedSlice S1x128 ![0, 0] · slices_S3x128_S1x128_0_0) : (⟨S3x128, .f32⟩ : BufTy).Contents (Elt F) → (⟨S1x128, .f32⟩ : BufTy).Contents (Elt F)),
    reshape main_v17 main_v18 rfl shapeCasts_S1x128_S128,
    unary main_v18 main_v19 (broadcastInDim S1x128 ![1] bcast_S128_S1x128_1 : (⟨S128, .f32⟩ : BufTy).Contents (Elt F) → (⟨S1x128, .f32⟩ : BufTy).Contents (Elt F)),
    unary main_v19 main_v20 (broadcastInDim S40000x128 ![0, 1] bcast_S1x128_S40000x128_0_1 : (⟨S1x128, .f32⟩ : BufTy).Contents (Elt F) → (⟨S40000x128, .f32⟩ : BufTy).Contents (Elt F)),
    binary main_v16 main_v20 main_v21 (addf : (⟨S40000x128, .f32⟩ : BufTy).Contents (Elt F) → (⟨S40000x128, .f32⟩ : BufTy).Contents (Elt F) → (⟨S40000x128, .f32⟩ : BufTy).Contents (Elt F)),
    unary main_arg6 main_v22 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v22 main_v23 rfl shapeCasts_S1x128x128_S128x128,
    unary main_v23 main_v24 ((transpose S128x128 [1, 0] · transposes_S128x128_S128x128_1_0) : (⟨S128x128, .f32⟩ : BufTy).Contents (Elt F) → (⟨S128x128, .f32⟩ : BufTy).Contents (Elt F)),
    binary main_arg0 main_v24 main_v25 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg7 main_v26 ((extractStridedSlice S1x128 ![0, 0] · slices_S3x128_S1x128_0_0) : (⟨S3x128, .f32⟩ : BufTy).Contents (Elt F) → (⟨S1x128, .f32⟩ : BufTy).Contents (Elt F)),
    reshape main_v26 main_v27 rfl shapeCasts_S1x128_S128,
    unary main_v27 main_v28 (broadcastInDim S1x128 ![1] bcast_S128_S1x128_1 : (⟨S128, .f32⟩ : BufTy).Contents (Elt F) → (⟨S1x128, .f32⟩ : BufTy).Contents (Elt F)),
    unary main_v28 main_v29 (broadcastInDim S40000x128 ![0, 1] bcast_S1x128_S40000x128_0_1 : (⟨S1x128, .f32⟩ : BufTy).Contents (Elt F) → (⟨S40000x128, .f32⟩ : BufTy).Contents (Elt F)),
    binary main_v25 main_v29 main_v30 (addf : (⟨S40000x128, .f32⟩ : BufTy).Contents (Elt F) → (⟨S40000x128, .f32⟩ : BufTy).Contents (Elt F) → (⟨S40000x128, .f32⟩ : BufTy).Contents (Elt F)) ]
theorem seg0_sub : (seg0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩
theorem seg0_fresh : (seg0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write. -/
abbrev seg0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30]
theorem seg0_writes : (seg0 : List (HloOp τ sig (Elt F))).Forall fun op => op.writes ⊆ (seg0_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- @main's operations 32 … 60 of 305, in order. -/
abbrev seg1 : List (HloOp τ sig (Elt F)) :=
  [ nullary main_c (constantI S_ 32 0#32),
    unary main_c main_v31 (broadcastInDim S640000 ![] bcast_S_S640000 : (⟨S_, .i32⟩ : BufTy).Contents (Elt F) → (⟨S640000, .i32⟩ : BufTy).Contents (Elt F)),
    binary main_v3 main_v31 main_v32 (cmpi .slt : (⟨S640000, .i32⟩ : BufTy).Contents (Elt F) → (⟨S640000, .i32⟩ : BufTy).Contents (Elt F) → (⟨S640000, .i1⟩ : BufTy).Contents (Elt F)),
    nullary main_c_0 (constantI S_ 32 40000#32),
    unary main_c_0 main_v33 (broadcastInDim S640000 ![] bcast_S_S640000 : (⟨S_, .i32⟩ : BufTy).Contents (Elt F) → (⟨S640000, .i32⟩ : BufTy).Contents (Elt F)),
    binary main_v3 main_v33 main_v34 (addi : (⟨S640000, .i32⟩ : BufTy).Contents (Elt F) → (⟨S640000, .i32⟩ : BufTy).Contents (Elt F) → (⟨S640000, .i32⟩ : BufTy).Contents (Elt F)),
    ternary main_v32 main_v34 main_v3 main_v35 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v35 main_v36 (broadcastInDim S640000x1 ![0] bcast_S640000_S640000x1_0 : (⟨S640000, .i32⟩ : BufTy).Contents (Elt F) → (⟨S640000x1, .i32⟩ : BufTy).Contents (Elt F)),
    binary main_v12 main_v36 main_v37 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    nullary main_c_1 (constantI S_ 32 0#32),
    unary main_c_1 main_v38 (broadcastInDim S640000 ![] bcast_S_S640000 : (⟨S_, .i32⟩ : BufTy).Contents (Elt F) → (⟨S640000, .i32⟩ : BufTy).Contents (Elt F)),
    binary main_v1 main_v38 main_v39 (cmpi .slt : (⟨S640000, .i32⟩ : BufTy).Contents (Elt F) → (⟨S640000, .i32⟩ : BufTy).Contents (Elt F) → (⟨S640000, .i1⟩ : BufTy).Contents (Elt F)),
    nullary main_c_2 (constantI S_ 32 40000#32),
    unary main_c_2 main_v40 (broadcastInDim S640000 ![] bcast_S_S640000 : (⟨S_, .i32⟩ : BufTy).Contents (Elt F) → (⟨S640000, .i32⟩ : BufTy).Contents (Elt F)),
    binary main_v1 main_v40 main_v41 (addi : (⟨S640000, .i32⟩ : BufTy).Contents (Elt F) → (⟨S640000, .i32⟩ : BufTy).Contents (Elt F) → (⟨S640000, .i32⟩ : BufTy).Contents (Elt F)),
    ternary main_v39 main_v41 main_v1 main_v42 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v42 main_v43 (broadcastInDim S640000x1 ![0] bcast_S640000_S640000x1_0 : (⟨S640000, .i32⟩ : BufTy).Contents (Elt F) → (⟨S640000x1, .i32⟩ : BufTy).Contents (Elt F)),
    binary main_v21 main_v43 main_v44 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    binary main_v37 main_v44 main_v45 (addf : (⟨S640000x128, .f32⟩ : BufTy).Contents (Elt F) → (⟨S640000x128, .f32⟩ : BufTy).Contents (Elt F) → (⟨S640000x128, .f32⟩ : BufTy).Contents (Elt F)),
    unary main_v45 main_v46 (Host.negf : (⟨S640000x128, .f32⟩ : BufTy).Contents (Elt F) → (⟨S640000x128, .f32⟩ : BufTy).Contents (Elt F)),
    unary main_v46 main_v47 (Host.exp : (⟨S640000x128, .f32⟩ : BufTy).Contents (Elt F) → (⟨S640000x128, .f32⟩ : BufTy).Contents (Elt F)),
    nullary main_cst (constant S_ .f32 0x3F800000#32),
    unary main_cst main_v48 (broadcastInDim S640000x128 ![] bcast_S_S640000x128 : (⟨S_, .f32⟩ : BufTy).Contents (Elt F) → (⟨S640000x128, .f32⟩ : BufTy).Contents (Elt F)),
    binary main_v48 main_v47 main_v49 (addf : (⟨S640000x128, .f32⟩ : BufTy).Contents (Elt F) → (⟨S640000x128, .f32⟩ : BufTy).Contents (Elt F) → (⟨S640000x128, .f32⟩ : BufTy).Contents (Elt F)),
    nullary main_cst_3 (constant S_ .f32 0x3F800000#32),
    unary main_cst_3 main_v50 (broadcastInDim S640000x128 ![] bcast_S_S640000x128 : (⟨S_, .f32⟩ : BufTy).Contents (Elt F) → (⟨S640000x128, .f32⟩ : BufTy).Contents (Elt F)),
    binary main_v50 main_v49 main_v51 (Host.divf : (⟨S640000x128, .f32⟩ : BufTy).Contents (Elt F) → (⟨S640000x128, .f32⟩ : BufTy).Contents (Elt F) → (⟨S640000x128, .f32⟩ : BufTy).Contents (Elt F)),
    nullary main_c_4 (constantI S_ 32 0#32),
    unary main_c_4 main_v52 (broadcastInDim S640000 ![] bcast_S_S640000 : (⟨S_, .i32⟩ : BufTy).Contents (Elt F) → (⟨S640000, .i32⟩ : BufTy).Contents (Elt F)) ]
theorem seg1_sub : (seg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub ..⟩
theorem seg1_fresh : (seg1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write. -/
abbrev seg1_W : List (Ref sig .tc) := [main_c, main_v31, main_v32, main_c_0, main_v33, main_v34, main_v35, main_v36, main_v37, main_c_1, main_v38, main_v39, main_c_2, main_v40, main_v41, main_v42, main_v43, main_v44, main_v45, main_v46, main_v47, main_cst, main_v48, main_v49, main_cst_3, main_v50, main_v51, main_c_4, main_v52]
theorem seg1_writes : (seg1 : List (HloOp τ sig (Elt F))).Forall fun op => op.writes ⊆ (seg1_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- @main's operations 61 … 72 of 305, in order. -/
abbrev seg2 : List (HloOp τ sig (Elt F)) :=
  [ binary main_v1 main_v52 main_v53 (cmpi .slt : (⟨S640000, .i32⟩ : BufTy).Contents (Elt F) → (⟨S640000, .i32⟩ : BufTy).Contents (Elt F) → (⟨S640000, .i1⟩ : BufTy).Contents (Elt F)),
    nullary main_c_5 (constantI S_ 32 40000#32),
    unary main_c_5 main_v54 (broadcastInDim S640000 ![] bcast_S_S640000 : (⟨S_, .i32⟩ : BufTy).Contents (Elt F) → (⟨S640000, .i32⟩ : BufTy).Contents (Elt F)),
    binary main_v1 main_v54 main_v55 (addi : (⟨S640000, .i32⟩ : BufTy).Contents (Elt F) → (⟨S640000, .i32⟩ : BufTy).Contents (Elt F) → (⟨S640000, .i32⟩ : BufTy).Contents (Elt F)),
    ternary main_v53 main_v55 main_v1 main_v56 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v56 main_v57 (broadcastInDim S640000x1 ![0] bcast_S640000_S640000x1_0 : (⟨S640000, .i32⟩ : BufTy).Contents (Elt F) → (⟨S640000x1, .i32⟩ : BufTy).Contents (Elt F)),
    binary main_v30 main_v57 main_v58 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    binary main_v51 main_v58 main_v59 (mulf : (⟨S640000x128, .f32⟩ : BufTy).Contents (Elt F) → (⟨S640000x128, .f32⟩ : BufTy).Contents (Elt F) → (⟨S640000x128, .f32⟩ : BufTy).Contents (Elt F)),
    nullary main_cst_6 (constant S_ .f32 0x00000000#32),
    unary main_cst_6 main_v60 (broadcastInDim S40000x128 ![] bcast_S_S40000x128 : (⟨S_, .f32⟩ : BufTy).Contents (Elt F) → (⟨S40000x128, .f32⟩ : BufTy).Contents (Elt F)),
    unary main_v3 main_v61 (broadcastInDim S640000x1 ![0] bcast_S640000_S640000x1_0 : (⟨S640000, .i32⟩ : BufTy).Contents (Elt F) → (⟨S640000x1, .i32⟩ : BufTy).Contents (Elt F)),
    ternary main_v60 main_v61 main_v59 main_v62 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)) ]
theorem seg2_sub : (seg2 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub ..⟩
theorem seg2_fresh : (seg2 : List (HloOp τ sig (Elt F))).Forall fun op => op.fresh = ∅ :=
  ⟨rfl, rfl, rfl, rfl, rfl, rfl, rfl, rfl, rfl, rfl, rfl, rfl⟩
/-- The buffers those operations write. -/
abbrev seg2_W : List (Ref sig .tc) := [main_v53, main_c_5, main_v54, main_v55, main_v56, main_v57, main_v58, main_v59, main_cst_6, main_v60, main_v61, main_v62]
theorem seg2_writes : (seg2 : List (HloOp τ sig (Elt F))).Forall fun op => op.writes ⊆ (seg2_W.map (Proc.devRef (τ := τ) .tc)).toFinset := by
  simp only [List.Forall]; exact ⟨by wr1, by wr1, by wr1, by wr1, by wr1, by wr1, by wr1, by wr1, by wr1, by wr1, by wr1, by wr1⟩

/-- @main's operations 73 … 90 of 305, in order. -/
abbrev seg3 : List (HloOp τ sig (Elt F)) :=
  [ unary main_arg8 main_v63 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v63 main_v64 rfl shapeCasts_S1x128x128_S128x128,
    unary main_v64 main_v65 ((transpose S128x128 [1, 0] · transposes_S128x128_S128x128_1_0) : (⟨S128x128, .f32⟩ : BufTy).Contents (Elt F) → (⟨S128x128, .f32⟩ : BufTy).Contents (Elt F)),
    binary main_arg0 main_v65 main_v66 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    binary main_v62 main_v66 main_v67 (addf : (⟨S40000x128, .f32⟩ : BufTy).Contents (Elt F) → (⟨S40000x128, .f32⟩ : BufTy).Contents (Elt F) → (⟨S40000x128, .f32⟩ : BufTy).Contents (Elt F)),
    unary main_arg9 main_v68 ((extractStridedSlice S1x128 ![0, 0] · slices_S3x128_S1x128_0_0) : (⟨S3x128, .f32⟩ : BufTy).Contents (Elt F) → (⟨S1x128, .f32⟩ : BufTy).Contents (Elt F)),
    reshape main_v68 main_v69 rfl shapeCasts_S1x128_S128,
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S40000x128 ![0, 1] bcast_S1x128_S40000x128_0_1 : (⟨S1x128, .f32⟩ : BufTy).Contents (Elt F) → (⟨S40000x128, .f32⟩ : BufTy).Contents (Elt F)),
    binary main_v67 main_v71 main_v72 (mulf : (⟨S40000x128, .f32⟩ : BufTy).Contents (Elt F) → (⟨S40000x128, .f32⟩ : BufTy).Contents (Elt F) → (⟨S40000x128, .f32⟩ : BufTy).Contents (Elt F)),
    unary main_arg10 main_v73 ((extractStridedSlice S1x128 ![0, 0] · slices_S3x128_S1x128_0_0) : (⟨S3x128, .f32⟩ : BufTy).Contents (Elt F) → (⟨S1x128, .f32⟩ : BufTy).Contents (Elt F)),
    reshape main_v73 main_v74 rfl shapeCasts_S1x128_S128,
    unary main_v74 main_v75 (broadcastInDim S1x128 ![1] bcast_S128_S1x128_1 : (⟨S128, .f32⟩ : BufTy).Contents (Elt F) → (⟨S1x128, .f32⟩ : BufTy).Contents (Elt F)),
    unary main_v75 main_v76 (broadcastInDim S40000x128 ![0, 1] bcast_S1x128_S40000x128_0_1 : (⟨S1x128, .f32⟩ : BufTy).Contents (Elt F) → (⟨S40000x128, .f32⟩ : BufTy).Contents (Elt F)),
    binary main_v72 main_v76 main_v77 (addf : (⟨S40000x128, .f32⟩ : BufTy).Contents (Elt F) → (⟨S40000x128, .f32⟩ : BufTy).Contents (Elt F) → (⟨S40000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S40000x128, .f32⟩) main_call0_v0) (broadcastInDim S40000x128 ![] bcast_S_S40000x128),
    TRef.binary (TRef.of (T := ⟨S40000x128, .f32⟩) main_v77) (TRef.of (T := ⟨S40000x128, .f32⟩) main_call0_v0) (TRef.of (T := ⟨S40000x128, .f32⟩) main_v78) maximumf ]
theorem seg3_sub : (seg3 : List (HloOp τ sig (Elt F))).Forall fun op => op.bufs ⊆ tcRefs τ sig :=
  ⟨unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem seg3_fresh : (seg3 : List (HloOp τ sig (Elt F))).Forall fun op => op.fresh = ∅ :=
  ⟨rfl, rfl, rfl, rfl, rfl, rfl, rfl, rfl, rfl, rfl, rfl, rfl, rfl, rfl, rfl, rfl, rfl, rfl⟩
/-- The buffers those operations write. -/
abbrev seg3_W : List (Ref sig .tc) := [main_v63, main_v64, main_v65, main_v66, main_v67, main_v68, main_v69, main_v70, main_v71, main_v72, main_v73, main_v74, main_v75, main_v76, main_v77, main_call0_cst, main_call0_v0, main_v78]
theorem seg3_writes : (seg3 : List (HloOp τ sig (Elt F))).Forall fun op => op.writes ⊆ (seg3_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1⟩

/-- @main's operations 91 … 101 of 305, in order. -/
abbrev seg4 : List (HloOp τ sig (Elt F)) :=
  [ binary main_v78 main_v78 main_v79 (mulf : (⟨S40000x128, .f32⟩ : BufTy).Contents (Elt F) → (⟨S40000x128, .f32⟩ : BufTy).Contents (Elt F) → (⟨S40000x128, .f32⟩ : BufTy).Contents (Elt F)),
    nullary main_cst_7 (constant S_ .f32 0x00000000#32),
    binary main_v79 main_cst_7 main_v80 ((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)),
    unary main_v80 main_v81 (broadcastInDim S40000x1 ![0] bcast_S40000_S40000x1_0 : (⟨S40000, .f32⟩ : BufTy).Contents (Elt F) → (⟨S40000x1, .f32⟩ : BufTy).Contents (Elt F)),
    unary main_v81 main_v82 (Host.sqrt : (⟨S40000x1, .f32⟩ : BufTy).Contents (Elt F) → (⟨S40000x1, .f32⟩ : BufTy).Contents (Elt F)),
    nullary main_cst_8 (constant S_ .f32 0x2B8CBCCC#32),
    unary main_cst_8 main_v83 (broadcastInDim S40000x1 ![] bcast_S_S40000x1 : (⟨S_, .f32⟩ : BufTy).Contents (Elt F) → (⟨S40000x1, .f32⟩ : BufTy).Contents (Elt F)),
    binary main_v82 main_v83 main_v84 (maximumf : (⟨S40000x1, .f32⟩ : BufTy).Contents (Elt F) → (⟨S40000x1, .f32⟩ : BufTy).Contents (Elt F) → (⟨S40000x1, .f32⟩ : BufTy).Contents (Elt F)),
    unary main_v84 main_v85 (broadcastInDim S40000x128 ![0, 1] bcast_S40000x1_S40000x128_0_1 : (⟨S40000x1, .f32⟩ : BufTy).Contents (Elt F) → (⟨S40000x128, .f32⟩ : BufTy).Contents (Elt F)),
    binary main_v78 main_v85 main_v86 (Host.divf : (⟨S40000x128, .f32⟩ : BufTy).Contents (Elt F) → (⟨S40000x128, .f32⟩ : BufTy).Contents (Elt F) → (⟨S40000x128, .f32⟩ : BufTy).Contents (Elt F)),
    binary main_arg0 main_v86 main_v87 (addf : (⟨S40000x128, .f32⟩ : BufTy).Contents (Elt F) → (⟨S40000x128, .f32⟩ : BufTy).Contents (Elt F) → (⟨S40000x128, .f32⟩ : BufTy).Contents (Elt F)) ]
theorem seg4_sub : (seg4 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub ..⟩
theorem seg4_fresh : (seg4 : List (HloOp τ sig (Elt F))).Forall fun op => op.fresh = ∅ :=
  ⟨rfl, rfl, rfl, rfl, rfl, rfl, rfl, rfl, rfl, rfl, rfl⟩
/-- The buffers those operations write. -/
abbrev seg4_W : List (Ref sig .tc) := [main_v79, main_cst_7, main_v80, main_v81, main_v82, main_cst_8, main_v83, main_v84, main_v85, main_v86, main_v87]
theorem seg4_writes : (seg4 : List (HloOp τ sig (Elt F))).Forall fun op => op.writes ⊆ (seg4_W.map (Proc.devRef (τ := τ) .tc)).toFinset := by
  simp only [List.Forall]; exact ⟨by wr1, by wr1, by wr1, by wr1, by wr1, by wr1, by wr1, by wr1, by wr1, by wr1, by wr1⟩

/-- @main's operations 102 … 122 of 305, in order. -/
abbrev seg5 : List (HloOp τ sig (Elt F)) :=
  [ unary main_arg2 main_v88 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v88 main_v89 rfl shapeCasts_S1x128x128_S128x128,
    unary main_v89 main_v90 ((transpose S128x128 [1, 0] · transposes_S128x128_S128x128_1_0) : (⟨S128x128, .f32⟩ : BufTy).Contents (Elt F) → (⟨S128x128, .f32⟩ : BufTy).Contents (Elt F)),
    binary main_v87 main_v90 main_v91 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg3 main_v92 ((extractStridedSlice S1x128 ![1, 0] · slices_S3x128_S1x128_1_0) : (⟨S3x128, .f32⟩ : BufTy).Contents (Elt F) → (⟨S1x128, .f32⟩ : BufTy).Contents (Elt F)),
    reshape main_v92 main_v93 rfl shapeCasts_S1x128_S128,
    unary main_v93 main_v94 (broadcastInDim S1x128 ![1] bcast_S128_S1x128_1 : (⟨S128, .f32⟩ : BufTy).Contents (Elt F) → (⟨S1x128, .f32⟩ : BufTy).Contents (Elt F)),
    unary main_v94 main_v95 (broadcastInDim S40000x128 ![0, 1] bcast_S1x128_S40000x128_0_1 : (⟨S1x128, .f32⟩ : BufTy).Contents (Elt F) → (⟨S40000x128, .f32⟩ : BufTy).Contents (Elt F)),
    binary main_v91 main_v95 main_v96 (addf : (⟨S40000x128, .f32⟩ : BufTy).Contents (Elt F) → (⟨S40000x128, .f32⟩ : BufTy).Contents (Elt F) → (⟨S40000x128, .f32⟩ : BufTy).Contents (Elt F)),
    unary main_arg4 main_v97 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v97 main_v98 rfl shapeCasts_S1x128x128_S128x128,
    unary main_v98 main_v99 ((transpose S128x128 [1, 0] · transposes_S128x128_S128x128_1_0) : (⟨S128x128, .f32⟩ : BufTy).Contents (Elt F) → (⟨S128x128, .f32⟩ : BufTy).Contents (Elt F)),
    binary main_v87 main_v99 main_v100 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg5 main_v101 ((extractStridedSlice S1x128 ![1, 0] · slices_S3x128_S1x128_1_0) : (⟨S3x128, .f32⟩ : BufTy).Contents (Elt F) → (⟨S1x128, .f32⟩ : BufTy).Contents (Elt F)),
    reshape main_v101 main_v102 rfl shapeCasts_S1x128_S128,
    unary main_v102 main_v103 (broadcastInDim S1x128 ![1] bcast_S128_S1x128_1 : (⟨S128, .f32⟩ : BufTy).Contents (Elt F) → (⟨S1x128, .f32⟩ : BufTy).Contents (Elt F)),
    unary main_v103 main_v104 (broadcastInDim S40000x128 ![0, 1] bcast_S1x128_S40000x128_0_1 : (⟨S1x128, .f32⟩ : BufTy).Contents (Elt F) → (⟨S40000x128, .f32⟩ : BufTy).Contents (Elt F)),
    binary main_v100 main_v104 main_v105 (addf : (⟨S40000x128, .f32⟩ : BufTy).Contents (Elt F) → (⟨S40000x128, .f32⟩ : BufTy).Contents (Elt F) → (⟨S40000x128, .f32⟩ : BufTy).Contents (Elt F)),
    unary main_arg6 main_v106 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v106 main_v107 rfl shapeCasts_S1x128x128_S128x128,
    unary main_v107 main_v108 ((transpose S128x128 [1, 0] · transposes_S128x128_S128x128_1_0) : (⟨S128x128, .f32⟩ : BufTy).Contents (Elt F) → (⟨S128x128, .f32⟩ : BufTy).Contents (Elt F)) ]
theorem seg5_sub : (seg5 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub ..⟩
theorem seg5_fresh : (seg5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- The buffers those operations write. -/
abbrev seg5_W : List (Ref sig .tc) := [main_v88, main_v89, main_v90, main_v91, main_v92, main_v93, main_v94, main_v95, main_v96, main_v97, main_v98, main_v99, main_v100, main_v101, main_v102, main_v103, main_v104, main_v105, main_v106, main_v107, main_v108]
theorem seg5_writes : (seg5 : List (HloOp τ sig (Elt F))).Forall fun op => op.writes ⊆ (seg5_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1⟩

/-- @main's operations 123 … 128 of 305, in order. -/
abbrev seg6 : List (HloOp τ sig (Elt F)) :=
  [ binary main_v87 main_v108 main_v109 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg7 main_v110 ((extractStridedSlice S1x128 ![1, 0] · slices_S3x128_S1x128_1_0) : (⟨S3x128, .f32⟩ : BufTy).Contents (Elt F) → (⟨S1x128, .f32⟩ : BufTy).Contents (Elt F)),
    reshape main_v110 main_v111 rfl shapeCasts_S1x128_S128,
    unary main_v111 main_v112 (broadcastInDim S1x128 ![1] bcast_S128_S1x128_1 : (⟨S128, .f32⟩ : BufTy).Contents (Elt F) → (⟨S1x128, .f32⟩ : BufTy).Contents (Elt F)),
    unary main_v112 main_v113 (broadcastInDim S40000x128 ![0, 1] bcast_S1x128_S40000x128_0_1 : (⟨S1x128, .f32⟩ : BufTy).Contents (Elt F) → (⟨S40000x128, .f32⟩ : BufTy).Contents (Elt F)),
    binary main_v109 main_v113 main_v114 (addf : (⟨S40000x128, .f32⟩ : BufTy).Contents (Elt F) → (⟨S40000x128, .f32⟩ : BufTy).Contents (Elt F) → (⟨S40000x128, .f32⟩ : BufTy).Contents (Elt F)) ]
theorem seg6_sub : (seg6 : List (HloOp τ sig (Elt F))).Forall fun op => op.bufs ⊆ tcRefs τ sig :=
  ⟨binary_bufs_sub .., unary_bufs_sub .., reshape_bufs_sub .., unary_bufs_sub .., unary_bufs_sub .., binary_bufs_sub ..⟩
theorem seg6_fresh : (seg6 : List (HloOp τ sig (Elt F))).Forall fun op => op.fresh = ∅ :=
  ⟨rfl, rfl, rfl, rfl, rfl, rfl⟩
/-- The buffers those operations write. -/
abbrev seg6_W : List (Ref sig .tc) := [main_v109, main_v110, main_v111, main_v112, main_v113, main_v114]
theorem seg6_writes : (seg6 : List (HloOp τ sig (Elt F))).Forall fun op => op.writes ⊆ (seg6_W.map (Proc.devRef (τ := τ) .tc)).toFinset := by
  simp only [List.Forall]; exact ⟨by wr1, by wr1, by wr1, by wr1, by wr1, by wr1⟩

/-- @main's operations 129 … 169 of 305, in order. -/
abbrev seg7 : List (HloOp τ sig (Elt F)) :=
  [ nullary main_c_9 (constantI S_ 32 0#32),
    unary main_c_9 main_v115 (broadcastInDim S640000 ![] bcast_S_S640000 : (⟨S_, .i32⟩ : BufTy).Contents (Elt F) → (⟨S640000, .i32⟩ : BufTy).Contents (Elt F)),
    binary main_v3 main_v115 main_v116 (cmpi .slt : (⟨S640000, .i32⟩ : BufTy).Contents (Elt F) → (⟨S640000, .i32⟩ : BufTy).Contents (Elt F) → (⟨S640000, .i1⟩ : BufTy).Contents (Elt F)),
    nullary main_c_10 (constantI S_ 32 40000#32),
    unary main_c_10 main_v117 (broadcastInDim S640000 ![] bcast_S_S640000 : (⟨S_, .i32⟩ : BufTy).Contents (Elt F) → (⟨S640000, .i32⟩ : BufTy).Contents (Elt F)),
    binary main_v3 main_v117 main_v118 (addi : (⟨S640000, .i32⟩ : BufTy).Contents (Elt F) → (⟨S640000, .i32⟩ : BufTy).Contents (Elt F) → (⟨S640000, .i32⟩ : BufTy).Contents (Elt F)),
    ternary main_v116 main_v118 main_v3 main_v119 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v119 main_v120 (broadcastInDim S640000x1 ![0] bcast_S640000_S640000x1_0 : (⟨S640000, .i32⟩ : BufTy).Contents (Elt F) → (⟨S640000x1, .i32⟩ : BufTy).Contents (Elt F)),
    binary main_v96 main_v120 main_v121 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    nullary main_c_11 (constantI S_ 32 0#32),
    unary main_c_11 main_v122 (broadcastInDim S640000 ![] bcast_S_S640000 : (⟨S_, .i32⟩ : BufTy).Contents (Elt F) → (⟨S640000, .i32⟩ : BufTy).Contents (Elt F)),
    binary main_v1 main_v122 main_v123 (cmpi .slt : (⟨S640000, .i32⟩ : BufTy).Contents (Elt F) → (⟨S640000, .i32⟩ : BufTy).Contents (Elt F) → (⟨S640000, .i1⟩ : BufTy).Contents (Elt F)),
    nullary main_c_12 (constantI S_ 32 40000#32),
    unary main_c_12 main_v124 (broadcastInDim S640000 ![] bcast_S_S640000 : (⟨S_, .i32⟩ : BufTy).Contents (Elt F) → (⟨S640000, .i32⟩ : BufTy).Contents (Elt F)),
    binary main_v1 main_v124 main_v125 (addi : (⟨S640000, .i32⟩ : BufTy).Contents (Elt F) → (⟨S640000, .i32⟩ : BufTy).Contents (Elt F) → (⟨S640000, .i32⟩ : BufTy).Contents (Elt F)),
    ternary main_v123 main_v125 main_v1 main_v126 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v126 main_v127 (broadcastInDim S640000x1 ![0] bcast_S640000_S640000x1_0 : (⟨S640000, .i32⟩ : BufTy).Contents (Elt F) → (⟨S640000x1, .i32⟩ : BufTy).Contents (Elt F)),
    binary main_v105 main_v127 main_v128 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    binary main_v121 main_v128 main_v129 (addf : (⟨S640000x128, .f32⟩ : BufTy).Contents (Elt F) → (⟨S640000x128, .f32⟩ : BufTy).Contents (Elt F) → (⟨S640000x128, .f32⟩ : BufTy).Contents (Elt F)),
    unary main_v129 main_v130 (Host.negf : (⟨S640000x128, .f32⟩ : BufTy).Contents (Elt F) → (⟨S640000x128, .f32⟩ : BufTy).Contents (Elt F)),
    unary main_v130 main_v131 (Host.exp : (⟨S640000x128, .f32⟩ : BufTy).Contents (Elt F) → (⟨S640000x128, .f32⟩ : BufTy).Contents (Elt F)),
    nullary main_cst_13 (constant S_ .f32 0x3F800000#32),
    unary main_cst_13 main_v132 (broadcastInDim S640000x128 ![] bcast_S_S640000x128 : (⟨S_, .f32⟩ : BufTy).Contents (Elt F) → (⟨S640000x128, .f32⟩ : BufTy).Contents (Elt F)),
    binary main_v132 main_v131 main_v133 (addf : (⟨S640000x128, .f32⟩ : BufTy).Contents (Elt F) → (⟨S640000x128, .f32⟩ : BufTy).Contents (Elt F) → (⟨S640000x128, .f32⟩ : BufTy).Contents (Elt F)),
    nullary main_cst_14 (constant S_ .f32 0x3F800000#32),
    unary main_cst_14 main_v134 (broadcastInDim S640000x128 ![] bcast_S_S640000x128 : (⟨S_, .f32⟩ : BufTy).Contents (Elt F) → (⟨S640000x128, .f32⟩ : BufTy).Contents (Elt F)),
    binary main_v134 main_v133 main_v135 (Host.divf : (⟨S640000x128, .f32⟩ : BufTy).Contents (Elt F) → (⟨S640000x128, .f32⟩ : BufTy).Contents (Elt F) → (⟨S640000x128, .f32⟩ : BufTy).Contents (Elt F)),
    nullary main_c_15 (constantI S_ 32 0#32),
    unary main_c_15 main_v136 (broadcastInDim S640000 ![] bcast_S_S640000 : (⟨S_, .i32⟩ : BufTy).Contents (Elt F) → (⟨S640000, .i32⟩ : BufTy).Contents (Elt F)),
    binary main_v1 main_v136 main_v137 (cmpi .slt : (⟨S640000, .i32⟩ : BufTy).Contents (Elt F) → (⟨S640000, .i32⟩ : BufTy).Contents (Elt F) → (⟨S640000, .i1⟩ : BufTy).Contents (Elt F)),
    nullary main_c_16 (constantI S_ 32 40000#32),
    unary main_c_16 main_v138 (broadcastInDim S640000 ![] bcast_S_S640000 : (⟨S_, .i32⟩ : BufTy).Contents (Elt F) → (⟨S640000, .i32⟩ : BufTy).Contents (Elt F)),
    binary main_v1 main_v138 main_v139 (addi : (⟨S640000, .i32⟩ : BufTy).Contents (Elt F) → (⟨S640000, .i32⟩ : BufTy).Contents (Elt F) → (⟨S640000, .i32⟩ : BufTy).Contents (Elt F)),
    ternary main_v137 main_v139 main_v1 main_v140 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v140 main_v141 (broadcastInDim S640000x1 ![0] bcast_S640000_S640000x1_0 : (⟨S640000, .i32⟩ : BufTy).Contents (Elt F) → (⟨S640000x1, .i32⟩ : BufTy).Contents (Elt F)),
    binary main_v114 main_v141 main_v142 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    binary main_v135 main_v142 main_v143 (mulf : (⟨S640000x128, .f32⟩ : BufTy).Contents (Elt F) → (⟨S640000x128, .f32⟩ : BufTy).Contents (Elt F) → (⟨S640000x128, .f32⟩ : BufTy).Contents (Elt F)),
    nullary main_cst_17 (constant S_ .f32 0x00000000#32),
    unary main_cst_17 main_v144 (broadcastInDim S40000x128 ![] bcast_S_S40000x128 : (⟨S_, .f32⟩ : BufTy).Contents (Elt F) → (⟨S40000x128, .f32⟩ : BufTy).Contents (Elt F)),
    unary main_v3 main_v145 (broadcastInDim S640000x1 ![0] bcast_S640000_S640000x1_0 : (⟨S640000, .i32⟩ : BufTy).Contents (Elt F) → (⟨S640000x1, .i32⟩ : BufTy).Contents (Elt F)),
    ternary main_v144 main_v145 main_v143 main_v146 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)) ]
theorem seg7_sub : (seg7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub ..⟩
theorem seg7_fresh : (seg7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write. -/
abbrev seg7_W : List (Ref sig .tc) := [main_c_9, main_v115, main_v116, main_c_10, main_v117, main_v118, main_v119, main_v120, main_v121, main_c_11, main_v122, main_v123, main_c_12, main_v124, main_v125, main_v126, main_v127, main_v128, main_v129, main_v130, main_v131, main_cst_13, main_v132, main_v133, main_cst_14, main_v134, main_v135, main_c_15, main_v136, main_v137, main_c_16, main_v138, main_v139, main_v140, main_v141, main_v142, main_v143, main_cst_17, main_v144, main_v145, main_v146]
theorem seg7_writes : (seg7 : List (HloOp τ sig (Elt F))).Forall fun op => op.writes ⊆ (seg7_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- @main's operations 170 … 182 of 305, in order. -/
abbrev seg8 : List (HloOp τ sig (Elt F)) :=
  [ unary main_arg8 main_v147 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v147 main_v148 rfl shapeCasts_S1x128x128_S128x128,
    unary main_v148 main_v149 ((transpose S128x128 [1, 0] · transposes_S128x128_S128x128_1_0) : (⟨S128x128, .f32⟩ : BufTy).Contents (Elt F) → (⟨S128x128, .f32⟩ : BufTy).Contents (Elt F)),
    binary main_v87 main_v149 main_v150 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    binary main_v146 main_v150 main_v151 (addf : (⟨S40000x128, .f32⟩ : BufTy).Contents (Elt F) → (⟨S40000x128, .f32⟩ : BufTy).Contents (Elt F) → (⟨S40000x128, .f32⟩ : BufTy).Contents (Elt F)),
    unary main_arg9 main_v152 ((extractStridedSlice S1x128 ![1, 0] · slices_S3x128_S1x128_1_0) : (⟨S3x128, .f32⟩ : BufTy).Contents (Elt F) → (⟨S1x128, .f32⟩ : BufTy).Contents (Elt F)),
    reshape main_v152 main_v153 rfl shapeCasts_S1x128_S128,
    unary main_v153 main_v154 (broadcastInDim S1x128 ![1] bcast_S128_S1x128_1 : (⟨S128, .f32⟩ : BufTy).Contents (Elt F) → (⟨S1x128, .f32⟩ : BufTy).Contents (Elt F)),
    unary main_v154 main_v155 (broadcastInDim S40000x128 ![0, 1] bcast_S1x128_S40000x128_0_1 : (⟨S1x128, .f32⟩ : BufTy).Contents (Elt F) → (⟨S40000x128, .f32⟩ : BufTy).Contents (Elt F)),
    binary main_v151 main_v155 main_v156 (mulf : (⟨S40000x128, .f32⟩ : BufTy).Contents (Elt F) → (⟨S40000x128, .f32⟩ : BufTy).Contents (Elt F) → (⟨S40000x128, .f32⟩ : BufTy).Contents (Elt F)),
    unary main_arg10 main_v157 ((extractStridedSlice S1x128 ![1, 0] · slices_S3x128_S1x128_1_0) : (⟨S3x128, .f32⟩ : BufTy).Contents (Elt F) → (⟨S1x128, .f32⟩ : BufTy).Contents (Elt F)),
    reshape main_v157 main_v158 rfl shapeCasts_S1x128_S128,
    unary main_v158 main_v159 (broadcastInDim S1x128 ![1] bcast_S128_S1x128_1 : (⟨S128, .f32⟩ : BufTy).Contents (Elt F) → (⟨S1x128, .f32⟩ : BufTy).Contents (Elt F)) ]
theorem seg8_sub : (seg8 : List (HloOp τ sig (Elt F))).Forall fun op => op.bufs ⊆ tcRefs τ sig :=
  ⟨unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub ..⟩
theorem seg8_fresh : (seg8 : List (HloOp τ sig (Elt F))).Forall fun op => op.fresh = ∅ :=
  ⟨rfl, rfl, rfl, rfl, rfl, rfl, rfl, rfl, rfl, rfl, rfl, rfl, rfl⟩
/-- The buffers those operations write. -/
abbrev seg8_W : List (Ref sig .tc) := [main_v147, main_v148, main_v149, main_v150, main_v151, main_v152, main_v153, main_v154, main_v155, main_v156, main_v157, main_v158, main_v159]
theorem seg8_writes : (seg8 : List (HloOp τ sig (Elt F))).Forall fun op => op.writes ⊆ (seg8_W.map (Proc.devRef (τ := τ) .tc)).toFinset := by
  simp only [List.Forall]; exact ⟨by wr1, by wr1, by wr1, by wr1, by wr1, by wr1, by wr1, by wr1, by wr1, by wr1, by wr1, by wr1, by wr1⟩

/-- @main's operations 183 … 187 of 305, in order. -/
abbrev seg9 : List (HloOp τ sig (Elt F)) :=
  [ unary main_v159 main_v160 (broadcastInDim S40000x128 ![0, 1] bcast_S1x128_S40000x128_0_1 : (⟨S1x128, .f32⟩ : BufTy).Contents (Elt F) → (⟨S40000x128, .f32⟩ : BufTy).Contents (Elt F)),
    binary main_v156 main_v160 main_v161 (addf : (⟨S40000x128, .f32⟩ : BufTy).Contents (Elt F) → (⟨S40000x128, .f32⟩ : BufTy).Contents (Elt F) → (⟨S40000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S40000x128, .f32⟩) main_call1_v0) (broadcastInDim S40000x128 ![] bcast_S_S40000x128),
    TRef.binary (TRef.of (T := ⟨S40000x128, .f32⟩) main_v161) (TRef.of (T := ⟨S40000x128, .f32⟩) main_call1_v0) (TRef.of (T := ⟨S40000x128, .f32⟩) main_v162) maximumf ]
theorem seg9_sub : (seg9 : List (HloOp τ sig (Elt F))).Forall fun op => op.bufs ⊆ tcRefs τ sig :=
  ⟨unary_bufs_sub .., binary_bufs_sub .., nullary_bufs_sub .., unary_bufs_sub .., binary_bufs_sub ..⟩
theorem seg9_fresh : (seg9 : List (HloOp τ sig (Elt F))).Forall fun op => op.fresh = ∅ :=
  ⟨rfl, rfl, rfl, rfl, rfl⟩
/-- The buffers those operations write. -/
abbrev seg9_W : List (Ref sig .tc) := [main_v160, main_v161, main_call1_cst, main_call1_v0, main_v162]
theorem seg9_writes : (seg9 : List (HloOp τ sig (Elt F))).Forall fun op => op.writes ⊆ (seg9_W.map (Proc.devRef (τ := τ) .tc)).toFinset := by
  simp only [List.Forall]; exact ⟨by wr1, by wr1, by wr1, by wr1, by wr1⟩

/-- @main's operations 188 … 198 of 305, in order. -/
abbrev seg10 : List (HloOp τ sig (Elt F)) :=
  [ binary main_v162 main_v162 main_v163 (mulf : (⟨S40000x128, .f32⟩ : BufTy).Contents (Elt F) → (⟨S40000x128, .f32⟩ : BufTy).Contents (Elt F) → (⟨S40000x128, .f32⟩ : BufTy).Contents (Elt F)),
    nullary main_cst_18 (constant S_ .f32 0x00000000#32),
    binary main_v163 main_cst_18 main_v164 ((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)),
    unary main_v164 main_v165 (broadcastInDim S40000x1 ![0] bcast_S40000_S40000x1_0 : (⟨S40000, .f32⟩ : BufTy).Contents (Elt F) → (⟨S40000x1, .f32⟩ : BufTy).Contents (Elt F)),
    unary main_v165 main_v166 (Host.sqrt : (⟨S40000x1, .f32⟩ : BufTy).Contents (Elt F) → (⟨S40000x1, .f32⟩ : BufTy).Contents (Elt F)),
    nullary main_cst_19 (constant S_ .f32 0x2B8CBCCC#32),
    unary main_cst_19 main_v167 (broadcastInDim S40000x1 ![] bcast_S_S40000x1 : (⟨S_, .f32⟩ : BufTy).Contents (Elt F) → (⟨S40000x1, .f32⟩ : BufTy).Contents (Elt F)),
    binary main_v166 main_v167 main_v168 (maximumf : (⟨S40000x1, .f32⟩ : BufTy).Contents (Elt F) → (⟨S40000x1, .f32⟩ : BufTy).Contents (Elt F) → (⟨S40000x1, .f32⟩ : BufTy).Contents (Elt F)),
    unary main_v168 main_v169 (broadcastInDim S40000x128 ![0, 1] bcast_S40000x1_S40000x128_0_1 : (⟨S40000x1, .f32⟩ : BufTy).Contents (Elt F) → (⟨S40000x128, .f32⟩ : BufTy).Contents (Elt F)),
    binary main_v162 main_v169 main_v170 (Host.divf : (⟨S40000x128, .f32⟩ : BufTy).Contents (Elt F) → (⟨S40000x128, .f32⟩ : BufTy).Contents (Elt F) → (⟨S40000x128, .f32⟩ : BufTy).Contents (Elt F)),
    binary main_v87 main_v170 main_v171 (addf : (⟨S40000x128, .f32⟩ : BufTy).Contents (Elt F) → (⟨S40000x128, .f32⟩ : BufTy).Contents (Elt F) → (⟨S40000x128, .f32⟩ : BufTy).Contents (Elt F)) ]
theorem seg10_sub : (seg10 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub ..⟩
theorem seg10_fresh : (seg10 : List (HloOp τ sig (Elt F))).Forall fun op => op.fresh = ∅ :=
  ⟨rfl, rfl, rfl, rfl, rfl, rfl, rfl, rfl, rfl, rfl, rfl⟩
/-- The buffers those operations write. -/
abbrev seg10_W : List (Ref sig .tc) := [main_v163, main_cst_18, main_v164, main_v165, main_v166, main_cst_19, main_v167, main_v168, main_v169, main_v170, main_v171]
theorem seg10_writes : (seg10 : List (HloOp τ sig (Elt F))).Forall fun op => op.writes ⊆ (seg10_W.map (Proc.devRef (τ := τ) .tc)).toFinset := by
  simp only [List.Forall]; exact ⟨by wr1, by wr1, by wr1, by wr1, by wr1, by wr1, by wr1, by wr1, by wr1, by wr1, by wr1⟩

/-- @main's operations 199 … 225 of 305, in order. -/
abbrev seg11 : List (HloOp τ sig (Elt F)) :=
  [ unary main_arg2 main_v172 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v172 main_v173 rfl shapeCasts_S1x128x128_S128x128,
    unary main_v173 main_v174 ((transpose S128x128 [1, 0] · transposes_S128x128_S128x128_1_0) : (⟨S128x128, .f32⟩ : BufTy).Contents (Elt F) → (⟨S128x128, .f32⟩ : BufTy).Contents (Elt F)),
    binary main_v171 main_v174 main_v175 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg3 main_v176 ((extractStridedSlice S1x128 ![2, 0] · slices_S3x128_S1x128_2_0) : (⟨S3x128, .f32⟩ : BufTy).Contents (Elt F) → (⟨S1x128, .f32⟩ : BufTy).Contents (Elt F)),
    reshape main_v176 main_v177 rfl shapeCasts_S1x128_S128,
    unary main_v177 main_v178 (broadcastInDim S1x128 ![1] bcast_S128_S1x128_1 : (⟨S128, .f32⟩ : BufTy).Contents (Elt F) → (⟨S1x128, .f32⟩ : BufTy).Contents (Elt F)),
    unary main_v178 main_v179 (broadcastInDim S40000x128 ![0, 1] bcast_S1x128_S40000x128_0_1 : (⟨S1x128, .f32⟩ : BufTy).Contents (Elt F) → (⟨S40000x128, .f32⟩ : BufTy).Contents (Elt F)),
    binary main_v175 main_v179 main_v180 (addf : (⟨S40000x128, .f32⟩ : BufTy).Contents (Elt F) → (⟨S40000x128, .f32⟩ : BufTy).Contents (Elt F) → (⟨S40000x128, .f32⟩ : BufTy).Contents (Elt F)),
    unary main_arg4 main_v181 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v181 main_v182 rfl shapeCasts_S1x128x128_S128x128,
    unary main_v182 main_v183 ((transpose S128x128 [1, 0] · transposes_S128x128_S128x128_1_0) : (⟨S128x128, .f32⟩ : BufTy).Contents (Elt F) → (⟨S128x128, .f32⟩ : BufTy).Contents (Elt F)),
    binary main_v171 main_v183 main_v184 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg5 main_v185 ((extractStridedSlice S1x128 ![2, 0] · slices_S3x128_S1x128_2_0) : (⟨S3x128, .f32⟩ : BufTy).Contents (Elt F) → (⟨S1x128, .f32⟩ : BufTy).Contents (Elt F)),
    reshape main_v185 main_v186 rfl shapeCasts_S1x128_S128,
    unary main_v186 main_v187 (broadcastInDim S1x128 ![1] bcast_S128_S1x128_1 : (⟨S128, .f32⟩ : BufTy).Contents (Elt F) → (⟨S1x128, .f32⟩ : BufTy).Contents (Elt F)),
    unary main_v187 main_v188 (broadcastInDim S40000x128 ![0, 1] bcast_S1x128_S40000x128_0_1 : (⟨S1x128, .f32⟩ : BufTy).Contents (Elt F) → (⟨S40000x128, .f32⟩ : BufTy).Contents (Elt F)),
    binary main_v184 main_v188 main_v189 (addf : (⟨S40000x128, .f32⟩ : BufTy).Contents (Elt F) → (⟨S40000x128, .f32⟩ : BufTy).Contents (Elt F) → (⟨S40000x128, .f32⟩ : BufTy).Contents (Elt F)),
    unary main_arg6 main_v190 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v190 main_v191 rfl shapeCasts_S1x128x128_S128x128,
    unary main_v191 main_v192 ((transpose S128x128 [1, 0] · transposes_S128x128_S128x128_1_0) : (⟨S128x128, .f32⟩ : BufTy).Contents (Elt F) → (⟨S128x128, .f32⟩ : BufTy).Contents (Elt F)),
    binary main_v171 main_v192 main_v193 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg7 main_v194 ((extractStridedSlice S1x128 ![2, 0] · slices_S3x128_S1x128_2_0) : (⟨S3x128, .f32⟩ : BufTy).Contents (Elt F) → (⟨S1x128, .f32⟩ : BufTy).Contents (Elt F)),
    reshape main_v194 main_v195 rfl shapeCasts_S1x128_S128,
    unary main_v195 main_v196 (broadcastInDim S1x128 ![1] bcast_S128_S1x128_1 : (⟨S128, .f32⟩ : BufTy).Contents (Elt F) → (⟨S1x128, .f32⟩ : BufTy).Contents (Elt F)),
    unary main_v196 main_v197 (broadcastInDim S40000x128 ![0, 1] bcast_S1x128_S40000x128_0_1 : (⟨S1x128, .f32⟩ : BufTy).Contents (Elt F) → (⟨S40000x128, .f32⟩ : BufTy).Contents (Elt F)),
    binary main_v193 main_v197 main_v198 (addf : (⟨S40000x128, .f32⟩ : BufTy).Contents (Elt F) → (⟨S40000x128, .f32⟩ : BufTy).Contents (Elt F) → (⟨S40000x128, .f32⟩ : BufTy).Contents (Elt F)) ]
theorem seg11_sub : (seg11 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩
theorem seg11_fresh : (seg11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- The buffers those operations write. -/
abbrev seg11_W : List (Ref sig .tc) := [main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198]
theorem seg11_writes : (seg11 : List (HloOp τ sig (Elt F))).Forall fun op => op.writes ⊆ (seg11_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- @main's operations 226 … 244 of 305, in order. -/
abbrev seg12 : List (HloOp τ sig (Elt F)) :=
  [ nullary main_c_20 (constantI S_ 32 0#32),
    unary main_c_20 main_v199 (broadcastInDim S640000 ![] bcast_S_S640000 : (⟨S_, .i32⟩ : BufTy).Contents (Elt F) → (⟨S640000, .i32⟩ : BufTy).Contents (Elt F)),
    binary main_v3 main_v199 main_v200 (cmpi .slt : (⟨S640000, .i32⟩ : BufTy).Contents (Elt F) → (⟨S640000, .i32⟩ : BufTy).Contents (Elt F) → (⟨S640000, .i1⟩ : BufTy).Contents (Elt F)),
    nullary main_c_21 (constantI S_ 32 40000#32),
    unary main_c_21 main_v201 (broadcastInDim S640000 ![] bcast_S_S640000 : (⟨S_, .i32⟩ : BufTy).Contents (Elt F) → (⟨S640000, .i32⟩ : BufTy).Contents (Elt F)),
    binary main_v3 main_v201 main_v202 (addi : (⟨S640000, .i32⟩ : BufTy).Contents (Elt F) → (⟨S640000, .i32⟩ : BufTy).Contents (Elt F) → (⟨S640000, .i32⟩ : BufTy).Contents (Elt F)),
    ternary main_v200 main_v202 main_v3 main_v203 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v203 main_v204 (broadcastInDim S640000x1 ![0] bcast_S640000_S640000x1_0 : (⟨S640000, .i32⟩ : BufTy).Contents (Elt F) → (⟨S640000x1, .i32⟩ : BufTy).Contents (Elt F)),
    binary main_v180 main_v204 main_v205 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    nullary main_c_22 (constantI S_ 32 0#32),
    unary main_c_22 main_v206 (broadcastInDim S640000 ![] bcast_S_S640000 : (⟨S_, .i32⟩ : BufTy).Contents (Elt F) → (⟨S640000, .i32⟩ : BufTy).Contents (Elt F)),
    binary main_v1 main_v206 main_v207 (cmpi .slt : (⟨S640000, .i32⟩ : BufTy).Contents (Elt F) → (⟨S640000, .i32⟩ : BufTy).Contents (Elt F) → (⟨S640000, .i1⟩ : BufTy).Contents (Elt F)),
    nullary main_c_23 (constantI S_ 32 40000#32),
    unary main_c_23 main_v208 (broadcastInDim S640000 ![] bcast_S_S640000 : (⟨S_, .i32⟩ : BufTy).Contents (Elt F) → (⟨S640000, .i32⟩ : BufTy).Contents (Elt F)),
    binary main_v1 main_v208 main_v209 (addi : (⟨S640000, .i32⟩ : BufTy).Contents (Elt F) → (⟨S640000, .i32⟩ : BufTy).Contents (Elt F) → (⟨S640000, .i32⟩ : BufTy).Contents (Elt F)),
    ternary main_v207 main_v209 main_v1 main_v210 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v210 main_v211 (broadcastInDim S640000x1 ![0] bcast_S640000_S640000x1_0 : (⟨S640000, .i32⟩ : BufTy).Contents (Elt F) → (⟨S640000x1, .i32⟩ : BufTy).Contents (Elt F)),
    binary main_v189 main_v211 main_v212 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    binary main_v205 main_v212 main_v213 (addf : (⟨S640000x128, .f32⟩ : BufTy).Contents (Elt F) → (⟨S640000x128, .f32⟩ : BufTy).Contents (Elt F) → (⟨S640000x128, .f32⟩ : BufTy).Contents (Elt F)) ]
theorem seg12_sub : (seg12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem seg12_fresh : (seg12 : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The buffers those operations write. -/
abbrev seg12_W : List (Ref sig .tc) := [main_c_20, main_v199, main_v200, main_c_21, main_v201, main_v202, main_v203, main_v204, main_v205, main_c_22, main_v206, main_v207, main_c_23, main_v208, main_v209, main_v210, main_v211, main_v212, main_v213]
theorem seg12_writes : (seg12 : List (HloOp τ sig (Elt F))).Forall fun op => op.writes ⊆ (seg12_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1⟩

/-- @main's operations 245 … 266 of 305, in order. -/
abbrev seg13 : List (HloOp τ sig (Elt F)) :=
  [ unary main_v213 main_v214 (Host.negf : (⟨S640000x128, .f32⟩ : BufTy).Contents (Elt F) → (⟨S640000x128, .f32⟩ : BufTy).Contents (Elt F)),
    unary main_v214 main_v215 (Host.exp : (⟨S640000x128, .f32⟩ : BufTy).Contents (Elt F) → (⟨S640000x128, .f32⟩ : BufTy).Contents (Elt F)),
    nullary main_cst_24 (constant S_ .f32 0x3F800000#32),
    unary main_cst_24 main_v216 (broadcastInDim S640000x128 ![] bcast_S_S640000x128 : (⟨S_, .f32⟩ : BufTy).Contents (Elt F) → (⟨S640000x128, .f32⟩ : BufTy).Contents (Elt F)),
    binary main_v216 main_v215 main_v217 (addf : (⟨S640000x128, .f32⟩ : BufTy).Contents (Elt F) → (⟨S640000x128, .f32⟩ : BufTy).Contents (Elt F) → (⟨S640000x128, .f32⟩ : BufTy).Contents (Elt F)),
    nullary main_cst_25 (constant S_ .f32 0x3F800000#32),
    unary main_cst_25 main_v218 (broadcastInDim S640000x128 ![] bcast_S_S640000x128 : (⟨S_, .f32⟩ : BufTy).Contents (Elt F) → (⟨S640000x128, .f32⟩ : BufTy).Contents (Elt F)),
    binary main_v218 main_v217 main_v219 (Host.divf : (⟨S640000x128, .f32⟩ : BufTy).Contents (Elt F) → (⟨S640000x128, .f32⟩ : BufTy).Contents (Elt F) → (⟨S640000x128, .f32⟩ : BufTy).Contents (Elt F)),
    nullary main_c_26 (constantI S_ 32 0#32),
    unary main_c_26 main_v220 (broadcastInDim S640000 ![] bcast_S_S640000 : (⟨S_, .i32⟩ : BufTy).Contents (Elt F) → (⟨S640000, .i32⟩ : BufTy).Contents (Elt F)),
    binary main_v1 main_v220 main_v221 (cmpi .slt : (⟨S640000, .i32⟩ : BufTy).Contents (Elt F) → (⟨S640000, .i32⟩ : BufTy).Contents (Elt F) → (⟨S640000, .i1⟩ : BufTy).Contents (Elt F)),
    nullary main_c_27 (constantI S_ 32 40000#32),
    unary main_c_27 main_v222 (broadcastInDim S640000 ![] bcast_S_S640000 : (⟨S_, .i32⟩ : BufTy).Contents (Elt F) → (⟨S640000, .i32⟩ : BufTy).Contents (Elt F)),
    binary main_v1 main_v222 main_v223 (addi : (⟨S640000, .i32⟩ : BufTy).Contents (Elt F) → (⟨S640000, .i32⟩ : BufTy).Contents (Elt F) → (⟨S640000, .i32⟩ : BufTy).Contents (Elt F)),
    ternary main_v221 main_v223 main_v1 main_v224 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v224 main_v225 (broadcastInDim S640000x1 ![0] bcast_S640000_S640000x1_0 : (⟨S640000, .i32⟩ : BufTy).Contents (Elt F) → (⟨S640000x1, .i32⟩ : BufTy).Contents (Elt F)),
    binary main_v198 main_v225 main_v226 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    binary main_v219 main_v226 main_v227 (mulf : (⟨S640000x128, .f32⟩ : BufTy).Contents (Elt F) → (⟨S640000x128, .f32⟩ : BufTy).Contents (Elt F) → (⟨S640000x128, .f32⟩ : BufTy).Contents (Elt F)),
    nullary main_cst_28 (constant S_ .f32 0x00000000#32),
    unary main_cst_28 main_v228 (broadcastInDim S40000x128 ![] bcast_S_S40000x128 : (⟨S_, .f32⟩ : BufTy).Contents (Elt F) → (⟨S40000x128, .f32⟩ : BufTy).Contents (Elt F)),
    unary main_v3 main_v229 (broadcastInDim S640000x1 ![0] bcast_S640000_S640000x1_0 : (⟨S640000, .i32⟩ : BufTy).Contents (Elt F) → (⟨S640000x1, .i32⟩ : BufTy).Contents (Elt F)),
    ternary main_v228 main_v229 main_v227 main_v230 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)) ]
theorem seg13_sub : (seg13 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub ..⟩
theorem seg13_fresh : (seg13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers those operations write. -/
abbrev seg13_W : List (Ref sig .tc) := [main_v214, main_v215, main_cst_24, main_v216, main_v217, main_cst_25, main_v218, main_v219, main_c_26, main_v220, main_v221, main_c_27, main_v222, main_v223, main_v224, main_v225, main_v226, main_v227, main_cst_28, main_v228, main_v229, main_v230]
theorem seg13_writes : (seg13 : List (HloOp τ sig (Elt F))).Forall fun op => op.writes ⊆ (seg13_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1⟩

/-- @main's operations 267 … 284 of 305, in order. -/
abbrev seg14 : List (HloOp τ sig (Elt F)) :=
  [ unary main_arg8 main_v231 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v231 main_v232 rfl shapeCasts_S1x128x128_S128x128,
    unary main_v232 main_v233 ((transpose S128x128 [1, 0] · transposes_S128x128_S128x128_1_0) : (⟨S128x128, .f32⟩ : BufTy).Contents (Elt F) → (⟨S128x128, .f32⟩ : BufTy).Contents (Elt F)),
    binary main_v171 main_v233 main_v234 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    binary main_v230 main_v234 main_v235 (addf : (⟨S40000x128, .f32⟩ : BufTy).Contents (Elt F) → (⟨S40000x128, .f32⟩ : BufTy).Contents (Elt F) → (⟨S40000x128, .f32⟩ : BufTy).Contents (Elt F)),
    unary main_arg9 main_v236 ((extractStridedSlice S1x128 ![2, 0] · slices_S3x128_S1x128_2_0) : (⟨S3x128, .f32⟩ : BufTy).Contents (Elt F) → (⟨S1x128, .f32⟩ : BufTy).Contents (Elt F)),
    reshape main_v236 main_v237 rfl shapeCasts_S1x128_S128,
    unary main_v237 main_v238 (broadcastInDim S1x128 ![1] bcast_S128_S1x128_1 : (⟨S128, .f32⟩ : BufTy).Contents (Elt F) → (⟨S1x128, .f32⟩ : BufTy).Contents (Elt F)),
    unary main_v238 main_v239 (broadcastInDim S40000x128 ![0, 1] bcast_S1x128_S40000x128_0_1 : (⟨S1x128, .f32⟩ : BufTy).Contents (Elt F) → (⟨S40000x128, .f32⟩ : BufTy).Contents (Elt F)),
    binary main_v235 main_v239 main_v240 (mulf : (⟨S40000x128, .f32⟩ : BufTy).Contents (Elt F) → (⟨S40000x128, .f32⟩ : BufTy).Contents (Elt F) → (⟨S40000x128, .f32⟩ : BufTy).Contents (Elt F)),
    unary main_arg10 main_v241 ((extractStridedSlice S1x128 ![2, 0] · slices_S3x128_S1x128_2_0) : (⟨S3x128, .f32⟩ : BufTy).Contents (Elt F) → (⟨S1x128, .f32⟩ : BufTy).Contents (Elt F)),
    reshape main_v241 main_v242 rfl shapeCasts_S1x128_S128,
    unary main_v242 main_v243 (broadcastInDim S1x128 ![1] bcast_S128_S1x128_1 : (⟨S128, .f32⟩ : BufTy).Contents (Elt F) → (⟨S1x128, .f32⟩ : BufTy).Contents (Elt F)),
    unary main_v243 main_v244 (broadcastInDim S40000x128 ![0, 1] bcast_S1x128_S40000x128_0_1 : (⟨S1x128, .f32⟩ : BufTy).Contents (Elt F) → (⟨S40000x128, .f32⟩ : BufTy).Contents (Elt F)),
    binary main_v240 main_v244 main_v245 (addf : (⟨S40000x128, .f32⟩ : BufTy).Contents (Elt F) → (⟨S40000x128, .f32⟩ : BufTy).Contents (Elt F) → (⟨S40000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S40000x128, .f32⟩) main_call2_v0) (broadcastInDim S40000x128 ![] bcast_S_S40000x128),
    TRef.binary (TRef.of (T := ⟨S40000x128, .f32⟩) main_v245) (TRef.of (T := ⟨S40000x128, .f32⟩) main_call2_v0) (TRef.of (T := ⟨S40000x128, .f32⟩) main_v246) maximumf ]
theorem seg14_sub : (seg14 : List (HloOp τ sig (Elt F))).Forall fun op => op.bufs ⊆ tcRefs τ sig :=
  ⟨unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem seg14_fresh : (seg14 : List (HloOp τ sig (Elt F))).Forall fun op => op.fresh = ∅ :=
  ⟨rfl, rfl, rfl, rfl, rfl, rfl, rfl, rfl, rfl, rfl, rfl, rfl, rfl, rfl, rfl, rfl, rfl, rfl⟩
/-- The buffers those operations write. -/
abbrev seg14_W : List (Ref sig .tc) := [main_v231, main_v232, main_v233, main_v234, main_v235, main_v236, main_v237, main_v238, main_v239, main_v240, main_v241, main_v242, main_v243, main_v244, main_v245, main_call2_cst, main_call2_v0, main_v246]
theorem seg14_writes : (seg14 : List (HloOp τ sig (Elt F))).Forall fun op => op.writes ⊆ (seg14_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1⟩

/-- @main's operations 285 … 295 of 305, in order. -/
abbrev seg15 : List (HloOp τ sig (Elt F)) :=
  [ binary main_v246 main_v246 main_v247 (mulf : (⟨S40000x128, .f32⟩ : BufTy).Contents (Elt F) → (⟨S40000x128, .f32⟩ : BufTy).Contents (Elt F) → (⟨S40000x128, .f32⟩ : BufTy).Contents (Elt F)),
    nullary main_cst_29 (constant S_ .f32 0x00000000#32),
    binary main_v247 main_cst_29 main_v248 ((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)),
    unary main_v248 main_v249 (broadcastInDim S40000x1 ![0] bcast_S40000_S40000x1_0 : (⟨S40000, .f32⟩ : BufTy).Contents (Elt F) → (⟨S40000x1, .f32⟩ : BufTy).Contents (Elt F)),
    unary main_v249 main_v250 (Host.sqrt : (⟨S40000x1, .f32⟩ : BufTy).Contents (Elt F) → (⟨S40000x1, .f32⟩ : BufTy).Contents (Elt F)),
    nullary main_cst_30 (constant S_ .f32 0x2B8CBCCC#32),
    unary main_cst_30 main_v251 (broadcastInDim S40000x1 ![] bcast_S_S40000x1 : (⟨S_, .f32⟩ : BufTy).Contents (Elt F) → (⟨S40000x1, .f32⟩ : BufTy).Contents (Elt F)),
    binary main_v250 main_v251 main_v252 (maximumf : (⟨S40000x1, .f32⟩ : BufTy).Contents (Elt F) → (⟨S40000x1, .f32⟩ : BufTy).Contents (Elt F) → (⟨S40000x1, .f32⟩ : BufTy).Contents (Elt F)),
    unary main_v252 main_v253 (broadcastInDim S40000x128 ![0, 1] bcast_S40000x1_S40000x128_0_1 : (⟨S40000x1, .f32⟩ : BufTy).Contents (Elt F) → (⟨S40000x128, .f32⟩ : BufTy).Contents (Elt F)),
    binary main_v246 main_v253 main_v254 (Host.divf : (⟨S40000x128, .f32⟩ : BufTy).Contents (Elt F) → (⟨S40000x128, .f32⟩ : BufTy).Contents (Elt F) → (⟨S40000x128, .f32⟩ : BufTy).Contents (Elt F)),
    binary main_v171 main_v254 main_v255 (addf : (⟨S40000x128, .f32⟩ : BufTy).Contents (Elt F) → (⟨S40000x128, .f32⟩ : BufTy).Contents (Elt F) → (⟨S40000x128, .f32⟩ : BufTy).Contents (Elt F)) ]
theorem seg15_sub : (seg15 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub ..⟩
theorem seg15_fresh : (seg15 : List (HloOp τ sig (Elt F))).Forall fun op => op.fresh = ∅ :=
  ⟨rfl, rfl, rfl, rfl, rfl, rfl, rfl, rfl, rfl, rfl, rfl⟩
/-- The buffers those operations write. -/
abbrev seg15_W : List (Ref sig .tc) := [main_v247, main_cst_29, main_v248, main_v249, main_v250, main_cst_30, main_v251, main_v252, main_v253, main_v254, main_v255]
theorem seg15_writes : (seg15 : List (HloOp τ sig (Elt F))).Forall fun op => op.writes ⊆ (seg15_W.map (Proc.devRef (τ := τ) .tc)).toFinset := by
  simp only [List.Forall]; exact ⟨by wr1, by wr1, by wr1, by wr1, by wr1, by wr1, by wr1, by wr1, by wr1, by wr1, by wr1⟩

/-- @main's operations 296 … 305 of 305, in order. -/
abbrev seg16 : List (HloOp τ sig (Elt F)) :=
  [ binary main_v255 main_v255 main_v256 (mulf : (⟨S40000x128, .f32⟩ : BufTy).Contents (Elt F) → (⟨S40000x128, .f32⟩ : BufTy).Contents (Elt F) → (⟨S40000x128, .f32⟩ : BufTy).Contents (Elt F)),
    nullary main_cst_31 (constant S_ .f32 0x00000000#32),
    binary main_v256 main_cst_31 main_v257 ((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)),
    unary main_v257 main_v258 (broadcastInDim S40000x1 ![0] bcast_S40000_S40000x1_0 : (⟨S40000, .f32⟩ : BufTy).Contents (Elt F) → (⟨S40000x1, .f32⟩ : BufTy).Contents (Elt F)),
    unary main_v258 main_v259 (Host.sqrt : (⟨S40000x1, .f32⟩ : BufTy).Contents (Elt F) → (⟨S40000x1, .f32⟩ : BufTy).Contents (Elt F)),
    nullary main_cst_32 (constant S_ .f32 0x2B8CBCCC#32),
    unary main_cst_32 main_v260 (broadcastInDim S40000x1 ![] bcast_S_S40000x1 : (⟨S_, .f32⟩ : BufTy).Contents (Elt F) → (⟨S40000x1, .f32⟩ : BufTy).Contents (Elt F)),
    binary main_v259 main_v260 main_v261 (maximumf : (⟨S40000x1, .f32⟩ : BufTy).Contents (Elt F) → (⟨S40000x1, .f32⟩ : BufTy).Contents (Elt F) → (⟨S40000x1, .f32⟩ : BufTy).Contents (Elt F)),
    unary main_v261 main_v262 (broadcastInDim S40000x128 ![0, 1] bcast_S40000x1_S40000x128_0_1 : (⟨S40000x1, .f32⟩ : BufTy).Contents (Elt F) → (⟨S40000x128, .f32⟩ : BufTy).Contents (Elt F)),
    binary main_v255 main_v262 main_v263 (Host.divf : (⟨S40000x128, .f32⟩ : BufTy).Contents (Elt F) → (⟨S40000x128, .f32⟩ : BufTy).Contents (Elt F) → (⟨S40000x128, .f32⟩ : BufTy).Contents (Elt F)) ]
theorem seg16_sub : (seg16 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem seg16_fresh : (seg16 : List (HloOp τ sig (Elt F))).Forall fun op => op.fresh = ∅ :=
  ⟨rfl, rfl, rfl, rfl, rfl, rfl, rfl, rfl, rfl, rfl⟩
/-- The buffers those operations write. -/
abbrev seg16_W : List (Ref sig .tc) := [main_v256, main_cst_31, main_v257, main_v258, main_v259, main_cst_32, main_v260, main_v261, main_v262, main_v263]
theorem seg16_writes : (seg16 : List (HloOp τ sig (Elt F))).Forall fun op => op.writes ⊆ (seg16_W.map (Proc.devRef (τ := τ) .tc)).toFinset := by
  simp only [List.Forall]; exact ⟨by wr1, by wr1, by wr1, by wr1, by wr1, by wr1, by wr1, by wr1, by wr1, by wr1⟩

/-! ## Each printed window of @main is the run of its lists in order -/

set_option maxRecDepth 8192 in
set_option maxHeartbeats 4000000 in
theorem main_part0_eq (c : Dev nD) : main_part0 (F := F) c = seq (seg0 ++ (seg1)) := rfl

set_option maxRecDepth 8192 in
set_option maxHeartbeats 4000000 in
theorem main_part1_eq (c : Dev nD) : main_part1 (F := F) c = seq (seg2 ++ (seg3 ++ (seg4 ++ (seg5)))) := rfl

set_option maxRecDepth 8192 in
set_option maxHeartbeats 4000000 in
theorem main_part2_eq (c : Dev nD) : main_part2 (F := F) c = seq (seg6 ++ (seg7 ++ (seg8))) := rfl

set_option maxRecDepth 8192 in
set_option maxHeartbeats 4000000 in
theorem main_part3_eq (c : Dev nD) : main_part3 (F := F) c = seq (seg9 ++ (seg10 ++ (seg11 ++ (seg12)))) := rfl

set_option maxRecDepth 8192 in
set_option maxHeartbeats 4000000 in
theorem main_part4_eq (c : Dev nD) : main_part4 (F := F) c = seq (seg13 ++ (seg14 ++ (seg15 ++ (seg16)))) := rfl

end Cert.ReferenceIdeal.RunHand

end
-- ==== Proof.RefRunHand2.lean ====
import proofs.«405917_j13073880449508_1_alg».proof.Proof.RefRead
import proofs.«405917_j13073880449508_1_alg».proof.Proof.RefRunHand1

noncomputable section

namespace Cert.ReferenceIdeal.RunHand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev x0 (V0 : Valuation τ sig (Elt F)) : (⟨S40000x128, .f32⟩ : BufTy).Contents (Elt F) := V0 (Proc.devRef .tc main_arg0)

abbrev x1 (V0 : Valuation τ sig (Elt F)) : (⟨S2x640000, .i32⟩ : BufTy).Contents (Elt F) := V0 (Proc.devRef .tc main_arg1)

abbrev x2 (V0 : Valuation τ sig (Elt F)) : (⟨S3x128x128, .f32⟩ : BufTy).Contents (Elt F) := V0 (Proc.devRef .tc main_arg2)

abbrev x3 (V0 : Valuation τ sig (Elt F)) : (⟨S3x128, .f32⟩ : BufTy).Contents (Elt F) := V0 (Proc.devRef .tc main_arg3)

abbrev x4 (V0 : Valuation τ sig (Elt F)) : (⟨S3x128x128, .f32⟩ : BufTy).Contents (Elt F) := V0 (Proc.devRef .tc main_arg4)

abbrev x5 (V0 : Valuation τ sig (Elt F)) : (⟨S3x128, .f32⟩ : BufTy).Contents (Elt F) := V0 (Proc.devRef .tc main_arg5)

abbrev x6 (V0 : Valuation τ sig (Elt F)) : (⟨S3x128x128, .f32⟩ : BufTy).Contents (Elt F) := V0 (Proc.devRef .tc main_arg6)

abbrev x7 (V0 : Valuation τ sig (Elt F)) : (⟨S3x128, .f32⟩ : BufTy).Contents (Elt F) := V0 (Proc.devRef .tc main_arg7)

abbrev x8 (V0 : Valuation τ sig (Elt F)) : (⟨S3x128x128, .f32⟩ : BufTy).Contents (Elt F) := V0 (Proc.devRef .tc main_arg8)

abbrev x9 (V0 : Valuation τ sig (Elt F)) : (⟨S3x128, .f32⟩ : BufTy).Contents (Elt F) := V0 (Proc.devRef .tc main_arg9)

abbrev x10 (V0 : Valuation τ sig (Elt F)) : (⟨S3x128, .f32⟩ : BufTy).Contents (Elt F) := V0 (Proc.devRef .tc main_arg10)

abbrev at11 {α : Type}
    (f : (⟨S40000x128, .f32⟩ : BufTy).Contents (Elt F) → (⟨S2x640000, .i32⟩ : BufTy).Contents (Elt F) →
      (⟨S3x128x128, .f32⟩ : BufTy).Contents (Elt F) → (⟨S3x128, .f32⟩ : BufTy).Contents (Elt F) →
      (⟨S3x128x128, .f32⟩ : BufTy).Contents (Elt F) → (⟨S3x128, .f32⟩ : BufTy).Contents (Elt F) →
      (⟨S3x128x128, .f32⟩ : BufTy).Contents (Elt F) → (⟨S3x128, .f32⟩ : BufTy).Contents (Elt F) →
      (⟨S3x128x128, .f32⟩ : BufTy).Contents (Elt F) → (⟨S3x128, .f32⟩ : BufTy).Contents (Elt F) →
      (⟨S3x128, .f32⟩ : BufTy).Contents (Elt F) → α)
    (V0 : Valuation τ sig (Elt F)) : α :=
  f (x0 V0) (x1 V0) (x2 V0) (x3 V0) (x4 V0) (x5 V0) (x6 V0) (x7 V0) (x8 V0) (x9 V0) (x10 V0)

abbrev argRefs : List (Ref sig .tc) :=
  [main_arg0, main_arg1, main_arg2, main_arg3, main_arg4, main_arg5, main_arg6, main_arg7, main_arg8, main_arg9, main_arg10]

theorem a0 : main_arg0 ∈ argRefs := by decide
theorem a1 : main_arg1 ∈ argRefs := by decide
theorem a2 : main_arg2 ∈ argRefs := by decide
theorem a3 : main_arg3 ∈ argRefs := by decide
theorem a4 : main_arg4 ∈ argRefs := by decide
theorem a5 : main_arg5 ∈ argRefs := by decide
theorem a6 : main_arg6 ∈ argRefs := by decide
theorem a7 : main_arg7 ∈ argRefs := by decide
theorem a8 : main_arg8 ∈ argRefs := by decide
theorem a9 : main_arg9 ∈ argRefs := by decide
theorem a10 : main_arg10 ∈ argRefs := by decide

variable (V0 : Valuation τ sig (Elt F))

def st0 : Valuation τ sig (Elt F) := V0
theorem st0_arg {r : Ref sig .tc} (_h : r ∈ argRefs) : st0 V0 (no_index (Proc.devRef .tc r)) = V0 (Proc.devRef .tc r) := rfl

def st1 : Valuation τ sig (Elt F) := after seg0 (st0 V0)
theorem st1_keep (r : Ref sig .tc) (h : r ∉ seg0_W) : st1 V0 (Proc.devRef .tc r) = st0 V0 (Proc.devRef .tc r) :=
  after_of_writes_sub seg0 _ seg0_writes h
theorem seg0_args : ∀ r ∈ argRefs, r ∉ seg0_W := by decide
theorem st1_arg {r : Ref sig .tc} (h : r ∈ argRefs) : st1 V0 (no_index (Proc.devRef .tc r)) = V0 (Proc.devRef .tc r) :=
  (st1_keep V0 r (seg0_args r h)).trans (st0_arg V0 h)

set_option maxRecDepth 8192 in
theorem st1_main_v1 : st1 V0 (no_index (Proc.devRef .tc main_v1)) = val_main_v1 (F := F) (x1 V0) := by
  unfold st1; simp only [seg0]; after_results_simp
  simp only [st0_arg V0 a1]; rfl
set_option maxRecDepth 8192 in
theorem st1_main_v3 : st1 V0 (no_index (Proc.devRef .tc main_v3)) = val_main_v3 (F := F) (x1 V0) := by
  unfold st1; simp only [seg0]; after_results_simp
  simp only [st0_arg V0 a1]; rfl
set_option maxRecDepth 8192 in
theorem st1_main_v12 : st1 V0 (no_index (Proc.devRef .tc main_v12)) = val_main_v12 (F := F) (x0 V0) (x2 V0) (x3 V0) := by
  unfold st1; simp only [seg0]; after_results_simp
  simp only [st0_arg V0 a0, st0_arg V0 a2, st0_arg V0 a3]; rfl
set_option maxRecDepth 8192 in
theorem st1_main_v21 : st1 V0 (no_index (Proc.devRef .tc main_v21)) = val_main_v21 (F := F) (x0 V0) (x4 V0) (x5 V0) := by
  unfold st1; simp only [seg0]; after_results_simp
  simp only [st0_arg V0 a0, st0_arg V0 a4, st0_arg V0 a5]; rfl
set_option maxRecDepth 8192 in
theorem st1_main_v30 : st1 V0 (no_index (Proc.devRef .tc main_v30)) = val_main_v30 (F := F) (x0 V0) (x6 V0) (x7 V0) := by
  unfold st1; simp only [seg0]; after_results_simp
  simp only [st0_arg V0 a0, st0_arg V0 a6, st0_arg V0 a7]; rfl

def st2 : Valuation τ sig (Elt F) := after seg1 (st1 V0)
theorem st2_keep (r : Ref sig .tc) (h : r ∉ seg1_W) : st2 V0 (Proc.devRef .tc r) = st1 V0 (Proc.devRef .tc r) :=
  after_of_writes_sub seg1 _ seg1_writes h
theorem seg1_args : ∀ r ∈ argRefs, r ∉ seg1_W := by decide
theorem st2_arg {r : Ref sig .tc} (h : r ∈ argRefs) : st2 V0 (no_index (Proc.devRef .tc r)) = V0 (Proc.devRef .tc r) :=
  (st2_keep V0 r (seg1_args r h)).trans (st1_arg V0 h)
theorem st2_main_v1 : st2 V0 (no_index (Proc.devRef .tc main_v1)) = val_main_v1 (F := F) (x1 V0) :=
  (st2_keep V0 main_v1 (by decide)).trans (st1_main_v1 V0)
theorem st2_main_v3 : st2 V0 (no_index (Proc.devRef .tc main_v3)) = val_main_v3 (F := F) (x1 V0) :=
  (st2_keep V0 main_v3 (by decide)).trans (st1_main_v3 V0)
theorem st2_main_v30 : st2 V0 (no_index (Proc.devRef .tc main_v30)) = val_main_v30 (F := F) (x0 V0) (x6 V0) (x7 V0) :=
  (st2_keep V0 main_v30 (by decide)).trans (st1_main_v30 V0)

set_option maxRecDepth 8192 in
theorem st2_main_v51 :
    st2 V0 (no_index (Proc.devRef .tc main_v51)) = val_main_v51 (F := F) (x0 V0) (x1 V0) (x2 V0) (x3 V0) (x4 V0) (x5 V0) := by
  unfold st2; simp only [seg1]; after_results_simp
  simp only [st1_main_v1 V0, st1_main_v3 V0, st1_main_v12 V0, st1_main_v21 V0]; rfl
set_option maxRecDepth 8192 in
theorem st2_main_v52 : st2 V0 (no_index (Proc.devRef .tc main_v52)) = val_main_v52 (F := F) := by
  unfold st2; simp only [seg1]; after_results_simp
  rfl

def st3 : Valuation τ sig (Elt F) := after seg2 (st2 V0)
theorem st3_keep (r : Ref sig .tc) (h : r ∉ seg2_W) : st3 V0 (Proc.devRef .tc r) = st2 V0 (Proc.devRef .tc r) :=
  after_of_writes_sub seg2 _ seg2_writes h
theorem seg2_args : ∀ r ∈ argRefs, r ∉ seg2_W := by decide
theorem st3_arg {r : Ref sig .tc} (h : r ∈ argRefs) : st3 V0 (no_index (Proc.devRef .tc r)) = V0 (Proc.devRef .tc r) :=
  (st3_keep V0 r (seg2_args r h)).trans (st2_arg V0 h)
theorem st3_main_v1 : st3 V0 (no_index (Proc.devRef .tc main_v1)) = val_main_v1 (F := F) (x1 V0) :=
  (st3_keep V0 main_v1 (by decide)).trans (st2_main_v1 V0)
theorem st3_main_v3 : st3 V0 (no_index (Proc.devRef .tc main_v3)) = val_main_v3 (F := F) (x1 V0) :=
  (st3_keep V0 main_v3 (by decide)).trans (st2_main_v3 V0)

set_option maxRecDepth 8192 in
theorem st3_main_v62 :
    st3 V0 (no_index (Proc.devRef .tc main_v62))
      = val_main_v62 (F := F) (x0 V0) (x1 V0) (x2 V0) (x3 V0) (x4 V0) (x5 V0) (x6 V0) (x7 V0) := by
  unfold st3; simp only [seg2]; after_results_simp
  simp only [st2_main_v1 V0, st2_main_v3 V0, st2_main_v30 V0, st2_main_v51 V0, st2_main_v52 V0]; rfl

def st4 : Valuation τ sig (Elt F) := after seg3 (st3 V0)
theorem st4_keep (r : Ref sig .tc) (h : r ∉ seg3_W) : st4 V0 (Proc.devRef .tc r) = st3 V0 (Proc.devRef .tc r) :=
  after_of_writes_sub seg3 _ seg3_writes h
theorem seg3_args : ∀ r ∈ argRefs, r ∉ seg3_W := by decide
theorem st4_arg {r : Ref sig .tc} (h : r ∈ argRefs) : st4 V0 (no_index (Proc.devRef .tc r)) = V0 (Proc.devRef .tc r) :=
  (st4_keep V0 r (seg3_args r h)).trans (st3_arg V0 h)
theorem st4_main_v1 : st4 V0 (no_index (Proc.devRef .tc main_v1)) = val_main_v1 (F := F) (x1 V0) :=
  (st4_keep V0 main_v1 (by decide)).trans (st3_main_v1 V0)
theorem st4_main_v3 : st4 V0 (no_index (Proc.devRef .tc main_v3)) = val_main_v3 (F := F) (x1 V0) :=
  (st4_keep V0 main_v3 (by decide)).trans (st3_main_v3 V0)

set_option maxRecDepth 8192 in
theorem st4_main_v78 : st4 V0 (no_index (Proc.devRef .tc main_v78)) = at11 (val_main_v78 (F := F)) V0 := by
  unfold st4; simp only [seg3]; after_results_simp
  simp only [st3_main_v62 V0, st3_arg V0 a0, st3_arg V0 a8, st3_arg V0 a9, st3_arg V0 a10, TRef.ofBuf, TRef.toBuf, cast_eq]; rfl

def st5 : Valuation τ sig (Elt F) := after seg4 (st4 V0)
theorem st5_keep (r : Ref sig .tc) (h : r ∉ seg4_W) : st5 V0 (Proc.devRef .tc r) = st4 V0 (Proc.devRef .tc r) :=
  after_of_writes_sub seg4 _ seg4_writes h
theorem seg4_args : ∀ r ∈ argRefs, r ∉ seg4_W := by decide
theorem st5_arg {r : Ref sig .tc} (h : r ∈ argRefs) : st5 V0 (no_index (Proc.devRef .tc r)) = V0 (Proc.devRef .tc r) :=
  (st5_keep V0 r (seg4_args r h)).trans (st4_arg V0 h)
theorem st5_main_v1 : st5 V0 (no_index (Proc.devRef .tc main_v1)) = val_main_v1 (F := F) (x1 V0) :=
  (st5_keep V0 main_v1 (by decide)).trans (st4_main_v1 V0)
theorem st5_main_v3 : st5 V0 (no_index (Proc.devRef .tc main_v3)) = val_main_v3 (F := F) (x1 V0) :=
  (st5_keep V0 main_v3 (by decide)).trans (st4_main_v3 V0)

set_option maxRecDepth 8192 in
theorem st5_main_v87 : st5 V0 (no_index (Proc.devRef .tc main_v87)) = at11 (val_main_v87 (F := F)) V0 := by
  unfold st5; simp only [seg4]; after_results_simp
  simp only [st4_main_v78 V0, st4_arg V0 a0]; rfl

def st6 : Valuation τ sig (Elt F) := after seg5 (st5 V0)
theorem st6_keep (r : Ref sig .tc) (h : r ∉ seg5_W) : st6 V0 (Proc.devRef .tc r) = st5 V0 (Proc.devRef .tc r) :=
  after_of_writes_sub seg5 _ seg5_writes h
theorem seg5_args : ∀ r ∈ argRefs, r ∉ seg5_W := by decide
theorem st6_arg {r : Ref sig .tc} (h : r ∈ argRefs) : st6 V0 (no_index (Proc.devRef .tc r)) = V0 (Proc.devRef .tc r) :=
  (st6_keep V0 r (seg5_args r h)).trans (st5_arg V0 h)
theorem st6_main_v1 : st6 V0 (no_index (Proc.devRef .tc main_v1)) = val_main_v1 (F := F) (x1 V0) :=
  (st6_keep V0 main_v1 (by decide)).trans (st5_main_v1 V0)
theorem st6_main_v3 : st6 V0 (no_index (Proc.devRef .tc main_v3)) = val_main_v3 (F := F) (x1 V0) :=
  (st6_keep V0 main_v3 (by decide)).trans (st5_main_v3 V0)
theorem st6_main_v87 : st6 V0 (no_index (Proc.devRef .tc main_v87)) = at11 (val_main_v87 (F := F)) V0 :=
  (st6_keep V0 main_v87 (by decide)).trans (st5_main_v87 V0)

set_option maxRecDepth 8192 in
theorem st6_main_v96 : st6 V0 (no_index (Proc.devRef .tc main_v96)) = at11 (val_main_v96 (F := F)) V0 := by
  unfold st6; simp only [seg5]; after_results_simp
  simp only [st5_main_v87 V0, st5_arg V0 a2, st5_arg V0 a3]; rfl
set_option maxRecDepth 8192 in
theorem st6_main_v105 : st6 V0 (no_index (Proc.devRef .tc main_v105)) = at11 (val_main_v105 (F := F)) V0 := by
  unfold st6; simp only [seg5]; after_results_simp
  simp only [st5_main_v87 V0, st5_arg V0 a4, st5_arg V0 a5]; rfl
set_option maxRecDepth 8192 in
theorem st6_main_v108 : st6 V0 (no_index (Proc.devRef .tc main_v108)) = val_main_v108 (F := F) (x6 V0) := by
  unfold st6; simp only [seg5]; after_results_simp
  simp only [st5_arg V0 a6]; rfl

def st7 : Valuation τ sig (Elt F) := after seg6 (st6 V0)
theorem st7_keep (r : Ref sig .tc) (h : r ∉ seg6_W) : st7 V0 (Proc.devRef .tc r) = st6 V0 (Proc.devRef .tc r) :=
  after_of_writes_sub seg6 _ seg6_writes h
theorem seg6_args : ∀ r ∈ argRefs, r ∉ seg6_W := by decide
theorem st7_arg {r : Ref sig .tc} (h : r ∈ argRefs) : st7 V0 (no_index (Proc.devRef .tc r)) = V0 (Proc.devRef .tc r) :=
  (st7_keep V0 r (seg6_args r h)).trans (st6_arg V0 h)
theorem st7_main_v1 : st7 V0 (no_index (Proc.devRef .tc main_v1)) = val_main_v1 (F := F) (x1 V0) :=
  (st7_keep V0 main_v1 (by decide)).trans (st6_main_v1 V0)
theorem st7_main_v3 : st7 V0 (no_index (Proc.devRef .tc main_v3)) = val_main_v3 (F := F) (x1 V0) :=
  (st7_keep V0 main_v3 (by decide)).trans (st6_main_v3 V0)
theorem st7_main_v87 : st7 V0 (no_index (Proc.devRef .tc main_v87)) = at11 (val_main_v87 (F := F)) V0 :=
  (st7_keep V0 main_v87 (by decide)).trans (st6_main_v87 V0)
theorem st7_main_v96 : st7 V0 (no_index (Proc.devRef .tc main_v96)) = at11 (val_main_v96 (F := F)) V0 :=
  (st7_keep V0 main_v96 (by decide)).trans (st6_main_v96 V0)
theorem st7_main_v105 : st7 V0 (no_index (Proc.devRef .tc main_v105)) = at11 (val_main_v105 (F := F)) V0 :=
  (st7_keep V0 main_v105 (by decide)).trans (st6_main_v105 V0)

set_option maxRecDepth 8192 in
theorem st7_main_v114 : st7 V0 (no_index (Proc.devRef .tc main_v114)) = at11 (val_main_v114 (F := F)) V0 := by
  unfold st7; simp only [seg6]; after_results_simp
  simp only [st6_main_v87 V0, st6_main_v108 V0, st6_arg V0 a7]; rfl

def st8 : Valuation τ sig (Elt F) := after seg7 (st7 V0)
theorem st8_keep (r : Ref sig .tc) (h : r ∉ seg7_W) : st8 V0 (Proc.devRef .tc r) = st7 V0 (Proc.devRef .tc r) :=
  after_of_writes_sub seg7 _ seg7_writes h
theorem seg7_args : ∀ r ∈ argRefs, r ∉ seg7_W := by decide
theorem st8_arg {r : Ref sig .tc} (h : r ∈ argRefs) : st8 V0 (no_index (Proc.devRef .tc r)) = V0 (Proc.devRef .tc r) :=
  (st8_keep V0 r (seg7_args r h)).trans (st7_arg V0 h)
theorem st8_main_v1 : st8 V0 (no_index (Proc.devRef .tc main_v1)) = val_main_v1 (F := F) (x1 V0) :=
  (st8_keep V0 main_v1 (by decide)).trans (st7_main_v1 V0)
theorem st8_main_v3 : st8 V0 (no_index (Proc.devRef .tc main_v3)) = val_main_v3 (F := F) (x1 V0) :=
  (st8_keep V0 main_v3 (by decide)).trans (st7_main_v3 V0)
theorem st8_main_v87 : st8 V0 (no_index (Proc.devRef .tc main_v87)) = at11 (val_main_v87 (F := F)) V0 :=
  (st8_keep V0 main_v87 (by decide)).trans (st7_main_v87 V0)

set_option maxRecDepth 8192 in
set_option maxHeartbeats 2000000 in
theorem st8_main_v146 : st8 V0 (no_index (Proc.devRef .tc main_v146)) = at11 (val_main_v146 (F := F)) V0 := by
  unfold st8; simp only [seg7]; after_results_simp
  simp only [st7_main_v1 V0, st7_main_v3 V0, st7_main_v96 V0, st7_main_v105 V0, st7_main_v114 V0]; rfl

end Cert.ReferenceIdeal.RunHand

end
-- ==== Proof.RefRunHand3.lean ====
import proofs.«405917_j13073880449508_1_alg».proof.Proof.RefRunHand2

noncomputable section

namespace Cert.ReferenceIdeal.RunHand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (V0 : Valuation τ sig (Elt F))

def st9 : Valuation τ sig (Elt F) := after seg8 (st8 V0)
theorem st9_keep (r : Ref sig .tc) (h : r ∉ seg8_W) : st9 V0 (Proc.devRef .tc r) = st8 V0 (Proc.devRef .tc r) :=
  after_of_writes_sub seg8 _ seg8_writes h
theorem seg8_args : ∀ r ∈ argRefs, r ∉ seg8_W := by decide
theorem st9_arg {r : Ref sig .tc} (h : r ∈ argRefs) : st9 V0 (no_index (Proc.devRef .tc r)) = V0 (Proc.devRef .tc r) :=
  (st9_keep V0 r (seg8_args r h)).trans (st8_arg V0 h)
theorem st9_main_v1 : st9 V0 (no_index (Proc.devRef .tc main_v1)) = val_main_v1 (F := F) (x1 V0) :=
  (st9_keep V0 main_v1 (by decide)).trans (st8_main_v1 V0)
theorem st9_main_v3 : st9 V0 (no_index (Proc.devRef .tc main_v3)) = val_main_v3 (F := F) (x1 V0) :=
  (st9_keep V0 main_v3 (by decide)).trans (st8_main_v3 V0)
theorem st9_main_v87 : st9 V0 (no_index (Proc.devRef .tc main_v87)) = at11 (val_main_v87 (F := F)) V0 :=
  (st9_keep V0 main_v87 (by decide)).trans (st8_main_v87 V0)

set_option maxRecDepth 8192 in
theorem st9_main_v156 : st9 V0 (no_index (Proc.devRef .tc main_v156)) = at11 (val_main_v156 (F := F)) V0 := by
  unfold st9; simp only [seg8]; after_results_simp
  simp only [st8_main_v87 V0, st8_main_v146 V0, st8_arg V0 a8, st8_arg V0 a9]; rfl
set_option maxRecDepth 8192 in
theorem st9_main_v159 : st9 V0 (no_index (Proc.devRef .tc main_v159)) = val_main_v159 (F := F) (x10 V0) := by
  unfold st9; simp only [seg8]; after_results_simp
  simp only [st8_arg V0 a10]; rfl

def st10 : Valuation τ sig (Elt F) := after seg9 (st9 V0)
theorem st10_keep (r : Ref sig .tc) (h : r ∉ seg9_W) : st10 V0 (Proc.devRef .tc r) = st9 V0 (Proc.devRef .tc r) :=
  after_of_writes_sub seg9 _ seg9_writes h
theorem seg9_args : ∀ r ∈ argRefs, r ∉ seg9_W := by decide
theorem st10_arg {r : Ref sig .tc} (h : r ∈ argRefs) : st10 V0 (no_index (Proc.devRef .tc r)) = V0 (Proc.devRef .tc r) :=
  (st10_keep V0 r (seg9_args r h)).trans (st9_arg V0 h)
theorem st10_main_v1 : st10 V0 (no_index (Proc.devRef .tc main_v1)) = val_main_v1 (F := F) (x1 V0) :=
  (st10_keep V0 main_v1 (by decide)).trans (st9_main_v1 V0)
theorem st10_main_v3 : st10 V0 (no_index (Proc.devRef .tc main_v3)) = val_main_v3 (F := F) (x1 V0) :=
  (st10_keep V0 main_v3 (by decide)).trans (st9_main_v3 V0)
theorem st10_main_v87 : st10 V0 (no_index (Proc.devRef .tc main_v87)) = at11 (val_main_v87 (F := F)) V0 :=
  (st10_keep V0 main_v87 (by decide)).trans (st9_main_v87 V0)

set_option maxRecDepth 8192 in
theorem st10_main_v162 : st10 V0 (no_index (Proc.devRef .tc main_v162)) = at11 (val_main_v162 (F := F)) V0 := by
  unfold st10; simp only [seg9]; after_results_simp
  simp only [st9_main_v156 V0, st9_main_v159 V0, TRef.ofBuf, TRef.toBuf, cast_eq]; rfl

def st11 : Valuation τ sig (Elt F) := after seg10 (st10 V0)
theorem st11_keep (r : Ref sig .tc) (h : r ∉ seg10_W) : st11 V0 (Proc.devRef .tc r) = st10 V0 (Proc.devRef .tc r) :=
  after_of_writes_sub seg10 _ seg10_writes h
theorem seg10_args : ∀ r ∈ argRefs, r ∉ seg10_W := by decide
theorem st11_arg {r : Ref sig .tc} (h : r ∈ argRefs) : st11 V0 (no_index (Proc.devRef .tc r)) = V0 (Proc.devRef .tc r) :=
  (st11_keep V0 r (seg10_args r h)).trans (st10_arg V0 h)
theorem st11_main_v1 : st11 V0 (no_index (Proc.devRef .tc main_v1)) = val_main_v1 (F := F) (x1 V0) :=
  (st11_keep V0 main_v1 (by decide)).trans (st10_main_v1 V0)
theorem st11_main_v3 : st11 V0 (no_index (Proc.devRef .tc main_v3)) = val_main_v3 (F := F) (x1 V0) :=
  (st11_keep V0 main_v3 (by decide)).trans (st10_main_v3 V0)

set_option maxRecDepth 8192 in
theorem st11_main_v171 : st11 V0 (no_index (Proc.devRef .tc main_v171)) = at11 (val_main_v171 (F := F)) V0 := by
  unfold st11; simp only [seg10]; after_results_simp
  simp only [st10_main_v87 V0, st10_main_v162 V0]; rfl

def st12 : Valuation τ sig (Elt F) := after seg11 (st11 V0)
theorem st12_keep (r : Ref sig .tc) (h : r ∉ seg11_W) : st12 V0 (Proc.devRef .tc r) = st11 V0 (Proc.devRef .tc r) :=
  after_of_writes_sub seg11 _ seg11_writes h
theorem seg11_args : ∀ r ∈ argRefs, r ∉ seg11_W := by decide
theorem st12_arg {r : Ref sig .tc} (h : r ∈ argRefs) : st12 V0 (no_index (Proc.devRef .tc r)) = V0 (Proc.devRef .tc r) :=
  (st12_keep V0 r (seg11_args r h)).trans (st11_arg V0 h)
theorem st12_main_v1 : st12 V0 (no_index (Proc.devRef .tc main_v1)) = val_main_v1 (F := F) (x1 V0) :=
  (st12_keep V0 main_v1 (by decide)).trans (st11_main_v1 V0)
theorem st12_main_v3 : st12 V0 (no_index (Proc.devRef .tc main_v3)) = val_main_v3 (F := F) (x1 V0) :=
  (st12_keep V0 main_v3 (by decide)).trans (st11_main_v3 V0)
theorem st12_main_v171 : st12 V0 (no_index (Proc.devRef .tc main_v171)) = at11 (val_main_v171 (F := F)) V0 :=
  (st12_keep V0 main_v171 (by decide)).trans (st11_main_v171 V0)

set_option maxRecDepth 8192 in
theorem st12_main_v180 : st12 V0 (no_index (Proc.devRef .tc main_v180)) = at11 (val_main_v180 (F := F)) V0 := by
  unfold st12; simp only [seg11]; after_results_simp
  simp only [st11_main_v171 V0, st11_arg V0 a2, st11_arg V0 a3]; rfl
set_option maxRecDepth 8192 in
theorem st12_main_v189 : st12 V0 (no_index (Proc.devRef .tc main_v189)) = at11 (val_main_v189 (F := F)) V0 := by
  unfold st12; simp only [seg11]; after_results_simp
  simp only [st11_main_v171 V0, st11_arg V0 a4, st11_arg V0 a5]; rfl
set_option maxRecDepth 8192 in
theorem st12_main_v198 : st12 V0 (no_index (Proc.devRef .tc main_v198)) = at11 (val_main_v198 (F := F)) V0 := by
  unfold st12; simp only [seg11]; after_results_simp
  simp only [st11_main_v171 V0, st11_arg V0 a6, st11_arg V0 a7]; rfl

def st13 : Valuation τ sig (Elt F) := after seg12 (st12 V0)
theorem st13_keep (r : Ref sig .tc) (h : r ∉ seg12_W) : st13 V0 (Proc.devRef .tc r) = st12 V0 (Proc.devRef .tc r) :=
  after_of_writes_sub seg12 _ seg12_writes h
theorem seg12_args : ∀ r ∈ argRefs, r ∉ seg12_W := by decide
theorem st13_arg {r : Ref sig .tc} (h : r ∈ argRefs) : st13 V0 (no_index (Proc.devRef .tc r)) = V0 (Proc.devRef .tc r) :=
  (st13_keep V0 r (seg12_args r h)).trans (st12_arg V0 h)
theorem st13_main_v1 : st13 V0 (no_index (Proc.devRef .tc main_v1)) = val_main_v1 (F := F) (x1 V0) :=
  (st13_keep V0 main_v1 (by decide)).trans (st12_main_v1 V0)
theorem st13_main_v3 : st13 V0 (no_index (Proc.devRef .tc main_v3)) = val_main_v3 (F := F) (x1 V0) :=
  (st13_keep V0 main_v3 (by decide)).trans (st12_main_v3 V0)
theorem st13_main_v171 : st13 V0 (no_index (Proc.devRef .tc main_v171)) = at11 (val_main_v171 (F := F)) V0 :=
  (st13_keep V0 main_v171 (by decide)).trans (st12_main_v171 V0)
theorem st13_main_v198 : st13 V0 (no_index (Proc.devRef .tc main_v198)) = at11 (val_main_v198 (F := F)) V0 :=
  (st13_keep V0 main_v198 (by decide)).trans (st12_main_v198 V0)

set_option maxRecDepth 8192 in
theorem st13_main_v213 : st13 V0 (no_index (Proc.devRef .tc main_v213)) = at11 (val_main_v213 (F := F)) V0 := by
  unfold st13; simp only [seg12]; after_results_simp
  simp only [st12_main_v1 V0, st12_main_v3 V0, st12_main_v180 V0, st12_main_v189 V0]; rfl

def st14 : Valuation τ sig (Elt F) := after seg13 (st13 V0)
theorem st14_keep (r : Ref sig .tc) (h : r ∉ seg13_W) : st14 V0 (Proc.devRef .tc r) = st13 V0 (Proc.devRef .tc r) :=
  after_of_writes_sub seg13 _ seg13_writes h
theorem seg13_args : ∀ r ∈ argRefs, r ∉ seg13_W := by decide
theorem st14_arg {r : Ref sig .tc} (h : r ∈ argRefs) : st14 V0 (no_index (Proc.devRef .tc r)) = V0 (Proc.devRef .tc r) :=
  (st14_keep V0 r (seg13_args r h)).trans (st13_arg V0 h)
theorem st14_main_v171 : st14 V0 (no_index (Proc.devRef .tc main_v171)) = at11 (val_main_v171 (F := F)) V0 :=
  (st14_keep V0 main_v171 (by decide)).trans (st13_main_v171 V0)

set_option maxRecDepth 8192 in
theorem st14_main_v230 : st14 V0 (no_index (Proc.devRef .tc main_v230)) = at11 (val_main_v230 (F := F)) V0 := by
  unfold st14; simp only [seg13]; after_results_simp
  simp only [st13_main_v1 V0, st13_main_v3 V0, st13_main_v198 V0, st13_main_v213 V0]; rfl

def st15 : Valuation τ sig (Elt F) := after seg14 (st14 V0)
theorem st15_keep (r : Ref sig .tc) (h : r ∉ seg14_W) : st15 V0 (Proc.devRef .tc r) = st14 V0 (Proc.devRef .tc r) :=
  after_of_writes_sub seg14 _ seg14_writes h
theorem seg14_args : ∀ r ∈ argRefs, r ∉ seg14_W := by decide
theorem st15_arg {r : Ref sig .tc} (h : r ∈ argRefs) : st15 V0 (no_index (Proc.devRef .tc r)) = V0 (Proc.devRef .tc r) :=
  (st15_keep V0 r (seg14_args r h)).trans (st14_arg V0 h)
theorem st15_main_v171 : st15 V0 (no_index (Proc.devRef .tc main_v171)) = at11 (val_main_v171 (F := F)) V0 :=
  (st15_keep V0 main_v171 (by decide)).trans (st14_main_v171 V0)

set_option maxRecDepth 8192 in
theorem st15_main_v246 : st15 V0 (no_index (Proc.devRef .tc main_v246)) = at11 (val_main_v246 (F := F)) V0 := by
  unfold st15; simp only [seg14]; after_results_simp
  simp only [st14_main_v171 V0, st14_main_v230 V0, st14_arg V0 a8, st14_arg V0 a9, st14_arg V0 a10, TRef.ofBuf, TRef.toBuf, cast_eq]; rfl

def st16 : Valuation τ sig (Elt F) := after seg15 (st15 V0)
theorem st16_keep (r : Ref sig .tc) (h : r ∉ seg15_W) : st16 V0 (Proc.devRef .tc r) = st15 V0 (Proc.devRef .tc r) :=
  after_of_writes_sub seg15 _ seg15_writes h
theorem seg15_args : ∀ r ∈ argRefs, r ∉ seg15_W := by decide
theorem st16_arg {r : Ref sig .tc} (h : r ∈ argRefs) : st16 V0 (no_index (Proc.devRef .tc r)) = V0 (Proc.devRef .tc r) :=
  (st16_keep V0 r (seg15_args r h)).trans (st15_arg V0 h)

set_option maxRecDepth 8192 in
theorem st16_main_v255 : st16 V0 (no_index (Proc.devRef .tc main_v255)) = at11 (val_main_v255 (F := F)) V0 := by
  unfold st16; simp only [seg15]; after_results_simp
  simp only [st15_main_v171 V0, st15_main_v246 V0]; rfl

def st17 : Valuation τ sig (Elt F) := after seg16 (st16 V0)
theorem st17_keep (r : Ref sig .tc) (h : r ∉ seg16_W) : st17 V0 (Proc.devRef .tc r) = st16 V0 (Proc.devRef .tc r) :=
  after_of_writes_sub seg16 _ seg16_writes h
theorem seg16_args : ∀ r ∈ argRefs, r ∉ seg16_W := by decide
theorem st17_arg {r : Ref sig .tc} (h : r ∈ argRefs) : st17 V0 (no_index (Proc.devRef .tc r)) = V0 (Proc.devRef .tc r) :=
  (st17_keep V0 r (seg16_args r h)).trans (st16_arg V0 h)

set_option maxRecDepth 8192 in
theorem st17_main_v263 : st17 V0 (no_index (Proc.devRef .tc main_v263)) = at11 (val_main_v263 (F := F)) V0 := by
  unfold st17; simp only [seg16]; after_results_simp
  simp only [st16_main_v255 V0]; rfl

end Cert.ReferenceIdeal.RunHand

end
-- ==== Proof.RefRunHand.lean ====
import proofs.«405917_j13073880449508_1_alg».proof.Proof.RefRunHand3

noncomputable section

namespace Cert.ReferenceIdeal.RunHand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev win0 : List (HloOp τ sig (Elt F)) := seg0 ++ seg1

abbrev win1 : List (HloOp τ sig (Elt F)) := seg2 ++ (seg3 ++ (seg4 ++ seg5))

abbrev win2 : List (HloOp τ sig (Elt F)) := seg6 ++ (seg7 ++ seg8)

abbrev win3 : List (HloOp τ sig (Elt F)) := seg9 ++ (seg10 ++ (seg11 ++ seg12))

abbrev win4 : List (HloOp τ sig (Elt F)) := seg13 ++ (seg14 ++ (seg15 ++ seg16))

abbrev ops : List (HloOp τ sig (Elt F)) := win0 ++ (win1 ++ (win2 ++ (win3 ++ win4)))

theorem main_eq (c : Dev nD) : main (F := F) c = seq ops := by
  show main (F := F) c = seq (win0 ++ (win1 ++ (win2 ++ (win3 ++ win4))))
  rw [seq_append win0, seq_append win1, seq_append win2, seq_append win3,
    ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, win0, win1, win2, win3, win4, List.forall_append]
  exact ⟨⟨seg0_sub, seg1_sub⟩, ⟨seg2_sub, seg3_sub, seg4_sub, seg5_sub⟩, ⟨seg6_sub, seg7_sub, seg8_sub⟩,
    ⟨seg9_sub, seg10_sub, seg11_sub, seg12_sub⟩, seg13_sub, seg14_sub, seg15_sub, seg16_sub⟩

theorem ops_fresh : (ops : List (HloOp τ sig (Elt F))).Forall fun op => op.fresh = ∅ := by
  simp only [ops, win0, win1, win2, win3, win4, List.forall_append]
  exact ⟨⟨seg0_fresh, seg1_fresh⟩, ⟨seg2_fresh, seg3_fresh, seg4_fresh, seg5_fresh⟩, ⟨seg6_fresh, seg7_fresh, seg8_fresh⟩,
    ⟨seg9_fresh, seg10_fresh, seg11_fresh, seg12_fresh⟩, seg13_fresh, seg14_fresh, seg15_fresh, seg16_fresh⟩

theorem after_ops (V0 : Valuation τ sig (Elt F)) : after ops V0 = st17 V0 := by
  simp only [ops, win0, win1, win2, win3, win4, after_append]
  rfl

theorem after_ops_arg (V0 : Valuation τ sig (Elt F)) {r : Ref sig .tc} (h : r ∈ argRefs) :
    after ops V0 (Proc.devRef .tc r) = V0 (Proc.devRef .tc r) := by
  rw [after_ops]; exact st17_arg V0 h

theorem after_ops_main_v263 (V0 : Valuation τ sig (Elt F)) :
    after ops V0 (Proc.devRef .tc main_v263) = at11 (val_main_v263 (F := F)) V0 := by
  rw [after_ops]; exact st17_main_v263 V0

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v263)
        = val_main_v263 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c main_v263).trans (after_ops_main_v263 (launchContents m c)),
        (h c main_arg0).trans (after_ops_arg (launchContents m c) a0),
        (h c main_arg1).trans (after_ops_arg (launchContents m c) a1),
        (h c main_arg2).trans (after_ops_arg (launchContents m c) a2),
        (h c main_arg3).trans (after_ops_arg (launchContents m c) a3),
        (h c main_arg4).trans (after_ops_arg (launchContents m c) a4),
        (h c main_arg5).trans (after_ops_arg (launchContents m c) a5),
        (h c main_arg6).trans (after_ops_arg (launchContents m c) a6),
        (h c main_arg7).trans (after_ops_arg (launchContents m c) a7),
        (h c main_arg8).trans (after_ops_arg (launchContents m c) a8),
        (h c main_arg9).trans (after_ops_arg (launchContents m c) a9),
        (h c main_arg10).trans (after_ops_arg (launchContents m c) a10)⟩)
    (run_seq scopedRefs_eq scopedSems_eq defs main (fun _ => ops) main_eq (fun _ => ops_sub) m ρ
      (fun _ => List.forall_iff_forall_mem.mp ops_fresh))

end Cert.ReferenceIdeal.RunHand

end
-- ==== Proof.lean ====
import proofs.«405917_j13073880449508_1_alg».proof.Defs
import proofs.«405917_j13073880449508_1_alg».proof.Proof.Gen.Kernel
import proofs.«405917_j13073880449508_1_alg».proof.Proof.Gen.KernelIdeal
import proofs.«405917_j13073880449508_1_alg».proof.Proof.Gen.ReferenceIdeal
import proofs.«405917_j13073880449508_1_alg».proof.Proof.Gen.Pre_finite_inputs
import proofs.«405917_j13073880449508_1_alg».proof.Proof.K.Run
import proofs.«405917_j13073880449508_1_alg».proof.Proof.KI.Run
import proofs.«405917_j13073880449508_1_alg».proof.Proof.KI.Val0
import proofs.«405917_j13073880449508_1_alg».proof.Proof.KI.Val1
import proofs.«405917_j13073880449508_1_alg».proof.Proof.KI.Val2
import proofs.«405917_j13073880449508_1_alg».proof.Proof.KI.Val3
import proofs.«405917_j13073880449508_1_alg».proof.Proof.KI.Val4
import proofs.«405917_j13073880449508_1_alg».proof.Proof.KI.Val5
import proofs.«405917_j13073880449508_1_alg».proof.Proof.KI.Val6
import proofs.«405917_j13073880449508_1_alg».proof.Proof.KI.Val7
import proofs.«405917_j13073880449508_1_alg».proof.Proof.KI.Val8
import proofs.«405917_j13073880449508_1_alg».proof.Proof.KI.Val9
import proofs.«405917_j13073880449508_1_alg».proof.Proof.Chain
import proofs.«405917_j13073880449508_1_alg».proof.Proof.PreIdx
import proofs.«405917_j13073880449508_1_alg».proof.Proof.RefRead
import proofs.«405917_j13073880449508_1_alg».proof.Proof.RefRunHand
import Idealize.ShloMosaic.Adequacy
import Idealize.ShloMosaic.Init

noncomputable section

namespace Cert.Proof

open Idealize.ShloMosaic Idealize.SL.Sem

section Value
open Idealize.ShloMosaic.TcCoe Cert.KernelIdeal Cert.KernelIdeal.Gen Cert.KernelIdeal.Hand

-- Region by region the closed forms chain through the reference's stages; under 0 ≤ edge_index < 40000 a masked row lookup and a clamped one read the same row.
theorem value_eq (m : (ℓ : Loc nD τ sig) → Buf (Elt Ideal) ℓ) (hpre : Cert.Pre_KernelIdeal m) (c : Dev nD) :
    outs m 28 main_v118 c
      = Cert.ReferenceIdeal.Read.val_main_v263 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  Cert.Chain.chain m (outs m) c (Cert.PreIdx.range_of_pre m hpre c)
    ((outs_eq0 m c).trans (arrAt0 _ c)) ((outs_eq1 m c).trans (arrAt1 _ c)) ((outs_eq2 m c).trans (arrAt2 _ c))
    ((outs_eq3 m c).trans (arrAt3 _ c)) ((outs_eq4 m c).trans (arrAt4 _ c)) ((outs_eq5 m c).trans (arrAt5 _ c))
    ((outs_eq6 m c).trans (arrAt6 _ c)) ((outs_eq7 m c).trans (arrAt7 _ c)) ((outs_eq8 m c).trans (arrAt8 _ c))
    ((outs_eq9 m c).trans (arrAt9 _ c))

end Value

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.RunHand.run (F := Ideal) m ρ)

theorem algebraic : Cert.algebraic_KernelIdeal_ReferenceIdeal := by
  intro m ρ m' ρ' hpre hagree
  refine ⟨fun c => Cert.KernelIdeal.Hand.outs m 28 Cert.KernelIdeal.main_v118 c, Cert.KernelIdeal.Hand.run_result m ρ, ?_⟩
  refine (θ_run Cert.ReferenceIdeal.defs _ _).mono (fun _ h c => ⟨(h c).1.trans ?_, (h c).2⟩)
    (Cert.ReferenceIdeal.RunHand.run (F := Ideal) m' ρ')
  obtain ⟨h0, h1, h2, h3, h4, h5, h6, h7, h8, h9, h10⟩ := hagree c
  rw [h0, h1, h2, h3, h4, h5, h6, h7, h8, h9, h10]
  exact (value_eq m hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
